-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2x128x512 : Shape := ⟨3, ![2, 128, 512]⟩
abbrev S512x512 : Shape := ⟨2, ![512, 512]⟩
abbrev S2x128x256x64 : Shape := ⟨4, ![2, 128, 256, 64]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S2x128x256x64 : S_.BroadcastsInDim S2x128x256x64 (![] : Fin 0 → Fin S2x128x256x64.rank)
  reducesTo_S2x128x256x64_S_d0_1_2_3 : S2x128x256x64.ReducesTo [0, 1, 2, 3] S_

variable [Facts]

def fn_part1 {F : FTy → Type} [FloatOps F] (main_arg4 : FVec F S2x128x256x64 .f32) (main_v13 : IVec S_ 1) (main_v16 : IVec S2x128x256x64 1) : IVec S_ 1 :=
  let main_c_5 : IVec S_ 1 := constantI S_ 1 1#1
  let main_v17 : IVec S_ 1 := (fun x v => Host.reduce IntOp.andi x v reducesTo_S2x128x256x64_S_d0_1_2_3 h_S_) main_v16 main_c_5
  let main_v18 : IVec S_ 1 := andi main_v13 main_v17
  let main_v19 : FVec F S2x128x256x64 .f32 := Host.absf main_arg4
  let main_cst_6 : FVec F S_ .f32 := constant S_ .f32 0x7F800000#32
  let main_v20 : FVec F S2x128x256x64 .f32 := broadcastInDim S2x128x256x64 ![] bcast_S_S2x128x256x64 main_cst_6
  let main_v21 : IVec S2x128x256x64 1 := cmpf .olt main_v19 main_v20
  let main_c_7 : IVec S_ 1 := constantI S_ 1 1#1
  let main_v22 : IVec S_ 1 := (fun x v => Host.reduce IntOp.andi x v reducesTo_S2x128x256x64_S_d0_1_2_3 h_S_) main_v21 main_c_7
  let main_v23 : IVec S_ 1 := andi main_v18 main_v22
  main_v23

def fn {F : FTy → Type} [FloatOps F] (main_arg0 : FVec F S2x128x512 .f32) (main_arg1 : FVec F S512x512 .f32) (main_arg2 : FVec F S512x512 .f32) (main_arg3 : FVec F S2x128x256x64 .f32) (main_arg4 : FVec F S2x128x256x64 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S2x128x256x64 .f32 := Host.absf main_arg3
  let main_cst_4 : FVec F S_ .f32 := constant S_ .f32 0x7F800000#32
  let main_v15 : FVec F S2x128x256x64 .f32 := broadcastInDim S2x128x256x64 ![] bcast_S_S2x128x256x64 main_cst_4
  let main_v16 : IVec S2x128x256x64 1 := cmpf .olt main_v14 main_v15
  fn_part1 (F := F) main_arg4 main_v13 main_v16
-- ==== Pre_finite_inputs_ReferenceIdeal.lean ====
abbrev S2x128x512 : Shape := ⟨3, ![2, 128, 512]⟩
abbrev S512x16384 : Shape := ⟨2, ![512, 16384]⟩
abbrev S16384x512 : Shape := ⟨2, ![16384, 512]⟩
abbrev S2x128x256x64 : Shape := ⟨4, ![2, 128, 256, 64]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x16384 : S_.BroadcastsInDim S512x16384 (![] : Fin 0 → Fin S512x16384.rank)
  reducesTo_S512x16384_S_d0_1 : S512x16384.ReducesTo [0, 1] S_
  bcast_S_S16384x512 : S_.BroadcastsInDim S16384x512 (![] : Fin 0 → Fin S16384x512.rank)
  reducesTo_S16384x512_S_d0_1 : S16384x512.ReducesTo [0, 1] S_
  bcast_S_S2x128x256x64 : S_.BroadcastsInDim S2x128x256x64 (![] : Fin 0 → Fin S2x128x256x64.rank)
  reducesTo_S2x128x256x64_S_d0_1_2_3 : S2x128x256x64.ReducesTo [0, 1, 2, 3] S_

variable [Facts]

def fn_part1 {F : FTy → Type} [FloatOps F] (main_arg4 : FVec F S2x128x256x64 .f32) (main_v13 : IVec S_ 1) (main_v16 : IVec S2x128x256x64 1) : IVec S_ 1 :=
  let main_c_5 : IVec S_ 1 := constantI S_ 1 1#1
  let main_v17 : IVec S_ 1 := (fun x v => Host.reduce IntOp.andi x v reducesTo_S2x128x256x64_S_d0_1_2_3 h_S_) main_v16 main_c_5
  let main_v18 : IVec S_ 1 := andi main_v13 main_v17
  let main_v19 : FVec F S2x128x256x64 .f32 := Host.absf main_arg4
  let main_cst_6 : FVec F S_ .f32 := constant S_ .f32 0x7F800000#32
  let main_v20 : FVec F S2x128x256x64 .f32 := broadcastInDim S2x128x256x64 ![] bcast_S_S2x128x256x64 main_cst_6
  let main_v21 : IVec S2x128x256x64 1 := cmpf .olt main_v19 main_v20
  let main_c_7 : IVec S_ 1 := constantI S_ 1 1#1
  let main_v22 : IVec S_ 1 := (fun x v => Host.reduce IntOp.andi x v reducesTo_S2x128x256x64_S_d0_1_2_3 h_S_) main_v21 main_c_7
  let main_v23 : IVec S_ 1 := andi main_v18 main_v22
  main_v23

def fn {F : FTy → Type} [FloatOps F] (main_arg0 : FVec F S2x128x512 .f32) (main_arg1 : FVec F S512x16384 .f32) (main_arg2 : FVec F S16384x512 .f32) (main_arg3 : FVec F S2x128x256x64 .f32) (main_arg4 : FVec F S2x128x256x64 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x16384 .f32 := Host.absf main_arg1
  let main_cst_0 : FVec F S_ .f32 := constant S_ .f32 0x7F800000#32
  let main_v5 : FVec F S512x16384 .f32 := broadcastInDim S512x16384 ![] bcast_S_S512x16384 main_cst_0
  let main_v6 : IVec S512x16384 1 := cmpf .olt main_v4 main_v5
  let main_c_1 : IVec S_ 1 := constantI S_ 1 1#1
  let main_v7 : IVec S_ 1 := (fun x v => Host.reduce IntOp.andi x v reducesTo_S512x16384_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S2x128x256x64 .f32 := Host.absf main_arg3
  let main_cst_4 : FVec F S_ .f32 := constant S_ .f32 0x7F800000#32
  let main_v15 : FVec F S2x128x256x64 .f32 := broadcastInDim S2x128x256x64 ![] bcast_S_S2x128x256x64 main_cst_4
  let main_v16 : IVec S2x128x256x64 1 := cmpf .olt main_v14 main_v15
  fn_part1 (F := F) main_arg4 main_v13 main_v16
-- ==== Kernel.lean ====
abbrev S2x128x512 : Shape := ⟨3, ![2, 128, 512]⟩
abbrev S512x512 : Shape := ⟨2, ![512, 512]⟩
abbrev S2x128x256x64 : Shape := ⟨4, ![2, 128, 256, 64]⟩
abbrev S256x512 : Shape := ⟨2, ![256, 512]⟩
abbrev S248x512 : Shape := ⟨2, ![248, 512]⟩
abbrev S2x128x8x64 : Shape := ⟨4, ![2, 128, 8, 64]⟩
abbrev S2 : Shape := ⟨1, ![2]⟩
abbrev S5 : Shape := ⟨1, ![5]⟩
abbrev S_ : Shape := ⟨0, ![]⟩
abbrev S1 : Shape := ⟨1, ![1]⟩
abbrev S128x64 : Shape := ⟨2, ![128, 64]⟩
abbrev S1x128x1x64 : Shape := ⟨4, ![1, 128, 1, 64]⟩
abbrev S128x128 : Shape := ⟨2, ![128, 128]⟩
abbrev S128 : Shape := ⟨1, ![128]⟩
abbrev S128x1 : Shape := ⟨2, ![128, 1]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S8x512 : Shape := ⟨2, ![8, 512]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S2x128x256x64, .f32⟩
  | .hbm, ⟨4, _⟩ => ⟨S2x128x256x64, .f32⟩
  | .hbm, ⟨5, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S2x128x512, .f32⟩
  | .local _ .vmem, ⟨4, _⟩ => ⟨S256x512, .f32⟩
  | .local _ .vmem, ⟨5, _⟩ => ⟨S248x512, .f32⟩
  | .local _ .vmem, ⟨6, _⟩ => ⟨S2x128x8x64, .f32⟩
  | .local _ .vmem, ⟨7, _⟩ => ⟨S2x128x8x64, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_off1 (d0 : Dev nD) : Fin 4 → Nat :=
  let c0_i32_18 : BitVec 32 := 0#32
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_15 : BitVec 32 := 8#32
  let v19 : BitVec 32 := Scalar.muli v2 c8_i32_15
  let c0_i32_20 : BitVec 32 := 0#32
  ![0, 0, v19.toNat, 0]
def k0_off2 (d0 : Dev nD) : Fin 2 → Nat :=
  let c0_i32_249 : BitVec 32 := 0#32
  let c1_i32_247 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_244 : BitVec 32 := 4#32
  let v337 : BitVec 32 := Scalar.shrsi v2 c4_i32_244
  let c1_i32_245 : BitVec 32 := 1#32
  let v338 : BitVec 32 := Scalar.andi v337 c1_i32_245
  let v341 : BitVec 32 := Scalar.subi c1_i32_247 v338
  let c128_i32_248 : BitVec 32 := 128#32
  let v342 : BitVec 32 := Scalar.muli v341 c128_i32_248
  let v343 : BitVec 32 := Scalar.addi c0_i32_249 v342
  let c0_i32_256 : BitVec 32 := 0#32
  ![v343.toNat, 0]
def k0_dev6 (d0 : Dev nD) : Nat :=
  let c0_i32_253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_243 : BitVec 32 := 16#32
  let v336 : BitVec 32 := Scalar.xori v2 c16_i32_243
  let c1_i32_252 : BitVec 32 := 1#32
  let v344 : BitVec 32 := Scalar.muli v336 c1_i32_252
  let v345 : BitVec 32 := Scalar.addi c0_i32_253 v344
  v345.toNat
def k0_off3 (d0 : Dev nD) : Fin 2 → Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_244 : BitVec 32 := 4#32
  let v337 : BitVec 32 := Scalar.shrsi v2 c4_i32_244
  let c1_i32_245 : BitVec 32 := 1#32
  let v338 : BitVec 32 := Scalar.andi v337 c1_i32_245
  let c128_i32 : BitVec 32 := 128#32
  let v339 : BitVec 32 := Scalar.muli v338 c128_i32
  let v340 : BitVec 32 := Scalar.addi c0_i32_246 v339
  let v362 : Index := Scalar.indexCast v340
  let c0_270 : Index := 0#32
  ![v362.toNat, 0]
def k0_off4 (d0 : Dev nD) : Fin 2 → Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_244 : BitVec 32 := 4#32
  let v337 : BitVec 32 := Scalar.shrsi v2 c4_i32_244
  let c1_i32_245 : BitVec 32 := 1#32
  let v338 : BitVec 32 := Scalar.andi v337 c1_i32_245
  let c128_i32 : BitVec 32 := 128#32
  let v339 : BitVec 32 := Scalar.muli v338 c128_i32
  let v340 : BitVec 32 := Scalar.addi c0_i32_246 v339
  let c1_i32_276 : BitVec 32 := 1#32
  let c3_i32 : BitVec 32 := 3#32
  let v371 : BitVec 32 := Scalar.shrsi v2 c3_i32
  let c1_i32_275 : BitVec 32 := 1#32
  let v372 : BitVec 32 := Scalar.andi v371 c1_i32_275
  let v375 : BitVec 32 := Scalar.subi c1_i32_276 v372
  let c64_i32_277 : BitVec 32 := 64#32
  let v376 : BitVec 32 := Scalar.muli v375 c64_i32_277
  let v377 : BitVec 32 := Scalar.addi v340 v376
  let c0_i32_284 : BitVec 32 := 0#32
  ![v377.toNat, 0]
def k0_dev7 (d0 : Dev nD) : Nat :=
  let c0_i32_281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_274 : BitVec 32 := 8#32
  let v370 : BitVec 32 := Scalar.xori v2 c8_i32_274
  let c1_i32_280 : BitVec 32 := 1#32
  let v378 : BitVec 32 := Scalar.muli v370 c1_i32_280
  let v379 : BitVec 32 := Scalar.addi c0_i32_281 v378
  v379.toNat
def k0_off5 (d0 : Dev nD) : Fin 2 → Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_244 : BitVec 32 := 4#32
  let v337 : BitVec 32 := Scalar.shrsi v2 c4_i32_244
  let c1_i32_245 : BitVec 32 := 1#32
  let v338 : BitVec 32 := Scalar.andi v337 c1_i32_245
  let c128_i32 : BitVec 32 := 128#32
  let v339 : BitVec 32 := Scalar.muli v338 c128_i32
  let v340 : BitVec 32 := Scalar.addi c0_i32_246 v339
  let c3_i32 : BitVec 32 := 3#32
  let v371 : BitVec 32 := Scalar.shrsi v2 c3_i32
  let c1_i32_275 : BitVec 32 := 1#32
  let v372 : BitVec 32 := Scalar.andi v371 c1_i32_275
  let c64_i32 : BitVec 32 := 64#32
  let v373 : BitVec 32 := Scalar.muli v372 c64_i32
  let v374 : BitVec 32 := Scalar.addi v340 v373
  let v396 : Index := Scalar.indexCast v374
  let c0_298 : Index := 0#32
  ![v396.toNat, 0]
def k0_off6 (d0 : Dev nD) : Fin 2 → Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_244 : BitVec 32 := 4#32
  let v337 : BitVec 32 := Scalar.shrsi v2 c4_i32_244
  let c1_i32_245 : BitVec 32 := 1#32
  let v338 : BitVec 32 := Scalar.andi v337 c1_i32_245
  let c128_i32 : BitVec 32 := 128#32
  let v339 : BitVec 32 := Scalar.muli v338 c128_i32
  let v340 : BitVec 32 := Scalar.addi c0_i32_246 v339
  let c3_i32 : BitVec 32 := 3#32
  let v371 : BitVec 32 := Scalar.shrsi v2 c3_i32
  let c1_i32_275 : BitVec 32 := 1#32
  let v372 : BitVec 32 := Scalar.andi v371 c1_i32_275
  let c64_i32 : BitVec 32 := 64#32
  let v373 : BitVec 32 := Scalar.muli v372 c64_i32
  let v374 : BitVec 32 := Scalar.addi v340 v373
  let c1_i32_305 : BitVec 32 := 1#32
  let c2_i32_302 : BitVec 32 := 2#32
  let v405 : BitVec 32 := Scalar.shrsi v2 c2_i32_302
  let c1_i32_303 : BitVec 32 := 1#32
  let v406 : BitVec 32 := Scalar.andi v405 c1_i32_303
  let v409 : BitVec 32 := Scalar.subi c1_i32_305 v406
  let c32_i32_306 : BitVec 32 := 32#32
  let v410 : BitVec 32 := Scalar.muli v409 c32_i32_306
  let v411 : BitVec 32 := Scalar.addi v374 v410
  let c0_i32_312 : BitVec 32 := 0#32
  ![v411.toNat, 0]
def k0_dev8 (d0 : Dev nD) : Nat :=
  let c0_i32_310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_301 : BitVec 32 := 4#32
  let v404 : BitVec 32 := Scalar.xori v2 c4_i32_301
  let c1_i32_309 : BitVec 32 := 1#32
  let v412 : BitVec 32 := Scalar.muli v404 c1_i32_309
  let v413 : BitVec 32 := Scalar.addi c0_i32_310 v412
  v413.toNat
def k0_off7 (d0 : Dev nD) : Fin 2 → Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_244 : BitVec 32 := 4#32
  let v337 : BitVec 32 := Scalar.shrsi v2 c4_i32_244
  let c1_i32_245 : BitVec 32 := 1#32
  let v338 : BitVec 32 := Scalar.andi v337 c1_i32_245
  let c128_i32 : BitVec 32 := 128#32
  let v339 : BitVec 32 := Scalar.muli v338 c128_i32
  let v340 : BitVec 32 := Scalar.addi c0_i32_246 v339
  let c3_i32 : BitVec 32 := 3#32
  let v371 : BitVec 32 := Scalar.shrsi v2 c3_i32
  let c1_i32_275 : BitVec 32 := 1#32
  let v372 : BitVec 32 := Scalar.andi v371 c1_i32_275
  let c64_i32 : BitVec 32 := 64#32
  let v373 : BitVec 32 := Scalar.muli v372 c64_i32
  let v374 : BitVec 32 := Scalar.addi v340 v373
  let c2_i32_302 : BitVec 32 := 2#32
  let v405 : BitVec 32 := Scalar.shrsi v2 c2_i32_302
  let c1_i32_303 : BitVec 32 := 1#32
  let v406 : BitVec 32 := Scalar.andi v405 c1_i32_303
  let c32_i32_304 : BitVec 32 := 32#32
  let v407 : BitVec 32 := Scalar.muli v406 c32_i32_304
  let v408 : BitVec 32 := Scalar.addi v374 v407
  let v430 : Index := Scalar.indexCast v408
  let c0_326 : Index := 0#32
  ![v430.toNat, 0]
def k0_off8 (d0 : Dev nD) : Fin 2 → Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_244 : BitVec 32 := 4#32
  let v337 : BitVec 32 := Scalar.shrsi v2 c4_i32_244
  let c1_i32_245 : BitVec 32 := 1#32
  let v338 : BitVec 32 := Scalar.andi v337 c1_i32_245
  let c128_i32 : BitVec 32 := 128#32
  let v339 : BitVec 32 := Scalar.muli v338 c128_i32
  let v340 : BitVec 32 := Scalar.addi c0_i32_246 v339
  let c3_i32 : BitVec 32 := 3#32
  let v371 : BitVec 32 := Scalar.shrsi v2 c3_i32
  let c1_i32_275 : BitVec 32 := 1#32
  let v372 : BitVec 32 := Scalar.andi v371 c1_i32_275
  let c64_i32 : BitVec 32 := 64#32
  let v373 : BitVec 32 := Scalar.muli v372 c64_i32
  let v374 : BitVec 32 := Scalar.addi v340 v373
  let c2_i32_302 : BitVec 32 := 2#32
  let v405 : BitVec 32 := Scalar.shrsi v2 c2_i32_302
  let c1_i32_303 : BitVec 32 := 1#32
  let v406 : BitVec 32 := Scalar.andi v405 c1_i32_303
  let c32_i32_304 : BitVec 32 := 32#32
  let v407 : BitVec 32 := Scalar.muli v406 c32_i32_304
  let v408 : BitVec 32 := Scalar.addi v374 v407
  let c1_i32_333 : BitVec 32 := 1#32
  let c1_i32_330 : BitVec 32 := 1#32
  let v439 : BitVec 32 := Scalar.shrsi v2 c1_i32_330
  let c1_i32_331 : BitVec 32 := 1#32
  let v440 : BitVec 32 := Scalar.andi v439 c1_i32_331
  let v443 : BitVec 32 := Scalar.subi c1_i32_333 v440
  let c16_i32_334 : BitVec 32 := 16#32
  let v444 : BitVec 32 := Scalar.muli v443 c16_i32_334
  let v445 : BitVec 32 := Scalar.addi v408 v444
  let c0_i32_340 : BitVec 32 := 0#32
  ![v445.toNat, 0]
def k0_dev9 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_329 : BitVec 32 := 2#32
  let v438 : BitVec 32 := Scalar.xori v2 c2_i32_329
  let c1_i32_337 : BitVec 32 := 1#32
  let v446 : BitVec 32 := Scalar.muli v438 c1_i32_337
  let v447 : BitVec 32 := Scalar.addi c0_i32_338 v446
  v447.toNat
def k0_off9 (d0 : Dev nD) : Fin 2 → Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_244 : BitVec 32 := 4#32
  let v337 : BitVec 32 := Scalar.shrsi v2 c4_i32_244
  let c1_i32_245 : BitVec 32 := 1#32
  let v338 : BitVec 32 := Scalar.andi v337 c1_i32_245
  let c128_i32 : BitVec 32 := 128#32
  let v339 : BitVec 32 := Scalar.muli v338 c128_i32
  let v340 : BitVec 32 := Scalar.addi c0_i32_246 v339
  let c3_i32 : BitVec 32 := 3#32
  let v371 : BitVec 32 := Scalar.shrsi v2 c3_i32
  let c1_i32_275 : BitVec 32 := 1#32
  let v372 : BitVec 32 := Scalar.andi v371 c1_i32_275
  let c64_i32 : BitVec 32 := 64#32
  let v373 : BitVec 32 := Scalar.muli v372 c64_i32
  let v374 : BitVec 32 := Scalar.addi v340 v373
  let c2_i32_302 : BitVec 32 := 2#32
  let v405 : BitVec 32 := Scalar.shrsi v2 c2_i32_302
  let c1_i32_303 : BitVec 32 := 1#32
  let v406 : BitVec 32 := Scalar.andi v405 c1_i32_303
  let c32_i32_304 : BitVec 32 := 32#32
  let v407 : BitVec 32 := Scalar.muli v406 c32_i32_304
  let v408 : BitVec 32 := Scalar.addi v374 v407
  let c1_i32_330 : BitVec 32 := 1#32
  let v439 : BitVec 32 := Scalar.shrsi v2 c1_i32_330
  let c1_i32_331 : BitVec 32 := 1#32
  let v440 : BitVec 32 := Scalar.andi v439 c1_i32_331
  let c16_i32_332 : BitVec 32 := 16#32
  let v441 : BitVec 32 := Scalar.muli v440 c16_i32_332
  let v442 : BitVec 32 := Scalar.addi v408 v441
  let v464 : Index := Scalar.indexCast v442
  let c0_354 : Index := 0#32
  ![v464.toNat, 0]
def k0_off10 (d0 : Dev nD) : Fin 2 → Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_244 : BitVec 32 := 4#32
  let v337 : BitVec 32 := Scalar.shrsi v2 c4_i32_244
  let c1_i32_245 : BitVec 32 := 1#32
  let v338 : BitVec 32 := Scalar.andi v337 c1_i32_245
  let c128_i32 : BitVec 32 := 128#32
  let v339 : BitVec 32 := Scalar.muli v338 c128_i32
  let v340 : BitVec 32 := Scalar.addi c0_i32_246 v339
  let c3_i32 : BitVec 32 := 3#32
  let v371 : BitVec 32 := Scalar.shrsi v2 c3_i32
  let c1_i32_275 : BitVec 32 := 1#32
  let v372 : BitVec 32 := Scalar.andi v371 c1_i32_275
  let c64_i32 : BitVec 32 := 64#32
  let v373 : BitVec 32 := Scalar.muli v372 c64_i32
  let v374 : BitVec 32 := Scalar.addi v340 v373
  let c2_i32_302 : BitVec 32 := 2#32
  let v405 : BitVec 32 := Scalar.shrsi v2 c2_i32_302
  let c1_i32_303 : BitVec 32 := 1#32
  let v406 : BitVec 32 := Scalar.andi v405 c1_i32_303
  let c32_i32_304 : BitVec 32 := 32#32
  let v407 : BitVec 32 := Scalar.muli v406 c32_i32_304
  let v408 : BitVec 32 := Scalar.addi v374 v407
  let c1_i32_330 : BitVec 32 := 1#32
  let v439 : BitVec 32 := Scalar.shrsi v2 c1_i32_330
  let c1_i32_331 : BitVec 32 := 1#32
  let v440 : BitVec 32 := Scalar.andi v439 c1_i32_331
  let c16_i32_332 : BitVec 32 := 16#32
  let v441 : BitVec 32 := Scalar.muli v440 c16_i32_332
  let v442 : BitVec 32 := Scalar.addi v408 v441
  let c1_i32_361 : BitVec 32 := 1#32
  let c0_i32_358 : BitVec 32 := 0#32
  let v473 : BitVec 32 := Scalar.shrsi v2 c0_i32_358
  let c1_i32_359 : BitVec 32 := 1#32
  let v474 : BitVec 32 := Scalar.andi v473 c1_i32_359
  let v477 : BitVec 32 := Scalar.subi c1_i32_361 v474
  let c8_i32_362 : BitVec 32 := 8#32
  let v478 : BitVec 32 := Scalar.muli v477 c8_i32_362
  let v479 : BitVec 32 := Scalar.addi v442 v478
  let c0_i32_368 : BitVec 32 := 0#32
  ![v479.toNat, 0]
def k0_dev10 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_357 : BitVec 32 := 1#32
  let v472 : BitVec 32 := Scalar.xori v2 c1_i32_357
  let c1_i32_365 : BitVec 32 := 1#32
  let v480 : BitVec 32 := Scalar.muli v472 c1_i32_365
  let v481 : BitVec 32 := Scalar.addi c0_i32_366 v480
  v481.toNat
def k0_off11 (d0 : Dev nD) : Fin 2 → Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_244 : BitVec 32 := 4#32
  let v337 : BitVec 32 := Scalar.shrsi v2 c4_i32_244
  let c1_i32_245 : BitVec 32 := 1#32
  let v338 : BitVec 32 := Scalar.andi v337 c1_i32_245
  let c128_i32 : BitVec 32 := 128#32
  let v339 : BitVec 32 := Scalar.muli v338 c128_i32
  let v340 : BitVec 32 := Scalar.addi c0_i32_246 v339
  let c3_i32 : BitVec 32 := 3#32
  let v371 : BitVec 32 := Scalar.shrsi v2 c3_i32
  let c1_i32_275 : BitVec 32 := 1#32
  let v372 : BitVec 32 := Scalar.andi v371 c1_i32_275
  let c64_i32 : BitVec 32 := 64#32
  let v373 : BitVec 32 := Scalar.muli v372 c64_i32
  let v374 : BitVec 32 := Scalar.addi v340 v373
  let c2_i32_302 : BitVec 32 := 2#32
  let v405 : BitVec 32 := Scalar.shrsi v2 c2_i32_302
  let c1_i32_303 : BitVec 32 := 1#32
  let v406 : BitVec 32 := Scalar.andi v405 c1_i32_303
  let c32_i32_304 : BitVec 32 := 32#32
  let v407 : BitVec 32 := Scalar.muli v406 c32_i32_304
  let v408 : BitVec 32 := Scalar.addi v374 v407
  let c1_i32_330 : BitVec 32 := 1#32
  let v439 : BitVec 32 := Scalar.shrsi v2 c1_i32_330
  let c1_i32_331 : BitVec 32 := 1#32
  let v440 : BitVec 32 := Scalar.andi v439 c1_i32_331
  let c16_i32_332 : BitVec 32 := 16#32
  let v441 : BitVec 32 := Scalar.muli v440 c16_i32_332
  let v442 : BitVec 32 := Scalar.addi v408 v441
  let c0_i32_358 : BitVec 32 := 0#32
  let v473 : BitVec 32 := Scalar.shrsi v2 c0_i32_358
  let c1_i32_359 : BitVec 32 := 1#32
  let v474 : BitVec 32 := Scalar.andi v473 c1_i32_359
  let c8_i32_360 : BitVec 32 := 8#32
  let v475 : BitVec 32 := Scalar.muli v474 c8_i32_360
  let v476 : BitVec 32 := Scalar.addi v442 v475
  let v498 : Index := Scalar.indexCast v476
  let c0_382 : Index := 0#32
  ![v498.toNat, 0]
def k0_off12 (d0 : Dev nD) : Fin 2 → Nat :=
  let c8_i32_385 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v506 : BitVec 32 := Scalar.andi v2 c_m1_i32
  let v507 : BitVec 32 := Scalar.muli c8_i32_385 v506
  let c0_i32_391 : BitVec 32 := 0#32
  ![v507.toNat, 0]
def k0_dev11 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_386 : BitVec 32 := 1#32
  let v508 : BitVec 32 := Scalar.xori v2 c1_i32_386
  let c1_i32_389 : BitVec 32 := 1#32
  let v509 : BitVec 32 := Scalar.muli v508 c1_i32_389
  let v510 : BitVec 32 := Scalar.addi c0_i32_390 v509
  v510.toNat
def k0_off13 (d0 : Dev nD) : Fin 2 → Nat :=
  let c8_i32_404 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m2_i32 : BitVec 32 := 4294967294#32
  let v527 : BitVec 32 := Scalar.andi v2 c_m2_i32
  let v528 : BitVec 32 := Scalar.muli c8_i32_404 v527
  let c0_i32_410 : BitVec 32 := 0#32
  ![v528.toNat, 0]
def k0_dev12 (d0 : Dev nD) : Nat :=
  let c0_i32_409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_405 : BitVec 32 := 2#32
  let v529 : BitVec 32 := Scalar.xori v2 c2_i32_405
  let c1_i32_408 : BitVec 32 := 1#32
  let v530 : BitVec 32 := Scalar.muli v529 c1_i32_408
  let v531 : BitVec 32 := Scalar.addi c0_i32_409 v530
  v531.toNat
def k0_off14 (d0 : Dev nD) : Fin 2 → Nat :=
  let c8_i32_423 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m4_i32 : BitVec 32 := 4294967292#32
  let v548 : BitVec 32 := Scalar.andi v2 c_m4_i32
  let v549 : BitVec 32 := Scalar.muli c8_i32_423 v548
  let c0_i32_429 : BitVec 32 := 0#32
  ![v549.toNat, 0]
def k0_dev13 (d0 : Dev nD) : Nat :=
  let c0_i32_428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_424 : BitVec 32 := 4#32
  let v550 : BitVec 32 := Scalar.xori v2 c4_i32_424
  let c1_i32_427 : BitVec 32 := 1#32
  let v551 : BitVec 32 := Scalar.muli v550 c1_i32_427
  let v552 : BitVec 32 := Scalar.addi c0_i32_428 v551
  v552.toNat
def k0_off15 (d0 : Dev nD) : Fin 2 → Nat :=
  let c8_i32_442 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m8_i32 : BitVec 32 := 4294967288#32
  let v569 : BitVec 32 := Scalar.andi v2 c_m8_i32
  let v570 : BitVec 32 := Scalar.muli c8_i32_442 v569
  let c0_i32_448 : BitVec 32 := 0#32
  ![v570.toNat, 0]
def k0_dev14 (d0 : Dev nD) : Nat :=
  let c0_i32_447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_443 : BitVec 32 := 8#32
  let v571 : BitVec 32 := Scalar.xori v2 c8_i32_443
  let c1_i32_446 : BitVec 32 := 1#32
  let v572 : BitVec 32 := Scalar.muli v571 c1_i32_446
  let v573 : BitVec 32 := Scalar.addi c0_i32_447 v572
  v573.toNat
def k0_off16 (d0 : Dev nD) : Fin 2 → Nat :=
  let c8_i32_461 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m16_i32 : BitVec 32 := 4294967280#32
  let v590 : BitVec 32 := Scalar.andi v2 c_m16_i32
  let v591 : BitVec 32 := Scalar.muli c8_i32_461 v590
  let c0_i32_467 : BitVec 32 := 0#32
  ![v591.toNat, 0]
def k0_dev15 (d0 : Dev nD) : Nat :=
  let c0_i32_466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_462 : BitVec 32 := 16#32
  let v592 : BitVec 32 := Scalar.xori v2 c16_i32_462
  let c1_i32_465 : BitVec 32 := 1#32
  let v593 : BitVec 32 := Scalar.muli v592 c1_i32_465
  let v594 : BitVec 32 := Scalar.addi c0_i32_466 v593
  v594.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  hamt_1 : (1#32 : BitVec 32).msb = false
  hamt_5 : (5#32 : BitVec 32).msb = false
  inb_S2_S1_0 : ∀ a, (![0] : Fin 1 → Nat) a + S1.size a ≤ S2.size a
  squeezes_S1_S_ : S1.Squeezes S_
  inb_S2_S1_1 : ∀ a, (![1] : Fin 1 → Nat) a + S1.size a ≤ S2.size a
  inb_S2x128x512_S2x128x512_0_0_0 : ∀ a, (![0, 0, 0] : Fin 3 → Nat) a + S2x128x512.size a ≤ S2x128x512.size a
  h_S2x128x512 : 0 < S2x128x512.numel
  shapeCasts_S2x128x512_S2x128x512 : S2x128x512.ShapeCasts S2x128x512
  shapeCasts_S2x128x512_S256x512 : S2x128x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S256x512_o0_0_S128x64 : S256x512.Slices ![0, 0] S128x64
  inb_S2x128x8x64_S1x128x1x64_0_0_0_0 : ∀ a, (![0, 0, 0, 0] : Fin 4 → Nat) a + S1x128x1x64.size a ≤ S2x128x8x64.size a
  h_S1x128x1x64 : 0 < S1x128x1x64.numel
  shapeCasts_S1x128x1x64_S128x64 : S1x128x1x64.ShapeCasts S128x64
  reduces_S128x128_S128 : S128x128.Reduces [1] S128
  shapeCasts_S128_S128x1 : S128.ShapeCasts S128x1
  broadcasts_S128x1_S128x128 : S128x1.Broadcasts S128x128
  broadcasts_S128x1_S128x64 : S128x1.Broadcasts S128x64
  slices_S256x512_o0_64_S128x64 : S256x512.Slices ![0, 64] S128x64
  inb_S2x128x8x64_S1x128x1x64_0_0_1_0 : ∀ a, (![0, 0, 1, 0] : Fin 4 → Nat) a + S1x128x1x64.size a ≤ S2x128x8x64.size a
  slices_S256x512_o0_128_S128x64 : S256x512.Slices ![0, 128] S128x64
  inb_S2x128x8x64_S1x128x1x64_0_0_2_0 : ∀ a, (![0, 0, 2, 0] : Fin 4 → Nat) a + S1x128x1x64.size a ≤ S2x128x8x64.size a
  slices_S256x512_o0_192_S128x64 : S256x512.Slices ![0, 192] S128x64
  inb_S2x128x8x64_S1x128x1x64_0_0_3_0 : ∀ a, (![0, 0, 3, 0] : Fin 4 → Nat) a + S1x128x1x64.size a ≤ S2x128x8x64.size a
  slices_S256x512_o0_256_S128x64 : S256x512.Slices ![0, 256] S128x64
  inb_S2x128x8x64_S1x128x1x64_0_0_4_0 : ∀ a, (![0, 0, 4, 0] : Fin 4 → Nat) a + S1x128x1x64.size a ≤ S2x128x8x64.size a
  slices_S256x512_o0_320_S128x64 : S256x512.Slices ![0, 320] S128x64
  inb_S2x128x8x64_S1x128x1x64_0_0_5_0 : ∀ a, (![0, 0, 5, 0] : Fin 4 → Nat) a + S1x128x1x64.size a ≤ S2x128x8x64.size a
  slices_S256x512_o0_384_S128x64 : S256x512.Slices ![0, 384] S128x64
  inb_S2x128x8x64_S1x128x1x64_0_0_6_0 : ∀ a, (![0, 0, 6, 0] : Fin 4 → Nat) a + S1x128x1x64.size a ≤ S2x128x8x64.size a
  slices_S256x512_o0_448_S128x64 : S256x512.Slices ![0, 448] S128x64
  inb_S2x128x8x64_S1x128x1x64_0_0_7_0 : ∀ a, (![0, 0, 7, 0] : Fin 4 → Nat) a + S1x128x1x64.size a ≤ S2x128x8x64.size a
  concatenates_S128x64_S128x64_S128x64_S128x64_S128x64_S128x64_S128x64_S128x64_S128x512_d1 : Shape.Concatenates [S128x64, S128x64, S128x64, S128x64, S128x64, S128x64, S128x64, S128x64] S128x512 1
  slices_S256x512_o128_0_S128x64 : S256x512.Slices ![128, 0] S128x64
  inb_S2x128x8x64_S1x128x1x64_1_0_0_0 : ∀ a, (![1, 0, 0, 0] : Fin 4 → Nat) a + S1x128x1x64.size a ≤ S2x128x8x64.size a
  slices_S256x512_o128_64_S128x64 : S256x512.Slices ![128, 64] S128x64
  inb_S2x128x8x64_S1x128x1x64_1_0_1_0 : ∀ a, (![1, 0, 1, 0] : Fin 4 → Nat) a + S1x128x1x64.size a ≤ S2x128x8x64.size a
  slices_S256x512_o128_128_S128x64 : S256x512.Slices ![128, 128] S128x64
  inb_S2x128x8x64_S1x128x1x64_1_0_2_0 : ∀ a, (![1, 0, 2, 0] : Fin 4 → Nat) a + S1x128x1x64.size a ≤ S2x128x8x64.size a
  slices_S256x512_o128_192_S128x64 : S256x512.Slices ![128, 192] S128x64
  inb_S2x128x8x64_S1x128x1x64_1_0_3_0 : ∀ a, (![1, 0, 3, 0] : Fin 4 → Nat) a + S1x128x1x64.size a ≤ S2x128x8x64.size a
  slices_S256x512_o128_256_S128x64 : S256x512.Slices ![128, 256] S128x64
  inb_S2x128x8x64_S1x128x1x64_1_0_4_0 : ∀ a, (![1, 0, 4, 0] : Fin 4 → Nat) a + S1x128x1x64.size a ≤ S2x128x8x64.size a
  slices_S256x512_o128_320_S128x64 : S256x512.Slices ![128, 320] S128x64
  inb_S2x128x8x64_S1x128x1x64_1_0_5_0 : ∀ a, (![1, 0, 5, 0] : Fin 4 → Nat) a + S1x128x1x64.size a ≤ S2x128x8x64.size a
  slices_S256x512_o128_384_S128x64 : S256x512.Slices ![128, 384] S128x64
  inb_S2x128x8x64_S1x128x1x64_1_0_6_0 : ∀ a, (![1, 0, 6, 0] : Fin 4 → Nat) a + S1x128x1x64.size a ≤ S2x128x8x64.size a
  slices_S256x512_o128_448_S128x64 : S256x512.Slices ![128, 448] S128x64
  inb_S2x128x8x64_S1x128x1x64_1_0_7_0 : ∀ a, (![1, 0, 7, 0] : Fin 4 → Nat) a + S1x128x1x64.size a ≤ S2x128x8x64.size a
  concatenates_S128x512_S128x512_S256x512_d0 : Shape.Concatenates [S128x512, S128x512] S256x512 0
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S5_S1_0 : ∀ a, (![0] : Fin 1 → Nat) a + S1.size a ≤ S5.size a
  inb_S248x512_S128x512_0_0 : ∀ a, (![0, 0] : Fin 2 → Nat) a + S128x512.size a ≤ S248x512.size a
  h_S128x512 : 0 < S128x512.numel
  shapeCasts_S128x512_S128x512 : S128x512.ShapeCasts S128x512
  inb_S5_S1_1 : ∀ a, (![1] : Fin 1 → Nat) a + S1.size a ≤ S5.size a
  inb_S248x512_S64x512_128_0 : ∀ a, (![128, 0] : Fin 2 → Nat) a + S64x512.size a ≤ S248x512.size a
  h_S64x512 : 0 < S64x512.numel
  shapeCasts_S64x512_S64x512 : S64x512.ShapeCasts S64x512
  inb_S5_S1_2 : ∀ a, (![2] : Fin 1 → Nat) a + S1.size a ≤ S5.size a
  inb_S248x512_S32x512_192_0 : ∀ a, (![192, 0] : Fin 2 → Nat) a + S32x512.size a ≤ S248x512.size a
  h_S32x512 : 0 < S32x512.numel
  shapeCasts_S32x512_S32x512 : S32x512.ShapeCasts S32x512
  inb_S5_S1_3 : ∀ a, (![3] : Fin 1 → Nat) a + S1.size a ≤ S5.size a
  inb_S248x512_S16x512_224_0 : ∀ a, (![224, 0] : Fin 2 → Nat) a + S16x512.size a ≤ S248x512.size a
  h_S16x512 : 0 < S16x512.numel
  shapeCasts_S16x512_S16x512 : S16x512.ShapeCasts S16x512
  inb_S5_S1_4 : ∀ a, (![4] : Fin 1 → Nat) a + S1.size a ≤ S5.size a
  inb_S248x512_S8x512_240_0 : ∀ a, (![240, 0] : Fin 2 → Nat) a + S8x512.size a ≤ S248x512.size a
  h_S8x512 : 0 < S8x512.numel
  shapeCasts_S8x512_S8x512 : S8x512.ShapeCasts S8x512
  shapeCasts_S256x512_S2x128x512 : S256x512.ShapeCasts S2x128x512
  dot_S256x512_S512x512_S256x512_1_0_0_1_n_n_wf : DotDims.WF S256x512 S512x512 S256x512 [1] [0] [0] [1] [] []
  dot_S128x64_S128x64_S128x128_1_1_0_0_n_n_wf : DotDims.WF S128x64 S128x64 S128x128 [1] [1] [0] [0] [] []
  dot_S128x128_S128x64_S128x64_1_0_0_1_n_n_wf : DotDims.WF S128x128 S128x64 S128x64 [1] [0] [0] [1] [] []
  hcc0_scratch4 : 4 + S2.numel ≤ 26
  hcc0_scratch5 : 6 + S5.numel ≤ 26
  hcc0_scratch6 : 11 + S5.numel ≤ 26
  hcc0_scratch7 : 16 + S5.numel ≤ 26
  hcc0_scratch8 : 21 + S5.numel ≤ 26
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_off1_inb : ∀ d0 : Dev nD, ∀ a, (k0_off1 d0) a + S2x128x8x64.size a ≤ S2x128x256x64.size a
  k0_off2_inb : ∀ d0 : Dev nD, ∀ a, (k0_off2 d0) a + S128x512.size a ≤ S256x512.size a
  k0_dev6_lt : ∀ d0 : Dev nD, (k0_dev6 d0) < nD
  k0_off3_inb : ∀ d0 : Dev nD, ∀ a, (k0_off3 d0) a + S128x512.size a ≤ S256x512.size a
  k0_off4_inb : ∀ d0 : Dev nD, ∀ a, (k0_off4 d0) a + S64x512.size a ≤ S256x512.size a
  k0_dev7_lt : ∀ d0 : Dev nD, (k0_dev7 d0) < nD
  k0_off5_inb : ∀ d0 : Dev nD, ∀ a, (k0_off5 d0) a + S64x512.size a ≤ S256x512.size a
  k0_off6_inb : ∀ d0 : Dev nD, ∀ a, (k0_off6 d0) a + S32x512.size a ≤ S256x512.size a
  k0_dev8_lt : ∀ d0 : Dev nD, (k0_dev8 d0) < nD
  k0_off7_inb : ∀ d0 : Dev nD, ∀ a, (k0_off7 d0) a + S32x512.size a ≤ S256x512.size a
  k0_off8_inb : ∀ d0 : Dev nD, ∀ a, (k0_off8 d0) a + S16x512.size a ≤ S256x512.size a
  k0_dev9_lt : ∀ d0 : Dev nD, (k0_dev9 d0) < nD
  k0_off9_inb : ∀ d0 : Dev nD, ∀ a, (k0_off9 d0) a + S16x512.size a ≤ S256x512.size a
  k0_off10_inb : ∀ d0 : Dev nD, ∀ a, (k0_off10 d0) a + S8x512.size a ≤ S256x512.size a
  k0_dev10_lt : ∀ d0 : Dev nD, (k0_dev10 d0) < nD
  k0_off11_inb : ∀ d0 : Dev nD, ∀ a, (k0_off11 d0) a + S8x512.size a ≤ S256x512.size a
  k0_off12_inb : ∀ d0 : Dev nD, ∀ a, (k0_off12 d0) a + S8x512.size a ≤ S256x512.size a
  k0_dev11_lt : ∀ d0 : Dev nD, (k0_dev11 d0) < nD
  k0_off13_inb : ∀ d0 : Dev nD, ∀ a, (k0_off13 d0) a + S16x512.size a ≤ S256x512.size a
  k0_dev12_lt : ∀ d0 : Dev nD, (k0_dev12 d0) < nD
  k0_off14_inb : ∀ d0 : Dev nD, ∀ a, (k0_off14 d0) a + S32x512.size a ≤ S256x512.size a
  k0_dev13_lt : ∀ d0 : Dev nD, (k0_dev13 d0) < nD
  k0_off15_inb : ∀ d0 : Dev nD, ∀ a, (k0_off15 d0) a + S64x512.size a ≤ S256x512.size a
  k0_dev14_lt : ∀ d0 : Dev nD, (k0_dev14 d0) < nD
  k0_off16_inb : ∀ d0 : Dev nD, ∀ a, (k0_off16 d0) a + S128x512.size a ≤ S256x512.size a
  k0_dev15_lt : ∀ d0 : Dev nD, (k0_dev15 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

abbrev cc0_scratch4 : DmaSems sig S2 := SemArray.consecutive 4 S2 hcc0_scratch4
abbrev cc0_scratch5 : DmaSems sig S5 := SemArray.consecutive 6 S5 hcc0_scratch5
abbrev cc0_scratch6 : DmaSems sig S5 := SemArray.consecutive 11 S5 hcc0_scratch6
abbrev cc0_scratch7 : DmaSems sig S5 := SemArray.consecutive 16 S5 hcc0_scratch7
abbrev cc0_scratch8 : DmaSems sig S5 := SemArray.consecutive 21 S5 hcc0_scratch8
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S128x64_S128x64_S128x128_1_1_0_0_n_n : DotDims S128x64 S128x64 S128x128 where
  lhsContracting := [1]
  rhsContracting := [1]
  lhsNonContracting := [0]
  rhsNonContracting := [0]
  lhsBatch := []
  rhsBatch := []
  wf := dot_S128x64_S128x64_S128x128_1_1_0_0_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x128x512 : Shape := ⟨3, ![2, 128, 512]⟩
abbrev S512x16384 : Shape := ⟨2, ![512, 16384]⟩
abbrev S16384x512 : Shape := ⟨2, ![16384, 512]⟩
abbrev S2x128x256x64 : Shape := ⟨4, ![2, 128, 256, 64]⟩
abbrev S2x128x16384 : Shape := ⟨3, ![2, 128, 16384]⟩
abbrev S_ : Shape := ⟨0, ![]⟩
abbrev S2x256x128x1 : Shape := ⟨4, ![2, 256, 128, 1]⟩
abbrev S2x256x128x128 : Shape := ⟨4, ![2, 256, 128, 128]⟩
abbrev S2x256x128 : Shape := ⟨3, ![2, 256, 128]⟩
abbrev S2x128x256x1 : Shape := ⟨4, ![2, 128, 256, 1]⟩
abbrev S2x256x64x128 : Shape := ⟨4, ![2, 256, 64, 128]⟩

abbrev nBuf : Space → Nat
  | .hbm => 42
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x16384, .f32⟩
  | .hbm, ⟨2, _⟩ => ⟨S16384x512, .f32⟩
  | .hbm, ⟨3, _⟩ => ⟨S2x128x256x64, .f32⟩
  | .hbm, ⟨4, _⟩ => ⟨S2x128x256x64, .f32⟩
  | .hbm, ⟨5, _⟩ => ⟨S2x128x16384, .f32⟩
  | .hbm, ⟨6, _⟩ => ⟨S2x128x256x64, .f32⟩
  | .hbm, ⟨7, _⟩ => ⟨S_, .f32⟩
  | .hbm, ⟨8, _⟩ => ⟨S2x128x256x64, .f32⟩
  | .hbm, ⟨9, _⟩ => ⟨S_, .f32⟩
  | .hbm, ⟨10, _⟩ => ⟨S2x256x128x1, .f32⟩
  | .hbm, ⟨11, _⟩ => ⟨S_, .f32⟩
  | .hbm, ⟨12, _⟩ => ⟨S2x256x128x1, .f32⟩
  | .hbm, ⟨13, _⟩ => ⟨S2x256x128x128, .f32⟩
  | .hbm, ⟨14, _⟩ => ⟨S_, .f32⟩
  | .hbm, ⟨15, _⟩ => ⟨S2x256x128x128, .f32⟩
  | .hbm, ⟨16, _⟩ => ⟨S2x256x128x128, .f32⟩
  | .hbm, ⟨17, _⟩ => ⟨S_, .f32⟩
  | .hbm, ⟨18, _⟩ => ⟨S2x256x128, .f32⟩
  | .hbm, ⟨19, _⟩ => ⟨S2x256x128x1, .f32⟩
  | .hbm, ⟨20, _⟩ => ⟨S2x256x128x1, .f32⟩
  | .hbm, ⟨21, _⟩ => ⟨S2x256x128x1, .f32⟩
  | .hbm, ⟨22, _⟩ => ⟨S2x256x128x1, .f32⟩
  | .hbm, ⟨23, _⟩ => ⟨S2x256x128x128, .f32⟩
  | .hbm, ⟨24, _⟩ => ⟨S2x256x128x128, .f32⟩
  | .hbm, ⟨25, _⟩ => ⟨S2x256x128x128, .f32⟩
  | .hbm, ⟨26, _⟩ => ⟨S2x256x128x1, .f32⟩
  | .hbm, ⟨27, _⟩ => ⟨S_, .f32⟩
  | .hbm, ⟨28, _⟩ => ⟨S2x256x128, .f32⟩
  | .hbm, ⟨29, _⟩ => ⟨S2x256x128x1, .f32⟩
  | .hbm, ⟨30, _⟩ => ⟨S2x256x128x1, .f32⟩
  | .hbm, ⟨31, _⟩ => ⟨S2x128x256x1, .f32⟩
  | .hbm, ⟨32, _⟩ => ⟨S2x128x256x64, .f32⟩
  | .hbm, ⟨33, _⟩ => ⟨S2x128x256x64, .f32⟩
  | .hbm, ⟨34, _⟩ => ⟨S2x256x64x128, .f32⟩
  | .hbm, ⟨35, _⟩ => ⟨S2x128x256x64, .f32⟩
  | .hbm, ⟨36, _⟩ => ⟨S2x128x256x64, .f32⟩
  | .hbm, ⟨37, _⟩ => ⟨S2x128x256x1, .f32⟩
  | .hbm, ⟨38, _⟩ => ⟨S2x128x256x64, .f32⟩
  | .hbm, ⟨39, _⟩ => ⟨S2x128x256x64, .f32⟩
  | .hbm, ⟨40, _⟩ => ⟨S2x128x16384, .f32⟩
  | .hbm, ⟨41, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  shapeCasts_S2x128x16384_S2x128x256x64 : S2x128x16384.ShapeCasts S2x128x256x64
  bcast_S_S2x128x256x64 : S_.BroadcastsInDim S2x128x256x64 (![] : Fin 0 → Fin S2x128x256x64.rank)
  bcast_S_S2x256x128x1 : S_.BroadcastsInDim S2x256x128x1 (![] : Fin 0 → Fin S2x256x128x1.rank)
  bcast_S_S2x256x128x128 : S_.BroadcastsInDim S2x256x128x128 (![] : Fin 0 → Fin S2x256x128x128.rank)
  reducesTo_S2x256x128x128_S2x256x128_d3 : S2x256x128x128.ReducesTo [3] S2x256x128
  h_S_ : 0 < S_.numel
  bcast_S2x256x128_S2x256x128x1_0_1_2 : S2x256x128.BroadcastsInDim S2x256x128x1 (![0, 1, 2] : Fin 3 → Fin S2x256x128x1.rank)
  bcast_S2x256x128x1_S2x256x128x128_0_1_2_3 : S2x256x128x1.BroadcastsInDim S2x256x128x128 (![0, 1, 2, 3] : Fin 4 → Fin S2x256x128x128.rank)
  transposes_S2x256x128x1_S2x128x256x1_0_2_1_3 : S2x256x128x1.Transposes [0, 2, 1, 3] S2x128x256x1
  bcast_S2x128x256x1_S2x128x256x64_0_1_2_3 : S2x128x256x1.BroadcastsInDim S2x128x256x64 (![0, 1, 2, 3] : Fin 4 → Fin S2x128x256x64.rank)
  transposes_S2x256x64x128_S2x128x256x64_0_3_1_2 : S2x256x64x128.Transposes [0, 3, 1, 2] S2x128x256x64
  shapeCasts_S2x128x256x64_S2x128x16384 : S2x128x256x64.ShapeCasts S2x128x16384
  dot_S2x128x512_S512x16384_S2x128x16384_2_0_01_1_n_n_wf : DotDims.WF S2x128x512 S512x16384 S2x128x16384 [2] [0] [0, 1] [1] [] []
  dot_S2x128x256x64_S2x128x256x64_S2x256x128x128_3_3_1_1_02_02_wf : DotDims.WF S2x128x256x64 S2x128x256x64 S2x256x128x128 [3] [3] [1] [1] [0, 2] [0, 2]
  dot_S2x128x256x64_S2x256x128x128_S2x256x64x128_1_3_3_2_02_01_wf : DotDims.WF S2x128x256x64 S2x256x128x128 S2x256x64x128 [1] [3] [3] [2] [0, 2] [0, 1]
  dot_S2x128x16384_S16384x512_S2x128x512_2_0_01_1_n_n_wf : DotDims.WF S2x128x16384 S16384x512 S2x128x512 [2] [0] [0, 1] [1] [] []

variable [Facts₀]

def dot_S2x128x512_S512x16384_S2x128x16384_2_0_01_1_n_n : DotDims S2x128x512 S512x16384 S2x128x16384 where
  lhsContracting := [2]
  rhsContracting := [0]
  lhsNonContracting := [0, 1]
  rhsNonContracting := [1]
  lhsBatch := []
  rhsBatch := []
  wf := dot_S2x128x512_S512x16384_S2x128x16384_2_0_01_1_n_n_wf
def dot_S2x128x256x64_S2x128x256x64_S2x256x128x128_3_3_1_1_02_02 : DotDims S2x128x256x64 S2x128x256x64 S2x256x128x128 where
  lhsContracting := [3]
  rhsContracting := [3]
  lhsNonContracting := [1]
  rhsNonContracting := [1]
  lhsBatch := [0, 2]
  rhsBatch := [0, 2]
  wf := dot_S2x128x256x64_S2x128x256x64_S2x256x128x128_3_3_1_1_02_02_wf
def dot_S2x128x256x64_S2x256x128x128_S2x256x64x128_1_3_3_2_02_01 : DotDims S2x128x256x64 S2x256x128x128 S2x256x64x128 where
  lhsContracting := [1]
  rhsContracting := [3]
  lhsNonContracting := [3]
  rhsNonContracting := [2]
  lhsBatch := [0, 2]
  rhsBatch := [0, 1]
  wf := dot_S2x128x256x64_S2x256x128x128_S2x256x64x128_1_3_3_2_02_01_wf
def dot_S2x128x16384_S16384x512_S2x128x512_2_0_01_1_n_n : DotDims S2x128x16384 S16384x512 S2x128x512 where
  lhsContracting := [2]
  rhsContracting := [0]
  lhsNonContracting := [0, 1]
  rhsNonContracting := [1]
  lhsBatch := []
  rhsBatch := []
  wf := dot_S2x128x16384_S16384x512_S2x128x512_2_0_01_1_n_n_wf

class Facts : Prop extends Facts₀ where

variable [Facts]
-- ==== Proof.Cube.lean ====
import Mathlib.Data.Fin.Basic
import Mathlib.Data.Nat.Bitwise

namespace Cube

def bit (j : ℕ) (c : Fin 32) : ℕ := (c.val / 2 ^ j) % 2

def nb (j : ℕ) (c : Fin 32) : Fin 32 := ⟨(Nat.xor c.val (2 ^ j)) % 32, Nat.mod_lt _ (by decide)⟩

theorem nb_nb : ∀ (j : Fin 5) (c : Fin 32), nb j.val (nb j.val c) = c := by decide +kernel
theorem nb_ne : ∀ (j : Fin 5) (c : Fin 32), nb j.val c ≠ c := by decide +kernel
theorem nb_inj_axis : ∀ (j j' : Fin 5) (c : Fin 32), nb j.val c = nb j'.val c → j = j' := by decide +kernel

def startS (k : ℕ) (c : Fin 32) : ℕ := (List.range k).foldl (fun s i => s + bit (4 - i) c * (128 >>> i)) 0

def keepS (k : ℕ) (c : Fin 32) : ℕ := startS k c + bit (4 - k) c * (128 >>> k)

def sendS (k : ℕ) (c : Fin 32) : ℕ := startS k c + (1 - bit (4 - k) c) * (128 >>> k)

def agS (g : ℕ) (c : Fin 32) : ℕ := 8 * (c.val / 2 ^ g * 2 ^ g)

theorem sendS_eq_keepS_nb : ∀ (k : Fin 5) (c : Fin 32), sendS k.val c = keepS k.val (nb (4 - k.val) c) := by decide +kernel

theorem keepS_last : ∀ c : Fin 32, keepS 4 c = agS 0 c := by decide +kernel

theorem startS_succ : ∀ (k : Fin 5) (c : Fin 32), startS (k.val + 1) c = keepS k.val c := by decide +kernel

theorem agS_nb : ∀ (g : Fin 5) (c : Fin 32), agS g.val (nb g.val c) = sendS (4 - g.val) c := by decide +kernel
theorem agS_self : ∀ (g : Fin 5) (c : Fin 32), agS g.val c = keepS (4 - g.val) c := by decide +kernel

end Cube
-- ==== Proof.Net.lean ====
import proofs.«900512_g7700000000000513_dist_attn_cross_mha_kvrep_htp_b2_sq128_skv128_d512_hq8_dh64_v7x_i32_f32_1_alg».proof.Proof.Gen.KernelIdeal
import proofs.«900512_g7700000000000513_dist_attn_cross_mha_kvrep_htp_b2_sq128_skv128_d512_hq8_dh64_v7x_i32_f32_1_alg».proof.Proof.Cube

set_option Elab.async false

namespace Cert.KernelIdeal.Net

open Idealize.ShloMosaic Cert.KernelIdeal Cert.KernelIdeal.Gen Cube

theorem dev1_eq : ∀ c : Dev nD, (⟨k0_dev1 c, k0_dev1_lt c⟩ : Dev nD) = nb 0 c := by decide +kernel
theorem dev2_eq : ∀ c : Dev nD, (⟨k0_dev2 c, k0_dev2_lt c⟩ : Dev nD) = nb 1 c := by decide +kernel
theorem dev3_eq : ∀ c : Dev nD, (⟨k0_dev3 c, k0_dev3_lt c⟩ : Dev nD) = nb 2 c := by decide +kernel
theorem dev4_eq : ∀ c : Dev nD, (⟨k0_dev4 c, k0_dev4_lt c⟩ : Dev nD) = nb 3 c := by decide +kernel
theorem dev5_eq : ∀ c : Dev nD, (⟨k0_dev5 c, k0_dev5_lt c⟩ : Dev nD) = nb 4 c := by decide +kernel
theorem dev6_eq : ∀ c : Dev nD, (⟨k0_dev6 c, k0_dev6_lt c⟩ : Dev nD) = nb 4 c := by decide +kernel
theorem dev7_eq : ∀ c : Dev nD, (⟨k0_dev7 c, k0_dev7_lt c⟩ : Dev nD) = nb 3 c := by decide +kernel
theorem dev8_eq : ∀ c : Dev nD, (⟨k0_dev8 c, k0_dev8_lt c⟩ : Dev nD) = nb 2 c := by decide +kernel
theorem dev9_eq : ∀ c : Dev nD, (⟨k0_dev9 c, k0_dev9_lt c⟩ : Dev nD) = nb 1 c := by decide +kernel
theorem dev10_eq : ∀ c : Dev nD, (⟨k0_dev10 c, k0_dev10_lt c⟩ : Dev nD) = nb 0 c := by decide +kernel
theorem dev11_eq : ∀ c : Dev nD, (⟨k0_dev11 c, k0_dev11_lt c⟩ : Dev nD) = nb 0 c := by decide +kernel
theorem dev12_eq : ∀ c : Dev nD, (⟨k0_dev12 c, k0_dev12_lt c⟩ : Dev nD) = nb 1 c := by decide +kernel
theorem dev13_eq : ∀ c : Dev nD, (⟨k0_dev13 c, k0_dev13_lt c⟩ : Dev nD) = nb 2 c := by decide +kernel
theorem dev14_eq : ∀ c : Dev nD, (⟨k0_dev14 c, k0_dev14_lt c⟩ : Dev nD) = nb 3 c := by decide +kernel
theorem dev15_eq : ∀ c : Dev nD, (⟨k0_dev15 c, k0_dev15_lt c⟩ : Dev nD) = nb 4 c := by decide +kernel

theorem off2_eq : ∀ c : Dev nD, k0_off2 c = ![sendS 0 c, 0] := by decide +kernel
theorem off3_eq : ∀ c : Dev nD, k0_off3 c = ![keepS 0 c, 0] := by decide +kernel
theorem off4_eq : ∀ c : Dev nD, k0_off4 c = ![sendS 1 c, 0] := by decide +kernel
theorem off5_eq : ∀ c : Dev nD, k0_off5 c = ![keepS 1 c, 0] := by decide +kernel
theorem off6_eq : ∀ c : Dev nD, k0_off6 c = ![sendS 2 c, 0] := by decide +kernel
theorem off7_eq : ∀ c : Dev nD, k0_off7 c = ![keepS 2 c, 0] := by decide +kernel
theorem off8_eq : ∀ c : Dev nD, k0_off8 c = ![sendS 3 c, 0] := by decide +kernel
theorem off9_eq : ∀ c : Dev nD, k0_off9 c = ![keepS 3 c, 0] := by decide +kernel
theorem off10_eq : ∀ c : Dev nD, k0_off10 c = ![sendS 4 c, 0] := by decide +kernel
theorem off11_eq : ∀ c : Dev nD, k0_off11 c = ![keepS 4 c, 0] := by decide +kernel
theorem off12_eq : ∀ c : Dev nD, k0_off12 c = ![agS 0 c, 0] := by decide +kernel
theorem off13_eq : ∀ c : Dev nD, k0_off13 c = ![agS 1 c, 0] := by decide +kernel
theorem off14_eq : ∀ c : Dev nD, k0_off14 c = ![agS 2 c, 0] := by decide +kernel
theorem off15_eq : ∀ c : Dev nD, k0_off15 c = ![agS 3 c, 0] := by decide +kernel
theorem off16_eq : ∀ c : Dev nD, k0_off16 c = ![agS 4 c, 0] := by decide +kernel

end Cert.KernelIdeal.Net
-- ==== Proof.Cells.lean ====
import proofs.«900512_g7700000000000513_dist_attn_cross_mha_kvrep_htp_b2_sq128_skv128_d512_hq8_dh64_v7x_i32_f32_1_alg».proof.Proof.Net
import proofs.«900512_g7700000000000513_dist_attn_cross_mha_kvrep_htp_b2_sq128_skv128_d512_hq8_dh64_v7x_i32_f32_1_alg».proof.Proof.Gen.KernelIdeal.Skeleton
import proofs.«900512_g7700000000000513_dist_attn_cross_mha_kvrep_htp_b2_sq128_skv128_d512_hq8_dh64_v7x_i32_f32_1_alg».proof.Proof.Gen.KernelIdeal.Launch
import proofs.«900512_g7700000000000513_dist_attn_cross_mha_kvrep_htp_b2_sq128_skv128_d512_hq8_dh64_v7x_i32_f32_1_alg».proof.Proof.Gen.KernelIdeal.Points
import proofs.«900512_g7700000000000513_dist_attn_cross_mha_kvrep_htp_b2_sq128_skv128_d512_hq8_dh64_v7x_i32_f32_1_alg».proof.Proof.Gen.KernelIdeal.Frame
import Idealize.ShloMosaic.Lib.Pipeline.Launch
import Idealize.ShloMosaic.Lib.Pipeline.Kit
import Idealize.ShloMosaic.Lib.Tactic
import Idealize.ShloMosaic.Lib.Transfers

noncomputable section

namespace Cert.KernelIdeal.Hyper

open Cert.KernelIdeal Cert.KernelIdeal.Gen Cert.KernelIdeal.Net Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 5)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER (F := F)).LandsIn (upEmb : UEmb _ (MT nD τ sig Unit (Elt F) ℕ UU ℕ)) := by unfold ER; infer_instance

-- a part of the body, or the body, at the kernel's own buffers and semaphores
abbrev atBufs.{u} {α : Sort u} (k : (a0 : Memref sig .tc .vmem S2x128x512 .f32) → a0.IsWhole → (a1 : Memref sig .tc .vmem S512x512 .f32) → a1.IsWhole → (a2 : Memref sig .tc .vmem S512x512 .f32) → a2.IsWhole → (a3 : Memref sig .tc .hbm S2x128x256x64 .f32) → a3.IsWhole → (a4 : Memref sig .tc .hbm S2x128x256x64 .f32) → a4.IsWhole → (a5 : Memref sig .tc .vmem S2x128x512 .f32) → a5.IsWhole → (a6 : Memref sig .tc .vmem S256x512 .f32) → a6.IsWhole → (a7 : Memref sig .tc .vmem S248x512 .f32) → a7.IsWhole → (a8 : Memref sig .tc .vmem S2x128x8x64 .f32) → a8.IsWhole → (a9 : Memref sig .tc .vmem S2x128x8x64 .f32) → a9.IsWhole → DmaSems sig S2 → DmaSems sig S5 → DmaSems sig S5 → DmaSems sig S5 → DmaSems sig S5 → α) : α :=
  k (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8

abbrev accM : Memref sig .tc .vmem S256x512 .f32 := Memref.whole cc0_scratch0
abbrev rcvM : Memref sig .tc .vmem S248x512 .f32 := Memref.whole cc0_scratch1
abbrev Acc : Type := (cc0_scratch0 : Ref sig .tc).ty.Contents (Elt F)

abbrev snd0 (c : Dev nD) : Memref sig .tc .vmem S128x512 .f32 := accM.slice (Rect.unit (s := S256x512) (k0_off2 c) S128x512.size (k0_off2_inb c)) (fun _ => rfl)
abbrev kpR0 (c : Dev nD) : Rect S256x512 := Rect.unit (s := S256x512) (k0_off3 c) S128x512.size (k0_off3_inb c)
abbrev rcR0 : Rect S248x512 := Rect.unit (s := S248x512) ![0, 0] S128x512.size inb_S248x512_S128x512_0_0
abbrev rcv0 : Memref sig .tc .vmem S128x512 .f32 := rcvM.slice rcR0 (fun _ => rfl)

abbrev snd1 (c : Dev nD) : Memref sig .tc .vmem S64x512 .f32 := accM.slice (Rect.unit (s := S256x512) (k0_off4 c) S64x512.size (k0_off4_inb c)) (fun _ => rfl)
abbrev kpR1 (c : Dev nD) : Rect S256x512 := Rect.unit (s := S256x512) (k0_off5 c) S64x512.size (k0_off5_inb c)
abbrev rcR1 : Rect S248x512 := Rect.unit (s := S248x512) ![128, 0] S64x512.size inb_S248x512_S64x512_128_0
abbrev rcv1 : Memref sig .tc .vmem S64x512 .f32 := rcvM.slice rcR1 (fun _ => rfl)

abbrev snd2 (c : Dev nD) : Memref sig .tc .vmem S32x512 .f32 := accM.slice (Rect.unit (s := S256x512) (k0_off6 c) S32x512.size (k0_off6_inb c)) (fun _ => rfl)
abbrev kpR2 (c : Dev nD) : Rect S256x512 := Rect.unit (s := S256x512) (k0_off7 c) S32x512.size (k0_off7_inb c)
abbrev rcR2 : Rect S248x512 := Rect.unit (s := S248x512) ![192, 0] S32x512.size inb_S248x512_S32x512_192_0
abbrev rcv2 : Memref sig .tc .vmem S32x512 .f32 := rcvM.slice rcR2 (fun _ => rfl)

abbrev snd3 (c : Dev nD) : Memref sig .tc .vmem S16x512 .f32 := accM.slice (Rect.unit (s := S256x512) (k0_off8 c) S16x512.size (k0_off8_inb c)) (fun _ => rfl)
abbrev kpR3 (c : Dev nD) : Rect S256x512 := Rect.unit (s := S256x512) (k0_off9 c) S16x512.size (k0_off9_inb c)
abbrev rcR3 : Rect S248x512 := Rect.unit (s := S248x512) ![224, 0] S16x512.size inb_S248x512_S16x512_224_0
abbrev rcv3 : Memref sig .tc .vmem S16x512 .f32 := rcvM.slice rcR3 (fun _ => rfl)

abbrev snd4 (c : Dev nD) : Memref sig .tc .vmem S8x512 .f32 := accM.slice (Rect.unit (s := S256x512) (k0_off10 c) S8x512.size (k0_off10_inb c)) (fun _ => rfl)
abbrev kpR4 (c : Dev nD) : Rect S256x512 := Rect.unit (s := S256x512) (k0_off11 c) S8x512.size (k0_off11_inb c)
abbrev rcR4 : Rect S248x512 := Rect.unit (s := S248x512) ![240, 0] S8x512.size inb_S248x512_S8x512_240_0
abbrev rcv4 : Memref sig .tc .vmem S8x512 .f32 := rcvM.slice rcR4 (fun _ => rfl)

abbrev ag0 (c : Dev nD) : Memref sig .tc .vmem S8x512 .f32 := accM.slice (Rect.unit (s := S256x512) (k0_off12 c) S8x512.size (k0_off12_inb c)) (fun _ => rfl)

abbrev ag1 (c : Dev nD) : Memref sig .tc .vmem S16x512 .f32 := accM.slice (Rect.unit (s := S256x512) (k0_off13 c) S16x512.size (k0_off13_inb c)) (fun _ => rfl)

abbrev ag2 (c : Dev nD) : Memref sig .tc .vmem S32x512 .f32 := accM.slice (Rect.unit (s := S256x512) (k0_off14 c) S32x512.size (k0_off14_inb c)) (fun _ => rfl)

abbrev ag3 (c : Dev nD) : Memref sig .tc .vmem S64x512 .f32 := accM.slice (Rect.unit (s := S256x512) (k0_off15 c) S64x512.size (k0_off15_inb c)) (fun _ => rfl)

abbrev ag4 (c : Dev nD) : Memref sig .tc .vmem S128x512 .f32 := accM.slice (Rect.unit (s := S256x512) (k0_off16 c) S128x512.size (k0_off16_inb c)) (fun _ => rfl)

variable (A0 : Dev nD → (cc0_scratch0 : Ref sig .tc).ty.Contents (Elt F))

def A1 (c : Dev nD) : (cc0_scratch0 : Ref sig .tc).ty.Contents (Elt F) :=
  (accM.access (kpR0 c) : View sig .tc _ _ _).write (Elt F) (A0 c)
    (k0_pay37 (accM.view.readAt (Elt F) (kpR0 c).toLoadRect (A0 c))
      ((snd0 (nb 4 c)).view.read (Elt F) (A0 (nb 4 c)))) Finset.univ
def A2 (c : Dev nD) : (cc0_scratch0 : Ref sig .tc).ty.Contents (Elt F) :=
  (accM.access (kpR1 c) : View sig .tc _ _ _).write (Elt F) (A1 A0 c)
    (k0_pay38 (accM.view.readAt (Elt F) (kpR1 c).toLoadRect (A1 A0 c))
      ((snd1 (nb 3 c)).view.read (Elt F) (A1 A0 (nb 3 c)))) Finset.univ
def A3 (c : Dev nD) : (cc0_scratch0 : Ref sig .tc).ty.Contents (Elt F) :=
  (accM.access (kpR2 c) : View sig .tc _ _ _).write (Elt F) (A2 A0 c)
    (k0_pay39 (accM.view.readAt (Elt F) (kpR2 c).toLoadRect (A2 A0 c))
      ((snd2 (nb 2 c)).view.read (Elt F) (A2 A0 (nb 2 c)))) Finset.univ
def A4 (c : Dev nD) : (cc0_scratch0 : Ref sig .tc).ty.Contents (Elt F) :=
  (accM.access (kpR3 c) : View sig .tc _ _ _).write (Elt F) (A3 A0 c)
    (k0_pay40 (accM.view.readAt (Elt F) (kpR3 c).toLoadRect (A3 A0 c))
      ((snd3 (nb 1 c)).view.read (Elt F) (A3 A0 (nb 1 c)))) Finset.univ
def A5 (c : Dev nD) : (cc0_scratch0 : Ref sig .tc).ty.Contents (Elt F) :=
  (accM.access (kpR4 c) : View sig .tc _ _ _).write (Elt F) (A4 A0 c)
    (k0_pay41 (accM.view.readAt (Elt F) (kpR4 c).toLoadRect (A4 A0 c))
      ((snd4 (nb 0 c)).view.read (Elt F) (A4 A0 (nb 0 c)))) Finset.univ
abbrev G0 (c : Dev nD) : (cc0_scratch0 : Ref sig .tc).ty.Contents (Elt F) := A5 A0 c
def G1 (c : Dev nD) : (cc0_scratch0 : Ref sig .tc).ty.Contents (Elt F) :=
  (ag0 (nb 0 c)).view.write (Elt F) (G0 A0 c) ((ag0 (nb 0 c)).view.read (Elt F) (G0 A0 (nb 0 c))) Finset.univ
def G2 (c : Dev nD) : (cc0_scratch0 : Ref sig .tc).ty.Contents (Elt F) :=
  (ag1 (nb 1 c)).view.write (Elt F) (G1 A0 c) ((ag1 (nb 1 c)).view.read (Elt F) (G1 A0 (nb 1 c))) Finset.univ
def G3 (c : Dev nD) : (cc0_scratch0 : Ref sig .tc).ty.Contents (Elt F) :=
  (ag2 (nb 2 c)).view.write (Elt F) (G2 A0 c) ((ag2 (nb 2 c)).view.read (Elt F) (G2 A0 (nb 2 c))) Finset.univ
def G4 (c : Dev nD) : (cc0_scratch0 : Ref sig .tc).ty.Contents (Elt F) :=
  (ag3 (nb 3 c)).view.write (Elt F) (G3 A0 c) ((ag3 (nb 3 c)).view.read (Elt F) (G3 A0 (nb 3 c))) Finset.univ
def G5 (c : Dev nD) : (cc0_scratch0 : Ref sig .tc).ty.Contents (Elt F) :=
  (ag4 (nb 4 c)).view.write (Elt F) (G4 A0 c) ((ag4 (nb 4 c)).view.read (Elt F) (G4 A0 (nb 4 c))) Finset.univ

def outV (c : Dev nD) : (cc0_stg3_0 : Ref sig .tc).ty.Contents (Elt F) := k0_pay1 (G5 A0 c)

abbrev barS : Sem sig := (SemArray.scalar (sig.barrier 0 rfl) : Sems sig S_).sem
abbrev rsS0 : DmaSem sig := ((cc0_scratch5.slice (Rect.unit (s := S5) ![0] S1.size inb_S5_S1_0)).squeeze S_ squeezes_S1_S_).sem
abbrev rsS1 : DmaSem sig := ((cc0_scratch5.slice (Rect.unit (s := S5) ![1] S1.size inb_S5_S1_1)).squeeze S_ squeezes_S1_S_).sem
abbrev rsS2 : DmaSem sig := ((cc0_scratch5.slice (Rect.unit (s := S5) ![2] S1.size inb_S5_S1_2)).squeeze S_ squeezes_S1_S_).sem
abbrev rsS3 : DmaSem sig := ((cc0_scratch5.slice (Rect.unit (s := S5) ![3] S1.size inb_S5_S1_3)).squeeze S_ squeezes_S1_S_).sem
abbrev rsS4 : DmaSem sig := ((cc0_scratch5.slice (Rect.unit (s := S5) ![4] S1.size inb_S5_S1_4)).squeeze S_ squeezes_S1_S_).sem
abbrev rsR0 : DmaSem sig := ((cc0_scratch6.slice (Rect.unit (s := S5) ![0] S1.size inb_S5_S1_0)).squeeze S_ squeezes_S1_S_).sem
abbrev rsR1 : DmaSem sig := ((cc0_scratch6.slice (Rect.unit (s := S5) ![1] S1.size inb_S5_S1_1)).squeeze S_ squeezes_S1_S_).sem
abbrev rsR2 : DmaSem sig := ((cc0_scratch6.slice (Rect.unit (s := S5) ![2] S1.size inb_S5_S1_2)).squeeze S_ squeezes_S1_S_).sem
abbrev rsR3 : DmaSem sig := ((cc0_scratch6.slice (Rect.unit (s := S5) ![3] S1.size inb_S5_S1_3)).squeeze S_ squeezes_S1_S_).sem
abbrev rsR4 : DmaSem sig := ((cc0_scratch6.slice (Rect.unit (s := S5) ![4] S1.size inb_S5_S1_4)).squeeze S_ squeezes_S1_S_).sem
abbrev agS0 : DmaSem sig := ((cc0_scratch7.slice (Rect.unit (s := S5) ![0] S1.size inb_S5_S1_0)).squeeze S_ squeezes_S1_S_).sem
abbrev agS1 : DmaSem sig := ((cc0_scratch7.slice (Rect.unit (s := S5) ![1] S1.size inb_S5_S1_1)).squeeze S_ squeezes_S1_S_).sem
abbrev agS2 : DmaSem sig := ((cc0_scratch7.slice (Rect.unit (s := S5) ![2] S1.size inb_S5_S1_2)).squeeze S_ squeezes_S1_S_).sem
abbrev agS3 : DmaSem sig := ((cc0_scratch7.slice (Rect.unit (s := S5) ![3] S1.size inb_S5_S1_3)).squeeze S_ squeezes_S1_S_).sem
abbrev agS4 : DmaSem sig := ((cc0_scratch7.slice (Rect.unit (s := S5) ![4] S1.size inb_S5_S1_4)).squeeze S_ squeezes_S1_S_).sem
abbrev agR0 : DmaSem sig := ((cc0_scratch8.slice (Rect.unit (s := S5) ![0] S1.size inb_S5_S1_0)).squeeze S_ squeezes_S1_S_).sem
abbrev agR1 : DmaSem sig := ((cc0_scratch8.slice (Rect.unit (s := S5) ![1] S1.size inb_S5_S1_1)).squeeze S_ squeezes_S1_S_).sem
abbrev agR2 : DmaSem sig := ((cc0_scratch8.slice (Rect.unit (s := S5) ![2] S1.size inb_S5_S1_2)).squeeze S_ squeezes_S1_S_).sem
abbrev agR3 : DmaSem sig := ((cc0_scratch8.slice (Rect.unit (s := S5) ![3] S1.size inb_S5_S1_3)).squeeze S_ squeezes_S1_S_).sem
abbrev agR4 : DmaSem sig := ((cc0_scratch8.slice (Rect.unit (s := S5) ![4] S1.size inb_S5_S1_4)).squeeze S_ squeezes_S1_S_).sem

abbrev cell (c : Dev nD) (s : SemLoc sig) : GSem nD τ sig := ((c : Thread nD τ), s)

def slot : SemLoc sig → ℕ
  | .reg _ => 0
  | .dma n => n.val + 1

abbrev NR0 : ℕ := rcv0.view.dmaCredit
abbrev NR1 : ℕ := rcv1.view.dmaCredit
abbrev NR2 : ℕ := rcv2.view.dmaCredit
abbrev NR3 : ℕ := rcv3.view.dmaCredit
abbrev NR4 : ℕ := rcv4.view.dmaCredit
abbrev NG0 : ℕ := (ag0 (0 : Dev nD)).view.dmaCredit
abbrev NG1 : ℕ := (ag1 (0 : Dev nD)).view.dmaCredit
abbrev NG2 : ℕ := (ag2 (0 : Dev nD)).view.dmaCredit
abbrev NG3 : ℕ := (ag3 (0 : Dev nD)).view.dmaCredit
abbrev NG4 : ℕ := (ag4 (0 : Dev nD)).view.dmaCredit

def amt : ℕ → ℕ
  | 7 => NR0
  | 8 => NR1
  | 9 => NR2
  | 10 => NR3
  | 11 => NR4
  | 12 => NR0
  | 13 => NR1
  | 14 => NR2
  | 15 => NR3
  | 16 => NR4
  | 17 => NG0
  | 18 => NG1
  | 19 => NG2
  | 20 => NG3
  | 21 => NG4
  | 22 => NG0
  | 23 => NG1
  | 24 => NG2
  | 25 => NG3
  | 26 => NG4
  | _ => 1

theorem amt_pos (s : ℕ) : 0 < amt s := by
  unfold amt
  split <;> first | exact Nat.one_pos | exact View.dmaCredit_pos _ (by decide)

def barPay (c : Dev nD) : Fin 5 → sProp 𝕄
  | 0 => iprop(∃ q : Dev nD, ⌜q = nb 0 c⌝ ∗ ∃ f : Buf (Elt F) (rcv4.view.loc (q : Thread nD τ)), rcv4.view.loc (q : Thread nD τ) ↦[rcv4.view.set]{fullShare} f)
  | 1 => iprop(∃ q : Dev nD, ⌜q = nb 1 c⌝ ∗ ∃ f : Buf (Elt F) (rcv3.view.loc (q : Thread nD τ)), rcv3.view.loc (q : Thread nD τ) ↦[rcv3.view.set]{fullShare} f)
  | 2 => iprop(∃ q : Dev nD, ⌜q = nb 2 c⌝ ∗ ∃ f : Buf (Elt F) (rcv2.view.loc (q : Thread nD τ)), rcv2.view.loc (q : Thread nD τ) ↦[rcv2.view.set]{fullShare} f)
  | 3 => iprop(∃ q : Dev nD, ⌜q = nb 3 c⌝ ∗ ∃ f : Buf (Elt F) (rcv1.view.loc (q : Thread nD τ)), rcv1.view.loc (q : Thread nD τ) ↦[rcv1.view.set]{fullShare} f)
  | 4 => iprop(∃ q : Dev nD, ⌜q = nb 4 c⌝ ∗ ∃ f : Buf (Elt F) (rcv0.view.loc (q : Thread nD τ)), rcv0.view.loc (q : Thread nD τ) ↦[rcv0.view.set]{fullShare} f)

def rsPay0 (c : Dev nD) : sProp 𝕄 :=
  iprop(∃ q : Dev nD, ⌜q = nb 4 c⌝ ∗ ∃ fd : Buf (Elt F) (rcv0.view.loc (c : Thread nD τ)),
    (rcv0.view.loc (c : Thread nD τ) ↦[rcv0.view.set]{fullShare}
        rcv0.view.write (Elt F) fd ((snd0 q).view.read (Elt F) (A0 q)) Finset.univ)
      ∗ ((snd0 q).view.loc (q : Thread nD τ) ↦[(snd0 q).view.set]{fullShare} A0 q))

def rsPay1 (c : Dev nD) : sProp 𝕄 :=
  iprop(∃ q : Dev nD, ⌜q = nb 3 c⌝ ∗ ∃ fd : Buf (Elt F) (rcv1.view.loc (c : Thread nD τ)),
    (rcv1.view.loc (c : Thread nD τ) ↦[rcv1.view.set]{fullShare}
        rcv1.view.write (Elt F) fd ((snd1 q).view.read (Elt F) (A1 A0 q)) Finset.univ)
      ∗ ((snd1 q).view.loc (q : Thread nD τ) ↦[(snd1 q).view.set]{fullShare} A1 A0 q))

def rsPay2 (c : Dev nD) : sProp 𝕄 :=
  iprop(∃ q : Dev nD, ⌜q = nb 2 c⌝ ∗ ∃ fd : Buf (Elt F) (rcv2.view.loc (c : Thread nD τ)),
    (rcv2.view.loc (c : Thread nD τ) ↦[rcv2.view.set]{fullShare}
        rcv2.view.write (Elt F) fd ((snd2 q).view.read (Elt F) (A2 A0 q)) Finset.univ)
      ∗ ((snd2 q).view.loc (q : Thread nD τ) ↦[(snd2 q).view.set]{fullShare} A2 A0 q))

def rsPay3 (c : Dev nD) : sProp 𝕄 :=
  iprop(∃ q : Dev nD, ⌜q = nb 1 c⌝ ∗ ∃ fd : Buf (Elt F) (rcv3.view.loc (c : Thread nD τ)),
    (rcv3.view.loc (c : Thread nD τ) ↦[rcv3.view.set]{fullShare}
        rcv3.view.write (Elt F) fd ((snd3 q).view.read (Elt F) (A3 A0 q)) Finset.univ)
      ∗ ((snd3 q).view.loc (q : Thread nD τ) ↦[(snd3 q).view.set]{fullShare} A3 A0 q))

def rsPay4 (c : Dev nD) : sProp 𝕄 :=
  iprop(∃ q : Dev nD, ⌜q = nb 0 c⌝ ∗ ∃ fd : Buf (Elt F) (rcv4.view.loc (c : Thread nD τ)),
    (rcv4.view.loc (c : Thread nD τ) ↦[rcv4.view.set]{fullShare}
        rcv4.view.write (Elt F) fd ((snd4 q).view.read (Elt F) (A4 A0 q)) Finset.univ)
      ∗ ((snd4 q).view.loc (q : Thread nD τ) ↦[(snd4 q).view.set]{fullShare} A4 A0 q))

def agSPay0 (c : Dev nD) : sProp 𝕄 :=
  (ag0 c).view.loc (c : Thread nD τ) ↦[(ag0 c).view.set]{fullShare} G0 A0 c
def agRPay0 (c : Dev nD) : sProp 𝕄 :=
  iprop(∃ q : Dev nD, ⌜q = nb 0 c⌝ ∗ ((ag0 q).view.loc (c : Thread nD τ) ↦[(ag0 q).view.set]{fullShare}
    (ag0 q).view.write (Elt F) (A4 A0 c) ((ag0 q).view.read (Elt F) (G0 A0 q)) Finset.univ))

def agSPay1 (c : Dev nD) : sProp 𝕄 :=
  (ag1 c).view.loc (c : Thread nD τ) ↦[(ag1 c).view.set]{fullShare} G1 A0 c
def agRPay1 (c : Dev nD) : sProp 𝕄 :=
  iprop(∃ q : Dev nD, ⌜q = nb 1 c⌝ ∗ ((ag1 q).view.loc (c : Thread nD τ) ↦[(ag1 q).view.set]{fullShare}
    (ag1 q).view.write (Elt F) (A3 A0 c) ((ag1 q).view.read (Elt F) (G1 A0 q)) Finset.univ))

def agSPay2 (c : Dev nD) : sProp 𝕄 :=
  (ag2 c).view.loc (c : Thread nD τ) ↦[(ag2 c).view.set]{fullShare} G2 A0 c
def agRPay2 (c : Dev nD) : sProp 𝕄 :=
  iprop(∃ q : Dev nD, ⌜q = nb 2 c⌝ ∗ ((ag2 q).view.loc (c : Thread nD τ) ↦[(ag2 q).view.set]{fullShare}
    (ag2 q).view.write (Elt F) (A2 A0 c) ((ag2 q).view.read (Elt F) (G2 A0 q)) Finset.univ))

def agSPay3 (c : Dev nD) : sProp 𝕄 :=
  (ag3 c).view.loc (c : Thread nD τ) ↦[(ag3 c).view.set]{fullShare} G3 A0 c
def agRPay3 (c : Dev nD) : sProp 𝕄 :=
  iprop(∃ q : Dev nD, ⌜q = nb 3 c⌝ ∗ ((ag3 q).view.loc (c : Thread nD τ) ↦[(ag3 q).view.set]{fullShare}
    (ag3 q).view.write (Elt F) (A1 A0 c) ((ag3 q).view.read (Elt F) (G3 A0 q)) Finset.univ))

def agSPay4 (c : Dev nD) : sProp 𝕄 :=
  (ag4 c).view.loc (c : Thread nD τ) ↦[(ag4 c).view.set]{fullShare} G4 A0 c
def agRPay4 (c : Dev nD) : sProp 𝕄 :=
  iprop(∃ q : Dev nD, ⌜q = nb 4 c⌝ ∗ ((ag4 q).view.loc (c : Thread nD τ) ↦[(ag4 q).view.set]{fullShare}
    (ag4 q).view.write (Elt F) (A0 c) ((ag4 q).view.read (Elt F) (G4 A0 q)) Finset.univ))

def pay (c : Dev nD) : ℕ → Fin 5 → sProp 𝕄
  | 0, d => barPay c d
  | 12, _ => rsPay0 A0 c
  | 13, _ => rsPay1 A0 c
  | 14, _ => rsPay2 A0 c
  | 15, _ => rsPay3 A0 c
  | 16, _ => rsPay4 A0 c
  | 17, _ => agSPay0 A0 c
  | 18, _ => agSPay1 A0 c
  | 19, _ => agSPay2 A0 c
  | 20, _ => agSPay3 A0 c
  | 21, _ => agSPay4 A0 c
  | 22, _ => agRPay0 A0 c
  | 23, _ => agRPay1 A0 c
  | 24, _ => agRPay2 A0 c
  | 25, _ => agRPay3 A0 c
  | 26, _ => agRPay4 A0 c
  | _, _ => iprop(emp)

def Rd : Rounds.Schedule (GSem nD τ sig) (Fin 5) 𝕄 where
  duties g r := if r = 0 ∧ g.1.2 = .tc then (if slot g.2 = 0 then Finset.univ else if 7 ≤ slot g.2 then {0} else ∅) else ∅
  amount g _ _ := amt (slot g.2)
  payload g _ d := pay A0 g.1.1 (slot g.2) d
  amount_pos g _ _ _ := amt_pos _
  unitless _ := False

instance Rd_payload_storable (g : GSem nD τ sig) (r : ℕ) (d : Fin 5) :
    BI.Storable (upEmb : UEmb _ 𝕄) ((Rd (F := F) A0).payload g r d) := by
  show BI.Storable upEmb (pay A0 g.1.1 (slot g.2) d)
  unfold pay
  split <;> first
    | infer_instance
    | (unfold barPay; split <;> infer_instance)
    | (unfold rsPay0; infer_instance) | (unfold rsPay1; infer_instance) | (unfold rsPay2; infer_instance) | (unfold rsPay3; infer_instance) | (unfold rsPay4; infer_instance)
    | (unfold agSPay0; infer_instance) | (unfold agSPay1; infer_instance) | (unfold agSPay2; infer_instance) | (unfold agSPay3; infer_instance) | (unfold agSPay4; infer_instance)
    | (unfold agRPay0; infer_instance) | (unfold agRPay1; infer_instance) | (unfold agRPay2; infer_instance) | (unfold agRPay3; infer_instance) | (unfold agRPay4; infer_instance)

theorem slot_bar : slot (.reg barS : SemLoc sig) = 0 := rfl
theorem slot_rsS0 : slot (.dma rsS0 : SemLoc sig) = 7 := by decide
theorem slot_rsS1 : slot (.dma rsS1 : SemLoc sig) = 8 := by decide
theorem slot_rsS2 : slot (.dma rsS2 : SemLoc sig) = 9 := by decide
theorem slot_rsS3 : slot (.dma rsS3 : SemLoc sig) = 10 := by decide
theorem slot_rsS4 : slot (.dma rsS4 : SemLoc sig) = 11 := by decide
theorem slot_rsR0 : slot (.dma rsR0 : SemLoc sig) = 12 := by decide
theorem slot_rsR1 : slot (.dma rsR1 : SemLoc sig) = 13 := by decide
theorem slot_rsR2 : slot (.dma rsR2 : SemLoc sig) = 14 := by decide
theorem slot_rsR3 : slot (.dma rsR3 : SemLoc sig) = 15 := by decide
theorem slot_rsR4 : slot (.dma rsR4 : SemLoc sig) = 16 := by decide
theorem slot_agS0 : slot (.dma agS0 : SemLoc sig) = 17 := by decide
theorem slot_agS1 : slot (.dma agS1 : SemLoc sig) = 18 := by decide
theorem slot_agS2 : slot (.dma agS2 : SemLoc sig) = 19 := by decide
theorem slot_agS3 : slot (.dma agS3 : SemLoc sig) = 20 := by decide
theorem slot_agS4 : slot (.dma agS4 : SemLoc sig) = 21 := by decide
theorem slot_agR0 : slot (.dma agR0 : SemLoc sig) = 22 := by decide
theorem slot_agR1 : slot (.dma agR1 : SemLoc sig) = 23 := by decide
theorem slot_agR2 : slot (.dma agR2 : SemLoc sig) = 24 := by decide
theorem slot_agR3 : slot (.dma agR3 : SemLoc sig) = 25 := by decide
theorem slot_agR4 : slot (.dma agR4 : SemLoc sig) = 26 := by decide

section Tables
variable (c : Dev nD)

theorem duties_bar : (Rd (F := F) A0).duties (cell c (.reg barS)) 0 = Finset.univ := by
  dsimp only [Rd]; rw [if_pos ⟨rfl, rfl⟩, if_pos slot_bar]
theorem duties_dma (s : DmaSem sig) (h : 7 ≤ slot (.dma s : SemLoc sig)) : (Rd (F := F) A0).duties (cell c (.dma s)) 0 = {0} := by
  dsimp only [Rd]; rw [if_pos ⟨rfl, rfl⟩, if_neg (by omega), if_pos h]
theorem duties_later (g : GSem nD τ sig) : ∀ r, 1 ≤ r → (Rd (F := F) A0).duties g r = ∅ :=
  fun r hr => by dsimp only [Rd]; rw [if_neg fun h => by omega]
theorem amount_eq (s : SemLoc sig) (r : ℕ) (d : Fin 5) : (Rd (F := F) A0).amount (cell c s) r d = amt (slot s) := rfl
theorem payload_eq (s : SemLoc sig) (r : ℕ) (d : Fin 5) : (Rd (F := F) A0).payload (cell c s) r d = pay A0 c (slot s) d := rfl

theorem expect_bar : (Rd (F := F) A0).expect (cell c (.reg barS)) 0 = 5 := by
  unfold Schedule.expect Schedule.amountOf
  rw [duties_bar, Finset.sum_congr rfl fun d _ => amount_eq A0 c (.reg barS) 0 d, Finset.sum_const, Finset.card_univ, Fintype.card_fin, smul_eq_mul]
  rfl
theorem expect_dma (s : DmaSem sig) (h : 7 ≤ slot (.dma s : SemLoc sig)) : (Rd (F := F) A0).expect (cell c (.dma s)) 0 = amt (slot (.dma s : SemLoc sig)) := by
  unfold Schedule.expect Schedule.amountOf; rw [duties_dma A0 c s h, Finset.sum_singleton, amount_eq]

theorem rest_dma (s : DmaSem sig) (h : 7 ≤ slot (.dma s : SemLoc sig)) :
    bigSep ((Rd (F := F) A0).duties (cell c (.dma s)) 0 \ ∅) (fun d => (Rd (F := F) A0).payload (cell c (.dma s)) 0 d) = pay A0 c (slot (.dma s : SemLoc sig)) 0 := by
  rw [Finset.sdiff_empty, duties_dma A0 c s h, bigSep_singleton, payload_eq]

theorem rest_bar :
    bigSep ((Rd (F := F) A0).duties (cell c (.reg barS)) 0 \ ∅) (fun d => (Rd (F := F) A0).payload (cell c (.reg barS)) 0 d)
      = iprop(barPay (F := F) c 0 ∗ barPay (F := F) c 1 ∗ barPay (F := F) c 2 ∗ barPay (F := F) c 3 ∗ barPay (F := F) c 4) := by
  rw [Finset.sdiff_empty, duties_bar, bigSep_univ_eq_bigSepL [(0 : Fin 5), 1, 2, 3, 4] (by decide) (by decide)]
  rfl

end Tables

def Ow15 (c : Dev nD) : CellTallies nD τ sig Unit := 0
def Ow14 (c : Dev nD) : CellTallies nD τ sig Unit := Ow15 c + tallyAt (cell (nb 4 c) (.dma agR4)) () NG4
def Ow13 (c : Dev nD) : CellTallies nD τ sig Unit := Ow14 c + tallyAt (cell (nb 3 c) (.dma agR3)) () NG3
def Ow12 (c : Dev nD) : CellTallies nD τ sig Unit := Ow13 c + tallyAt (cell (nb 2 c) (.dma agR2)) () NG2
def Ow11 (c : Dev nD) : CellTallies nD τ sig Unit := Ow12 c + tallyAt (cell (nb 1 c) (.dma agR1)) () NG1
def Ow10 (c : Dev nD) : CellTallies nD τ sig Unit := Ow11 c + tallyAt (cell (nb 0 c) (.dma agR0)) () NG0
def Ow9 (c : Dev nD) : CellTallies nD τ sig Unit := Ow10 c + tallyAt (cell (nb 0 c) (.dma rsR4)) () NR4
def Ow8 (c : Dev nD) : CellTallies nD τ sig Unit := Ow9 c + tallyAt (cell (nb 1 c) (.dma rsR3)) () NR3
def Ow7 (c : Dev nD) : CellTallies nD τ sig Unit := Ow8 c + tallyAt (cell (nb 2 c) (.dma rsR2)) () NR2
def Ow6 (c : Dev nD) : CellTallies nD τ sig Unit := Ow7 c + tallyAt (cell (nb 3 c) (.dma rsR1)) () NR1
def Ow5 (c : Dev nD) : CellTallies nD τ sig Unit := Ow6 c + tallyAt (cell (nb 4 c) (.dma rsR0)) () NR0
def Ow4 (c : Dev nD) : CellTallies nD τ sig Unit := Ow5 c + tallyAt (cell (nb 4 c) (.reg barS)) () 1
def Ow3 (c : Dev nD) : CellTallies nD τ sig Unit := Ow4 c + tallyAt (cell (nb 3 c) (.reg barS)) () 1
def Ow2 (c : Dev nD) : CellTallies nD τ sig Unit := Ow3 c + tallyAt (cell (nb 2 c) (.reg barS)) () 1
def Ow1 (c : Dev nD) : CellTallies nD τ sig Unit := Ow2 c + tallyAt (cell (nb 1 c) (.reg barS)) () 1
def Ow0 (c : Dev nD) : CellTallies nD τ sig Unit := Ow1 c + tallyAt (cell (nb 0 c) (.reg barS)) () 1

def L (g : GSem nD τ sig) : Finset Unit := if g.1.2 = .tc then {()} else ∅

def lvS : ℕ → ℕ
  | 0 => 1
  | 12 => 2
  | 13 => 3
  | 14 => 4
  | 15 => 5
  | 16 => 6
  | 22 => 7
  | 23 => 8
  | 24 => 9
  | 25 => 10
  | 26 => 11
  | _ => 0
def lv (g : GSem nD τ sig) (_ : Unit) : ℕ := lvS (slot g.2)

theorem L_of_ne (g : GSem nD τ sig) (h : g.1.2 ≠ .tc) : L g = ∅ := if_neg h
theorem L_tc (c : Dev nD) (sm : SemLoc sig) : L ((c : Thread nD τ), sm) = {()} := if_pos rfl

theorem mayWait_of (c : Dev nD) (s : SemLoc sig) (O : CellTallies nD τ sig Unit)
    (hO : ∀ (g : GSem nD τ sig) (u : Unit), 0 < O g u → g.1.2 = .tc ∧ lvS (slot s) < lvS (slot g.2)) :
    (levAts L lv : sProp 𝕄) ⊢ MayWait (c : Thread nD τ) s () O :=
  MayOwe.of_cut (L := L) (lev := lv) (lvS (slot s))
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_refl _)
    (fun g u hg => (hO g u hg).2)

end Cert.KernelIdeal.Hyper

end
-- ==== Proof.A0Def.lean ====
import proofs.«900512_g7700000000000513_dist_attn_cross_mha_kvrep_htp_b2_sq128_skv128_d512_hq8_dh64_v7x_i32_f32_1_alg».proof.Proof.Gen.KernelIdeal.Skeleton

noncomputable section

namespace Cert.KernelIdeal.Comp

open Cert.KernelIdeal Cert.KernelIdeal.Gen

open Idealize.ShloMosaic Idealize.SL.Sem

variable {F : FTy → Type} [FloatOps F]

abbrev ldK (kc : Vec F S2x128x8x64 .f32) (r : Rect S2x128x8x64) :=
  (Memref.whole cc0_scratch2 : Memref sig .tc .vmem S2x128x8x64 .f32).view.readAt (Elt F) r.toLoadRect kc

abbrev ldV (vc : Vec F S2x128x8x64 .f32) (r : Rect S2x128x8x64) :=
  (Memref.whole cc0_scratch3 : Memref sig .tc .vmem S2x128x8x64 .f32).view.readAt (Elt F) r.toLoadRect vc

section
variable (x : Vec F S2x128x512 .f32) (wq : Vec F S512x512 .f32) (kc vc : Vec F S2x128x8x64 .f32)

def qVal : FVec F S256x512 .f32 := k0_pay2 x wq

def o00 : FVec F S128x64 .f32 :=
  k0_pay6
    (k0_pay3 (ldV vc (Rect.unit (s := S2x128x8x64) ![0, 0, 0, 0] S1x128x1x64.size inb_S2x128x8x64_S1x128x1x64_0_0_0_0)))
    (k0_pay4 x wq (ldK kc (Rect.unit (s := S2x128x8x64) ![0, 0, 0, 0] S1x128x1x64.size inb_S2x128x8x64_S1x128x1x64_0_0_0_0)))
    (k0_pay5 x wq (ldK kc (Rect.unit (s := S2x128x8x64) ![0, 0, 0, 0] S1x128x1x64.size inb_S2x128x8x64_S1x128x1x64_0_0_0_0)))

def o01 : FVec F S128x64 .f32 :=
  k0_pay7 (qVal x wq)
    (ldK kc (Rect.unit (s := S2x128x8x64) ![0, 0, 1, 0] S1x128x1x64.size inb_S2x128x8x64_S1x128x1x64_0_0_1_0))
    (ldV vc (Rect.unit (s := S2x128x8x64) ![0, 0, 1, 0] S1x128x1x64.size inb_S2x128x8x64_S1x128x1x64_0_0_1_0))

def o02 : FVec F S128x64 .f32 :=
  k0_pay11
    (k0_pay8 (ldV vc (Rect.unit (s := S2x128x8x64) ![0, 0, 2, 0] S1x128x1x64.size inb_S2x128x8x64_S1x128x1x64_0_0_2_0)))
    (k0_pay9 (qVal x wq) (ldK kc (Rect.unit (s := S2x128x8x64) ![0, 0, 2, 0] S1x128x1x64.size inb_S2x128x8x64_S1x128x1x64_0_0_2_0)))
    (k0_pay10 (qVal x wq) (ldK kc (Rect.unit (s := S2x128x8x64) ![0, 0, 2, 0] S1x128x1x64.size inb_S2x128x8x64_S1x128x1x64_0_0_2_0)))

def o03 : FVec F S128x64 .f32 :=
  k0_pay12 (qVal x wq)
    (ldK kc (Rect.unit (s := S2x128x8x64) ![0, 0, 3, 0] S1x128x1x64.size inb_S2x128x8x64_S1x128x1x64_0_0_3_0))
    (ldV vc (Rect.unit (s := S2x128x8x64) ![0, 0, 3, 0] S1x128x1x64.size inb_S2x128x8x64_S1x128x1x64_0_0_3_0))

def o04 : FVec F S128x64 .f32 :=
  k0_pay15
    (k0_pay13 (ldV vc (Rect.unit (s := S2x128x8x64) ![0, 0, 4, 0] S1x128x1x64.size inb_S2x128x8x64_S1x128x1x64_0_0_4_0)))
    (k0_pay14 (qVal x wq) (ldK kc (Rect.unit (s := S2x128x8x64) ![0, 0, 4, 0] S1x128x1x64.size inb_S2x128x8x64_S1x128x1x64_0_0_4_0)))

def o05 : FVec F S128x64 .f32 :=
  k0_pay16 (qVal x wq)
    (ldK kc (Rect.unit (s := S2x128x8x64) ![0, 0, 5, 0] S1x128x1x64.size inb_S2x128x8x64_S1x128x1x64_0_0_5_0))
    (ldV vc (Rect.unit (s := S2x128x8x64) ![0, 0, 5, 0] S1x128x1x64.size inb_S2x128x8x64_S1x128x1x64_0_0_5_0))

def att0 : FVec F S128x512 .f32 :=
  k0_pay19 (qVal x wq) (o00 x wq kc vc) (o01 x wq kc vc) (o02 x wq kc vc) (o03 x wq kc vc) (o04 x wq kc vc) (o05 x wq kc vc)
    (k0_pay17 (ldV vc (Rect.unit (s := S2x128x8x64) ![0, 0, 6, 0] S1x128x1x64.size inb_S2x128x8x64_S1x128x1x64_0_0_6_0)))
    (k0_pay18 (qVal x wq) (ldK kc (Rect.unit (s := S2x128x8x64) ![0, 0, 6, 0] S1x128x1x64.size inb_S2x128x8x64_S1x128x1x64_0_0_6_0)))
    (Scalar.ofBits .f32 0x3E000000#32)
    (ldK kc (Rect.unit (s := S2x128x8x64) ![0, 0, 7, 0] S1x128x1x64.size inb_S2x128x8x64_S1x128x1x64_0_0_7_0))
    (ldV vc (Rect.unit (s := S2x128x8x64) ![0, 0, 7, 0] S1x128x1x64.size inb_S2x128x8x64_S1x128x1x64_0_0_7_0))

def o10 : FVec F S128x64 .f32 :=
  k0_pay23 (k0_pay20 (qVal x wq))
    (k0_pay21 (ldK kc (Rect.unit (s := S2x128x8x64) ![1, 0, 0, 0] S1x128x1x64.size inb_S2x128x8x64_S1x128x1x64_1_0_0_0)))
    (k0_pay22 (ldV vc (Rect.unit (s := S2x128x8x64) ![1, 0, 0, 0] S1x128x1x64.size inb_S2x128x8x64_S1x128x1x64_1_0_0_0)))

def o11 : FVec F S128x64 .f32 :=
  k0_pay24 (qVal x wq)
    (ldK kc (Rect.unit (s := S2x128x8x64) ![1, 0, 1, 0] S1x128x1x64.size inb_S2x128x8x64_S1x128x1x64_1_0_1_0))
    (ldV vc (Rect.unit (s := S2x128x8x64) ![1, 0, 1, 0] S1x128x1x64.size inb_S2x128x8x64_S1x128x1x64_1_0_1_0))

def o12 : FVec F S128x64 .f32 :=
  k0_pay27 (k0_pay25 (qVal x wq))
    (k0_pay26 (ldK kc (Rect.unit (s := S2x128x8x64) ![1, 0, 2, 0] S1x128x1x64.size inb_S2x128x8x64_S1x128x1x64_1_0_2_0)))
    (ldV vc (Rect.unit (s := S2x128x8x64) ![1, 0, 2, 0] S1x128x1x64.size inb_S2x128x8x64_S1x128x1x64_1_0_2_0))

def o13 : FVec F S128x64 .f32 :=
  k0_pay28 (qVal x wq)
    (ldK kc (Rect.unit (s := S2x128x8x64) ![1, 0, 3, 0] S1x128x1x64.size inb_S2x128x8x64_S1x128x1x64_1_0_3_0))
    (ldV vc (Rect.unit (s := S2x128x8x64) ![1, 0, 3, 0] S1x128x1x64.size inb_S2x128x8x64_S1x128x1x64_1_0_3_0))

def o14 : FVec F S128x64 .f32 :=
  k0_pay31 (k0_pay29 (qVal x wq))
    (k0_pay30 (ldK kc (Rect.unit (s := S2x128x8x64) ![1, 0, 4, 0] S1x128x1x64.size inb_S2x128x8x64_S1x128x1x64_1_0_4_0)))
    (ldV vc (Rect.unit (s := S2x128x8x64) ![1, 0, 4, 0] S1x128x1x64.size inb_S2x128x8x64_S1x128x1x64_1_0_4_0))

def o15 : FVec F S128x64 .f32 :=
  k0_pay32 (qVal x wq)
    (ldK kc (Rect.unit (s := S2x128x8x64) ![1, 0, 5, 0] S1x128x1x64.size inb_S2x128x8x64_S1x128x1x64_1_0_5_0))
    (ldV vc (Rect.unit (s := S2x128x8x64) ![1, 0, 5, 0] S1x128x1x64.size inb_S2x128x8x64_S1x128x1x64_1_0_5_0))

def attVal : FVec F S256x512 .f32 :=
  k0_pay35 (qVal x wq) (att0 x wq kc vc) (o10 x wq kc vc) (o11 x wq kc vc) (o12 x wq kc vc) (o13 x wq kc vc) (o14 x wq kc vc)
    (o15 x wq kc vc) (k0_pay33 (qVal x wq))
    (k0_pay34 (ldK kc (Rect.unit (s := S2x128x8x64) ![1, 0, 6, 0] S1x128x1x64.size inb_S2x128x8x64_S1x128x1x64_1_0_6_0)))
    (ldV vc (Rect.unit (s := S2x128x8x64) ![1, 0, 6, 0] S1x128x1x64.size inb_S2x128x8x64_S1x128x1x64_1_0_6_0))
    (ldK kc (Rect.unit (s := S2x128x8x64) ![1, 0, 7, 0] S1x128x1x64.size inb_S2x128x8x64_S1x128x1x64_1_0_7_0))
    (ldV vc (Rect.unit (s := S2x128x8x64) ![1, 0, 7, 0] S1x128x1x64.size inb_S2x128x8x64_S1x128x1x64_1_0_7_0))

end

def acc0Val (x : Vec F S2x128x512 .f32) (wq wo : Vec F S512x512 .f32) (kc vc : Vec F S2x128x8x64 .f32) :
    FVec F S256x512 .f32 := k0_pay36 (attVal x wq kc vc) wo

end Cert.KernelIdeal.Comp

end
-- ==== Proof.Proto.lean ====
import proofs.«900512_g7700000000000513_dist_attn_cross_mha_kvrep_htp_b2_sq128_skv128_d512_hq8_dh64_v7x_i32_f32_1_alg».proof.Proof.Cells
import proofs.«900512_g7700000000000513_dist_attn_cross_mha_kvrep_htp_b2_sq128_skv128_d512_hq8_dh64_v7x_i32_f32_1_alg».proof.Proof.A0Def

noncomputable section

namespace Cert.KernelIdeal.Hyper

open Cert.KernelIdeal Cert.KernelIdeal.Gen Cert.KernelIdeal.Net Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

def xv (c : Dev nD) : (cc0_stg0_0 : Ref sig .tc).ty.Contents (Elt F) := (win0_0.blk (0 : Fin 1)).view.read (Elt F) (m ((c : Thread nD τ).loc main_arg0))
def wqv (c : Dev nD) : (cc0_stg1_0 : Ref sig .tc).ty.Contents (Elt F) := (win0_1.blk (0 : Fin 1)).view.read (Elt F) (m ((c : Thread nD τ).loc main_arg1))
def wov (c : Dev nD) : (cc0_stg2_0 : Ref sig .tc).ty.Contents (Elt F) := (win0_2.blk (0 : Fin 1)).view.read (Elt F) (m ((c : Thread nD τ).loc main_arg2))

abbrev kSl (c : Dev nD) : Memref sig .tc .hbm S2x128x8x64 .f32 := (Memref.whole main_arg3 : Memref sig .tc .hbm S2x128x256x64 .f32).slice (Rect.unit (s := S2x128x256x64) (k0_off1 c) S2x128x8x64.size (k0_off1_inb c)) (fun _ => rfl)
abbrev vSl (c : Dev nD) : Memref sig .tc .hbm S2x128x8x64 .f32 := (Memref.whole main_arg4 : Memref sig .tc .hbm S2x128x256x64 .f32).slice (Rect.unit (s := S2x128x256x64) (k0_off1 c) S2x128x8x64.size (k0_off1_inb c)) (fun _ => rfl)
def kcv (c : Dev nD) : (cc0_scratch2 : Ref sig .tc).ty.Contents (Elt F) := (kSl c).view.read (Elt F) (m ((c : Thread nD τ).loc main_arg3))
def vcv (c : Dev nD) : (cc0_scratch3 : Ref sig .tc).ty.Contents (Elt F) := (vSl c).view.read (Elt F) (m ((c : Thread nD τ).loc main_arg4))

def A0m (c : Dev nD) : (cc0_scratch0 : Ref sig .tc).ty.Contents (Elt F) := Comp.acc0Val (xv m c) (wqv m c) (wov m c) (kcv m c) (vcv m c)

abbrev kvS0 : DmaSem sig := ((cc0_scratch4.slice (Rect.unit (s := S2) ![0] S1.size inb_S2_S1_0)).squeeze S_ squeezes_S1_S_).sem
abbrev kvS1 : DmaSem sig := ((cc0_scratch4.slice (Rect.unit (s := S2) ![1] S1.size inb_S2_S1_1)).squeeze S_ squeezes_S1_S_).sem

abbrev csem : Fin 21 → SemLoc sig := fun
  | 0 => .reg barS
  | 1 => .dma rsS0
  | 2 => .dma rsS1
  | 3 => .dma rsS2
  | 4 => .dma rsS3
  | 5 => .dma rsS4
  | 6 => .dma rsR0
  | 7 => .dma rsR1
  | 8 => .dma rsR2
  | 9 => .dma rsR3
  | 10 => .dma rsR4
  | 11 => .dma agS0
  | 12 => .dma agS1
  | 13 => .dma agS2
  | 14 => .dma agS3
  | 15 => .dma agS4
  | 16 => .dma agR0
  | 17 => .dma agR1
  | 18 => .dma agR2
  | 19 => .dma agR3
  | 20 => .dma agR4
  | ⟨_ + 21, h⟩ => absurd h (Nat.not_lt.2 (Nat.le_add_left _ _))
abbrev kcell (ck : Dev nD × Fin 21) : GSem nD τ sig := cell ck.1 (csem ck.2)

abbrev osem : Fin 22 → SemLoc sig := fun
  | 0 => .dma kvS0
  | 1 => .dma kvS1
  | 2 => csem 1
  | 3 => csem 2
  | 4 => csem 3
  | 5 => csem 4
  | 6 => csem 5
  | 7 => csem 6
  | 8 => csem 7
  | 9 => csem 8
  | 10 => csem 9
  | 11 => csem 10
  | 12 => csem 11
  | 13 => csem 12
  | 14 => csem 13
  | 15 => csem 14
  | 16 => csem 15
  | 17 => csem 16
  | 18 => csem 17
  | 19 => csem 18
  | 20 => csem 19
  | 21 => csem 20
  | ⟨_ + 22, h⟩ => absurd h (Nat.not_lt.2 (Nat.le_add_left _ _))

def records (K : Dev nD × Fin 21 → ℕ) : sProp 𝕄 :=
  iprop((bigSep Finset.univ fun ck : Dev nD × Fin 21 => cellInv ER (Rd (A0m m)) (K ck) (kcell ck))
    ∗ bigSep Finset.univ fun ck : Dev nD × Fin 21 => reached ER (kcell ck) 0)

instance records_persistent (K : Dev nD × Fin 21 → ℕ) : BI.Persistent (records m K) := by unfold records; infer_instance

theorem inv_at' (K : Dev nD × Fin 21 → ℕ) (ck : Dev nD × Fin 21) :
    (bigSep Finset.univ fun ck : Dev nD × Fin 21 => (cellInv ER (Rd (A0m m)) (K ck) (kcell ck) : sProp 𝕄)) ⊢ cellInv ER (Rd (A0m m)) (K ck) (kcell ck) :=
  bigSep_elim (Finset.mem_univ ck)
theorem reached_at' (ck : Dev nD × Fin 21) :
    (bigSep Finset.univ fun ck : Dev nD × Fin 21 => (reached ER (kcell ck) 0 : sProp 𝕄)) ⊢ reached ER (kcell ck) 0 :=
  bigSep_elim (Finset.mem_univ ck)
theorem inv_at (K : Dev nD × Fin 21 → ℕ) (ck : Dev nD × Fin 21) : records m K ⊢ cellInv ER (Rd (A0m m)) (K ck) (kcell ck) := by
  unfold records; iintro ⟨#HI, -⟩; iapply (inv_at' m K ck); iexact HI
theorem reached_at (K : Dev nD × Fin 21 → ℕ) (ck : Dev nD × Fin 21) : records m K ⊢ (reached ER (kcell ck) 0 : sProp 𝕄) := by
  unfold records; iintro ⟨-, #HR⟩; iapply (reached_at' (F := F) ck); iexact HR

def positions (c : Dev nD) : sProp 𝕄 := bigSep Finset.univ fun i : Fin 21 => atPos ER (kcell (c, i)) 0 ∅ 0

def payToks (c : Dev nD) : sProp 𝕄 :=
  iprop(dutyTok ER (cell (nb 0 c) (.reg barS)) 0 (0 : Fin 5) ∗ dutyTok ER (cell (nb 1 c) (.reg barS)) 0 (1 : Fin 5) ∗ dutyTok ER (cell (nb 2 c) (.reg barS)) 0 (2 : Fin 5) ∗ dutyTok ER (cell (nb 3 c) (.reg barS)) 0 (3 : Fin 5) ∗ dutyTok ER (cell (nb 4 c) (.reg barS)) 0 (4 : Fin 5)
    ∗ dutyTok ER (cell (nb 4 c) (.dma rsR0)) 0 (0 : Fin 5) ∗ dutyTok ER (cell (nb 3 c) (.dma rsR1)) 0 (0 : Fin 5) ∗ dutyTok ER (cell (nb 2 c) (.dma rsR2)) 0 (0 : Fin 5) ∗ dutyTok ER (cell (nb 1 c) (.dma rsR3)) 0 (0 : Fin 5) ∗ dutyTok ER (cell (nb 0 c) (.dma rsR4)) 0 (0 : Fin 5)
    ∗ dutyTok ER (cell (nb 0 c) (.dma agR0)) 0 (0 : Fin 5) ∗ dutyTok ER (cell (nb 1 c) (.dma agR1)) 0 (0 : Fin 5) ∗ dutyTok ER (cell (nb 2 c) (.dma agR2)) 0 (0 : Fin 5) ∗ dutyTok ER (cell (nb 3 c) (.dma agR3)) 0 (0 : Fin 5) ∗ dutyTok ER (cell (nb 4 c) (.dma agR4)) 0 (0 : Fin 5)
    ∗ dutyTok ER (cell c (.dma rsS0)) 0 (0 : Fin 5) ∗ dutyTok ER (cell c (.dma rsS1)) 0 (0 : Fin 5) ∗ dutyTok ER (cell c (.dma rsS2)) 0 (0 : Fin 5) ∗ dutyTok ER (cell c (.dma rsS3)) 0 (0 : Fin 5) ∗ dutyTok ER (cell c (.dma rsS4)) 0 (0 : Fin 5)
    ∗ dutyTok ER (cell c (.dma agS0)) 0 (0 : Fin 5) ∗ dutyTok ER (cell c (.dma agS1)) 0 (0 : Fin 5) ∗ dutyTok ER (cell c (.dma agS2)) 0 (0 : Fin 5) ∗ dutyTok ER (cell c (.dma agS3)) 0 (0 : Fin 5) ∗ dutyTok ER (cell c (.dma agS4)) 0 (0 : Fin 5))

def creds (c : Dev nD) : sProp 𝕄 :=
  iprop(cred (tallyAt (cell c (.reg barS)) () 5)
    ∗ cred (tallyAt (cell c (.dma rsR0)) () NR0) ∗ cred (tallyAt (cell c (.dma rsR1)) () NR1) ∗ cred (tallyAt (cell c (.dma rsR2)) () NR2) ∗ cred (tallyAt (cell c (.dma rsR3)) () NR3) ∗ cred (tallyAt (cell c (.dma rsR4)) () NR4)
    ∗ cred (tallyAt (cell c (.dma agR0)) () NG0) ∗ cred (tallyAt (cell c (.dma agR1)) () NG1) ∗ cred (tallyAt (cell c (.dma agR2)) () NG2) ∗ cred (tallyAt (cell c (.dma agR3)) () NG3) ∗ cred (tallyAt (cell c (.dma agR4)) () NG4))

def ghost (K : Dev nD × Fin 21 → ℕ) (c : Dev nD) : sProp 𝕄 := iprop(records m K ∗ positions (F := F) c ∗ payToks (F := F) c)

def start (c : Dev nD) : sProp 𝕄 :=
  iprop((∃ K, ghost m K c) ∗ creds (F := F) c ∗ levAts L lv
    ∗ semVal (cell c (.dma kvS0)) 0 ∗ semVal (cell c (.dma kvS1)) 0
    ∗ (((c : Thread nD τ).loc main_arg3) ↦{fullShare} m ((c : Thread nD τ).loc main_arg3))
    ∗ (((c : Thread nD τ).loc main_arg4) ↦{fullShare} m ((c : Thread nD τ).loc main_arg4)))

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start m c ∗ scratch (F := F) c)

def Φ₁ (c : Dev nD) : sProp 𝕄 :=
  iprop(scratch (F := F) c ∗ (bigSep Finset.univ fun i : Fin 22 => semVal (cell c (osem i)) 0)
    ∗ (((c : Thread nD τ).loc main_arg3) ↦{fullShare} m ((c : Thread nD τ).loc main_arg3))
    ∗ (((c : Thread nD τ).loc main_arg4) ↦{fullShare} m ((c : Thread nD τ).loc main_arg4)))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m c
    | ⟨1, _⟩ => wqv m c
    | ⟨2, _⟩ => wov m c
    | ⟨3, _⟩ => outV (A0m m) c
  Φ t := match t with
    | ⟨0, _⟩ => Φ₀ m c
    | ⟨_ + 1, _⟩ => Φ₁ m c
  q _ := fullShare
  owed t := match t with
    | ⟨0, _⟩ => Ow0 c
    | ⟨_ + 1, _⟩ => 0

abbrev 𝒱₀ : Variants := Variants.none

end Cert.KernelIdeal.Hyper

end
-- ==== Proof.AccSets.lean ====
import proofs.«900512_g7700000000000513_dist_attn_cross_mha_kvrep_htp_b2_sq128_skv128_d512_hq8_dh64_v7x_i32_f32_1_alg».proof.Proof.Cells
import Idealize.ShloMosaic.Lib.Pipeline.Value

noncomputable section

namespace Cert.KernelIdeal.Hyper

open Cert.KernelIdeal Cert.KernelIdeal.Gen Cert.KernelIdeal.Net Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev accLoc (c : Dev nD) : Loc nD τ sig := accM.view.loc (c : Thread nD τ)
abbrev rcvLoc (c : Dev nD) : Loc nD τ sig := rcvM.view.loc (c : Thread nD τ)

abbrev own0 (c : Dev nD) : Finset (Idx (accLoc c)) := Finset.univ
abbrev own1 (c : Dev nD) : Finset (Idx (accLoc c)) := (accM.access (kpR0 c) : View sig .tc _ _ _).set
abbrev own2 (c : Dev nD) : Finset (Idx (accLoc c)) := (accM.access (kpR1 c) : View sig .tc _ _ _).set
abbrev own3 (c : Dev nD) : Finset (Idx (accLoc c)) := (accM.access (kpR2 c) : View sig .tc _ _ _).set
abbrev own4 (c : Dev nD) : Finset (Idx (accLoc c)) := (accM.access (kpR3 c) : View sig .tc _ _ _).set
abbrev own5 (c : Dev nD) : Finset (Idx (accLoc c)) := (accM.access (kpR4 c) : View sig .tc _ _ _).set

def rows {d : Fin 2 → Nat} (lo h : Nat) : Finset (Shape.Idx ⟨2, d⟩) :=
  Finset.univ.filter fun i => lo ≤ (i (0 : Fin 2)).val ∧ (i (0 : Fin 2)).val < lo + h

theorem mem_rows {d : Fin 2 → Nat} {lo h : Nat} {i : Shape.Idx ⟨2, d⟩} :
    i ∈ rows lo h ↔ lo ≤ (i (0 : Fin 2)).val ∧ (i (0 : Fin 2)).val < lo + h := by
  simp [rows]

theorem set_unit_rows {d : Fin 2 → Nat} {off size : Fin 2 → Nat} (inb : ∀ a, off a + size a ≤ (⟨2, d⟩ : Shape).size a)
    (h1 : off 1 = 0) (hs : size 1 = d 1) :
    (Rect.unit (s := ⟨2, d⟩) off size inb).set = rows (off 0) (size 0) := by
  ext i
  rw [Rect.mem_set_unit, mem_rows, Fin.forall_fin_two]
  have hi : (i (1 : Fin 2)).val < d 1 := (i 1).isLt
  constructor
  · exact fun h => h.1
  · intro h; exact ⟨h, by omega, by omega⟩

theorem rows_disjoint {d : Fin 2 → Nat} {a h b h' : Nat} (H : a + h ≤ b ∨ b + h' ≤ a) :
    Disjoint (rows (d := d) a h) (rows b h') := by
  rw [Finset.disjoint_left]; intro i hi hj; rw [mem_rows] at hi hj; omega

theorem rows_union {d : Fin 2 → Nat} {lo a h b h' : Nat}
    (H : (a = lo ∧ b = lo + h) ∨ (b = lo ∧ a = lo + h')) :
    rows (d := d) a h ∪ rows b h' = rows lo (h + h') := by
  ext i; simp only [Finset.mem_union, mem_rows]; omega

theorem rows_adj_disjoint {d : Fin 2 → Nat} {lo a h b h' : Nat}
    (H : (a = lo ∧ b = lo + h) ∨ (b = lo ∧ a = lo + h')) :
    Disjoint (rows (d := d) a h) (rows b h') :=
  rows_disjoint (by omega)

theorem rows_univ {d : Fin 2 → Nat} : rows (d := d) 0 (d 0) = Finset.univ := by
  ext i; simp only [mem_rows, Finset.mem_univ, iff_true]
  have hi : (i (0 : Fin 2)).val < d 0 := (i 0).isLt
  omega

theorem pointsTo_union {ℓ : Loc nD τ sig} {I J S : Finset (Idx ℓ)} (hu : I ∪ J = S) (hd : Disjoint I J)
    (f : Buf (Elt F) ℓ) :
    (ℓ ↦[S]{fullShare} f : sProp 𝕄) ⊣⊢ iprop((ℓ ↦[I]{fullShare} f) ∗ (ℓ ↦[J]{fullShare} f)) := by
  subst hu; exact Region.is_union hd

theorem whole_load_sub {κ : Kind} (b : Ref sig κ) (r : Rect b.ty.shape) :
    (Memref.whole b : Memref sig κ _ _ _).view.setOn r.toLoadRect.set
      ⊆ ((Memref.whole b : Memref sig κ _ _ _).access r : View sig κ _ _ _).set := by
  rw [show ((Memref.whole b : Memref sig κ _ _ _).access r : View sig κ _ _ _).set = r.set from View.set_slice_whole b r]
  intro i hi
  obtain ⟨j, hj, rfl⟩ := Finset.mem_map.mp hi
  exact hj

theorem acc_slice_set {off size : Fin 2 → Nat} (inb : ∀ a, off a + size a ≤ S256x512.size a)
    (h1 : off 1 = 0) (hs : size 1 = 512) :
    (accM.view.slice (Rect.unit (s := S256x512) off size inb)).set
      = rows (d := ![256, 512]) (off 0) (size 0) :=
  (View.set_slice_whole cc0_scratch0 (Rect.unit (s := S256x512) off size inb)).trans (set_unit_rows inb h1 hs)

theorem col_off2 : ∀ c : Dev nD, k0_off2 c 1 = 0 := by decide +kernel
theorem col_off3 : ∀ c : Dev nD, k0_off3 c 1 = 0 := by decide +kernel
theorem col_off4 : ∀ c : Dev nD, k0_off4 c 1 = 0 := by decide +kernel
theorem col_off5 : ∀ c : Dev nD, k0_off5 c 1 = 0 := by decide +kernel
theorem col_off6 : ∀ c : Dev nD, k0_off6 c 1 = 0 := by decide +kernel
theorem col_off7 : ∀ c : Dev nD, k0_off7 c 1 = 0 := by decide +kernel
theorem col_off8 : ∀ c : Dev nD, k0_off8 c 1 = 0 := by decide +kernel
theorem col_off9 : ∀ c : Dev nD, k0_off9 c 1 = 0 := by decide +kernel
theorem col_off10 : ∀ c : Dev nD, k0_off10 c 1 = 0 := by decide +kernel
theorem col_off11 : ∀ c : Dev nD, k0_off11 c 1 = 0 := by decide +kernel
theorem col_off12 : ∀ c : Dev nD, k0_off12 c 1 = 0 := by decide +kernel
theorem col_off13 : ∀ c : Dev nD, k0_off13 c 1 = 0 := by decide +kernel
theorem col_off14 : ∀ c : Dev nD, k0_off14 c 1 = 0 := by decide +kernel
theorem col_off15 : ∀ c : Dev nD, k0_off15 c 1 = 0 := by decide +kernel
theorem col_off16 : ∀ c : Dev nD, k0_off16 c 1 = 0 := by decide +kernel

theorem half0 : ∀ c : Dev nD, (k0_off2 c 0 = 0 ∧ k0_off3 c 0 = 128) ∨ (k0_off3 c 0 = 0 ∧ k0_off2 c 0 = 128) := by decide +kernel
theorem half1 : ∀ c : Dev nD, (k0_off4 c 0 = k0_off3 c 0 ∧ k0_off5 c 0 = k0_off3 c 0 + 64) ∨ (k0_off5 c 0 = k0_off3 c 0 ∧ k0_off4 c 0 = k0_off3 c 0 + 64) := by decide +kernel
theorem half2 : ∀ c : Dev nD, (k0_off6 c 0 = k0_off5 c 0 ∧ k0_off7 c 0 = k0_off5 c 0 + 32) ∨ (k0_off7 c 0 = k0_off5 c 0 ∧ k0_off6 c 0 = k0_off5 c 0 + 32) := by decide +kernel
theorem half3 : ∀ c : Dev nD, (k0_off8 c 0 = k0_off7 c 0 ∧ k0_off9 c 0 = k0_off7 c 0 + 16) ∨ (k0_off9 c 0 = k0_off7 c 0 ∧ k0_off8 c 0 = k0_off7 c 0 + 16) := by decide +kernel
theorem half4 : ∀ c : Dev nD, (k0_off10 c 0 = k0_off9 c 0 ∧ k0_off11 c 0 = k0_off9 c 0 + 8) ∨ (k0_off11 c 0 = k0_off9 c 0 ∧ k0_off10 c 0 = k0_off9 c 0 + 8) := by decide +kernel

theorem snd0_set (c : Dev nD) : (snd0 c).view.set = rows (d := ![256, 512]) (k0_off2 c 0) 128 :=
  acc_slice_set (k0_off2_inb c) (col_off2 c) rfl
theorem own1_set (c : Dev nD) : own1 c = rows (d := ![256, 512]) (k0_off3 c 0) 128 :=
  acc_slice_set (k0_off3_inb c) (col_off3 c) rfl
theorem snd1_set (c : Dev nD) : (snd1 c).view.set = rows (d := ![256, 512]) (k0_off4 c 0) 64 :=
  acc_slice_set (k0_off4_inb c) (col_off4 c) rfl
theorem own2_set (c : Dev nD) : own2 c = rows (d := ![256, 512]) (k0_off5 c 0) 64 :=
  acc_slice_set (k0_off5_inb c) (col_off5 c) rfl
theorem snd2_set (c : Dev nD) : (snd2 c).view.set = rows (d := ![256, 512]) (k0_off6 c 0) 32 :=
  acc_slice_set (k0_off6_inb c) (col_off6 c) rfl
theorem own3_set (c : Dev nD) : own3 c = rows (d := ![256, 512]) (k0_off7 c 0) 32 :=
  acc_slice_set (k0_off7_inb c) (col_off7 c) rfl
theorem snd3_set (c : Dev nD) : (snd3 c).view.set = rows (d := ![256, 512]) (k0_off8 c 0) 16 :=
  acc_slice_set (k0_off8_inb c) (col_off8 c) rfl
theorem own4_set (c : Dev nD) : own4 c = rows (d := ![256, 512]) (k0_off9 c 0) 16 :=
  acc_slice_set (k0_off9_inb c) (col_off9 c) rfl
theorem snd4_set (c : Dev nD) : (snd4 c).view.set = rows (d := ![256, 512]) (k0_off10 c 0) 8 :=
  acc_slice_set (k0_off10_inb c) (col_off10 c) rfl
theorem own5_set (c : Dev nD) : own5 c = rows (d := ![256, 512]) (k0_off11 c 0) 8 :=
  acc_slice_set (k0_off11_inb c) (col_off11 c) rfl
theorem own0_set (c : Dev nD) : own0 c = rows (d := ![256, 512]) 0 (128 + 128) := (rows_univ (d := ![256, 512])).symm

theorem rs_split0 (c : Dev nD) (f : Buf (Elt F) (accLoc c)) :
    (accLoc c ↦[own0 c]{fullShare} f : sProp 𝕄)
      ⊣⊢ iprop(((snd0 c).view.loc (c : Thread nD τ) ↦[(snd0 c).view.set]{fullShare} f) ∗ (accLoc c ↦[own1 c]{fullShare} f)) := by
  rw [own0_set, snd0_set, own1_set]
  exact pointsTo_union (rows_union (half0 c)) (rows_adj_disjoint (half0 c)) f

theorem load_sub0 (c : Dev nD) : accM.view.setOn (kpR0 c).toLoadRect.set ⊆ own1 c :=
  whole_load_sub cc0_scratch0 (kpR0 c)
theorem rs_split1 (c : Dev nD) (f : Buf (Elt F) (accLoc c)) :
    (accLoc c ↦[own1 c]{fullShare} f : sProp 𝕄)
      ⊣⊢ iprop(((snd1 c).view.loc (c : Thread nD τ) ↦[(snd1 c).view.set]{fullShare} f) ∗ (accLoc c ↦[own2 c]{fullShare} f)) := by
  rw [own1_set, snd1_set, own2_set]
  exact pointsTo_union (rows_union (half1 c)) (rows_adj_disjoint (half1 c)) f

theorem load_sub1 (c : Dev nD) : accM.view.setOn (kpR1 c).toLoadRect.set ⊆ own2 c :=
  whole_load_sub cc0_scratch0 (kpR1 c)
theorem rs_split2 (c : Dev nD) (f : Buf (Elt F) (accLoc c)) :
    (accLoc c ↦[own2 c]{fullShare} f : sProp 𝕄)
      ⊣⊢ iprop(((snd2 c).view.loc (c : Thread nD τ) ↦[(snd2 c).view.set]{fullShare} f) ∗ (accLoc c ↦[own3 c]{fullShare} f)) := by
  rw [own2_set, snd2_set, own3_set]
  exact pointsTo_union (rows_union (half2 c)) (rows_adj_disjoint (half2 c)) f

theorem load_sub2 (c : Dev nD) : accM.view.setOn (kpR2 c).toLoadRect.set ⊆ own3 c :=
  whole_load_sub cc0_scratch0 (kpR2 c)
theorem rs_split3 (c : Dev nD) (f : Buf (Elt F) (accLoc c)) :
    (accLoc c ↦[own3 c]{fullShare} f : sProp 𝕄)
      ⊣⊢ iprop(((snd3 c).view.loc (c : Thread nD τ) ↦[(snd3 c).view.set]{fullShare} f) ∗ (accLoc c ↦[own4 c]{fullShare} f)) := by
  rw [own3_set, snd3_set, own4_set]
  exact pointsTo_union (rows_union (half3 c)) (rows_adj_disjoint (half3 c)) f

theorem load_sub3 (c : Dev nD) : accM.view.setOn (kpR3 c).toLoadRect.set ⊆ own4 c :=
  whole_load_sub cc0_scratch0 (kpR3 c)
theorem rs_split4 (c : Dev nD) (f : Buf (Elt F) (accLoc c)) :
    (accLoc c ↦[own4 c]{fullShare} f : sProp 𝕄)
      ⊣⊢ iprop(((snd4 c).view.loc (c : Thread nD τ) ↦[(snd4 c).view.set]{fullShare} f) ∗ (accLoc c ↦[own5 c]{fullShare} f)) := by
  rw [own4_set, snd4_set, own5_set]
  exact pointsTo_union (rows_union (half4 c)) (rows_adj_disjoint (half4 c)) f

theorem load_sub4 (c : Dev nD) : accM.view.setOn (kpR4 c).toLoadRect.set ⊆ own5 c :=
  whole_load_sub cc0_scratch0 (kpR4 c)

theorem ag0_set (c : Dev nD) : (ag0 c).view.set = rows (d := ![256, 512]) (k0_off12 c 0) 8 :=
  acc_slice_set (k0_off12_inb c) (col_off12 c) rfl
theorem ag1_set (c : Dev nD) : (ag1 c).view.set = rows (d := ![256, 512]) (k0_off13 c 0) 16 :=
  acc_slice_set (k0_off13_inb c) (col_off13 c) rfl
theorem ag2_set (c : Dev nD) : (ag2 c).view.set = rows (d := ![256, 512]) (k0_off14 c 0) 32 :=
  acc_slice_set (k0_off14_inb c) (col_off14 c) rfl
theorem ag3_set (c : Dev nD) : (ag3 c).view.set = rows (d := ![256, 512]) (k0_off15 c 0) 64 :=
  acc_slice_set (k0_off15_inb c) (col_off15 c) rfl
theorem ag4_set (c : Dev nD) : (ag4 c).view.set = rows (d := ![256, 512]) (k0_off16 c 0) 128 :=
  acc_slice_set (k0_off16_inb c) (col_off16 c) rfl

theorem last_keep : ∀ c : Dev nD, k0_off11 c 0 = k0_off12 c 0 := by decide +kernel

theorem own5_eq (c : Dev nD) : own5 c = (ag0 c).view.set := by
  rw [own5_set, ag0_set, last_keep]

theorem snd4_ag0_off : ∀ q : Dev nD, k0_off10 (nb 0 q) = k0_off12 q := by decide +kernel
theorem snd3_ag1_off : ∀ q : Dev nD, k0_off8 (nb 1 q) = k0_off13 q := by decide +kernel
theorem snd2_ag2_off : ∀ q : Dev nD, k0_off6 (nb 2 q) = k0_off14 q := by decide +kernel
theorem snd1_ag3_off : ∀ q : Dev nD, k0_off4 (nb 3 q) = k0_off15 q := by decide +kernel
theorem snd0_ag4_off : ∀ q : Dev nD, k0_off2 (nb 4 q) = k0_off16 q := by decide +kernel

theorem pointsTo_join {ℓ : Loc nD τ sig} {I J S : Finset (Idx ℓ)} (hu : I ∪ J = S) (hd : Disjoint I J)
    (f g h : Buf (Elt F) ℓ) (hI : ∀ i ∈ I, h i = f i) (hJ : ∀ i ∈ J, h i = g i) :
    iprop((ℓ ↦[I]{fullShare} f) ∗ (ℓ ↦[J]{fullShare} g)) ⊢ (ℓ ↦[S]{fullShare} h : sProp 𝕄) := by
  subst hu
  rw [show (ℓ ↦[I]{fullShare} f : sProp 𝕄) = (ℓ ↦[I]{fullShare} h) from Region.is_congr fun i hi => (hI i hi).symm,
    show (ℓ ↦[J]{fullShare} g : sProp 𝕄) = (ℓ ↦[J]{fullShare} h) from Region.is_congr fun i hi => (hJ i hi).symm]
  exact (Region.is_union hd).mpr

theorem pointsTo_write_join (c : Thread nD τ) {sp : Space} {s : Shape} {e : EltTy} (v : View sig c.2.kind sp s e)
    {I S : Finset (Idx (v.loc c))} (hu : I ∪ v.set = S) (hd : Disjoint I v.set)
    (f f' : Buf (Elt F) (v.loc c)) (w : s.Idx → Elt F e) :
    iprop((v.loc c ↦[I]{fullShare} f) ∗ (v.loc c ↦[v.set]{fullShare} v.write (Elt F) f' w Finset.univ))
      ⊢ (v.loc c ↦[S]{fullShare} v.write (Elt F) f w Finset.univ : sProp 𝕄) :=
  pointsTo_join hu hd _ _ _
    (fun i hi => View.write_of_not_mem _ _ _ (Finset.disjoint_left.mp hd hi))
    (fun i hi => View.write_congr (fun _ _ _ => rfl) (fun hn => absurd hi hn))

theorem join0 : ∀ c : Dev nD, (k0_off12 c 0 = k0_off13 c 0 ∧ k0_off12 (nb 0 c) 0 = k0_off13 c 0 + 8) ∨ (k0_off12 (nb 0 c) 0 = k0_off13 c 0 ∧ k0_off12 c 0 = k0_off13 c 0 + 8) := by decide +kernel
theorem join1 : ∀ c : Dev nD, (k0_off13 c 0 = k0_off14 c 0 ∧ k0_off13 (nb 1 c) 0 = k0_off14 c 0 + 16) ∨ (k0_off13 (nb 1 c) 0 = k0_off14 c 0 ∧ k0_off13 c 0 = k0_off14 c 0 + 16) := by decide +kernel
theorem join2 : ∀ c : Dev nD, (k0_off14 c 0 = k0_off15 c 0 ∧ k0_off14 (nb 2 c) 0 = k0_off15 c 0 + 32) ∨ (k0_off14 (nb 2 c) 0 = k0_off15 c 0 ∧ k0_off14 c 0 = k0_off15 c 0 + 32) := by decide +kernel
theorem join3 : ∀ c : Dev nD, (k0_off15 c 0 = k0_off16 c 0 ∧ k0_off15 (nb 3 c) 0 = k0_off16 c 0 + 64) ∨ (k0_off15 (nb 3 c) 0 = k0_off16 c 0 ∧ k0_off15 c 0 = k0_off16 c 0 + 64) := by decide +kernel
theorem join4 : ∀ c : Dev nD, (k0_off16 c 0 = 0 ∧ k0_off16 (nb 4 c) 0 = 128) ∨ (k0_off16 (nb 4 c) 0 = 0 ∧ k0_off16 c 0 = 128) := by decide +kernel

theorem ag_join0 (A0 : Dev nD → (cc0_scratch0 : Ref sig .tc).ty.Contents (Elt F)) (c q : Dev nD) (hq : q = nb 0 c) :
    iprop(((ag0 c).view.loc (c : Thread nD τ) ↦[(ag0 c).view.set]{fullShare} G0 A0 c)
        ∗ ((ag0 q).view.loc (c : Thread nD τ) ↦[(ag0 q).view.set]{fullShare}
            (ag0 q).view.write (Elt F) (A4 A0 c) ((ag0 q).view.read (Elt F) (G0 A0 q)) Finset.univ))
      ⊢ (accLoc c ↦[(ag1 c).view.set]{fullShare} G1 A0 c : sProp 𝕄) := by
  subst hq
  exact pointsTo_write_join (c : Thread nD τ) (ag0 (nb 0 c)).view (by rw [ag0_set, ag0_set, ag1_set]; exact rows_union (join0 c)) (by rw [ag0_set, ag0_set]; exact rows_adj_disjoint (join0 c)) (G0 A0 c) (A4 A0 c) _
theorem ag_join1 (A0 : Dev nD → (cc0_scratch0 : Ref sig .tc).ty.Contents (Elt F)) (c q : Dev nD) (hq : q = nb 1 c) :
    iprop(((ag1 c).view.loc (c : Thread nD τ) ↦[(ag1 c).view.set]{fullShare} G1 A0 c)
        ∗ ((ag1 q).view.loc (c : Thread nD τ) ↦[(ag1 q).view.set]{fullShare}
            (ag1 q).view.write (Elt F) (A3 A0 c) ((ag1 q).view.read (Elt F) (G1 A0 q)) Finset.univ))
      ⊢ (accLoc c ↦[(ag2 c).view.set]{fullShare} G2 A0 c : sProp 𝕄) := by
  subst hq
  exact pointsTo_write_join (c : Thread nD τ) (ag1 (nb 1 c)).view (by rw [ag1_set, ag1_set, ag2_set]; exact rows_union (join1 c)) (by rw [ag1_set, ag1_set]; exact rows_adj_disjoint (join1 c)) (G1 A0 c) (A3 A0 c) _
theorem ag_join2 (A0 : Dev nD → (cc0_scratch0 : Ref sig .tc).ty.Contents (Elt F)) (c q : Dev nD) (hq : q = nb 2 c) :
    iprop(((ag2 c).view.loc (c : Thread nD τ) ↦[(ag2 c).view.set]{fullShare} G2 A0 c)
        ∗ ((ag2 q).view.loc (c : Thread nD τ) ↦[(ag2 q).view.set]{fullShare}
            (ag2 q).view.write (Elt F) (A2 A0 c) ((ag2 q).view.read (Elt F) (G2 A0 q)) Finset.univ))
      ⊢ (accLoc c ↦[(ag3 c).view.set]{fullShare} G3 A0 c : sProp 𝕄) := by
  subst hq
  exact pointsTo_write_join (c : Thread nD τ) (ag2 (nb 2 c)).view (by rw [ag2_set, ag2_set, ag3_set]; exact rows_union (join2 c)) (by rw [ag2_set, ag2_set]; exact rows_adj_disjoint (join2 c)) (G2 A0 c) (A2 A0 c) _
theorem ag_join3 (A0 : Dev nD → (cc0_scratch0 : Ref sig .tc).ty.Contents (Elt F)) (c q : Dev nD) (hq : q = nb 3 c) :
    iprop(((ag3 c).view.loc (c : Thread nD τ) ↦[(ag3 c).view.set]{fullShare} G3 A0 c)
        ∗ ((ag3 q).view.loc (c : Thread nD τ) ↦[(ag3 q).view.set]{fullShare}
            (ag3 q).view.write (Elt F) (A1 A0 c) ((ag3 q).view.read (Elt F) (G3 A0 q)) Finset.univ))
      ⊢ (accLoc c ↦[(ag4 c).view.set]{fullShare} G4 A0 c : sProp 𝕄) := by
  subst hq
  exact pointsTo_write_join (c : Thread nD τ) (ag3 (nb 3 c)).view (by rw [ag3_set, ag3_set, ag4_set]; exact rows_union (join3 c)) (by rw [ag3_set, ag3_set]; exact rows_adj_disjoint (join3 c)) (G3 A0 c) (A1 A0 c) _
theorem ag_join4 (A0 : Dev nD → (cc0_scratch0 : Ref sig .tc).ty.Contents (Elt F)) (c q : Dev nD) (hq : q = nb 4 c) :
    iprop(((ag4 c).view.loc (c : Thread nD τ) ↦[(ag4 c).view.set]{fullShare} G4 A0 c)
        ∗ ((ag4 q).view.loc (c : Thread nD τ) ↦[(ag4 q).view.set]{fullShare}
            (ag4 q).view.write (Elt F) (A0 c) ((ag4 q).view.read (Elt F) (G4 A0 q)) Finset.univ))
      ⊢ (accLoc c ↦[Finset.univ]{fullShare} G5 A0 c : sProp 𝕄) := by
  subst hq
  exact pointsTo_write_join (c : Thread nD τ) (ag4 (nb 4 c)).view (by rw [ag4_set, ag4_set]; exact (rows_union (join4 c)).trans (rows_univ (d := ![256, 512]))) (by rw [ag4_set, ag4_set]; exact rows_adj_disjoint (join4 c)) (G4 A0 c) (A0 c) _

theorem rcv_slice_set {off size : Fin 2 → Nat} (inb : ∀ a, off a + size a ≤ S248x512.size a)
    (h1 : off 1 = 0) (hs : size 1 = 512) :
    (rcvM.view.slice (Rect.unit (s := S248x512) off size inb)).set
      = rows (d := ![248, 512]) (off 0) (size 0) :=
  (View.set_slice_whole cc0_scratch1 (Rect.unit (s := S248x512) off size inb)).trans (set_unit_rows inb h1 hs)

theorem rcv0_set : rcv0.view.set = rows (d := ![248, 512]) 0 128 :=
  rcv_slice_set inb_S248x512_S128x512_0_0 rfl rfl
theorem rcv1_set : rcv1.view.set = rows (d := ![248, 512]) 128 64 :=
  rcv_slice_set inb_S248x512_S64x512_128_0 rfl rfl
theorem rcv2_set : rcv2.view.set = rows (d := ![248, 512]) 192 32 :=
  rcv_slice_set inb_S248x512_S32x512_192_0 rfl rfl
theorem rcv3_set : rcv3.view.set = rows (d := ![248, 512]) 224 16 :=
  rcv_slice_set inb_S248x512_S16x512_224_0 rfl rfl
theorem rcv4_set : rcv4.view.set = rows (d := ![248, 512]) 240 8 :=
  rcv_slice_set inb_S248x512_S8x512_240_0 rfl rfl

theorem rcv_append (c : Dev nD) (f : Buf (Elt F) (rcvLoc c)) (a h h' : Nat) :
    (rcvLoc c ↦[rows (d := ![248, 512]) a (h + h')]{fullShare} f : sProp 𝕄)
      ⊣⊢ iprop((rcvLoc c ↦[rows (d := ![248, 512]) a h]{fullShare} f)
        ∗ (rcvLoc c ↦[rows (d := ![248, 512]) (a + h) h']{fullShare} f)) :=
  pointsTo_union (rows_union (.inl ⟨rfl, rfl⟩)) (rows_disjoint (.inl (Nat.le_refl _))) f

theorem rcv_ex_append (c : Dev nD) (a h h' : Nat) :
    iprop((∃ f : Buf (Elt F) (rcvLoc c), rcvLoc c ↦[rows (d := ![248, 512]) a h]{fullShare} f)
        ∗ (∃ f : Buf (Elt F) (rcvLoc c), rcvLoc c ↦[rows (d := ![248, 512]) (a + h) h']{fullShare} f))
      ⊢ (∃ f : Buf (Elt F) (rcvLoc c), rcvLoc c ↦[rows (d := ![248, 512]) a (h + h')]{fullShare} f : sProp 𝕄) := by
  refine sep_exists_right.mp.trans (BIClass.exists_elim fun f => ?_)
  refine sep_exists_left.mp.trans (BIClass.exists_elim fun g => ?_)
  have hd : Disjoint (rows (d := ![248, 512]) a h) (rows (d := ![248, 512]) (a + h) h') :=
    rows_disjoint (.inl (Nat.le_refl _))
  refine (pointsTo_join (rows_union (d := ![248, 512]) (lo := a) (.inl ⟨rfl, rfl⟩)) hd f g
    ((rows (d := ![248, 512]) (a + h) h').piecewise g f)
    (fun i hi => Finset.piecewise_eq_of_notMem _ _ _ (Finset.disjoint_left.mp hd hi))
    (fun i hi => Finset.piecewise_eq_of_mem _ _ _ hi)).trans ?_
  exact BIClass.exists_intro (Φ := fun f : Buf (Elt F) (rcvLoc c) => (rcvLoc c ↦[rows (d := ![248, 512]) a (h + h')]{fullShare} f : sProp 𝕄)) _

theorem rcv_split (c : Dev nD) (f : Buf (Elt F) (rcvLoc c)) :
    (rcvLoc c ↦{fullShare} f : sProp 𝕄)
      ⊣⊢ iprop((rcv0.view.loc (c : Thread nD τ) ↦[rcv0.view.set]{fullShare} f)
        ∗ (rcv1.view.loc (c : Thread nD τ) ↦[rcv1.view.set]{fullShare} f)
        ∗ (rcv2.view.loc (c : Thread nD τ) ↦[rcv2.view.set]{fullShare} f)
        ∗ (rcv3.view.loc (c : Thread nD τ) ↦[rcv3.view.set]{fullShare} f)
        ∗ (rcv4.view.loc (c : Thread nD τ) ↦[rcv4.view.set]{fullShare} f)) := by
  rw [rcv0_set, rcv1_set, rcv2_set, rcv3_set, rcv4_set,
    show (Finset.univ : Finset (Idx (rcvLoc c))) = rows (d := ![248, 512]) 0 (128 + (64 + (32 + (16 + 8))))
      from (rows_univ (d := ![248, 512])).symm]
  exact (rcv_append c f 0 128 _).trans (sep_congr_right ((rcv_append c f 128 64 _).trans
    (sep_congr_right ((rcv_append c f 192 32 _).trans (sep_congr_right (rcv_append c f 224 16 8))))))

theorem rcv_join (c : Dev nD) :
    iprop((∃ f : Buf (Elt F) (rcvLoc c), rcv0.view.loc (c : Thread nD τ) ↦[rcv0.view.set]{fullShare} f)
        ∗ (∃ f : Buf (Elt F) (rcvLoc c), rcv1.view.loc (c : Thread nD τ) ↦[rcv1.view.set]{fullShare} f)
        ∗ (∃ f : Buf (Elt F) (rcvLoc c), rcv2.view.loc (c : Thread nD τ) ↦[rcv2.view.set]{fullShare} f)
        ∗ (∃ f : Buf (Elt F) (rcvLoc c), rcv3.view.loc (c : Thread nD τ) ↦[rcv3.view.set]{fullShare} f)
        ∗ (∃ f : Buf (Elt F) (rcvLoc c), rcv4.view.loc (c : Thread nD τ) ↦[rcv4.view.set]{fullShare} f))
      ⊢ (∃ f : Buf (Elt F) (rcvLoc c), rcvLoc c ↦{fullShare} f : sProp 𝕄) := by
  rw [rcv0_set, rcv1_set, rcv2_set, rcv3_set, rcv4_set,
    show (Finset.univ : Finset (Idx (rcvLoc c))) = rows (d := ![248, 512]) 0 (128 + (64 + (32 + (16 + 8))))
      from (rows_univ (d := ![248, 512])).symm]
  exact (sep_mono_right ((sep_mono_right ((sep_mono_right (rcv_ex_append c 224 16 8)).trans
    (rcv_ex_append c 192 32 _))).trans (rcv_ex_append c 128 64 _))).trans (rcv_ex_append c 0 128 _)

theorem rcv_read0 (fd : (cc0_scratch1 : Ref sig .tc).ty.Contents (Elt F)) (w : S128x512.Idx → Elt F .f32) :
    rcvM.view.readAt (Elt F) rcR0.toLoadRect
      (rcv0.view.write (Elt F) fd w Finset.univ) = w :=
  (View.readAt_rect rcR0 _).trans (View.read_write_univ _ _)
theorem rcv_load_sub0 : rcvM.view.setOn rcR0.toLoadRect.set ⊆ rcv0.view.set :=
  whole_load_sub cc0_scratch1 rcR0
theorem rcv_read1 (fd : (cc0_scratch1 : Ref sig .tc).ty.Contents (Elt F)) (w : S64x512.Idx → Elt F .f32) :
    rcvM.view.readAt (Elt F) rcR1.toLoadRect
      (rcv1.view.write (Elt F) fd w Finset.univ) = w :=
  (View.readAt_rect rcR1 _).trans (View.read_write_univ _ _)
theorem rcv_load_sub1 : rcvM.view.setOn rcR1.toLoadRect.set ⊆ rcv1.view.set :=
  whole_load_sub cc0_scratch1 rcR1
theorem rcv_read2 (fd : (cc0_scratch1 : Ref sig .tc).ty.Contents (Elt F)) (w : S32x512.Idx → Elt F .f32) :
    rcvM.view.readAt (Elt F) rcR2.toLoadRect
      (rcv2.view.write (Elt F) fd w Finset.univ) = w :=
  (View.readAt_rect rcR2 _).trans (View.read_write_univ _ _)
theorem rcv_load_sub2 : rcvM.view.setOn rcR2.toLoadRect.set ⊆ rcv2.view.set :=
  whole_load_sub cc0_scratch1 rcR2
theorem rcv_read3 (fd : (cc0_scratch1 : Ref sig .tc).ty.Contents (Elt F)) (w : S16x512.Idx → Elt F .f32) :
    rcvM.view.readAt (Elt F) rcR3.toLoadRect
      (rcv3.view.write (Elt F) fd w Finset.univ) = w :=
  (View.readAt_rect rcR3 _).trans (View.read_write_univ _ _)
theorem rcv_load_sub3 : rcvM.view.setOn rcR3.toLoadRect.set ⊆ rcv3.view.set :=
  whole_load_sub cc0_scratch1 rcR3
theorem rcv_read4 (fd : (cc0_scratch1 : Ref sig .tc).ty.Contents (Elt F)) (w : S8x512.Idx → Elt F .f32) :
    rcvM.view.readAt (Elt F) rcR4.toLoadRect
      (rcv4.view.write (Elt F) fd w Finset.univ) = w :=
  (View.readAt_rect rcR4 _).trans (View.read_write_univ _ _)
theorem rcv_load_sub4 : rcvM.view.setOn rcR4.toLoadRect.set ⊆ rcv4.view.set :=
  whole_load_sub cc0_scratch1 rcR4

end Cert.KernelIdeal.Hyper

end
-- ==== Proof.State.lean ====
import proofs.«900512_g7700000000000513_dist_attn_cross_mha_kvrep_htp_b2_sq128_skv128_d512_hq8_dh64_v7x_i32_f32_1_alg».proof.Proof.Proto
import proofs.«900512_g7700000000000513_dist_attn_cross_mha_kvrep_htp_b2_sq128_skv128_d512_hq8_dh64_v7x_i32_f32_1_alg».proof.Proof.AccSets

noncomputable section

namespace Cert.KernelIdeal.Hyper

open Cert.KernelIdeal Cert.KernelIdeal.Gen Cert.KernelIdeal.Net Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def PR0 (c : Dev nD) : sProp 𝕄 :=
  iprop(∃ f : Buf (Elt F) (rcv0.view.loc (nb 4 c : Thread nD τ)), rcv0.view.loc (nb 4 c : Thread nD τ) ↦[rcv0.view.set]{fullShare} f)
def OA0 (c : Dev nD) : sProp 𝕄 :=
  (snd0 (nb 4 c)).view.loc (nb 4 c : Thread nD τ) ↦[(snd0 (nb 4 c)).view.set]{fullShare} (A0m m) (nb 4 c)
def RV0 (c : Dev nD) : sProp 𝕄 :=
  iprop(∃ f : Buf (Elt F) (rcvLoc c), rcv0.view.loc (c : Thread nD τ) ↦[rcv0.view.set]{fullShare} f)

def PR1 (c : Dev nD) : sProp 𝕄 :=
  iprop(∃ f : Buf (Elt F) (rcv1.view.loc (nb 3 c : Thread nD τ)), rcv1.view.loc (nb 3 c : Thread nD τ) ↦[rcv1.view.set]{fullShare} f)
def OA1 (c : Dev nD) : sProp 𝕄 :=
  (snd1 (nb 3 c)).view.loc (nb 3 c : Thread nD τ) ↦[(snd1 (nb 3 c)).view.set]{fullShare} A1 (A0m m) (nb 3 c)
def RV1 (c : Dev nD) : sProp 𝕄 :=
  iprop(∃ f : Buf (Elt F) (rcvLoc c), rcv1.view.loc (c : Thread nD τ) ↦[rcv1.view.set]{fullShare} f)

def PR2 (c : Dev nD) : sProp 𝕄 :=
  iprop(∃ f : Buf (Elt F) (rcv2.view.loc (nb 2 c : Thread nD τ)), rcv2.view.loc (nb 2 c : Thread nD τ) ↦[rcv2.view.set]{fullShare} f)
def OA2 (c : Dev nD) : sProp 𝕄 :=
  (snd2 (nb 2 c)).view.loc (nb 2 c : Thread nD τ) ↦[(snd2 (nb 2 c)).view.set]{fullShare} A2 (A0m m) (nb 2 c)
def RV2 (c : Dev nD) : sProp 𝕄 :=
  iprop(∃ f : Buf (Elt F) (rcvLoc c), rcv2.view.loc (c : Thread nD τ) ↦[rcv2.view.set]{fullShare} f)

def PR3 (c : Dev nD) : sProp 𝕄 :=
  iprop(∃ f : Buf (Elt F) (rcv3.view.loc (nb 1 c : Thread nD τ)), rcv3.view.loc (nb 1 c : Thread nD τ) ↦[rcv3.view.set]{fullShare} f)
def OA3 (c : Dev nD) : sProp 𝕄 :=
  (snd3 (nb 1 c)).view.loc (nb 1 c : Thread nD τ) ↦[(snd3 (nb 1 c)).view.set]{fullShare} A3 (A0m m) (nb 1 c)
def RV3 (c : Dev nD) : sProp 𝕄 :=
  iprop(∃ f : Buf (Elt F) (rcvLoc c), rcv3.view.loc (c : Thread nD τ) ↦[rcv3.view.set]{fullShare} f)

def PR4 (c : Dev nD) : sProp 𝕄 :=
  iprop(∃ f : Buf (Elt F) (rcv4.view.loc (nb 0 c : Thread nD τ)), rcv4.view.loc (nb 0 c : Thread nD τ) ↦[rcv4.view.set]{fullShare} f)
def OA4 (c : Dev nD) : sProp 𝕄 :=
  (snd4 (nb 0 c)).view.loc (nb 0 c : Thread nD τ) ↦[(snd4 (nb 0 c)).view.set]{fullShare} A4 (A0m m) (nb 0 c)
def RV4 (c : Dev nD) : sProp 𝕄 :=
  iprop(∃ f : Buf (Elt F) (rcvLoc c), rcv4.view.loc (c : Thread nD τ) ↦[rcv4.view.set]{fullShare} f)

abbrev tok (q : Dev nD) (s : DmaSem sig) : sProp 𝕄 := dutyTok ER (cell q (.dma s)) 0 (0 : Fin 5)
abbrev pos (c : Dev nD) (s : DmaSem sig) (r : ℕ) : sProp 𝕄 := atPos ER (cell c (.dma s)) r ∅ 0
abbrev crd (c : Dev nD) (s : DmaSem sig) (n : ℕ) : sProp 𝕄 := cred (tallyAt (cell c (.dma s)) () n)
abbrev accOwn (c : Dev nD) (S : Finset (Idx (accLoc c))) (f : Buf (Elt F) (accLoc c)) : sProp 𝕄 := accLoc c ↦[S]{fullShare} f

end Cert.KernelIdeal.Hyper

end
-- ==== Proof.Steps.lean ====
import proofs.«900512_g7700000000000513_dist_attn_cross_mha_kvrep_htp_b2_sq128_skv128_d512_hq8_dh64_v7x_i32_f32_1_alg».proof.Proof.Proto

noncomputable section

namespace Cert.KernelIdeal.Hyper

open Cert.KernelIdeal Cert.KernelIdeal.Gen Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

-- A payment to a receive cell of level `b` on top of tallies of level `b + 1` or above leaves every owed cell at level `b` or above.
theorem Ow_step {O : CellTallies nD τ sig Unit} {q : Dev nD} {s : DmaSem sig} {n b : ℕ}
    (ih : ∀ g u, 0 < O g u → g.1.2 = .tc ∧ b + 1 ≤ lvS (slot g.2)) (hs : lvS (slot (.dma s : SemLoc sig)) = b)
    (g : GSem nD τ sig) (u : Unit) (h : 0 < (O + tallyAt (cell q (.dma s)) () n) g u) : g.1.2 = .tc ∧ b ≤ lvS (slot g.2) := by
  rw [Pi.add_apply, Finsupp.add_apply, tallyAt_apply] at h
  by_cases hg : g = cell q (.dma s) ∧ u = ()
  · rw [hg.1]; exact ⟨rfl, hs.ge⟩
  · rw [if_neg hg, Nat.add_zero] at h
    exact (ih g u h).imp_right Nat.le_of_succ_le

theorem Ow15_lev (c : Dev nD) (g : GSem nD τ sig) (u : Unit) (h : 0 < Ow15 c g u) : g.1.2 = .tc ∧ 12 ≤ lvS (slot g.2) :=
  absurd h (Nat.lt_irrefl 0)
theorem Ow14_lev (c : Dev nD) (g : GSem nD τ sig) (u : Unit) (h : 0 < Ow14 c g u) : g.1.2 = .tc ∧ 11 ≤ lvS (slot g.2) :=
  Ow_step (Ow15_lev c) (congrArg lvS slot_agR4) g u h
theorem Ow13_lev (c : Dev nD) (g : GSem nD τ sig) (u : Unit) (h : 0 < Ow13 c g u) : g.1.2 = .tc ∧ 10 ≤ lvS (slot g.2) :=
  Ow_step (Ow14_lev c) (congrArg lvS slot_agR3) g u h
theorem Ow12_lev (c : Dev nD) (g : GSem nD τ sig) (u : Unit) (h : 0 < Ow12 c g u) : g.1.2 = .tc ∧ 9 ≤ lvS (slot g.2) :=
  Ow_step (Ow13_lev c) (congrArg lvS slot_agR2) g u h
theorem Ow11_lev (c : Dev nD) (g : GSem nD τ sig) (u : Unit) (h : 0 < Ow11 c g u) : g.1.2 = .tc ∧ 8 ≤ lvS (slot g.2) :=
  Ow_step (Ow12_lev c) (congrArg lvS slot_agR1) g u h
theorem Ow10_lev (c : Dev nD) (g : GSem nD τ sig) (u : Unit) (h : 0 < Ow10 c g u) : g.1.2 = .tc ∧ 7 ≤ lvS (slot g.2) :=
  Ow_step (Ow11_lev c) (congrArg lvS slot_agR0) g u h
theorem Ow9_lev (c : Dev nD) (g : GSem nD τ sig) (u : Unit) (h : 0 < Ow9 c g u) : g.1.2 = .tc ∧ 6 ≤ lvS (slot g.2) :=
  Ow_step (Ow10_lev c) (congrArg lvS slot_rsR4) g u h
theorem Ow8_lev (c : Dev nD) (g : GSem nD τ sig) (u : Unit) (h : 0 < Ow8 c g u) : g.1.2 = .tc ∧ 5 ≤ lvS (slot g.2) :=
  Ow_step (Ow9_lev c) (congrArg lvS slot_rsR3) g u h
theorem Ow7_lev (c : Dev nD) (g : GSem nD τ sig) (u : Unit) (h : 0 < Ow7 c g u) : g.1.2 = .tc ∧ 4 ≤ lvS (slot g.2) :=
  Ow_step (Ow8_lev c) (congrArg lvS slot_rsR2) g u h
theorem Ow6_lev (c : Dev nD) (g : GSem nD τ sig) (u : Unit) (h : 0 < Ow6 c g u) : g.1.2 = .tc ∧ 3 ≤ lvS (slot g.2) :=
  Ow_step (Ow7_lev c) (congrArg lvS slot_rsR1) g u h
theorem Ow5_lev (c : Dev nD) (g : GSem nD τ sig) (u : Unit) (h : 0 < Ow5 c g u) : g.1.2 = .tc ∧ 2 ≤ lvS (slot g.2) :=
  Ow_step (Ow6_lev c) (congrArg lvS slot_rsR0) g u h

theorem inv_sem (K : Dev nD × Fin 21 → ℕ) (c : Dev nD) (s : SemLoc sig) (i : Fin 21) (hi : csem i = s) :
    records m K ⊢ cellInv ER (Rd (A0m m)) (K (c, i)) (cell c s) :=
  hi ▸ inv_at m K (c, i)

theorem reached_sem (K : Dev nD × Fin 21 → ℕ) (c : Dev nD) (s : SemLoc sig) (i : Fin 21) (hi : csem i = s) :
    records m K ⊢ (reached ER (cell c s) 0 : sProp 𝕄) :=
  hi ▸ reached_at m K (c, i)

-- With no duty taken, what is left of round `0` is the whole round: its `n` units and all its payloads `P`.
theorem step_wait_cell (K : Dev nD × Fin 21 → ℕ) (c : Dev nD) (s : SemLoc sig) (i : Fin 21) (hi : csem i = s) {n : ℕ} {P : sProp 𝕄}
    (he : (Rd (A0m m)).expect (cell c s) 0 = n)
    (hr : bigSep ((Rd (A0m m)).duties (cell c s) 0 \ ∅) (fun d => (Rd (A0m m)).payload (cell c s) 0 d) = P)
    {w : TpuEff nD τ sig (Elt F) Λ₀ .tc PUnit}
    (hw : ∀ Kq : PUnit → sProp 𝕄, wpE (defs₀ (F := F)) 𝒱₀ (c : Thread nD τ) none Set.univ w Kq = waitSpec (c : Thread nD τ) Set.univ s n Kq)
    {α : Type} {Q : α → sProp 𝕄} {k : PUnit → Prog (TpuEff nD τ sig (Elt F) Λ₀ .tc) α}
    (O : CellTallies nD τ sig Unit) (W : Waits sig Unit) :
    iprop(records m K ∗ cred (tallyAt (cell c s) () n) ∗ owes (c : Thread nD τ) O W ∗ MayWait (c : Thread nD τ) s () O ∗ atPos ER (cell c s) 0 ∅ 0)
      ⊢ iprop(((owes (c : Thread nD τ) O (insert (s, ()) W) ∗ atPos ER (cell c s) 1 ∅ 0 ∗ P) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst he hr
  iintro ⟨#HR, Hc, HO, HM, Hat⟩ Hk
  iapply (Rounds.wp_wait_rest_token 𝒱₀ ER (Rd (A0m m)) (c : Thread nD τ) none (κ := K (c, i)) hw (Set.mem_univ _) ()
      (O := O) (W := W) (T := ∅) (Nat.zero_add _)) $$ [Hc HO HM Hat]
  · isplitr; · iapply (inv_sem m K c s i hi); iexact HR
    iframe
  iintro ⟨HO, Hat, -, Hpay⟩
  iapply Hk; iframe

theorem step_wait (K : Dev nD × Fin 21 → ℕ) (c : Dev nD) (s : DmaSem sig) (h7 : 7 ≤ slot (.dma s : SemLoc sig)) (i : Fin 21) (hi : csem i = .dma s)
    {w : TpuEff nD τ sig (Elt F) Λ₀ .tc PUnit}
    (hw : ∀ Kq : PUnit → sProp 𝕄, wpE (defs₀ (F := F)) 𝒱₀ (c : Thread nD τ) none Set.univ w Kq
      = waitSpec (c : Thread nD τ) Set.univ (.dma s) (amt (slot (.dma s : SemLoc sig))) Kq)
    {α : Type} {Q : α → sProp 𝕄} {k : PUnit → Prog (TpuEff nD τ sig (Elt F) Λ₀ .tc) α}
    (O : CellTallies nD τ sig Unit) (W : Waits sig Unit) :
    iprop(records m K ∗ cred (tallyAt (cell c (.dma s)) () (amt (slot (.dma s : SemLoc sig)))) ∗ owes (c : Thread nD τ) O W
        ∗ MayWait (c : Thread nD τ) (.dma s) () O ∗ atPos ER (cell c (.dma s)) 0 ∅ 0)
      ⊢ iprop(((owes (c : Thread nD τ) O (insert (.dma s, ()) W) ∗ atPos ER (cell c (.dma s)) 1 ∅ 0 ∗ pay (A0m m) c (slot (.dma s : SemLoc sig)) 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) :=
  step_wait_cell m K c (.dma s) i hi (expect_dma (A0m m) c s h7) (rest_dma (A0m m) c s h7) hw O W

-- Flipping bit `a` twice is the identity, so the signaller is the witness of the payload of duty `a` of its neighbour's barrier cell.
theorem step_signal {S : Shape} (R : Memref sig .tc .vmem S .f32) (j : Fin 5) (a : ℕ) (ha : j = a)
    (hp : ∀ q : Dev nD, iprop(∃ p : Dev nD, ⌜p = nb a q⌝ ∗ ∃ f : Buf (Elt F) (R.view.loc (p : Thread nD τ)), R.view.loc (p : Thread nD τ) ↦[R.view.set]{fullShare} f) = (Rd (A0m m)).payload (cell q (.reg barS)) 0 j)
    (K : Dev nD × Fin 21 → ℕ) (c : Dev nD) (f : Buf (Elt F) (R.view.loc (c : Thread nD τ)))
    {α : Type} {Q : α → sProp 𝕄} {k : PUnit → Prog (TpuEff nD τ sig (Elt F) Λ₀ .tc) α}
    (O : CellTallies nD τ sig Unit) (W : Waits sig Unit) :
    iprop(records m K ∗ owes (c : Thread nD τ) (O + tallyAt (cell (nb a c) (.reg barS)) () 1) W ∗ dutyTok ER (cell (nb a c) (.reg barS)) 0 j
        ∗ (R.view.loc (c : Thread nD τ) ↦[R.view.set]{fullShare} f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((nb a c : Dev nD) : Thread nD τ) barS 1) k) Q) := by
  subst ha
  iintro ⟨#HR, HO, Htok, Hf⟩ Hk
  iapply (Rounds.wp_signal 𝒱₀ ER (Rd (A0m m)) (c : Thread nD τ) none (κ := K (nb j c, 0))
      (by rw [duties_bar]; exact Finset.mem_univ _) (amount_eq (A0m m) (nb j c) (.reg barS) 0 j) () O rfl) $$ [HO Htok Hf]
  · isplitr; · iapply (inv_sem m K (nb j c) (.reg barS) 0 rfl); iexact HR
    isplitl [HO]; · iexact HO
    iframe Htok
    isplitl [Hf]
    · iapply (Entails.of_eq (hp _)); iexists c
      isplitr; · ipureintro; exact (nb_nb j c).symm
      iexists f; iexact Hf
    iapply (reached_sem m K (nb j c) (.reg barS) 0 rfl); iexact HR
  iexact Hk

end Cert.KernelIdeal.Hyper

end
-- ==== Proof.Compute.lean ====
import proofs.«900512_g7700000000000513_dist_attn_cross_mha_kvrep_htp_b2_sq128_skv128_d512_hq8_dh64_v7x_i32_f32_1_alg».proof.Proof.Cells
import proofs.«900512_g7700000000000513_dist_attn_cross_mha_kvrep_htp_b2_sq128_skv128_d512_hq8_dh64_v7x_i32_f32_1_alg».proof.Proof.A0Def
import proofs.«900512_g7700000000000513_dist_attn_cross_mha_kvrep_htp_b2_sq128_skv128_d512_hq8_dh64_v7x_i32_f32_1_alg».proof.Proof.Proto

noncomputable section

namespace Cert.KernelIdeal.Hyper

open Cert.KernelIdeal Cert.KernelIdeal.Gen Cert.KernelIdeal.Comp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem whole_pt (b : Ref sig .tc) (c : Dev nD) (v : Buf (Elt F) ((c : Thread nD τ).loc b)) :
    (((c : Thread nD τ).loc b) ↦{fullShare} v : sProp 𝕄) = ((Memref.whole b).view.loc c ↦{fullShare} v) := rfl

variable (c : Dev nD)

abbrev kP (kc : Vec F S2x128x8x64 .f32) : sProp 𝕄 := ((c : Thread nD τ).loc cc0_scratch2) ↦{fullShare} kc
abbrev vP (vc : Vec F S2x128x8x64 .f32) : sProp 𝕄 := ((c : Thread nD τ).loc cc0_scratch3) ↦{fullShare} vc

theorem kP_eq (kc : Vec F S2x128x8x64 .f32) :
    (kP c kc : sProp 𝕄) = ((Memref.whole cc0_scratch2).view.loc c ↦{fullShare} kc) := rfl
theorem vP_eq (vc : Vec F S2x128x8x64 .f32) :
    (vP c vc : sProp 𝕄) = ((Memref.whole cc0_scratch3).view.loc c ↦{fullShare} vc) := rfl

abbrev KxP (Kx : Vec F S2x128x256x64 .f32) : sProp 𝕄 := ((c : Thread nD τ).loc main_arg3) ↦{fullShare} Kx
abbrev VxP (Vx : Vec F S2x128x256x64 .f32) : sProp 𝕄 := ((c : Thread nD τ).loc main_arg4) ↦{fullShare} Vx
abbrev xP (xv : Vec F S2x128x512 .f32) : sProp 𝕄 := ((c : Thread nD τ).loc cc0_stg0_0) ↦{fullShare} xv
abbrev wqP (wqv : Vec F S512x512 .f32) : sProp 𝕄 := ((c : Thread nD τ).loc cc0_stg1_0) ↦{fullShare} wqv

def kcvOf (Kx : Vec F S2x128x256x64 .f32) : Vec F S2x128x8x64 .f32 :=
  ((Memref.whole main_arg3 : Memref sig .tc .hbm S2x128x256x64 .f32).slice
    (Rect.unit (s := S2x128x256x64) (k0_off1 c) S2x128x8x64.size (k0_off1_inb c)) (fun _ => rfl)).view.read (Elt F) Kx

def vcvOf (Vx : Vec F S2x128x256x64 .f32) : Vec F S2x128x8x64 .f32 :=
  ((Memref.whole main_arg4 : Memref sig .tc .hbm S2x128x256x64 .f32).slice
    (Rect.unit (s := S2x128x256x64) (k0_off1 c) S2x128x8x64.size (k0_off1_inb c)) (fun _ => rfl)).view.read (Elt F) Vx

set_option maxHeartbeats 3200000 in
theorem part2_spec (xv : Vec F S2x128x512 .f32) (wqv : Vec F S512x512 .f32) (Kx Vx : Vec F S2x128x256x64 .f32)
    (O : CellTallies nD τ sig Unit) (W : Waits sig Unit)
    (Kt : (Σ' (v32 : FVec F S256x512 .f32) (v43 : FVec F S128x64 .f32) (v46 : FVec F S128x128 .f32), FVec F S128x128 .f32) → sProp 𝕄) :
    iprop((xP c xv ∗ wqP c wqv ∗ KxP c Kx ∗ VxP c Vx
          ∗ (∃ f, kP c f) ∗ (∃ f, vP c f)
          ∗ semVal ((c : Thread nD τ), SemLoc.dma kvS0) 0 ∗ semVal ((c : Thread nD τ), SemLoc.dma kvS1) 0
          ∗ owes c O W
          ∗ MayWait c (SemLoc.dma kvS0) () O ∗ MayWait c (SemLoc.dma kvS1) () O)
        ∗ ((xP c xv ∗ wqP c wqv ∗ KxP c Kx ∗ VxP c Vx ∗ kP c (kcvOf c Kx) ∗ vP c (vcvOf c Vx)
            ∗ semVal ((c : Thread nD τ), SemLoc.dma kvS0) 0 ∗ semVal ((c : Thread nD τ), SemLoc.dma kvS1) 0
            ∗ owes c O (insert (SemLoc.dma kvS1, ()) (insert (SemLoc.dma kvS0, ()) W)))
          -∗ Kt ⟨k0_pay2 xv wqv, k0_pay3 (ldV (vcvOf c Vx) (Rect.unit ![0, 0, 0, 0] S1x128x1x64.size inb_S2x128x8x64_S1x128x1x64_0_0_0_0)), k0_pay4 xv wqv (ldK (kcvOf c Kx) (Rect.unit ![0, 0, 0, 0] S1x128x1x64.size inb_S2x128x8x64_S1x128x1x64_0_0_0_0)), k0_pay5 xv wqv (ldK (kcvOf c Kx) (Rect.unit ![0, 0, 0, 0] S1x128x1x64.size inb_S2x128x8x64_S1x128x1x64_0_0_0_0))⟩))
      ⊢ wp frame (wpE (defs₀ (F := F)) Variants.none c none) Set.univ
          (atBufs k0_part2 c) Kt := by
  rw [atBufs, k0_part2_eq_skeleton]; unfold k0_part2_skel xP wqP KxP VxP
  rw [whole_pt cc0_stg0_0, whole_pt cc0_stg1_0, whole_pt main_arg3, whole_pt main_arg4]
  iintro ⟨⟨Hx, Hwq, HKx, HVx, ⟨%fk, Hk⟩, ⟨%fv, Hv⟩, Hs0, Hs1, HO, Hm0, Hm1⟩, HK⟩
  irevert Hk Hv; rw [kP_eq, kP_eq, vP_eq, vP_eq]; iintro Hk Hv
  have hm0 : (MayWait c (SemLoc.dma kvS0) () O : sProp 𝕄) ⊢ _ := .rfl
  have hm1 : (MayWait c (SemLoc.dma kvS1) () O : sProp 𝕄) ⊢ _ := .rfl
  sl_exec
  unfold part2_spec.sl.v40 part2_spec.sl.v42
  rw [View.write_whole_univ cc0_scratch2 fk, View.write_whole_univ cc0_scratch3 fv, show part2_spec.sl.dma0 c Kx = kcvOf c Kx from rfl,
    show part2_spec.sl.dma0_1 c Vx = vcvOf c Vx from rfl]
  erw [Memref.readAt_unit_zero (Elt F) cc0_stg0_0 (by decide) inb_S2x128x512_S2x128x512_0_0_0,
    Memref.readAt_unit_zero (Elt F) cc0_stg1_0 (by decide) inb_S512x512_S512x512_0_0, wp_ret]; imodintro
  iapply HK; sl_close

variable (v32 : FVec F S256x512 .f32)

set_option maxHeartbeats 1600000 in
theorem part3_spec (v43 : FVec F S128x64 .f32) (v46 v49 : FVec F S128x128 .f32) (kc vc : Vec F S2x128x8x64 .f32)
    (Kt : (Σ' (v56 : FVec F S128x64 .f32) (v74 : FVec F S128x64 .f32) (v79 : FVec F S128x64 .f32) (v82 : FVec F S128x128 .f32), FVec F S128 .f32) → sProp 𝕄) :
    iprop((kP c kc ∗ vP c vc) ∗ ((kP c kc ∗ vP c vc) -∗ Kt ⟨k0_pay6 v43 v46 v49, k0_pay7 v32 (ldK kc (Rect.unit ![0, 0, 1, 0] S1x128x1x64.size inb_S2x128x8x64_S1x128x1x64_0_0_1_0)) (ldV vc (Rect.unit ![0, 0, 1, 0] S1x128x1x64.size inb_S2x128x8x64_S1x128x1x64_0_0_1_0)), k0_pay8 (ldV vc (Rect.unit ![0, 0, 2, 0] S1x128x1x64.size inb_S2x128x8x64_S1x128x1x64_0_0_2_0)), k0_pay9 v32 (ldK kc (Rect.unit ![0, 0, 2, 0] S1x128x1x64.size inb_S2x128x8x64_S1x128x1x64_0_0_2_0)), k0_pay10 v32 (ldK kc (Rect.unit ![0, 0, 2, 0] S1x128x1x64.size inb_S2x128x8x64_S1x128x1x64_0_0_2_0))⟩))
      ⊢ wp frame (wpE (defs₀ (F := F)) Variants.none c none) Set.univ
          (atBufs k0_part3 v32 v43 v46 v49) Kt := by
  rw [atBufs, k0_part3_eq_skeleton, kP_eq, vP_eq]; unfold k0_part3_skel
  iintro ⟨⟨Hk, Hv⟩, HK⟩
  sl_exec
  rw [wp_ret]; imodintro
  iapply HK $$ [$]

set_option maxHeartbeats 1600000 in
theorem part4_spec (v79 : FVec F S128x64 .f32) (v82 : FVec F S128x128 .f32) (v83 : FVec F S128 .f32) (kc vc : Vec F S2x128x8x64 .f32)
    (Kt : (Σ' (v92 : FVec F S128x64 .f32) (v110 : FVec F S128x64 .f32) (v115 : FVec F S128x64 .f32), FVec F S128x128 .f32) → sProp 𝕄) :
    iprop((kP c kc ∗ vP c vc) ∗ ((kP c kc ∗ vP c vc) -∗ Kt ⟨k0_pay11 v79 v82 v83, k0_pay12 v32 (ldK kc (Rect.unit ![0, 0, 3, 0] S1x128x1x64.size inb_S2x128x8x64_S1x128x1x64_0_0_3_0)) (ldV vc (Rect.unit ![0, 0, 3, 0] S1x128x1x64.size inb_S2x128x8x64_S1x128x1x64_0_0_3_0)), k0_pay13 (ldV vc (Rect.unit ![0, 0, 4, 0] S1x128x1x64.size inb_S2x128x8x64_S1x128x1x64_0_0_4_0)), k0_pay14 v32 (ldK kc (Rect.unit ![0, 0, 4, 0] S1x128x1x64.size inb_S2x128x8x64_S1x128x1x64_0_0_4_0))⟩))
      ⊢ wp frame (wpE (defs₀ (F := F)) Variants.none c none) Set.univ
          (atBufs k0_part4 v32 v79 v82 v83) Kt := by
  rw [atBufs, k0_part4_eq_skeleton, kP_eq, vP_eq]; unfold k0_part4_skel
  iintro ⟨⟨Hk, Hv⟩, HK⟩
  sl_exec
  rw [wp_ret]; imodintro
  iapply HK $$ [$]

set_option maxHeartbeats 1600000 in
theorem part5_spec (v115 : FVec F S128x64 .f32) (v118 : FVec F S128x128 .f32) (kc vc : Vec F S2x128x8x64 .f32)
    (Kt : (Σ' (v128 : FVec F S128x64 .f32) (v146 : FVec F S128x64 .f32) (v151 : FVec F S128x64 .f32) (v152 : FVec F S128x128 .f32), F .f32) → sProp 𝕄) :
    iprop((kP c kc ∗ vP c vc) ∗ ((kP c kc ∗ vP c vc) -∗ Kt ⟨k0_pay15 v115 v118, k0_pay16 v32 (ldK kc (Rect.unit ![0, 0, 5, 0] S1x128x1x64.size inb_S2x128x8x64_S1x128x1x64_0_0_5_0)) (ldV vc (Rect.unit ![0, 0, 5, 0] S1x128x1x64.size inb_S2x128x8x64_S1x128x1x64_0_0_5_0)), k0_pay17 (ldV vc (Rect.unit ![0, 0, 6, 0] S1x128x1x64.size inb_S2x128x8x64_S1x128x1x64_0_0_6_0)), k0_pay18 v32 (ldK kc (Rect.unit ![0, 0, 6, 0] S1x128x1x64.size inb_S2x128x8x64_S1x128x1x64_0_0_6_0)), Scalar.ofBits .f32 0x3E000000#32⟩))
      ⊢ wp frame (wpE (defs₀ (F := F)) Variants.none c none) Set.univ
          (atBufs k0_part5 v32 v115 v118) Kt := by
  rw [atBufs, k0_part5_eq_skeleton, kP_eq, vP_eq]; unfold k0_part5_skel
  iintro ⟨⟨Hk, Hv⟩, HK⟩
  sl_exec
  unfold part5_spec.sl.cst_118
  rw [wp_ret]; imodintro
  iapply HK $$ [$]

set_option maxHeartbeats 1600000 in
theorem part6_spec (v56 v74 v92 v110 v128 v146 v151 : FVec F S128x64 .f32) (v152 : FVec F S128x128 .f32) (cst_118 : F .f32) (kc vc : Vec F S2x128x8x64 .f32)
    (Kt : (Σ' (v183 : FVec F S128x512 .f32) (v184 : FVec F S128x64 .f32) (v186 : FVec F S128x64 .f32), FVec F S128x64 .f32) → sProp 𝕄) :
    iprop((kP c kc ∗ vP c vc) ∗ ((kP c kc ∗ vP c vc) -∗ Kt ⟨k0_pay19 v32 v56 v74 v92 v110 v128 v146 v151 v152 cst_118 (ldK kc (Rect.unit ![0, 0, 7, 0] S1x128x1x64.size inb_S2x128x8x64_S1x128x1x64_0_0_7_0)) (ldV vc (Rect.unit ![0, 0, 7, 0] S1x128x1x64.size inb_S2x128x8x64_S1x128x1x64_0_0_7_0)), k0_pay20 v32, k0_pay21 (ldK kc (Rect.unit ![1, 0, 0, 0] S1x128x1x64.size inb_S2x128x8x64_S1x128x1x64_1_0_0_0)), k0_pay22 (ldV vc (Rect.unit ![1, 0, 0, 0] S1x128x1x64.size inb_S2x128x8x64_S1x128x1x64_1_0_0_0))⟩))
      ⊢ wp frame (wpE (defs₀ (F := F)) Variants.none c none) Set.univ
          (atBufs k0_part6 v32 v56 v74 v92 v110 v128 v146 v151 v152 cst_118) Kt := by
  rw [atBufs, k0_part6_eq_skeleton, kP_eq, vP_eq]; unfold k0_part6_skel
  iintro ⟨⟨Hk, Hv⟩, HK⟩
  sl_exec
  rw [wp_ret]; imodintro
  iapply HK $$ [$]

set_option maxHeartbeats 1600000 in
theorem part7_spec (v184 v186 v188 : FVec F S128x64 .f32) (kc vc : Vec F S2x128x8x64 .f32)
    (Kt : (Σ' (v201 : FVec F S128x64 .f32) (v219 : FVec F S128x64 .f32) (v220 : FVec F S128x64 .f32), FVec F S128x64 .f32) → sProp 𝕄) :
    iprop((kP c kc ∗ vP c vc) ∗ ((kP c kc ∗ vP c vc) -∗ Kt ⟨k0_pay23 v184 v186 v188, k0_pay24 v32 (ldK kc (Rect.unit ![1, 0, 1, 0] S1x128x1x64.size inb_S2x128x8x64_S1x128x1x64_1_0_1_0)) (ldV vc (Rect.unit ![1, 0, 1, 0] S1x128x1x64.size inb_S2x128x8x64_S1x128x1x64_1_0_1_0)), k0_pay25 v32, k0_pay26 (ldK kc (Rect.unit ![1, 0, 2, 0] S1x128x1x64.size inb_S2x128x8x64_S1x128x1x64_1_0_2_0))⟩))
      ⊢ wp frame (wpE (defs₀ (F := F)) Variants.none c none) Set.univ
          (atBufs k0_part7 v32 v184 v186 v188) Kt := by
  rw [atBufs, k0_part7_eq_skeleton, kP_eq, vP_eq]; unfold k0_part7_skel
  iintro ⟨⟨Hk, Hv⟩, HK⟩
  sl_exec
  rw [wp_ret]; imodintro
  iapply HK $$ [$]

set_option maxHeartbeats 1600000 in
theorem part8_spec (v220 v222 : FVec F S128x64 .f32) (kc vc : Vec F S2x128x8x64 .f32)
    (Kt : (Σ' (v237 : FVec F S128x64 .f32) (v255 : FVec F S128x64 .f32) (v256 : FVec F S128x64 .f32), FVec F S128x64 .f32) → sProp 𝕄) :
    iprop((kP c kc ∗ vP c vc) ∗ ((kP c kc ∗ vP c vc) -∗ Kt ⟨k0_pay27 v220 v222 (ldV vc (Rect.unit ![1, 0, 2, 0] S1x128x1x64.size inb_S2x128x8x64_S1x128x1x64_1_0_2_0)), k0_pay28 v32 (ldK kc (Rect.unit ![1, 0, 3, 0] S1x128x1x64.size inb_S2x128x8x64_S1x128x1x64_1_0_3_0)) (ldV vc (Rect.unit ![1, 0, 3, 0] S1x128x1x64.size inb_S2x128x8x64_S1x128x1x64_1_0_3_0)), k0_pay29 v32, k0_pay30 (ldK kc (Rect.unit ![1, 0, 4, 0] S1x128x1x64.size inb_S2x128x8x64_S1x128x1x64_1_0_4_0))⟩))
      ⊢ wp frame (wpE (defs₀ (F := F)) Variants.none c none) Set.univ
          (atBufs k0_part8 v32 v220 v222) Kt := by
  rw [atBufs, k0_part8_eq_skeleton, kP_eq, vP_eq]; unfold k0_part8_skel
  iintro ⟨⟨Hk, Hv⟩, HK⟩
  sl_exec
  rw [wp_ret]; imodintro
  iapply HK $$ [$]

set_option maxHeartbeats 1600000 in
theorem part9_spec (v256 v258 : FVec F S128x64 .f32) (kc vc : Vec F S2x128x8x64 .f32)
    (Kt : (Σ' (v273 : FVec F S128x64 .f32) (v291 : FVec F S128x64 .f32) (v292 : FVec F S128x64 .f32), FVec F S128x64 .f32) → sProp 𝕄) :
    iprop((kP c kc ∗ vP c vc) ∗ ((kP c kc ∗ vP c vc) -∗ Kt ⟨k0_pay31 v256 v258 (ldV vc (Rect.unit ![1, 0, 4, 0] S1x128x1x64.size inb_S2x128x8x64_S1x128x1x64_1_0_4_0)), k0_pay32 v32 (ldK kc (Rect.unit ![1, 0, 5, 0] S1x128x1x64.size inb_S2x128x8x64_S1x128x1x64_1_0_5_0)) (ldV vc (Rect.unit ![1, 0, 5, 0] S1x128x1x64.size inb_S2x128x8x64_S1x128x1x64_1_0_5_0)), k0_pay33 v32, k0_pay34 (ldK kc (Rect.unit ![1, 0, 6, 0] S1x128x1x64.size inb_S2x128x8x64_S1x128x1x64_1_0_6_0))⟩))
      ⊢ wp frame (wpE (defs₀ (F := F)) Variants.none c none) Set.univ
          (atBufs k0_part9 v32 v256 v258) Kt := by
  rw [atBufs, k0_part9_eq_skeleton, kP_eq, vP_eq]; unfold k0_part9_skel
  iintro ⟨⟨Hk, Hv⟩, HK⟩
  sl_exec
  rw [wp_ret]; imodintro
  iapply HK $$ [$]

abbrev woP (wov : Vec F S512x512 .f32) : sProp 𝕄 := ((c : Thread nD τ).loc cc0_stg2_0) ↦{fullShare} wov

set_option maxHeartbeats 1600000 in
theorem part10_spec (v183 : FVec F S128x512 .f32) (v201 v219 v237 v255 v273 v291 v292 v294 : FVec F S128x64 .f32)
    (kc vc : Vec F S2x128x8x64 .f32) (wov : Vec F S512x512 .f32)
    (Kt : (Σ' (v329 : FVec F S256x512 .f32), Vec F S512x512 .f32) → sProp 𝕄) :
    iprop((kP c kc ∗ vP c vc ∗ woP c wov) ∗ ((kP c kc ∗ vP c vc ∗ woP c wov) -∗
        Kt ⟨k0_pay35 v32 v183 v201 v219 v237 v255 v273 v291 v292 v294 (ldV vc (Rect.unit ![1, 0, 6, 0] S1x128x1x64.size inb_S2x128x8x64_S1x128x1x64_1_0_6_0)) (ldK kc (Rect.unit ![1, 0, 7, 0] S1x128x1x64.size inb_S2x128x8x64_S1x128x1x64_1_0_7_0)) (ldV vc (Rect.unit ![1, 0, 7, 0] S1x128x1x64.size inb_S2x128x8x64_S1x128x1x64_1_0_7_0)), wov⟩))
      ⊢ wp frame (wpE (defs₀ (F := F)) Variants.none c none) Set.univ
          (atBufs k0_part10 v32 v183 v201 v219 v237 v255 v273 v291 v292 v294) Kt := by
  rw [atBufs, k0_part10_eq_skeleton, kP_eq, vP_eq]; unfold k0_part10_skel woP; rw [whole_pt cc0_stg2_0]
  iintro ⟨⟨Hk, Hv, Hw⟩, HK⟩
  sl_exec
  erw [Memref.readAt_unit_zero (Elt F) cc0_stg2_0 (by decide) inb_S512x512_S512x512_0_0, wp_ret]; imodintro
  iapply HK $$ [$]

theorem attVal_chain (xv : Vec F S2x128x512 .f32) (wqv : Vec F S512x512 .f32) (kc vc : Vec F S2x128x8x64 .f32) :
    k0_pay35 (k0_pay2 xv wqv)
      (k0_pay19 (k0_pay2 xv wqv) (k0_pay6 (k0_pay3 (ldV vc (Rect.unit ![0, 0, 0, 0] S1x128x1x64.size inb_S2x128x8x64_S1x128x1x64_0_0_0_0))) (k0_pay4 xv wqv (ldK kc (Rect.unit ![0, 0, 0, 0] S1x128x1x64.size inb_S2x128x8x64_S1x128x1x64_0_0_0_0))) (k0_pay5 xv wqv (ldK kc (Rect.unit ![0, 0, 0, 0] S1x128x1x64.size inb_S2x128x8x64_S1x128x1x64_0_0_0_0)))) (k0_pay7 (k0_pay2 xv wqv) (ldK kc (Rect.unit ![0, 0, 1, 0] S1x128x1x64.size inb_S2x128x8x64_S1x128x1x64_0_0_1_0)) (ldV vc (Rect.unit ![0, 0, 1, 0] S1x128x1x64.size inb_S2x128x8x64_S1x128x1x64_0_0_1_0))) (k0_pay11 (k0_pay8 (ldV vc (Rect.unit ![0, 0, 2, 0] S1x128x1x64.size inb_S2x128x8x64_S1x128x1x64_0_0_2_0))) (k0_pay9 (k0_pay2 xv wqv) (ldK kc (Rect.unit ![0, 0, 2, 0] S1x128x1x64.size inb_S2x128x8x64_S1x128x1x64_0_0_2_0))) (k0_pay10 (k0_pay2 xv wqv) (ldK kc (Rect.unit ![0, 0, 2, 0] S1x128x1x64.size inb_S2x128x8x64_S1x128x1x64_0_0_2_0)))) (k0_pay12 (k0_pay2 xv wqv) (ldK kc (Rect.unit ![0, 0, 3, 0] S1x128x1x64.size inb_S2x128x8x64_S1x128x1x64_0_0_3_0)) (ldV vc (Rect.unit ![0, 0, 3, 0] S1x128x1x64.size inb_S2x128x8x64_S1x128x1x64_0_0_3_0))) (k0_pay15 (k0_pay13 (ldV vc (Rect.unit ![0, 0, 4, 0] S1x128x1x64.size inb_S2x128x8x64_S1x128x1x64_0_0_4_0))) (k0_pay14 (k0_pay2 xv wqv) (ldK kc (Rect.unit ![0, 0, 4, 0] S1x128x1x64.size inb_S2x128x8x64_S1x128x1x64_0_0_4_0)))) (k0_pay16 (k0_pay2 xv wqv) (ldK kc (Rect.unit ![0, 0, 5, 0] S1x128x1x64.size inb_S2x128x8x64_S1x128x1x64_0_0_5_0)) (ldV vc (Rect.unit ![0, 0, 5, 0] S1x128x1x64.size inb_S2x128x8x64_S1x128x1x64_0_0_5_0))) (k0_pay17 (ldV vc (Rect.unit ![0, 0, 6, 0] S1x128x1x64.size inb_S2x128x8x64_S1x128x1x64_0_0_6_0))) (k0_pay18 (k0_pay2 xv wqv) (ldK kc (Rect.unit ![0, 0, 6, 0] S1x128x1x64.size inb_S2x128x8x64_S1x128x1x64_0_0_6_0))) (Scalar.ofBits .f32 0x3E000000#32) (ldK kc (Rect.unit ![0, 0, 7, 0] S1x128x1x64.size inb_S2x128x8x64_S1x128x1x64_0_0_7_0)) (ldV vc (Rect.unit ![0, 0, 7, 0] S1x128x1x64.size inb_S2x128x8x64_S1x128x1x64_0_0_7_0)))
      (k0_pay23 (k0_pay20 (k0_pay2 xv wqv)) (k0_pay21 (ldK kc (Rect.unit ![1, 0, 0, 0] S1x128x1x64.size inb_S2x128x8x64_S1x128x1x64_1_0_0_0))) (k0_pay22 (ldV vc (Rect.unit ![1, 0, 0, 0] S1x128x1x64.size inb_S2x128x8x64_S1x128x1x64_1_0_0_0))))
      (k0_pay24 (k0_pay2 xv wqv) (ldK kc (Rect.unit ![1, 0, 1, 0] S1x128x1x64.size inb_S2x128x8x64_S1x128x1x64_1_0_1_0)) (ldV vc (Rect.unit ![1, 0, 1, 0] S1x128x1x64.size inb_S2x128x8x64_S1x128x1x64_1_0_1_0)))
      (k0_pay27 (k0_pay25 (k0_pay2 xv wqv)) (k0_pay26 (ldK kc (Rect.unit ![1, 0, 2, 0] S1x128x1x64.size inb_S2x128x8x64_S1x128x1x64_1_0_2_0))) (ldV vc (Rect.unit ![1, 0, 2, 0] S1x128x1x64.size inb_S2x128x8x64_S1x128x1x64_1_0_2_0)))
      (k0_pay28 (k0_pay2 xv wqv) (ldK kc (Rect.unit ![1, 0, 3, 0] S1x128x1x64.size inb_S2x128x8x64_S1x128x1x64_1_0_3_0)) (ldV vc (Rect.unit ![1, 0, 3, 0] S1x128x1x64.size inb_S2x128x8x64_S1x128x1x64_1_0_3_0)))
      (k0_pay31 (k0_pay29 (k0_pay2 xv wqv)) (k0_pay30 (ldK kc (Rect.unit ![1, 0, 4, 0] S1x128x1x64.size inb_S2x128x8x64_S1x128x1x64_1_0_4_0))) (ldV vc (Rect.unit ![1, 0, 4, 0] S1x128x1x64.size inb_S2x128x8x64_S1x128x1x64_1_0_4_0)))
      (k0_pay32 (k0_pay2 xv wqv) (ldK kc (Rect.unit ![1, 0, 5, 0] S1x128x1x64.size inb_S2x128x8x64_S1x128x1x64_1_0_5_0)) (ldV vc (Rect.unit ![1, 0, 5, 0] S1x128x1x64.size inb_S2x128x8x64_S1x128x1x64_1_0_5_0)))
      (k0_pay33 (k0_pay2 xv wqv)) (k0_pay34 (ldK kc (Rect.unit ![1, 0, 6, 0] S1x128x1x64.size inb_S2x128x8x64_S1x128x1x64_1_0_6_0)))
      (ldV vc (Rect.unit ![1, 0, 6, 0] S1x128x1x64.size inb_S2x128x8x64_S1x128x1x64_1_0_6_0)) (ldK kc (Rect.unit ![1, 0, 7, 0] S1x128x1x64.size inb_S2x128x8x64_S1x128x1x64_1_0_7_0)) (ldV vc (Rect.unit ![1, 0, 7, 0] S1x128x1x64.size inb_S2x128x8x64_S1x128x1x64_1_0_7_0))
      = Comp.attVal xv wqv kc vc := rfl

end Cert.KernelIdeal.Hyper

end
-- ==== Proof.Part1.lean ====
import proofs.«900512_g7700000000000513_dist_attn_cross_mha_kvrep_htp_b2_sq128_skv128_d512_hq8_dh64_v7x_i32_f32_1_alg».proof.Proof.State
import proofs.«900512_g7700000000000513_dist_attn_cross_mha_kvrep_htp_b2_sq128_skv128_d512_hq8_dh64_v7x_i32_f32_1_alg».proof.Proof.Steps

noncomputable section

namespace Cert.KernelIdeal.Hyper

open Cert.KernelIdeal Cert.KernelIdeal.Gen Cert.KernelIdeal.Net Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem part1_spec (K : Dev nD × Fin 21 → ℕ) (c : Dev nD) (W : Waits sig Unit) (Kt : (Σ' (_ : Dev nD), BitVec 32) → sProp 𝕄) :
    iprop((records m K ∗ levAts L lv ∗ owes (c : Thread nD τ) (Ow0 c) W
          ∗ dutyTok ER (cell (nb 0 c) (.reg barS)) 0 (0 : Fin 5) ∗ dutyTok ER (cell (nb 1 c) (.reg barS)) 0 (1 : Fin 5)
          ∗ dutyTok ER (cell (nb 2 c) (.reg barS)) 0 (2 : Fin 5) ∗ dutyTok ER (cell (nb 3 c) (.reg barS)) 0 (3 : Fin 5)
          ∗ dutyTok ER (cell (nb 4 c) (.reg barS)) 0 (4 : Fin 5)
          ∗ (∃ f : Buf (Elt F) (rcvLoc c), rcvLoc c ↦{fullShare} f)
          ∗ cred (tallyAt (cell c (.reg barS)) () 5) ∗ atPos ER (cell c (.reg barS)) 0 ∅ 0)
        ∗ (∀ (v2 : BitVec 32) (W' : Waits sig Unit), iprop(owes (c : Thread nD τ) (Ow5 c) W' ∗ atPos ER (cell c (.reg barS)) 1 ∅ 0
            ∗ PR0 (F := F) c ∗ PR1 (F := F) c ∗ PR2 (F := F) c ∗ PR3 (F := F) c ∗ PR4 (F := F) c) -∗ Kt ⟨c, v2⟩))
      ⊢ wp frame (wpE (defs₀ (F := F)) 𝒱₀ (c : Thread nD τ) none) Set.univ (atBufs k0_part1) Kt := by
  rw [atBufs, k0_part1_eq_skeleton]; unfold k0_part1_skel
  simp only [semSignalWord, semWaitWord, Prog.lift, Prog.bind_op, Prog.bind_ret, Prog.pure_eq_ret, wp_deviceId]
  simp only [Net.dev1_eq c, Net.dev2_eq c, Net.dev3_eq c, Net.dev4_eq c, Net.dev5_eq c]
  iintro ⟨⟨#HR, #Hlev, HO, Ht0, Ht1, Ht2, Ht3, Ht4, ⟨%f, Hrcv⟩, Hc, Hat⟩, Hk⟩
  icases (rcv_split c f).1 $$ Hrcv with ⟨H0, H1, H2, H3, H4⟩
  iapply (step_signal m rcv4 0 0 rfl (fun _ => rfl) K c f (Ow1 c) W) $$ [HO Ht0 H4]; · iframe HR Ht0 H4; iexact HO
  iintro HO
  iapply (step_signal m rcv3 1 1 rfl (fun _ => rfl) K c f (Ow2 c) W) $$ [HO Ht1 H3]; · iframe HR Ht1 H3; iexact HO
  iintro HO
  iapply (step_signal m rcv2 2 2 rfl (fun _ => rfl) K c f (Ow3 c) W) $$ [HO Ht2 H2]; · iframe HR Ht2 H2; iexact HO
  iintro HO
  iapply (step_signal m rcv1 3 3 rfl (fun _ => rfl) K c f (Ow4 c) W) $$ [HO Ht3 H1]; · iframe HR Ht3 H1; iexact HO
  iintro HO
  iapply (step_signal m rcv0 4 4 rfl (fun _ => rfl) K c f (Ow5 c) W) $$ [HO Ht4 H0]; · iframe HR Ht4 H0; iexact HO
  iintro HO
  iapply (step_wait_cell m K c (.reg barS) 0 rfl (expect_bar (A0m m) c) (rest_bar (A0m m) c) (wpE_semWait_eq 𝒱₀ (c : Thread nD τ) none Set.univ) (Ow5 c) W) $$ [Hc HO Hat]
  · iframe HR Hc HO Hat
    iapply (mayWait_of c (.reg barS) (Ow5 c) (Ow5_lev c)); iexact Hlev
  unfold barPay
  iintro ⟨HO, Hat, ⟨%q0, %h0, Hb0⟩, ⟨%q1, %h1, Hb1⟩, ⟨%q2, %h2, Hb2⟩, ⟨%q3, %h3, Hb3⟩, ⟨%q4, %h4, Hb4⟩⟩
  subst h0 h1 h2 h3 h4
  rw [wp_ret]; imodintro
  iapply Hk
  unfold PR0 PR1 PR2 PR3 PR4
  iframe

end Cert.KernelIdeal.Hyper

end
-- ==== Proof.PartsRS.lean ====
import proofs.«900512_g7700000000000513_dist_attn_cross_mha_kvrep_htp_b2_sq128_skv128_d512_hq8_dh64_v7x_i32_f32_1_alg».proof.Proof.State
import proofs.«900512_g7700000000000513_dist_attn_cross_mha_kvrep_htp_b2_sq128_skv128_d512_hq8_dh64_v7x_i32_f32_1_alg».proof.Proof.Steps

noncomputable section

namespace Cert.KernelIdeal.Hyper

open Cert.KernelIdeal Cert.KernelIdeal.Gen Cert.KernelIdeal.Net Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem write_acc_whole (f w : (cc0_scratch0 : Ref sig .tc).ty.Contents (Elt F)) :
    ((accM : Memref sig .tc .vmem S256x512 .f32).access (Rect.unit (s := S256x512) ![0, 0] S256x512.size inb_S256x512_S256x512_0_0) : View sig .tc _ _ _).write (Elt F) f w Finset.univ = w :=
  Memref.write_access_unit_zero_univ (Elt F) cc0_scratch0 (by funext a; fin_cases a <;> rfl) _ f w

-- What a transfer sends, laid over the partner's region, is the payload of the partner's receive cell.
theorem rs_tx (K : Dev nD × Fin 21 → ℕ) (c q : Dev nD) {j : ℕ} (hq : q = nb j c) {S : Shape}
    (sn : Dev nD → Memref sig .tc .vmem S .f32) (rc : Memref sig .tc .vmem S .f32) {sS sR : DmaSem sig} (iS iR : Fin 21)
    {a b : ℕ} (haS : slot (.dma sS : SemLoc sig) = a) (haR : slot (.dma sR : SemLoc sig) = b)
    (A : (c' : Dev nD) → Buf (Elt F) ((sn c').view.loc (c' : Thread nD τ))) (O : CellTallies nD τ sig Unit)
    {hsc : rc.view.ref.isScScratch = false}
    {hsrc : (sn c).view.WordExact} {hdst : rc.view.WordExact}
    {hsem : DmaTarget.Typed .vmem (.dma sR) (.remote (Dev.tc q : Thread nD τ) rc (.dma sS) hsc)}
    {α : Type} {Q : α → sProp 𝕄} {k : PUnit → Prog (TpuEff nD τ sig (Elt F) Λ₀ .tc) α} {W : Waits sig Unit}
    (hj : j < 5 := by decide) (hiS : csem iS = .dma sS := by rfl) (hiR : csem iR = .dma sR := by rfl)
    (h7 : 7 ≤ a ∧ 7 ≤ b := by decide) (hNS : amt a = rc.view.dmaCredit := by rfl) (hNR : amt b = rc.view.dmaCredit := by rfl)
    (hpS : pay (A0m m) c a 0 = iprop(emp) := by rfl)
    (hpR : pay (A0m m) (nb j c) b 0 = iprop(∃ q', ⌜q' = nb j (nb j c)⌝ ∗ ∃ fd,
      (rc.view.loc (nb j c : Thread nD τ) ↦[rc.view.set]{fullShare} rc.view.write (Elt F) fd ((sn q').view.read (Elt F) (A q')) Finset.univ)
        ∗ ((sn q').view.loc (q' : Thread nD τ) ↦[(sn q').view.set]{fullShare} A q')) := by rfl) :
    iprop(records m K ∗ ((sn c).view.loc (c : Thread nD τ) ↦[(sn c).view.set]{fullShare} A c)
        ∗ tok (F := F) c sS ∗ tok (F := F) (nb j c) sR
        ∗ (∃ f, rc.view.loc (nb j c : Thread nD τ) ↦[rc.view.set]{fullShare} f)
        ∗ owes (c : Thread nD τ) (O + tallyAt (cell (nb j c) (.dma sR)) () rc.view.dmaCredit) W)
      ⊢ iprop(((crd (F := F) c sS rc.view.dmaCredit ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (sn c) (.remote (Dev.tc q : Thread nD τ) rc (.dma sS) hsc) (.dma sR) hsrc hdst hsem) k) Q) := by
  subst hq haS haR
  iintro ⟨#HR, Hs, Ht1, Ht2, ⟨%fd, Hd⟩, HO⟩ Hk
  iapply (Rounds.wp_send_landing_pointsTo 𝒱₀ ER (Rd (A0m m)) (c : Thread nD τ) none (κ₁ := K (c, iS)) (κ₂ := K (nb j c, iR))
      (r₁ := 0) (r₂ := 0) (d₁ := (0 : Fin 5)) (d₂ := (0 : Fin 5)) (fd := fd)
      (by rw [duties_dma (A0m m) c sS h7.1]; exact Finset.mem_singleton_self _)
      (by rw [duties_dma (A0m m) (nb j c) sR h7.2]; exact Finset.mem_singleton_self _)
      () () rc.view.dmaCredit rfl ((amount_eq (A0m m) c (.dma sS) 0 0).trans hNS) ((amount_eq (A0m m) (nb j c) (.dma sR) 0 0).trans hNR)
      O rfl
      (by rw [payload_eq, hpS])
      (by
        rw [payload_eq, hpR]
        iintro ⟨Hd, Hs⟩
        iexists c
        isplitr; · ipureintro; exact (nb_nb ⟨j, hj⟩ c).symm
        iexists fd
        iframe)) $$ [Hs Hd HO Ht1 Ht2]
  · isplitr; · iapply (inv_sem m K c (.dma sS) iS hiS); iexact HR
    isplitr; · iapply (inv_sem m K (nb j c) (.dma sR) iR hiR); iexact HR
    iframe Hs Hd HO Ht1
    isplitr; · iapply (reached_sem m K c (.dma sS) iS hiS); iexact HR
    iframe Ht2
    iapply (reached_sem m K (nb j c) (.dma sR) iR hiR); iexact HR
  iexact Hk

-- A device may wait on a cell that lies below every cell it still owes; the wait hands over the cell's payload.
theorem rs_wait (K : Dev nD × Fin 21 → ℕ) (c : Dev nD) {s : DmaSem sig} (i : Fin 21)
    {a b : ℕ} (ha : slot (.dma s : SemLoc sig) = a) {O : CellTallies nD τ sig Unit}
    (hO : ∀ (g : GSem nD τ sig) (u : Unit), 0 < O g u → g.1.2 = .tc ∧ b ≤ lvS (slot g.2))
    {S : Shape} (src dst : Memref sig .tc .vmem S .f32) {hsrc : src.view.WordExact} {hdst : dst.view.WordExact} (N : ℕ) {P : sProp 𝕄}
    {α : Type} {Q : α → sProp 𝕄} {k : PUnit → Prog (TpuEff nD τ sig (Elt F) Λ₀ .tc) α} {W : Waits sig Unit}
    (hi : csem i = .dma s := by rfl) (hab : 7 ≤ a ∧ lvS a < b := by decide) (hN : amt a = N := by rfl)
    (hd : N = dst.view.dmaCredit := by rfl) (hP : pay (A0m m) c a 0 = P := by rfl) :
    iprop(records m K ∗ levAts L lv ∗ crd (F := F) c s N ∗ owes (c : Thread nD τ) O W ∗ pos (F := F) c s 0)
      ⊢ iprop(((owes (c : Thread nD τ) O (insert (.dma s, ()) W) ∗ pos (F := F) c s 1 ∗ P) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst ha hN hP
  iintro ⟨#HR, #Hl, Hc, HO, Hp⟩
  iapply (step_wait m K c s hab.1 i hi (w := .waitDma2 s src dst hsrc hdst) (fun Kq => by rw [hd]; rfl) O W) $$ [Hc HO Hp]
  iframe HR Hc HO Hp
  iapply (mayWait_of c (.dma s) O fun g u h => ⟨(hO g u h).1, lt_of_lt_of_le hab.2 (hO g u h).2⟩); iexact Hl

set_option maxHeartbeats 800000 in
theorem part11_spec (K : Dev nD × Fin 21 → ℕ) (c : Dev nD) (v2 : BitVec 32) (v329 : FVec F S256x512 .f32) (v330 : Vec F S512x512 .f32) (hv : k0_pay36 v329 v330 = A0m m c) (W : Waits sig Unit) (Kt : BitVec 32 → sProp 𝕄) :
    iprop((records m K ∗ levAts L lv ∗ (∃ f : Buf (Elt F) (accLoc c), accLoc c ↦{fullShare} f)
        ∗ PR0 (F := F) c
        ∗ owes (c : Thread nD τ) (Ow5 c) W
        ∗ tok (F := F) c rsS0
        ∗ tok (F := F) (nb 4 c) rsR0
        ∗ pos (F := F) c rsS0 0)
        ∗ (∀ (r : BitVec 32) (W' : Waits sig Unit), iprop(accOwn c (own1 c) (A0m m c)
            ∗ owes (c : Thread nD τ) (Ow6 c) W'
            ∗ pos (F := F) c rsS0 1) -∗ Kt r))
      ⊢ wp frame (wpE (defs₀ (F := F)) 𝒱₀ (c : Thread nD τ) none) Set.univ (atBufs k0_part11 c v2 v329 v330) Kt := by
  rw [atBufs, k0_part11_eq_skeleton]; unfold k0_part11_skel
  simp only [Prog.lift, Prog.bind_op, Prog.bind_ret, Prog.pure_eq_ret]
  iintro ⟨⟨#HR, #Hlev, ⟨%f, Hacc⟩, HPR, HO, HtS, HtR, HposS⟩, Hk⟩
  iapply (wp_load 𝒱₀ (c : Thread nD τ) _ _ (Finset.subset_univ _)) $$ Hacc; iintro Hacc
  iapply (wp_store 𝒱₀ (c : Thread nD τ) _ _ (m := accM) (r := Rect.unit (s := S256x512) ![0, 0] S256x512.size inb_S256x512_S256x512_0_0) (Finset.subset_univ _)) $$ Hacc; iintro Hacc
  rw [write_acc_whole, hv]
  ihave Hsp := (rs_split0 c (A0m m c)).mp $$ Hacc
  icases Hsp with ⟨Hs, Hown⟩
  unfold PR0
  iapply (rs_tx m K c _ (dev6_eq c) snd0 rcv0 1 6 slot_rsS0 slot_rsR0 (A0m m) (Ow6 c)) $$ [Hs HPR HO HtS HtR]
  · iframe # ∗
    iexact HO
  iintro ⟨HcS, HO⟩
  iapply (rs_wait m K c 1 slot_rsS0 (Ow6_lev c) rcv0 (snd0 c) NR0) $$ [HcS HO HposS]
  · iframe # ∗
  iintro ⟨HO, HposS, -⟩
  rw [wp_ret]; imodintro
  iapply Hk $$ %_ %_
  iframe

set_option maxHeartbeats 800000 in
theorem part12_spec (K : Dev nD × Fin 21 → ℕ) (c : Dev nD) (v2 v340 : BitVec 32) (W : Waits sig Unit) (Kt : (Σ' (_ : BitVec 32), BitVec 32) → sProp 𝕄) :
    iprop((records m K ∗ levAts L lv ∗ accOwn c (own1 c) (A0m m c)
        ∗ owes (c : Thread nD τ) (Ow6 c) W
        ∗ pos (F := F) c rsR0 0
        ∗ crd (F := F) c rsR0 NR0
        ∗ PR1 (F := F) c
        ∗ tok (F := F) c rsS1
        ∗ tok (F := F) (nb 3 c) rsR1
        ∗ pos (F := F) c rsS1 0)
        ∗ (∀ (r : (Σ' (_ : BitVec 32), BitVec 32)) (W' : Waits sig Unit), iprop(accOwn c (own2 c) (A1 (A0m m) c)
            ∗ owes (c : Thread nD τ) (Ow7 c) W'
            ∗ pos (F := F) c rsR0 1
            ∗ pos (F := F) c rsS1 1
            ∗ OA0 m c
            ∗ RV0 (F := F) c) -∗ Kt r))
      ⊢ wp frame (wpE (defs₀ (F := F)) 𝒱₀ (c : Thread nD τ) none) Set.univ (atBufs k0_part12 c v2 v340) Kt := by
  rw [atBufs, k0_part12_eq_skeleton]; unfold k0_part12_skel
  simp only [Prog.lift, Prog.bind_op, Prog.bind_ret, Prog.pure_eq_ret]
  iintro ⟨⟨#HR, #Hlev, Hown, HO, HposR, HcR, HPR, HtS, HtR, HposS⟩, Hk⟩
  iapply (rs_wait m K c 6 slot_rsR0 (Ow6_lev c) (snd0 c) rcv0 NR0 (P := rsPay0 (A0m m) c)) $$ [HcR HO HposR]
  · iframe # ∗
  iintro ⟨HO, HposR, Hland⟩
  unfold rsPay0
  icases Hland with ⟨%q, %hq, %fd, Hrcv, Hoa⟩
  subst hq
  iapply (wp_load 𝒱₀ (c : Thread nD τ) _ _ (load_sub0 c)) $$ Hown; iintro Hown
  iapply (wp_load 𝒱₀ (c : Thread nD τ) _ _ rcv_load_sub0) $$ Hrcv; iintro Hrcv
  rw [rcv_read0]
  iapply (wp_load 𝒱₀ (c : Thread nD τ) _ _ (load_sub0 c)) $$ Hown; iintro Hown
  iapply (wp_store 𝒱₀ (c : Thread nD τ) _ _ (m := accM) (r := kpR0 c) (S := own1 c) (Finset.Subset.refl _)) $$ Hown; iintro Hown
  ihave Hown : accOwn c (own1 c) (A1 (A0m m) c) $$ [Hown]
  · iexact Hown
  icases (rs_split1 c (A1 (A0m m) c)).mp $$ Hown with ⟨Hs, Hown⟩
  unfold PR1
  iapply (rs_tx m K c _ (dev7_eq c) snd1 rcv1 2 7 slot_rsS1 slot_rsR1 (A1 (A0m m)) (Ow7 c)) $$ [Hs HPR HO HtS HtR]
  · iframe # ∗
    iexact HO
  iintro ⟨HcS, HO⟩
  iapply (rs_wait m K c 2 slot_rsS1 (Ow7_lev c) rcv1 (snd1 c) NR1) $$ [HcS HO HposS]
  · iframe # ∗
  iintro ⟨HO, HposS, -⟩
  rw [wp_ret]; imodintro
  iapply Hk $$ %_ %_
  unfold OA0 RV0
  iframe
  iexists _; iexact Hrcv

set_option maxHeartbeats 800000 in
theorem part13_spec (K : Dev nD × Fin 21 → ℕ) (c : Dev nD) (v2 v370 v374 : BitVec 32) (W : Waits sig Unit) (Kt : (Σ' (_ : BitVec 32), BitVec 32) → sProp 𝕄) :
    iprop((records m K ∗ levAts L lv ∗ accOwn c (own2 c) (A1 (A0m m) c)
        ∗ owes (c : Thread nD τ) (Ow7 c) W
        ∗ pos (F := F) c rsR1 0
        ∗ crd (F := F) c rsR1 NR1
        ∗ PR2 (F := F) c
        ∗ tok (F := F) c rsS2
        ∗ tok (F := F) (nb 2 c) rsR2)
        ∗ (∀ (r : (Σ' (_ : BitVec 32), BitVec 32)) (W' : Waits sig Unit), iprop(accOwn c (own3 c) (A2 (A0m m) c)
            ∗ owes (c : Thread nD τ) (Ow8 c) W'
            ∗ pos (F := F) c rsR1 1
            ∗ OA1 m c
            ∗ RV1 (F := F) c
            ∗ crd (F := F) c rsS2 NR2) -∗ Kt r))
      ⊢ wp frame (wpE (defs₀ (F := F)) 𝒱₀ (c : Thread nD τ) none) Set.univ (atBufs k0_part13 c v2 v370 v374) Kt := by
  rw [atBufs, k0_part13_eq_skeleton]; unfold k0_part13_skel
  simp only [Prog.lift, Prog.bind_op, Prog.bind_ret, Prog.pure_eq_ret]
  iintro ⟨⟨#HR, #Hlev, Hown, HO, HposR, HcR, HPR, HtS, HtR⟩, Hk⟩
  iapply (rs_wait m K c 7 slot_rsR1 (Ow7_lev c) (snd1 c) rcv1 NR1 (P := rsPay1 (A0m m) c)) $$ [HcR HO HposR]
  · iframe # ∗
  iintro ⟨HO, HposR, Hland⟩
  unfold rsPay1
  icases Hland with ⟨%q, %hq, %fd, Hrcv, Hoa⟩
  subst hq
  iapply (wp_load 𝒱₀ (c : Thread nD τ) _ _ (load_sub1 c)) $$ Hown; iintro Hown
  iapply (wp_load 𝒱₀ (c : Thread nD τ) _ _ rcv_load_sub1) $$ Hrcv; iintro Hrcv
  rw [rcv_read1]
  iapply (wp_load 𝒱₀ (c : Thread nD τ) _ _ (load_sub1 c)) $$ Hown; iintro Hown
  iapply (wp_store 𝒱₀ (c : Thread nD τ) _ _ (m := accM) (r := kpR1 c) (S := own2 c) (Finset.Subset.refl _)) $$ Hown; iintro Hown
  ihave Hown : accOwn c (own2 c) (A2 (A0m m) c) $$ [Hown]
  · iexact Hown
  icases (rs_split2 c (A2 (A0m m) c)).mp $$ Hown with ⟨Hs, Hown⟩
  unfold PR2
  iapply (rs_tx m K c _ (dev8_eq c) snd2 rcv2 3 8 slot_rsS2 slot_rsR2 (A2 (A0m m)) (Ow8 c)) $$ [Hs HPR HO HtS HtR]
  · iframe # ∗
    iexact HO
  iintro ⟨HcS, HO⟩
  rw [wp_ret]; imodintro
  iapply Hk $$ %_ %_
  unfold OA1 RV1
  iframe
  iexists _; iexact Hrcv

set_option maxHeartbeats 800000 in
theorem part14_spec (K : Dev nD × Fin 21 → ℕ) (c : Dev nD) (v2 v404 v408 : BitVec 32) (W : Waits sig Unit) (Kt : (Σ' (_ : BitVec 32), BitVec 32) → sProp 𝕄) :
    iprop((records m K ∗ levAts L lv ∗ accOwn c (own3 c) (A2 (A0m m) c)
        ∗ owes (c : Thread nD τ) (Ow8 c) W
        ∗ crd (F := F) c rsS2 NR2
        ∗ pos (F := F) c rsS2 0
        ∗ pos (F := F) c rsR2 0
        ∗ crd (F := F) c rsR2 NR2)
        ∗ (∀ (r : (Σ' (_ : BitVec 32), BitVec 32)) (W' : Waits sig Unit), iprop(accOwn c (own3 c) (A3 (A0m m) c)
            ∗ owes (c : Thread nD τ) (Ow8 c) W'
            ∗ pos (F := F) c rsS2 1
            ∗ pos (F := F) c rsR2 1
            ∗ OA2 m c
            ∗ RV2 (F := F) c) -∗ Kt r))
      ⊢ wp frame (wpE (defs₀ (F := F)) 𝒱₀ (c : Thread nD τ) none) Set.univ (atBufs k0_part14 c v2 v404 v408) Kt := by
  rw [atBufs, k0_part14_eq_skeleton]; unfold k0_part14_skel
  simp only [Prog.lift, Prog.bind_op, Prog.bind_ret, Prog.pure_eq_ret]
  iintro ⟨⟨#HR, #Hlev, Hown, HO, HcS, HposS, HposR, HcR⟩, Hk⟩
  iapply (rs_wait m K c 3 slot_rsS2 (Ow8_lev c) rcv2 (snd2 c) NR2) $$ [HcS HO HposS]
  · iframe # ∗
  iintro ⟨HO, HposS, -⟩
  iapply (rs_wait m K c 8 slot_rsR2 (Ow8_lev c) (snd2 c) rcv2 NR2 (P := rsPay2 (A0m m) c)) $$ [HcR HO HposR]
  · iframe # ∗
  iintro ⟨HO, HposR, Hland⟩
  unfold rsPay2
  icases Hland with ⟨%q, %hq, %fd, Hrcv, Hoa⟩
  subst hq
  iapply (wp_load 𝒱₀ (c : Thread nD τ) _ _ (load_sub2 c)) $$ Hown; iintro Hown
  iapply (wp_load 𝒱₀ (c : Thread nD τ) _ _ rcv_load_sub2) $$ Hrcv; iintro Hrcv
  rw [rcv_read2]
  iapply (wp_load 𝒱₀ (c : Thread nD τ) _ _ (load_sub2 c)) $$ Hown; iintro Hown
  iapply (wp_store 𝒱₀ (c : Thread nD τ) _ _ (m := accM) (r := kpR2 c) (S := own3 c) (Finset.Subset.refl _)) $$ Hown; iintro Hown
  rw [wp_ret]; imodintro
  iapply Hk $$ %_ %_
  unfold OA2 RV2
  isplitl [Hown]; · iexact Hown
  iframe
  iexists _; iexact Hrcv

set_option maxHeartbeats 800000 in
theorem part15_spec (K : Dev nD × Fin 21 → ℕ) (c : Dev nD) (v2 v438 v442 : BitVec 32) (W : Waits sig Unit) (Kt : (Σ' (_ : BitVec 32) (_ : BitVec 32), BitVec 32) → sProp 𝕄) :
    iprop((records m K ∗ levAts L lv ∗ accOwn c (own3 c) (A3 (A0m m) c)
        ∗ owes (c : Thread nD τ) (Ow8 c) W
        ∗ PR3 (F := F) c
        ∗ tok (F := F) c rsS3
        ∗ tok (F := F) (nb 1 c) rsR3
        ∗ pos (F := F) c rsS3 0
        ∗ pos (F := F) c rsR3 0
        ∗ crd (F := F) c rsR3 NR3)
        ∗ (∀ (r : (Σ' (_ : BitVec 32) (_ : BitVec 32), BitVec 32)) (W' : Waits sig Unit), iprop(accOwn c (own4 c) (A4 (A0m m) c)
            ∗ owes (c : Thread nD τ) (Ow9 c) W'
            ∗ pos (F := F) c rsS3 1
            ∗ pos (F := F) c rsR3 1
            ∗ OA3 m c
            ∗ RV3 (F := F) c) -∗ Kt r))
      ⊢ wp frame (wpE (defs₀ (F := F)) 𝒱₀ (c : Thread nD τ) none) Set.univ (atBufs k0_part15 c v2 v438 v442) Kt := by
  rw [atBufs, k0_part15_eq_skeleton]; unfold k0_part15_skel
  simp only [Prog.lift, Prog.bind_op, Prog.bind_ret, Prog.pure_eq_ret]
  iintro ⟨⟨#HR, #Hlev, Hown, HO, HPR, HtS, HtR, HposS, HposR, HcR⟩, Hk⟩
  icases (rs_split3 c (A3 (A0m m) c)).mp $$ Hown with ⟨Hs, Hown⟩
  unfold PR3
  iapply (rs_tx m K c _ (dev9_eq c) snd3 rcv3 4 9 slot_rsS3 slot_rsR3 (A3 (A0m m)) (Ow9 c)) $$ [Hs HPR HO HtS HtR]
  · iframe # ∗
    iexact HO
  iintro ⟨HcS, HO⟩
  iapply (rs_wait m K c 4 slot_rsS3 (Ow9_lev c) rcv3 (snd3 c) NR3) $$ [HcS HO HposS]
  · iframe # ∗
  iintro ⟨HO, HposS, -⟩
  iapply (rs_wait m K c 9 slot_rsR3 (Ow9_lev c) (snd3 c) rcv3 NR3 (P := rsPay3 (A0m m) c)) $$ [HcR HO HposR]
  · iframe # ∗
  iintro ⟨HO, HposR, Hland⟩
  unfold rsPay3
  icases Hland with ⟨%q, %hq, %fd, Hrcv, Hoa⟩
  subst hq
  iapply (wp_load 𝒱₀ (c : Thread nD τ) _ _ (load_sub3 c)) $$ Hown; iintro Hown
  iapply (wp_load 𝒱₀ (c : Thread nD τ) _ _ rcv_load_sub3) $$ Hrcv; iintro Hrcv
  rw [rcv_read3]
  iapply (wp_load 𝒱₀ (c : Thread nD τ) _ _ (load_sub3 c)) $$ Hown; iintro Hown
  iapply (wp_store 𝒱₀ (c : Thread nD τ) _ _ (m := accM) (r := kpR3 c) (S := own4 c) (Finset.Subset.refl _)) $$ Hown; iintro Hown
  rw [wp_ret]; imodintro
  iapply Hk $$ %_ %_
  unfold OA3 RV3
  isplitl [Hown]; · iexact Hown
  iframe
  iexists _; iexact Hrcv

set_option maxHeartbeats 800000 in
theorem part16_spec (K : Dev nD × Fin 21 → ℕ) (c : Dev nD) (v2 v472 v476 c1 : BitVec 32) (W : Waits sig Unit) (Kt : (Σ' (_ : BitVec 32), BitVec 32) → sProp 𝕄) :
    iprop((records m K ∗ levAts L lv ∗ accOwn c (own4 c) (A4 (A0m m) c)
        ∗ owes (c : Thread nD τ) (Ow9 c) W
        ∗ PR4 (F := F) c
        ∗ tok (F := F) c rsS4
        ∗ tok (F := F) (nb 0 c) rsR4
        ∗ pos (F := F) c rsS4 0
        ∗ pos (F := F) c rsR4 0
        ∗ crd (F := F) c rsR4 NR4)
        ∗ (∀ (r : (Σ' (_ : BitVec 32), BitVec 32)) (W' : Waits sig Unit), iprop(accOwn c (own5 c) (A5 (A0m m) c)
            ∗ owes (c : Thread nD τ) (Ow10 c) W'
            ∗ pos (F := F) c rsS4 1
            ∗ pos (F := F) c rsR4 1
            ∗ OA4 m c
            ∗ RV4 (F := F) c) -∗ Kt r))
      ⊢ wp frame (wpE (defs₀ (F := F)) 𝒱₀ (c : Thread nD τ) none) Set.univ (atBufs k0_part16 c v2 v472 v476 c1) Kt := by
  rw [atBufs, k0_part16_eq_skeleton]; unfold k0_part16_skel
  simp only [Prog.lift, Prog.bind_op, Prog.bind_ret, Prog.pure_eq_ret]
  iintro ⟨⟨#HR, #Hlev, Hown, HO, HPR, HtS, HtR, HposS, HposR, HcR⟩, Hk⟩
  icases (rs_split4 c (A4 (A0m m) c)).mp $$ Hown with ⟨Hs, Hown⟩
  unfold PR4
  iapply (rs_tx m K c _ (dev10_eq c) snd4 rcv4 5 10 slot_rsS4 slot_rsR4 (A4 (A0m m)) (Ow10 c)) $$ [Hs HPR HO HtS HtR]
  · iframe # ∗
    iexact HO
  iintro ⟨HcS, HO⟩
  iapply (rs_wait m K c 5 slot_rsS4 (Ow10_lev c) rcv4 (snd4 c) NR4) $$ [HcS HO HposS]
  · iframe # ∗
  iintro ⟨HO, HposS, -⟩
  iapply (rs_wait m K c 10 slot_rsR4 (Ow10_lev c) (snd4 c) rcv4 NR4 (P := rsPay4 (A0m m) c)) $$ [HcR HO HposR]
  · iframe # ∗
  iintro ⟨HO, HposR, Hland⟩
  unfold rsPay4
  icases Hland with ⟨%q, %hq, %fd, Hrcv, Hoa⟩
  subst hq
  iapply (wp_load 𝒱₀ (c : Thread nD τ) _ _ (load_sub4 c)) $$ Hown; iintro Hown
  iapply (wp_load 𝒱₀ (c : Thread nD τ) _ _ rcv_load_sub4) $$ Hrcv; iintro Hrcv
  rw [rcv_read4]
  iapply (wp_load 𝒱₀ (c : Thread nD τ) _ _ (load_sub4 c)) $$ Hown; iintro Hown
  iapply (wp_store 𝒱₀ (c : Thread nD τ) _ _ (m := accM) (r := kpR4 c) (S := own5 c) (Finset.Subset.refl _)) $$ Hown; iintro Hown
  rw [wp_ret]; imodintro
  iapply Hk $$ %_ %_
  unfold OA4 RV4
  isplitl [Hown]; · iexact Hown
  iframe
  iexists _; iexact Hrcv

end Cert.KernelIdeal.Hyper

end
-- ==== Proof.PartsAG.lean ====
import proofs.«900512_g7700000000000513_dist_attn_cross_mha_kvrep_htp_b2_sq128_skv128_d512_hq8_dh64_v7x_i32_f32_1_alg».proof.Proof.State
import proofs.«900512_g7700000000000513_dist_attn_cross_mha_kvrep_htp_b2_sq128_skv128_d512_hq8_dh64_v7x_i32_f32_1_alg».proof.Proof.Steps

noncomputable section

namespace Cert.KernelIdeal.Hyper

open Cert.KernelIdeal Cert.KernelIdeal.Gen Cert.KernelIdeal.Net Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section
variable (K : Dev nD × Fin 21 → ℕ) (c : Dev nD) {S : Shape} (a : Memref sig .tc .vmem S .f32) {ha ha' : a.view.WordExact}

-- The partner's block, whichever device the landing names, joins the device's own.
theorem ag_land {c : Dev nD} {j : ℕ} {X : Dev nD → sProp 𝕄} {Y Z : sProp 𝕄} (hj : ∀ q : Dev nD, q = nb j c → iprop(Y ∗ X q) ⊢ Z) :
    iprop(Y ∗ ∃ q : Dev nD, ⌜q = nb j c⌝ ∗ X q) ⊢ Z := by
  iintro ⟨HY, %q, %hq, HX⟩; iapply (hj q hq); iframe HY HX

-- A wait on the transfer cell of slot `n`: allowed while everything still owed lies above the cell's level; `hP` says what its payload becomes.
theorem ag_wait {α : Type} {Q : α → sProp 𝕄} {k : PUnit → Prog (TpuEff nD τ sig (Elt F) Λ₀ .tc) α} {s : DmaSem sig} {n : ℕ} (hs : slot (.dma s : SemLoc sig) = n) (i : Fin 21) (N : ℕ)
    {Y Z : sProp 𝕄} (hP : iprop(Y ∗ pay (A0m m) c n 0) ⊢ Z)
    {O : CellTallies nD τ sig Unit} {b : ℕ} (hO : ∀ g u, 0 < O g u → g.1.2 = .tc ∧ b ≤ lvS (slot g.2)) {W : Waits sig Unit}
    (hi : csem i = .dma s := by rfl) (hN : amt n = N := by rfl) (hd : N = a.view.dmaCredit := by rfl) (hb : 7 ≤ n ∧ lvS n < b := by decide) :
    iprop(records m K ∗ levAts L lv ∗ crd c s N ∗ owes c.tc O W ∗ pos c s 0 ∗ Y)
      ⊢ iprop(((owes c.tc O (insert (.dma s, ()) W) ∗ pos c s 1 ∗ Z) -∗ wp frame (wpE (defs₀ (F := F)) 𝒱₀ c.tc none) Set.univ (k ⟨⟩) Q)
          -∗ wp frame (wpE (defs₀ (F := F)) 𝒱₀ c.tc none) Set.univ (.op (.waitDma2 s a a ha ha') k) Q) := by
  subst hs hN
  iintro ⟨#HR, #Hlev, Hc, HO, Hat, HY⟩ Hk
  iapply (step_wait m K c s hb.1 i hi (w := .waitDma2 s a a ha ha') (fun _ => by rw [hd]; rfl) O W) $$ [Hc HO Hat]
  · iframe HR Hc HO Hat
    iapply (mayWait_of c (.dma s) O fun g u h => ⟨(hO g u h).1, lt_of_lt_of_le hb.2 (hO g u h).2⟩); iexact Hlev
  iintro ⟨HO, Hat, Hp⟩
  iapply Hk
  iframe HO Hat
  iapply hP; iframe HY Hp

-- The transfer of a round: the device's block goes into the same rows of its partner along axis `j`, rows the device owns.
theorem ag_send {α : Type} {Q : α → sProp 𝕄} {k : PUnit → Prog (TpuEff nD τ sig (Elt F) Λ₀ .tc) α} (q : Dev nD) {j : ℕ} (hq : q = nb j c)
    {sS sR : DmaSem sig} {nS nR : ℕ} (hS : slot (.dma sS : SemLoc sig) = nS) (hR : slot (.dma sR : SemLoc sig) = nR)
    (iS iR : Fin 21) (N : ℕ) {fs fd} {X : Dev nD → sProp 𝕄} {hsc hsem} {O : CellTallies nD τ sig Unit} {W : Waits sig Unit}
    (h7 : j < 5 ∧ 7 ≤ nS ∧ 7 ≤ nR := by decide) (hiS : csem iS = .dma sS := by rfl) (hiR : csem iR = .dma sR := by rfl)
    (hNS : amt nS = N := by rfl) (hNR : amt nR = N := by rfl) (hd : a.view.dmaCredit = N := by rfl)
    (hpS : pay (A0m m) c nS 0 = (a.view.loc c.tc ↦[a.view.set]{fullShare} fs) := by rfl)
    (hpR : pay (A0m m) (nb j c) nR 0 = iprop(∃ p : Dev nD, ⌜p = nb j (nb j c)⌝ ∗ X p) := by rfl)
    (hX : X c = (a.view.loc (Dev.tc (nb j c)) ↦[a.view.set]{fullShare} a.view.write (Elt F) fd (a.view.read (Elt F) fs) Finset.univ) := by rfl) :
    iprop(records m K ∗ (a.view.loc c.tc ↦[a.view.set]{fullShare} fs)
        ∗ (a.view.loc (Dev.tc (nb j c)) ↦[a.view.set]{fullShare} fd)
        ∗ owes c.tc (O + tallyAt (cell (nb j c) (.dma sR)) () N) W
        ∗ tok c sS ∗ tok (nb j c) sR)
      ⊢ iprop(((crd c sS N ∗ owes c.tc O W) -∗ wp frame (wpE (defs₀ (F := F)) 𝒱₀ c.tc none) Set.univ (k ⟨⟩) Q)
          -∗ wp frame (wpE (defs₀ (F := F)) 𝒱₀ c.tc none) Set.univ (.op (.enqueueDma a (.remote q.tc a (.dma sS) hsc) (.dma sR) ha ha' hsem) k) Q) := by
  subst hq hS hR hNS
  iintro ⟨#HR, Hs, Hd, HO, Ht1, Ht2⟩
  iapply (Rounds.wp_send_pointsTo 𝒱₀ ER (Rd (A0m m)) c.tc none (κ₁ := K (c, iS)) (κ₂ := K (nb j c, iR))
      (c' := (Dev.tc (nb j c))) (src := a) (dst := a) (sS := .dma sS) (sem := .dma sR)
      (by rw [duties_dma (A0m m) c sS h7.2.1]; exact Finset.mem_singleton_self _)
      (by rw [duties_dma (A0m m) (nb j c) sR h7.2.2]; exact Finset.mem_singleton_self _)
      () () _ hd (amount_eq (A0m m) c (.dma sS) 0 0) ((amount_eq (A0m m) (nb j c) (.dma sR) 0 0).trans hNR)
      O rfl (W := W) (by rw [payload_eq, hpS])
      (by
        rw [payload_eq, hpR]
        iintro Hd
        iexists c
        isplitr; · ipureintro; exact (nb_nb ⟨j, h7.1⟩ c).symm
        rw [hX]; iexact Hd)) $$ [Hs Hd HO Ht1 Ht2]
  · isplitr; · iapply (inv_sem m K c (.dma sS) iS hiS); iexact HR
    isplitr; · iapply (inv_sem m K (nb j c) (.dma sR) iR hiR); iexact HR
    iframe Hs Hd HO Ht1 Ht2
    isplitr; · iapply (reached_sem m K c (.dma sS) iS hiS); iexact HR
    iapply (reached_sem m K (nb j c) (.dma sR) iR hiR); iexact HR

theorem ag_close (s : DmaSem sig) (i : Fin 21) (hi : csem i = .dma s) :
    iprop(records m K ∗ pos c s 1) ⊢ iprop(|={Set.univ}=> semVal (cell c (.dma s)) 0) :=
  (sep_mono_left (inv_sem m K c (.dma s) i hi)).trans
    (Rounds.cell_close ER (Rd (A0m m)) (Set.mem_univ _) (fun h => h) (R := 1) fun r hr => duties_later (A0m m) _ r hr)

end

theorem part17_spec (K : Dev nD × Fin 21 → ℕ) (c : Dev nD) (v2 v508 c1 : BitVec 32) (W : Waits sig Unit) (Kt : BitVec 32 → sProp 𝕄) :
    iprop((records m K ∗ levAts L lv ∗ accOwn c (ag0 c).view.set (G0 (A0m m) c)
        ∗ owes (c : Thread nD τ) (Ow10 c) W
        ∗ OA4 m c
        ∗ OA3 m c
        ∗ tok (F := F) c agS0
        ∗ tok (F := F) (nb 0 c) agR0
        ∗ tok (F := F) c agS1
        ∗ tok (F := F) (nb 1 c) agR1
        ∗ pos (F := F) c agS0 0
        ∗ pos (F := F) c agR0 0
        ∗ crd (F := F) c agR0 NG0)
        ∗ (∀ (r : BitVec 32) (W' : Waits sig Unit), iprop(owes (c : Thread nD τ) (Ow12 c) W'
            ∗ pos (F := F) c agS0 1
            ∗ pos (F := F) c agR0 1
            ∗ crd (F := F) c agS1 NG1) -∗ Kt r))
      ⊢ wp frame (wpE (defs₀ (F := F)) 𝒱₀ (c : Thread nD τ) none) Set.univ (atBufs k0_part17 c v2 v508 c1) Kt := by
  rw [atBufs, k0_part17_eq_skeleton]; unfold k0_part17_skel
  simp only [Prog.lift, Prog.bind_op, Prog.bind_ret, Prog.pure_eq_ret]
  unfold OA4 OA3; rw [snd4_set, snd4_ag0_off, ← ag0_set, snd3_set, snd3_ag1_off, ← ag1_set]
  unfold Ow10
  iintro ⟨⟨#HR, #Hlev, Hacc, HO, Hoa4, Hoa3, HtS0, HtR0, HtS1, HtR1, HpS0, HpR0, HcR0⟩, Hk⟩
  iapply (ag_send m K c (ag0 c) _ (dev11_eq c) slot_agS0 slot_agR0 11 16 NG0) $$ [$]
  iintro ⟨HcS0, HO⟩
  iapply (ag_wait m K c (ag0 c) slot_agS0 11 NG0 (Z := accOwn c _ _) BIClass.emp_sep.1 (Ow11_lev c)) $$ [$]
  iintro ⟨HO, HpS0, Hacc⟩
  iapply (ag_wait m K c (ag0 c) slot_agR0 16 NG0 (ag_land (ag_join0 (A0m m) c)) (Ow11_lev c)) $$ [$]
  iintro ⟨HO, HpR0, Hacc⟩
  unfold Ow11
  iapply (ag_send m K c (ag1 c) _ (dev12_eq c) slot_agS1 slot_agR1 12 17 NG1) $$ [$]
  iintro ⟨HcS1, HO⟩
  rw [wp_ret]; imodintro
  iapply Hk
  iframe

theorem part18_spec (K : Dev nD × Fin 21 → ℕ) (c : Dev nD) (v2 v529 : BitVec 32) (W : Waits sig Unit) (Kt : PUnit → sProp 𝕄) :
    iprop((records m K ∗ levAts L lv ∗ owes (c : Thread nD τ) (Ow12 c) W
        ∗ crd (F := F) c agS1 NG1
        ∗ pos (F := F) c agS1 0
        ∗ pos (F := F) c agR1 0
        ∗ crd (F := F) c agR1 NG1
        ∗ OA2 m c
        ∗ tok (F := F) c agS2
        ∗ tok (F := F) (nb 2 c) agR2
        ∗ pos (F := F) c agS2 0)
        ∗ (∀ (r : PUnit) (W' : Waits sig Unit), iprop(accOwn c (ag2 c).view.set (G2 (A0m m) c)
            ∗ owes (c : Thread nD τ) (Ow13 c) W'
            ∗ pos (F := F) c agS1 1
            ∗ pos (F := F) c agR1 1
            ∗ pos (F := F) c agS2 1) -∗ Kt r))
      ⊢ wp frame (wpE (defs₀ (F := F)) 𝒱₀ (c : Thread nD τ) none) Set.univ (atBufs k0_part18 c v2 v529) Kt := by
  rw [atBufs, k0_part18_eq_skeleton]; unfold k0_part18_skel
  simp only [Prog.lift, Prog.bind_op, Prog.bind_ret, Prog.pure_eq_ret]
  unfold OA2; rw [snd2_set, snd2_ag2_off, ← ag2_set]
  iintro ⟨⟨#HR, #Hlev, HO, HcS1, HpS1, HpR1, HcR1, Hoa2, HtS2, HtR2, HpS2⟩, Hk⟩
  iapply (ag_wait m K c (ag1 c) slot_agS1 12 NG1 (Z := accOwn c _ _) BIClass.emp_sep.1 (Ow12_lev c)) $$ [$]
  iintro ⟨HO, HpS1, Hacc⟩
  iapply (ag_wait m K c (ag1 c) slot_agR1 17 NG1 (ag_land (ag_join1 (A0m m) c)) (Ow12_lev c)) $$ [$]
  iintro ⟨HO, HpR1, Hacc⟩
  unfold Ow12
  iapply (ag_send m K c (ag2 c) _ (dev13_eq c) slot_agS2 slot_agR2 13 18 NG2) $$ [$]
  iintro ⟨HcS2, HO⟩
  iapply (ag_wait m K c (ag2 c) slot_agS2 13 NG2 (Z := accOwn c _ _) BIClass.emp_sep.1 (Ow13_lev c)) $$ [$]
  iintro ⟨HO, HpS2, Hacc⟩
  rw [wp_ret]; imodintro
  iapply Hk
  iframe

theorem part19_spec (K : Dev nD × Fin 21 → ℕ) (c : Dev nD) (v2 : BitVec 32) (W : Waits sig Unit) (Kt : BitVec 32 → sProp 𝕄) :
    iprop((records m K ∗ levAts L lv ∗ accOwn c (ag2 c).view.set (G2 (A0m m) c)
        ∗ owes (c : Thread nD τ) (Ow13 c) W
        ∗ pos (F := F) c agR2 0
        ∗ crd (F := F) c agR2 NG2
        ∗ OA1 m c
        ∗ tok (F := F) c agS3
        ∗ tok (F := F) (nb 3 c) agR3
        ∗ pos (F := F) c agS3 0
        ∗ pos (F := F) c agR3 0
        ∗ crd (F := F) c agR3 NG3)
        ∗ (∀ (r : BitVec 32) (W' : Waits sig Unit), iprop(accOwn c (ag4 c).view.set (G4 (A0m m) c)
            ∗ owes (c : Thread nD τ) (Ow14 c) W'
            ∗ pos (F := F) c agR2 1
            ∗ pos (F := F) c agS3 1
            ∗ pos (F := F) c agR3 1) -∗ Kt r))
      ⊢ wp frame (wpE (defs₀ (F := F)) 𝒱₀ (c : Thread nD τ) none) Set.univ (atBufs k0_part19 c v2) Kt := by
  rw [atBufs, k0_part19_eq_skeleton]; unfold k0_part19_skel
  simp only [Prog.lift, Prog.bind_op, Prog.bind_ret, Prog.pure_eq_ret]
  unfold OA1; rw [snd1_set, snd1_ag3_off, ← ag3_set]
  iintro ⟨⟨#HR, #Hlev, Hacc, HO, HpR2, HcR2, Hoa1, HtS3, HtR3, HpS3, HpR3, HcR3⟩, Hk⟩
  iapply (ag_wait m K c (ag2 c) slot_agR2 18 NG2 (ag_land (ag_join2 (A0m m) c)) (Ow13_lev c)) $$ [$]
  iintro ⟨HO, HpR2, Hacc⟩
  unfold Ow13
  iapply (ag_send m K c (ag3 c) _ (dev14_eq c) slot_agS3 slot_agR3 14 19 NG3) $$ [$]
  iintro ⟨HcS3, HO⟩
  iapply (ag_wait m K c (ag3 c) slot_agS3 14 NG3 (Z := accOwn c _ _) BIClass.emp_sep.1 (Ow14_lev c)) $$ [$]
  iintro ⟨HO, HpS3, Hacc⟩
  iapply (ag_wait m K c (ag3 c) slot_agR3 19 NG3 (ag_land (ag_join3 (A0m m) c)) (Ow14_lev c)) $$ [$]
  iintro ⟨HO, HpR3, Hacc⟩
  rw [wp_ret]; imodintro
  iapply Hk
  iframe

noncomputable def tailProg (c : Dev nD) : Prog (TpuEff nD τ sig (Elt F) Λ₀ .tc) PUnit := do
  Prog.lift (.enqueueDma (ag4 c) (.remote (Dev.tc (⟨k0_dev15 c, k0_dev15_lt c⟩ : Dev nD)) (ag4 c) (.dma agS4)) (.dma agR4) (View.wordExact_bits rfl) (View.wordExact_bits rfl) ⟨⟨rfl, Or.inl rfl⟩, trivial⟩)
  Prog.lift (.waitDma2 agS4 (ag4 c) (ag4 c) (View.wordExact_bits rfl) (View.wordExact_bits rfl))
  Prog.lift (.waitDma2 agR4 (ag4 c) (ag4 c) (View.wordExact_bits rfl) (View.wordExact_bits rfl))
  let v611 : Vec F S256x512 .f32 ← Prog.lift (.load accM (Rect.unit (s := S256x512) ![0, 0] S256x512.size inb_S256x512_S256x512_0_0).toLoadRect (View.loadsAt_vmem h_S256x512))
  let v613 : Vec F S2x128x512 .f32 ← Prog.lift (.load (Memref.whole cc0_stg3_0 : Memref sig .tc .vmem S2x128x512 .f32) (Rect.unit (s := S2x128x512) ![0, 0, 0] S2x128x512.size inb_S2x128x512_S2x128x512_0_0_0).toLoadRect (View.loadsAt_vmem h_S2x128x512))
  Prog.lift (.store (Memref.whole cc0_stg3_0 : Memref sig .tc .vmem S2x128x512 .f32) (Rect.unit (s := S2x128x512) ![0, 0, 0] S2x128x512.size inb_S2x128x512_S2x128x512_0_0_0) (k0_pay1 v611) Finset.univ (View.stores_vmem_bits_univ h_S2x128x512 rfl) (.inl rfl))
  pure ⟨⟩

theorem tail_spec (K : Dev nD × Fin 21 → ℕ) (c : Dev nD) (g3 : Buf (Elt F) ((c : Thread nD τ).loc cc0_stg3_0)) (W : Waits sig Unit) (Kt : PUnit → sProp 𝕄) :
    iprop((records m K ∗ levAts L lv ∗ accOwn c (ag4 c).view.set (G4 (A0m m) c) ∗ owes (c : Thread nD τ) (Ow14 c) W ∗ OA0 m c
          ∗ tok (F := F) c agS4 ∗ tok (F := F) (nb 4 c) agR4 ∗ pos (F := F) c agS4 0 ∗ pos (F := F) c agR4 0 ∗ crd (F := F) c agR4 NG4
          ∗ (((c : Thread nD τ).loc cc0_stg3_0) ↦{fullShare} g3))
        ∗ (∀ (W' : Waits sig Unit), iprop((accLoc c ↦{fullShare} G5 (A0m m) c) ∗ owes (c : Thread nD τ) (Ow15 c) W' ∗ semVal (cell c (.dma agS4)) 0 ∗ semVal (cell c (.dma agR4)) 0
            ∗ (((c : Thread nD τ).loc cc0_stg3_0) ↦{fullShare} outV (A0m m) c)) -∗ Kt ⟨⟩))
      ⊢ wp frame (wpE (defs₀ (F := F)) 𝒱₀ (c : Thread nD τ) none) Set.univ (tailProg c) Kt := by
  unfold tailProg
  simp only [Prog.lift, Prog.bind_op, Prog.bind_ret, Prog.pure_eq_ret]
  unfold OA0; rw [snd0_set, snd0_ag4_off, ← ag4_set]
  unfold Ow14
  iintro ⟨⟨#HR, #Hlev, Hacc, HO, Hoa0, HtS4, HtR4, HpS4, HpR4, HcR4, Hstg⟩, Hk⟩
  iapply (ag_send m K c (ag4 c) _ (dev15_eq c) slot_agS4 slot_agR4 15 20 NG4) $$ [$]
  iintro ⟨HcS4, HO⟩
  iapply (ag_wait m K c (ag4 c) slot_agS4 15 NG4 (Z := accOwn c _ _) BIClass.emp_sep.1 (Ow15_lev c)) $$ [$]
  iintro ⟨HO, HpS4, Hacc⟩
  iapply (ag_wait m K c (ag4 c) slot_agR4 20 NG4 (ag_land (ag_join4 (A0m m) c)) (Ow15_lev c)) $$ [$]
  iintro ⟨HO, HpR4, Hacc⟩
  imod (ag_close m K c agS4 15 rfl) $$ [$] with HzS4
  imod (ag_close m K c agR4 20 rfl) $$ [$] with HzR4
  iapply (wp_load 𝒱₀ (c : Thread nD τ) none Set.univ (Finset.subset_univ _)) $$ Hacc; iintro Hacc
  erw [Memref.readAt_unit_zero (Elt F) cc0_scratch0 (funext fun a => by fin_cases a <;> rfl)]
  iapply (wp_load 𝒱₀ (c : Thread nD τ) none Set.univ (m := Memref.whole cc0_stg3_0) (Finset.subset_univ _)) $$ Hstg; iintro Hstg
  iapply (wp_store 𝒱₀ (c : Thread nD τ) none Set.univ (m := Memref.whole cc0_stg3_0) (r := Rect.unit (s := S2x128x512) ![0, 0, 0] S2x128x512.size inb_S2x128x512_S2x128x512_0_0_0) (Mk := Finset.univ) (Finset.subset_univ _)) $$ Hstg; iintro Hstg
  erw [Memref.write_access_unit_zero_univ (Elt F) cc0_stg3_0 (funext fun a => by fin_cases a <;> rfl)]; rw [wp_ret]; imodintro
  iapply Hk
  unfold outV; iframe

end Cert.KernelIdeal.Hyper

end
-- ==== Proof.Body.lean ====
import proofs.«900512_g7700000000000513_dist_attn_cross_mha_kvrep_htp_b2_sq128_skv128_d512_hq8_dh64_v7x_i32_f32_1_alg».proof.Proof.State
import proofs.«900512_g7700000000000513_dist_attn_cross_mha_kvrep_htp_b2_sq128_skv128_d512_hq8_dh64_v7x_i32_f32_1_alg».proof.Proof.Steps
import proofs.«900512_g7700000000000513_dist_attn_cross_mha_kvrep_htp_b2_sq128_skv128_d512_hq8_dh64_v7x_i32_f32_1_alg».proof.Proof.Compute
import proofs.«900512_g7700000000000513_dist_attn_cross_mha_kvrep_htp_b2_sq128_skv128_d512_hq8_dh64_v7x_i32_f32_1_alg».proof.Proof.Part1
import proofs.«900512_g7700000000000513_dist_attn_cross_mha_kvrep_htp_b2_sq128_skv128_d512_hq8_dh64_v7x_i32_f32_1_alg».proof.Proof.PartsRS
import proofs.«900512_g7700000000000513_dist_attn_cross_mha_kvrep_htp_b2_sq128_skv128_d512_hq8_dh64_v7x_i32_f32_1_alg».proof.Proof.PartsAG

noncomputable section

namespace Cert.KernelIdeal.Hyper

open Cert.KernelIdeal Cert.KernelIdeal.Gen Cert.KernelIdeal.Net Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem bigSep_f21 (Φ : Fin 21 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ
theorem bigSep_f22 (Φ : Fin 22 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21) :=
  bigSep_univ_eq_bigSepL [0, 1, 2, 3, 4, 5, 6, 7, 8, 9, 10, 11, 12, 13, 14, 15, 16, 17, 18, 19, 20, 21] (by decide) (by decide) Φ

theorem close_cell (K : Dev nD × Fin 21 → ℕ) (c : Dev nD) (i : Fin 21) :
    records m K ⊢ (atPos ER (kcell (c, i)) 1 ∅ 0 -∗ |={Set.univ}=> semVal (kcell (c, i)) 0 : sProp 𝕄) := by
  iintro #HR Hat
  iapply (Rounds.cell_close ER (Rd (A0m m)) (Set.mem_univ (K (c, i))) (fun h => h) (R := 1) (duties_later (A0m m) _))
  isplitr; · iapply (inv_at m K (c, i)); iexact HR
  iexact Hat

theorem mayWait5 (c : Dev nD) (s : SemLoc sig) (hs : lvS (slot s) < 2) :
    (levAts L lv : sProp 𝕄) ⊢ MayWait (c : Thread nD τ) s () (Ow5 c) :=
  mayWait_of c s (Ow5 c) fun g u h => ⟨(Ow5_lev c g u h).1, lt_of_lt_of_le hs (Ow5_lev c g u h).2⟩

theorem hv_of (c : Dev nD) (v329 : FVec F S256x512 .f32)
    (h : v329 = Comp.attVal (xv m c) (wqv m c) (kcvOf c (m ((c : Thread nD τ).loc main_arg3))) (vcvOf c (m ((c : Thread nD τ).loc main_arg4)))) :
    k0_pay36 v329 (wov m c) = A0m m c := by subst h; rfl

def bodyPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m c ∗ (dats m ρ 0 c).owesAt () t₀.succ ∗ stg c cc0_stg0_0 (xv m c) ∗ stg c cc0_stg1_0 (wqv m c)
    ∗ stg c cc0_stg2_0 (wov m c) ∗ stg c cc0_stg3_0 (outV (A0m m) c))

set_option maxHeartbeats 4000000 in
set_option maxRecDepth 8000 in
theorem sound_body (c : Dev nD) :
    bodyPre m ρ c ⊢ wp frame (wpE (defs₀ (F := F)) 𝒱₀ (c : Thread nD τ) none) Set.univ (atBufs cc0_body) fun _ => bodyPost m ρ c := by
  simp only [atBufs, cc0_body_eq_skeleton]; unfold cc0_body_skel
  unfold bodyPre Φ₀ start ghost positions payToks creds scratch Dat.owesAt Pipeline.owesWithin
  rw [bigSep_f21]
  iintro ⟨⟨⟨⟨%K, #HR, ⟨HpB, HpS0, HpS1, HpS2, HpS3, HpS4, HpR0, HpR1, HpR2, HpR3, HpR4, HqS0, HqS1, HqS2, HqS3, HqS4, HqR0, HqR1, HqR2, HqR3, HqR4⟩,
        HtB0, HtB1, HtB2, HtB3, HtB4, HtR0, HtR1, HtR2, HtR3, HtR4, HtG0, HtG1, HtG2, HtG3, HtG4, HtS0, HtS1, HtS2, HtS3, HtS4, HtA0, HtA1, HtA2, HtA3, HtA4⟩,
      ⟨HcB, HcR0, HcR1, HcR2, HcR3, HcR4, HcG0, HcG1, HcG2, HcG3, HcG4⟩, #Hlev, Hkv0, Hkv1, HKx, HVx⟩,
      Hacc, Hrcv, Hkr, Hvr⟩,
    ⟨%W, %hW, HO⟩, ⟨%d0, %g0, %hg0, Hx⟩, ⟨%d1, %g1, %hg1, Hwq⟩, ⟨%d2, %g2, %hg2, Hwo⟩, ⟨%d3, %g3, %hg3, Hout⟩⟩
  have hx : g0 = xv m c := hg0.trans (if_pos (fetch0_0 t₀))
  have hwq : g1 = wqv m c := hg1.trans (if_pos (fetch0_1 t₀))
  have hwo : g2 = wov m c := hg2.trans (if_pos (fetch0_2 t₀))
  subst hx hwq hwo
  rw [show (dats m ρ 0 c).owed t₀.castSucc = Ow0 c from rfl, wp_bind]
  iapply (part1_spec m K c W _)
  isplitl [HO HtB0 HtB1 HtB2 HtB3 HtB4 Hrcv HcB HpB]
  · iframe # ∗
  iintro %v2 %W1 ⟨HO, HpB, HP0, HP1, HP2, HP3, HP4⟩
  rw [wp_bind]
  iapply (part2_spec c _ _ _ _ _ _ _)
  isplitl [Hx Hwq HKx HVx Hkr Hvr Hkv0 Hkv1 HO]
  · iframe
    isplitr <;> (iapply (mayWait5 c _ (by decide)); iexact Hlev)
  iintro ⟨Hx, Hwq, HKx, HVx, Hkr, Hvr, Hkv0, Hkv1, HO⟩
  rw [wp_bind]
  iapply (part3_spec c _ _ _ _ _ _ _)
  isplitl [Hkr Hvr]
  · iframe
  iintro ⟨Hkr, Hvr⟩
  rw [wp_bind]
  iapply (part4_spec c _ _ _ _ _ _ _)
  isplitl [Hkr Hvr]
  · iframe
  iintro ⟨Hkr, Hvr⟩
  rw [wp_bind]
  iapply (part5_spec c _ _ _ _ _ _)
  isplitl [Hkr Hvr]
  · iframe
  iintro ⟨Hkr, Hvr⟩
  rw [wp_bind]
  iapply (part6_spec c _ _ _ _ _ _ _ _ _ _ _ _ _)
  isplitl [Hkr Hvr]
  · iframe
  iintro ⟨Hkr, Hvr⟩
  rw [wp_bind]
  iapply (part7_spec c _ _ _ _ _ _ _)
  isplitl [Hkr Hvr]
  · iframe
  iintro ⟨Hkr, Hvr⟩
  rw [wp_bind]
  iapply (part8_spec c _ _ _ _ _ _)
  isplitl [Hkr Hvr]
  · iframe
  iintro ⟨Hkr, Hvr⟩
  rw [wp_bind]
  iapply (part9_spec c _ _ _ _ _ _)
  isplitl [Hkr Hvr]
  · iframe
  iintro ⟨Hkr, Hvr⟩
  rw [wp_bind]
  iapply (part10_spec c _ _ _ _ _ _ _ _ _ _ _ _ (wov m c) _)
  isplitl [Hkr Hvr Hwo]
  · iframe
  iintro ⟨Hkr, Hvr, Hwo⟩
  rw [wp_bind]
  iapply (part11_spec m K c v2 _ _ (hv_of m c _ (attVal_chain _ _ _ _)) _ _)
  isplitl [Hacc HP0 HO HtS0 HtR0 HpS0]
  · iframe # ∗
  iintro %r11 %W11 ⟨Hacc, HO, HpS0⟩
  rw [wp_bind]
  iapply (part12_spec m K c v2 _ W11 _)
  isplitl [Hacc HO HpR0 HcR0 HP1 HtS1 HtR1 HpS1]
  · iframe # ∗
  iintro %r12 %W12 ⟨Hacc, HO, HpR0, HpS1, HOA0, HRV0⟩
  rw [wp_bind]
  iapply (part13_spec m K c v2 _ _ W12 _)
  isplitl [Hacc HO HpR1 HcR1 HP2 HtS2 HtR2]
  · iframe # ∗
  iintro %r13 %W13 ⟨Hacc, HO, HpR1, HOA1, HRV1, HcS2⟩
  rw [wp_bind]
  iapply (part14_spec m K c v2 _ _ W13 _)
  isplitl [Hacc HO HcS2 HpS2 HpR2 HcR2]
  · iframe # ∗
  iintro %r14 %W14 ⟨Hacc, HO, HpS2, HpR2, HOA2, HRV2⟩
  rw [wp_bind]
  iapply (part15_spec m K c v2 _ _ W14 _)
  isplitl [Hacc HO HP3 HtS3 HtR3 HpS3 HpR3 HcR3]
  · iframe # ∗
  iintro %r15 %W15 ⟨Hacc, HO, HpS3, HpR3, HOA3, HRV3⟩
  rw [wp_bind]
  iapply (part16_spec m K c v2 _ _ _ W15 _)
  isplitl [Hacc HO HP4 HtS4 HtR4 HpS4 HpR4 HcR4]
  · iframe # ∗
  iintro %r16 %W16 ⟨Hacc, HO, HpS4, HpR4, HOA4, HRV4⟩
  ihave Hacc := (Entails.of_eq (congrArg (fun S => (accLoc c ↦[S]{fullShare} A5 (A0m m) c : sProp 𝕄)) (own5_eq c))) $$ Hacc
  rw [wp_bind]
  iapply (part17_spec m K c v2 _ _ W16 _)
  isplitl [Hacc HO HOA4 HOA3 HtA0 HtG0 HtA1 HtG1 HqS0 HqR0 HcG0]
  · iframe # ∗
  iintro %r17 %W17 ⟨HO, HqS0, HqR0, HcA1⟩
  rw [wp_bind]
  iapply (part18_spec m K c v2 _ W17 _)
  isplitl [HO HcA1 HqS1 HqR1 HcG1 HOA2 HtA2 HtG2 HqS2]
  · iframe # ∗
  iintro %r18 %W18 ⟨Hacc, HO, HqS1, HqR1, HqS2⟩
  rw [wp_bind]
  iapply (part19_spec m K c v2 W18 _)
  isplitl [Hacc HO HqR2 HcG2 HOA1 HtA3 HtG3 HqS3 HqR3 HcG3]
  · iframe # ∗
  iintro %r19 %W19 ⟨Hacc, HO, HqR2, HqS3, HqR3⟩
  imod (close_cell m K c 1) $$ HR HpS0 with Hz1
  imod (close_cell m K c 2) $$ HR HpS1 with Hz2
  imod (close_cell m K c 3) $$ HR HpS2 with Hz3
  imod (close_cell m K c 4) $$ HR HpS3 with Hz4
  imod (close_cell m K c 5) $$ HR HpS4 with Hz5
  imod (close_cell m K c 6) $$ HR HpR0 with Hz6
  imod (close_cell m K c 7) $$ HR HpR1 with Hz7
  imod (close_cell m K c 8) $$ HR HpR2 with Hz8
  imod (close_cell m K c 9) $$ HR HpR3 with Hz9
  imod (close_cell m K c 10) $$ HR HpR4 with Hz10
  imod (close_cell m K c 11) $$ HR HqS0 with Hz11
  imod (close_cell m K c 12) $$ HR HqS1 with Hz12
  imod (close_cell m K c 13) $$ HR HqS2 with Hz13
  imod (close_cell m K c 14) $$ HR HqS3 with Hz14
  imod (close_cell m K c 16) $$ HR HqR0 with Hz16
  imod (close_cell m K c 17) $$ HR HqR1 with Hz17
  imod (close_cell m K c 18) $$ HR HqR2 with Hz18
  imod (close_cell m K c 19) $$ HR HqR3 with Hz19
  iapply (tail_spec m K c g3 W19 _)
  isplitl [Hacc HO HOA0 HtA4 HtG4 HqS4 HqR4 HcG4 Hout]
  · iframe # ∗
  iintro %W20 ⟨Hacc, HO, Hz15, Hz20, Hout⟩
  unfold bodyPost Φ₁ scratch Dat.owesAt Pipeline.owesWithin
  rw [show (dats m ρ 0 c).owed t₀.succ = 0 from rfl, bigSep_f22]
  iframe
  isplitl [Hacc HRV0 HRV1 HRV2 HRV3 HRV4 Hkr Hvr]
  · isplitl [Hacc]; · iexists _; iexact Hacc
    isplitl [HRV0 HRV1 HRV2 HRV3 HRV4]
    · iapply (rcv_join c)
      unfold RV0 RV1 RV2 RV3 RV4
      iframe HRV0 HRV1 HRV2 HRV3 HRV4
    isplitl [Hkr]; · iexists _; iexact Hkr
    iexists _; iexact Hvr
  isplitl [HO]
  · iexists W20
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

set_option maxRecDepth 8000 in
theorem body_obligation (c : Dev nD) : BodyObligation (dats (F := F) m ρ 0 c) (defs₀ (F := F)) 𝒱₀ () Set.univ := fun t => by
  rw [fin_N t, bigSep_W, bigSep_W]
  simp only [owns_whole_eq]
  exact sound_body m ρ c

end Cert.KernelIdeal.Hyper

end
-- ==== Proof.Launch.lean ====
import proofs.«900512_g7700000000000513_dist_attn_cross_mha_kvrep_htp_b2_sq128_skv128_d512_hq8_dh64_v7x_i32_f32_1_alg».proof.Proof.Body

noncomputable section

namespace Cert.KernelIdeal.Hyper

open Cert.KernelIdeal Cert.KernelIdeal.Gen Cert.KernelIdeal.Net Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := .of_comp (f := slot) (by decide)

theorem cell_eq_iff {a b : Dev nD} {s s' : SemLoc sig} : cell a s = cell b s' ↔ a = b ∧ s = s' :=
  ⟨fun h => ⟨Fin.ext (congrArg (fun g : GSem nD τ sig => g.1.1.val) h), congrArg Prod.snd h⟩, fun ⟨h1, h2⟩ => h1 ▸ h2 ▸ rfl⟩

theorem kcell_injective : Function.Injective (kcell : Dev nD × Fin 21 → GSem nD τ sig) := fun _ _ h =>
  Prod.ext (cell_eq_iff.mp h).1 (csem_injective (cell_eq_iff.mp h).2)
def ringCells : Finset (GSem nD τ sig) := Finset.univ.map ⟨kcell, kcell_injective⟩

def tk (j : Fin 25) : Fin 21 × Fin 5 := if h : j.val < 5 then (0, ⟨j, h⟩) else (⟨j - 4, by omega⟩, 0)
theorem tk_injective : Function.Injective tk := by decide

abbrev tokOf (cj : Dev nD × Fin 25) : GSem nD τ sig × ℕ × Fin 5 := (kcell (cj.1, (tk cj.2).1), 0, (tk cj.2).2)
theorem tokOf_injective : Function.Injective (tokOf : Dev nD × Fin 25 → GSem nD τ sig × ℕ × Fin 5) := by
  rintro ⟨c, j⟩ ⟨c', j'⟩ h
  have h1 := Prod.ext_iff.mp (kcell_injective (congrArg (·.1) h))
  rw [show c = c' from h1.1, show j = j' from tk_injective (Prod.ext h1.2 (congrArg (·.2.2) h))]
def ringToks : Finset (GSem nD τ sig × ℕ × Fin 5) := Finset.univ.map ⟨tokOf, tokOf_injective⟩

def u₀ : UU :=
  (initOf (Pipeline.cells cfgs cellOf_inj) (Pipeline.launchToks cfgs cellOf_inj), (initOf ringCells ringToks, 1))

def toks (c : Dev nD) : sProp 𝕄 := bigSep Finset.univ fun j : Fin 25 => dutyTok ER (kcell (c, (tk j).1)) 0 (tk j).2

def G (c : Dev nD) : sProp 𝕄 :=
  iprop((bigSep Finset.univ fun k : Fin 21 => roundState ER (Rd (A0m m)) (kcell (c, k)) 0) ∗ (bigSep Finset.univ fun k : Fin 21 => reached ER (kcell (c, k)) 0)
    ∗ (bigSep Finset.univ fun k : Fin 21 => atPos ER (kcell (c, k)) 0 ∅ 0) ∗ toks (F := F) c)

def G' (c : Dev nD) : sProp 𝕄 :=
  iprop((∃ K, ghost m K c) ∗ semVal (cell c (.dma kvS0)) 0 ∗ semVal (cell c (.dma kvS1)) 0)

theorem fund_ring : BI.own (((Emb.inl : Emb UB (UB × Counters)).trans embR) (initOf ringCells ringToks)) ⊢ (|==> bigSep Finset.univ (G m) : sProp 𝕄) := by
  have h := Rounds.fund (ER (F := F)) (Rd (A0m m)) ringCells ringToks
  unfold ringCells ringToks at h
  rw [bigSep_map, bigSep_map, bigSep_map, bigSep_map, bigSep_univ_prod, bigSep_univ_prod, bigSep_univ_prod, bigSep_univ_prod] at h
  unfold G; simp only [bigSep_sep']; exact h

theorem unscopedSems0_eq (c : Dev nD) : (unscopedSems0 c : sProp 𝕄) = semVal (cell c (.reg barS)) 0 := by
  unfold unscopedSems0; rw [bigSep_eq_bigSepL_of_eq [SemLoc.reg barS] (by decide) (by decide)]; rfl

theorem osem_succ : ∀ k : Fin 20, osem k.succ.succ = csem k.succ := by decide

theorem sems0_eq (c : Dev nD) :
    (iprop(Pipeline.ownSems0 osem c ∗ unscopedSems0 c) : sProp 𝕄)
      ⊢ iprop((bigSep Finset.univ fun k : Fin 21 => semVal (kcell (c, k)) 0) ∗ semVal (cell c (.dma kvS0)) 0 ∗ semVal (cell c (.dma kvS1)) 0) := by
  unfold Pipeline.ownSems0
  rw [unscopedSems0_eq, bigSep_univ_succ, bigSep_univ_succ, bigSep_univ_succ (fun k : Fin 21 => semVal (kcell (c, k)) 0),
    bigSep_congr (s := Finset.univ) fun k _ => congrArg (fun s => semVal (cell c s) 0) (osem_succ k)]
  iintro ⟨⟨K0, K1, S⟩, HB⟩
  iframe; iexact K1

def nbE (j : Fin 5) : Dev nD ≃ Dev nD := ⟨nb j, nb j, nb_nb j, nb_nb j⟩

def dealE : Fin 25 → Dev nD ≃ Dev nD := fun
  | 0 => nbE 0 | 1 => nbE 1 | 2 => nbE 2 | 3 => nbE 3 | 4 => nbE 4
  | 10 => nbE 4 | 11 => nbE 3 | 12 => nbE 2 | 13 => nbE 1 | 14 => nbE 0
  | 20 => nbE 0 | 21 => nbE 1 | 22 => nbE 2 | 23 => nbE 3 | 24 => nbE 4
  | _ => Equiv.refl _

def linear (c : Dev nD) : sProp 𝕄 :=
  iprop(positions (F := F) c ∗ payToks (F := F) c ∗ semVal (cell c (.dma kvS0)) 0 ∗ semVal (cell c (.dma kvS1)) 0)

theorem ghost_intro (K : Dev nD × Fin 21 → ℕ) (c : Dev nD) : iprop(records m K ∗ linear (F := F) c) ⊢ G' m c := by
  unfold linear G' ghost
  iintro ⟨#HR, Hp, Ht, Hk0, Hk1⟩
  iframe Hk0 Hk1
  iexists K
  iframe HR Hp Ht

-- Duty j of every device's own cells, dealt along the flip dealE j of the devices, is what every device pays.
theorem toks_around : (bigSep Finset.univ fun c : Dev nD => (toks (F := F) c : sProp 𝕄)) ⊢ bigSep Finset.univ fun c : Dev nD => payToks (F := F) c := by
  have e (c : Dev nD) : (payToks (F := F) c : sProp 𝕄) = bigSep Finset.univ fun j : Fin 25 => dutyTok ER (kcell (dealE j c, (tk j).1)) 0 (tk j).2 := by
    rw [bigSep_univ_eq_bigSepL [0, 1, 2, 3, 4, 10, 11, 12, 13, 14, 20, 21, 22, 23, 24, 5, 6, 7, 8, 9, 15, 16, 17, 18, 19] (by decide) (by decide)]; rfl
  let Φ (x : Dev nD × Fin 25) : sProp 𝕄 := dutyTok ER (kcell (x.1, (tk x.2).1)) 0 (tk x.2).2
  exact Entails.of_eq (((bigSep_univ_prod Φ).symm.trans ((bigSep_univ_equiv ((Equiv.prodComm _ _).trans ((Equiv.prodShear (Equiv.refl _) dealE).trans (Equiv.prodComm _ _))) Φ).trans
    (bigSep_univ_prod _))).trans (bigSep_congr fun c _ => (e c).symm))

theorem glob : (bigSep Finset.univ fun c => iprop(Pipeline.ownSems0 osem c ∗ unscopedSems0 c ∗ G m c) : sProp 𝕄)
    ⊢ |={Set.univ}=> bigSep Finset.univ (G' m) := by
  have hs : (_ : sProp 𝕄) ⊢ _ := bigSep_mono (s := Finset.univ) fun c _ => sems0_eq (F := F) c
  have ha : (_ : sProp 𝕄) ⊢ _ := (bigSep_mono (s := Finset.univ) fun (ck : Dev nD × Fin 21) _ => (Rounds.body_intro ER (Rd (A0m m)) (kcell ck)).trans inv_alloc).trans
    (bigSep_fupd (E := Set.univ) _ _)
  unfold G
  simp only [bigSep_sep'] at hs ⊢
  rw [bigSep_sep', bigSep_univ_prod, bigSep_univ_prod] at ha
  rw [← bigSep_univ_prod (fun ck => (reached ER (kcell ck) 0 : sProp 𝕄))]
  iintro ⟨Hos, Hus, Hst, #HR, Hat, Htok⟩
  ihave ⟨Hv, Hk0, Hk1⟩ := hs $$ [Hos Hus]
  · iframe
  imod ha $$ [Hv Hst] with HI
  · iframe
  imodintro
  ihave ⟨%K, #HI⟩ := (BI.bigSep_exists_pi Finset.univ _) $$ HI
  ihave Htk := (toks_around (F := F)) $$ Htok
  iapply (bigSep_with_persistent (R := records m K) fun c _ => ghost_intro m K c)
  unfold records linear positions; rw [bigSep_sep', bigSep_sep', bigSep_sep']; iframe HR Hat Htk Hk0 Hk1
  iexact HI

theorem tallyAt_cell_same (a c : Dev nD) (s : SemLoc sig) (k : ℕ) :
    (tallyAt (cell a s) () k : CellTallies nD τ sig Unit) (cell c s) () = if c = a then k else 0 := by
  rw [tallyAt_apply]
  exact if_congr ⟨fun h => (cell_eq_iff.mp h.1).1, fun h => ⟨h ▸ rfl, rfl⟩⟩ rfl rfl
theorem tallyAt_cell_ne (a c : Dev nD) {s s' : SemLoc sig} (h : s' ≠ s) (k : ℕ) :
    (tallyAt (cell a s) () k : CellTallies nD τ sig Unit) (cell c s') () = 0 := by
  rw [tallyAt_ne_cell (fun h' => h (cell_eq_iff.mp h').2)]; rfl

theorem sum_nb (j : ℕ) (hj : j < 5) (c : Dev nD) (k : ℕ) : (∑ d : Dev nD, if c = nb j d then k else 0) = k := by
  rw [Finset.sum_eq_single (nb j c) (fun d _ hd => if_neg fun h : c = nb j d => hd (h ▸ (nb_nb ⟨j, hj⟩ d).symm)) (fun h => absurd (Finset.mem_univ _) h),
    if_pos (nb_nb ⟨j, hj⟩ c).symm]

theorem launch_cred (c : Dev nD) (s : SemLoc sig) (k : ℕ) (h : (∑ d : Dev nD, Ow0 d (cell c s) ()) = k) :
    (tallyAt (cell c s) () k : CellTallies nD τ sig Unit) = tallyOn (cell c s) (launchCredit (Pipeline.owing Ow0) 0 (cell c s)) := by
  unfold tallyAt; refine congrArg _ (Finsupp.ext fun u => ?_); cases u
  rw [Pipeline.launchCredit_owing, Finsupp.single_eq_same, h]

theorem creds_intro (c : Dev nD) : (Pipeline.launchCred Ow0 c : sProp 𝕄) ⊢ creds (F := F) c := by
  refine ((bigSep_subset (Finset.subset_univ _)).trans (Entails.of_eq (bigSep_eq_bigSepL
    [.reg barS, .dma rsR0, .dma rsR1, .dma rsR2, .dma rsR3, .dma rsR4, .dma agR0, .dma agR1, .dma agR2, .dma agR3, .dma agR4] (by decide) _))).trans ?_
  unfold creds
  rw [launch_cred c (.reg barS) 5, launch_cred c (.dma rsR0) NR0, launch_cred c (.dma rsR1) NR1, launch_cred c (.dma rsR2) NR2,
    launch_cred c (.dma rsR3) NR3, launch_cred c (.dma rsR4) NR4, launch_cred c (.dma agR0) NG0, launch_cred c (.dma agR1) NG1,
    launch_cred c (.dma agR2) NG2, launch_cred c (.dma agR3) NG3, launch_cred c (.dma agR4) NG4]
  · exact .refl _
  all_goals
    unfold Ow0 Ow1 Ow2 Ow3 Ow4 Ow5 Ow6 Ow7 Ow8 Ow9 Ow10 Ow11 Ow12 Ow13 Ow14 Ow15
    simp (disch := decide) only [Pi.add_apply, Finsupp.add_apply, Pi.zero_apply, Finsupp.zero_apply, tallyAt_cell_same, tallyAt_cell_ne,
      Nat.zero_add, Nat.add_zero, Finset.sum_add_distrib, sum_nb, Nat.reduceAdd]

theorem Ow0_pos {c : Dev nD} {g : GSem nD τ sig} {u : Unit} (h : 0 < Ow0 c g u) : g.1.2 = .tc ∧ 0 < lvS (slot g.2) := by
  by_contra hn
  have key (a : Dev nD) (s : SemLoc sig) (k : ℕ) (hs : 1 ≤ lvS (slot s)) : (tallyAt (cell a s) () k : CellTallies nD τ sig Unit) g u = 0 := by
    rw [tallyAt_apply, if_neg]
    rintro ⟨rfl, -⟩
    exact hn ⟨rfl, hs⟩
  unfold Ow0 Ow1 Ow2 Ow3 Ow4 Ow5 Ow6 Ow7 Ow8 Ow9 Ow10 Ow11 Ow12 Ow13 Ow14 Ow15 at h
  simp (disch := decide) only [Pi.add_apply, Finsupp.add_apply, Pi.zero_apply, Finsupp.zero_apply, key, Nat.add_zero, Nat.lt_irrefl] at h

theorem start_intro (c : Dev nD) :
    iprop(Pipeline.unscopedRestP Pipeline.Prefetch.none cfg0.spec c (fun b => m ((c : Thread nD τ).loc b)) ∗ levAts L lv
        ∗ Pipeline.launchCred Ow0 c ∗ prngReg c (ρ c) ∗ G' m c)
      ⊢ |={Set.univ}=> iprop(start m c ∗ emp) := by
  unfold start G'
  rw [Pipeline.unscopedRestP_none, unscopedRest0_eq]
  iintro ⟨⟨H3, H4⟩, Hlev, Hcr, -, Hg, Hk0, Hk1⟩
  ihave Hc := (creds_intro (F := F) c) $$ Hcr
  imodintro
  iframe

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  iframe

def Y (c : Dev nD) : sProp 𝕄 :=
  iprop((((c : Thread nD τ).loc main_arg3) ↦{fullShare} m ((c : Thread nD τ).loc main_arg3))
    ∗ (((c : Thread nD τ).loc main_arg4) ↦{fullShare} m ((c : Thread nD τ).loc main_arg4)))

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl, scopedRest0_eq]
  unfold Φ₁ scratch Y Pipeline.ownSems0
  iintro ⟨Hr, Hz, H3, H4⟩
  iframe

theorem waits (c : Dev nD) : (levAts L lv : sProp 𝕄) ⊢ Pipeline.cellsWaits cfgs (dats m ρ) () 0 c :=
  Pipeline.cellsWaits_intro cfgs (dats m ρ) () 0 c fun w s t =>
    mayWait_of c _ _ (fun g u hg => by
      have hs : lvS (slot (.dma (((cfgs 0).win w).sem s) : SemLoc sig)) = 0 := by fin_cases w <;> fin_cases s <;> decide
      rcases t with ⟨_ | _, ht⟩
      · rw [hs]; exact Ow0_pos (c := c) hg
      · exact absurd hg (Nat.lt_irrefl 0))

def QC : PUnit × MemSt nD τ sig (Elt F) → Prop := fun r =>
  ∀ c : Dev nD, (∀ w : Fin cfg0.W, r.2.mem ((cfg0.win w).arr.view.loc (c : Thread nD τ)) = (dats m ρ 0 c).arrAt w cfg0.N)
    ∧ r.2.mem ((c : Thread nD τ).loc main_arg3) = m ((c : Thread nD τ).loc main_arg3)
    ∧ r.2.mem ((c : Thread nD τ).loc main_arg4) = m ((c : Thread nD τ).loc main_arg4)

set_option maxRecDepth 8000 in
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := Ow0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave ⟨HP, HX⟩ := (ownU_pair _ _) $$ Hu
      ihave ⟨HR, -⟩ := (own_pair_emb _ _ _) $$ HX
      imod (fund_ring m) $$ HR with HG
      imodintro
      iframe)
    (hglob := glob m)
    (hA := fun _ _ => rfl) (hpf := fun _ k => k.elim0)
    (X := start m) (Y := Y m) (Z := fun _ => iprop(emp))
    (hX := start_intro m ρ) (hin := phi0_intro m ρ) (hout := phi1_exit m ρ)
    (QY := fun c s => s.mem ((c : Thread nD τ).loc main_arg3) = m ((c : Thread nD τ).loc main_arg3)
      ∧ s.mem ((c : Thread nD τ).loc main_arg4) = m ((c : Thread nD τ).loc main_arg4))
    (hY := fun c s' => by
      unfold Y
      iintro ⟨⟨H3, H4⟩, -, HSI⟩
      icombine HSI H3 gives %h3
      icombine HSI H4 gives %h4
      imodintro
      iframe HSI
      ipureintro; exact ⟨Buf.eq_of_forall_mem_univ h3, Buf.eq_of_forall_mem_univ h4⟩)
    (hQ := fun _ h c => ⟨(h c).1, (h c).2.2.1, (h c).2.2.2⟩)

end Cert.KernelIdeal.Hyper

end
-- ==== Proof.KRun.lean ====
import proofs.«900512_g7700000000000513_dist_attn_cross_mha_kvrep_htp_b2_sq128_skv128_d512_hq8_dh64_v7x_i32_f32_1_alg».proof.Proof.Launch

noncomputable section

namespace Cert.KernelIdeal.Hyper

open Cert.KernelIdeal Cert.KernelIdeal.Gen Cert.KernelIdeal.Net Cube
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem finalA_out (c : Dev nD) :
    (dats m ρ 0 c).arrAt (3 : Fin 4) cfg0.N = (outV (A0m m) c : Buf (Elt F) ((c : Thread nD τ).loc main_v1)) := by
  have h := (dats m ρ 0 c).arrAt_succ (3 : Fin 4) t₀
  rw [if_pos (flush0_3 t₀)] at h
  exact h.trans (Memref.write_access_unit_zero_univ (Elt F) main_v1 (funext fun a => Nat.zero_mul _) _ _ _)

theorem kernel_run : θ_run defs (onTc (τ := τ) (main (F := F))) ⟨m, fun _ => 0, ρ⟩ (fun r => ∀ c : Dev nD,
    r.2.mem ((c.tc : Thread nD τ).loc main_v1) = (outV (A0m m) c : Buf (Elt F) ((c : Thread nD τ).loc main_v1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun _ h c => ⟨((h c).1 3).trans (finalA_out m ρ c),
      ((h c).1 0).trans ((dats m ρ 0 c).arrAt_in 0 rfl _),
      ((h c).1 1).trans ((dats m ρ 0 c).arrAt_in 1 rfl _),
      ((h c).1 2).trans ((dats m ρ 0 c).arrAt_in 2 rfl _),
      (h c).2.1, (h c).2.2⟩) (run_main m ρ)

end Cert.KernelIdeal.Hyper

end
-- ==== Proof.Spec.lean ====
import proofs.«900512_g7700000000000513_dist_attn_cross_mha_kvrep_htp_b2_sq128_skv128_d512_hq8_dh64_v7x_i32_f32_1_alg».proof.Proof.Cube
import Mathlib.Algebra.BigOperators.Group.Finset.Basic
import Mathlib.Algebra.BigOperators.Group.Finset.Piecewise
import Mathlib.Data.Fintype.Basic

open scoped BigOperators

namespace Cube

variable {M : Type*} [AddCommMonoid M]

def inKeep (k : ℕ) (c : Fin 32) (r : Fin 256) : Prop := keepS k c ≤ r.val ∧ r.val < keepS k c + 128 >>> k

def inAg (g : ℕ) (c : Fin 32) (r : Fin 256) : Prop := agS g c ≤ r.val ∧ r.val < agS g c + 8 <<< g

instance (k : ℕ) (c : Fin 32) (r : Fin 256) : Decidable (inKeep k c r) := by unfold inKeep; infer_instance
instance (g : ℕ) (c : Fin 32) (r : Fin 256) : Decidable (inAg g c r) := by unfold inAg; infer_instance

def inBlk (k : ℕ) (c : Fin 32) (r : Fin 256) : Prop := startS k c ≤ r.val ∧ r.val < startS k c + 256 >>> k

def sameLow (k : ℕ) (c d : Fin 32) : Prop := d.val % 2 ^ (5 - k) = c.val % 2 ^ (5 - k)

instance (k : ℕ) (c : Fin 32) (r : Fin 256) : Decidable (inBlk k c r) := by unfold inBlk; infer_instance
instance (k : ℕ) (c d : Fin 32) : Decidable (sameLow k c d) := by unfold sameLow; infer_instance

theorem sameLow_zero : ∀ c d : Fin 32, sameLow 0 c d ↔ d = c := by decide +kernel

theorem sameLow_five : ∀ c d : Fin 32, sameLow 5 c d := by decide +kernel

theorem sameLow_succ : ∀ (k : Fin 5) (c d : Fin 32),
    (sameLow (k.val + 1) c d ↔ (sameLow k.val c d ∨ sameLow k.val (nb (4 - k.val) c) d)) ∧
      ¬ (sameLow k.val c d ∧ sameLow k.val (nb (4 - k.val) c) d) := by decide +kernel

theorem blk_succ : ∀ (k : Fin 5) (c : Fin 32) (r : Fin 256), inBlk (k.val + 1) c r →
    inKeep k.val c r ∧ inBlk k.val c r ∧ inBlk k.val (nb (4 - k.val) c) r := by decide +kernel

theorem ag_zero : ∀ (c : Fin 32) (r : Fin 256), inAg 0 c r → inBlk 5 c r := by decide +kernel

theorem ag_succ : ∀ (g : Fin 5) (c : Fin 32) (r : Fin 256), inAg (g.val + 1) c r → ¬ inAg g.val (nb g.val c) r →
    inAg g.val c r := by decide +kernel

theorem ag_five : ∀ (c : Fin 32) (r : Fin 256), inAg 5 c r := by decide +kernel

theorem rs_inv (P : Fin 32 → Fin 256 → M) (A : ℕ → Fin 32 → Fin 256 → M)
    (hA0 : ∀ c r, A 0 c r = P c r)
    (hA : ∀ k, k < 5 → ∀ c r, A (k + 1) c r = if inKeep k c r then A k c r + A k (nb (4 - k) c) r else A k c r) :
    ∀ k, k ≤ 5 → ∀ c r, inBlk k c r → A k c r = ∑ d, if sameLow k c d then P d r else 0 := by
  intro k
  induction k with
  | zero =>
    intro _ c r _
    rw [hA0]
    simp only [sameLow_zero]
    simp
  | succ k ih =>
    intro hk c r hb
    have hk' : k < 5 := hk
    have hs := blk_succ ⟨k, hk'⟩ c r hb
    have hkeep : inKeep k c r := hs.1
    have hb1 : inBlk k c r := hs.2.1
    have hb2 : inBlk k (nb (4 - k) c) r := hs.2.2
    rw [hA k hk' c r, if_pos hkeep, ih (le_of_lt hk') c r hb1, ih (le_of_lt hk') _ r hb2,
      ← Finset.sum_add_distrib]
    refine Finset.sum_congr rfl fun d _ => ?_
    have hd := sameLow_succ ⟨k, hk'⟩ c d
    have h1 : sameLow (k + 1) c d ↔ (sameLow k c d ∨ sameLow k (nb (4 - k) c) d) := hd.1
    have h2 : ¬ (sameLow k c d ∧ sameLow k (nb (4 - k) c) d) := hd.2
    by_cases ha : sameLow k c d <;> by_cases hp : sameLow k (nb (4 - k) c) d
    · exact absurd ⟨ha, hp⟩ h2
    · rw [if_pos (h1.2 (Or.inl ha)), if_pos ha, if_neg hp, add_zero]
    · rw [if_pos (h1.2 (Or.inr hp)), if_neg ha, if_pos hp, zero_add]
    · rw [if_neg (fun h => (h1.1 h).elim ha hp), if_neg ha, if_neg hp, add_zero]

theorem ag_inv (P : Fin 32 → Fin 256 → M) (A G : ℕ → Fin 32 → Fin 256 → M)
    (hG0 : ∀ c r, G 0 c r = A 5 c r)
    (hG : ∀ g, g < 5 → ∀ c r, G (g + 1) c r = if inAg g (nb g c) r then G g (nb g c) r else G g c r)
    (h5 : ∀ c r, inBlk 5 c r → A 5 c r = ∑ d, P d r) :
    ∀ g, g ≤ 5 → ∀ c r, inAg g c r → G g c r = ∑ d, P d r := by
  intro g
  induction g with
  | zero =>
    intro _ c r h
    rw [hG0]
    exact h5 c r (ag_zero c r h)
  | succ g ih =>
    intro hg c r h
    have hg' : g < 5 := hg
    rw [hG g hg' c r]
    by_cases hp : inAg g (nb g c) r
    · rw [if_pos hp]
      exact ih (le_of_lt hg') _ r hp
    · rw [if_neg hp]
      exact ih (le_of_lt hg') c r (ag_succ ⟨g, hg'⟩ c r h hp)

theorem butterfly (P : Fin 32 → Fin 256 → M) (A G : ℕ → Fin 32 → Fin 256 → M)
    (hA0 : ∀ c r, A 0 c r = P c r)
    (hA : ∀ k, k < 5 → ∀ c r, A (k + 1) c r = if inKeep k c r then A k c r + A k (nb (4 - k) c) r else A k c r)
    (hG0 : ∀ c r, G 0 c r = A 5 c r)
    (hG : ∀ g, g < 5 → ∀ c r, G (g + 1) c r = if inAg g (nb g c) r then G g (nb g c) r else G g c r) :
    ∀ c r, G 5 c r = ∑ d, P d r := by
  intro c r
  have h5 : ∀ c r, inBlk 5 c r → A 5 c r = ∑ d, P d r := by
    intro c r h
    rw [rs_inv P A hA0 hA 5 le_rfl c r h]
    exact Finset.sum_congr rfl fun d _ => if_pos (sameLow_five c d)
  exact ag_inv P A G hG0 hG h5 5 le_rfl c r (ag_five c r)

end Cube
-- ==== Proof.Bridge.lean ====
import proofs.«900512_g7700000000000513_dist_attn_cross_mha_kvrep_htp_b2_sq128_skv128_d512_hq8_dh64_v7x_i32_f32_1_alg».proof.Proof.Cells
import proofs.«900512_g7700000000000513_dist_attn_cross_mha_kvrep_htp_b2_sq128_skv128_d512_hq8_dh64_v7x_i32_f32_1_alg».proof.Proof.Spec
import Idealize.ShloMosaic.Lib.ValueIdx
import Idealize.ShloMosaic.Lib.Pipeline.Value

noncomputable section

open scoped BigOperators

namespace Cert.KernelIdeal.Hyper

open Cert.KernelIdeal Cert.KernelIdeal.Gen Cert.KernelIdeal.Net Cube
open Idealize.ShloMosaic Idealize.ShloMosaic.TcCoe Idealize.ShloMosaic.ValueIdx

def row (b : Fin 2) (i : Fin 128) : Fin 256 := ⟨128 * b.val + i.val, by omega⟩

abbrev at2 (f : (cc0_scratch0 : Ref sig .tc).ty.Contents (Elt Ideal)) (r : Fin 256) (n : Fin 512) : EReal := f (ix2 r n)

section Rows
variable {h : ℕ} (s : ℕ)

def loc (r : Fin 256) (n : Fin 512) (hr : s ≤ r.val ∧ r.val < s + h) : (⟨2, ![h, 512]⟩ : Shape).Idx :=
  ix2 ⟨r.val - s, by omega⟩ n

variable (inb : ∀ a, (![s, 0] : Fin 2 → ℕ) a + (![h, 512] : Fin 2 → ℕ) a ≤ S256x512.size a)
  (f : Acc (F := Ideal)) (r : Fin 256) (n : Fin 512)

theorem emb_loc (hr : s ≤ r.val ∧ r.val < s + h) :
    (accM.access (Rect.unit (s := S256x512) ![s, 0] ![h, 512] inb) : View sig .tc _ _ _).emb (loc s r n hr) = ix2 r n := by
  funext a
  apply Fin.ext
  match a with
  | ⟨0, _⟩ => show s + 1 * (r.val - s) = r.val; omega
  | ⟨1, _⟩ => show 0 + 1 * n.val = n.val; omega

-- A write of whole rows leaves every other row as it was.
theorem write_rows (w : (⟨2, ![h, 512]⟩ : Shape).Idx → Elt Ideal .f32) :
    ((accM.access (Rect.unit (s := S256x512) ![s, 0] ![h, 512] inb) : View sig .tc _ _ _).write (Elt Ideal) f w Finset.univ) (ix2 r n)
      = if hr : s ≤ r.val ∧ r.val < s + h then w (loc s r n hr) else f (ix2 r n) := by
  by_cases hr : s ≤ r.val ∧ r.val < s + h
  · rw [dif_pos hr, ← emb_loc s inb r n hr, View.write_emb_of_mem _ _ (Finset.mem_univ _)]
    rfl
  · rw [dif_neg hr]
    refine View.write_of_not_mem _ _ _ fun hm => hr ?_
    obtain ⟨x, -, hx⟩ := Finset.mem_map.mp hm
    have h0 : s + 1 * (x 0).val = r.val := congrArg (fun i : S256x512.Idx => (i 0).val) hx
    have hx0 : (x 0).val < h := (x 0).isLt
    omega

theorem read_rows (hr : s ≤ r.val ∧ r.val < s + h) :
    (accM.access (Rect.unit (s := S256x512) ![s, 0] ![h, 512] inb) : View sig .tc _ _ _).read (Elt Ideal) f (loc s r n hr)
      = f (ix2 r n) := by
  rw [View.read_apply, emb_loc s inb r n hr]
  rfl

end Rows

-- What a device sends in round k is the half its partner keeps, so the kept rows become own plus partner's.
theorem rs_step {h : ℕ} (k : Fin 5) (c : Dev nD) {offK offS : Fin 2 → ℕ}
    {inbK : ∀ a, offK a + (![h, 512] : Fin 2 → ℕ) a ≤ S256x512.size a}
    {inbS : ∀ a, offS a + (![h, 512] : Fin 2 → ℕ) a ≤ S256x512.size a}
    (hK : offK = ![keepS k.val c, 0]) (hS : offS = ![sendS k.val (nb (4 - k.val) c), 0]) {f g : Acc (F := Ideal)}
    {hs : Shape.ShapeCasts ⟨2, ![h, 512]⟩ ⟨2, ![h, 512]⟩} (hh : h = 128 >>> k.val) {r : Fin 256} {n : Fin 512} :
    ((accM.access (Rect.unit (s := S256x512) offK ![h, 512] inbK) : View sig .tc _ _ _).write (Elt Ideal) f
      (shapeCast ⟨2, ![h, 512]⟩ (addf (F := Ideal) (φ := .f32) (accM.view.readAt (Elt Ideal) (Rect.unit (s := S256x512) offK ![h, 512] inbK).toLoadRect f)
        ((accM.slice (Rect.unit (s := S256x512) offS ![h, 512] inbS) (fun _ => rfl)).view.read (Elt Ideal) g)) hs) Finset.univ) (ix2 r n)
      = if inKeep k.val c r then at2 f r n + at2 g r n else at2 f r n := by
  rw [(sendS_eq_keepS_nb k _).trans (congrArg _ (nb_nb ⟨4 - k.val, by omega⟩ c))] at hS
  subst hK hS hh
  rw [write_rows]
  by_cases hr : inKeep k.val c r
  · rw [if_pos hr]
    exact (dif_pos hr).trans ((congrFun (shapeCast_self _ _) _).trans
      (congrArg₂ (fun a b : EReal => a + b) (read_rows _ inbK f r n hr) (read_rows _ inbS g r n hr)))
  · rw [if_neg hr]
    exact dif_neg hr

theorem ag_step {h : ℕ} (g : Fin 5) {q : Dev nD} {off : Fin 2 → ℕ}
    {inb : ∀ a, off a + (![h, 512] : Fin 2 → ℕ) a ≤ S256x512.size a}
    (hO : off = ![agS g.val q, 0]) {f f' : Acc (F := Ideal)} (hh : h = 8 <<< g.val) {r : Fin 256} {n : Fin 512} :
    ((accM.slice (Rect.unit (s := S256x512) off ![h, 512] inb) (fun _ => rfl)).view.write (Elt Ideal) f
      ((accM.slice (Rect.unit (s := S256x512) off ![h, 512] inb) (fun _ => rfl)).view.read (Elt Ideal) f') Finset.univ) (ix2 r n)
      = if inAg g.val q r then at2 f' r n else at2 f r n := by
  subst hO hh
  refine (write_rows _ inb f r n _).trans ?_
  by_cases hr : inAg g.val q r
  · rw [if_pos hr]
    exact (dif_pos hr).trans (read_rows _ inb f' r n hr)
  · rw [if_neg hr]
    exact dif_neg hr

variable (A0 : Dev nD → (cc0_scratch0 : Ref sig .tc).ty.Contents (Elt Ideal))

def Afam (n : Fin 512) : ℕ → Fin 32 → Fin 256 → EReal
  | 0, c, r => at2 (A0 c) r n
  | 1, c, r => at2 (A1 A0 c) r n
  | 2, c, r => at2 (A2 A0 c) r n
  | 3, c, r => at2 (A3 A0 c) r n
  | 4, c, r => at2 (A4 A0 c) r n
  | 5, c, r => at2 (A5 A0 c) r n
  | _, _, _ => 0

def Gfam (n : Fin 512) : ℕ → Fin 32 → Fin 256 → EReal
  | 0, c, r => at2 (A5 A0 c) r n
  | 1, c, r => at2 (G1 A0 c) r n
  | 2, c, r => at2 (G2 A0 c) r n
  | 3, c, r => at2 (G3 A0 c) r n
  | 4, c, r => at2 (G4 A0 c) r n
  | 5, c, r => at2 (G5 A0 c) r n
  | _, _, _ => 0

theorem G5_apply (c : Dev nD) (r : Fin 256) (n : Fin 512) : at2 (G5 A0 c) r n = ∑ d : Dev nD, at2 (A0 d) r n := by
  refine Cube.butterfly (M := EReal) (fun d r => at2 (A0 d) r n) (Afam A0 n) (Gfam A0 n) (fun _ _ => rfl) ?_ (fun _ _ => rfl) ?_ c r
  · intro k hk c r
    match k, hk with
    | 0, _ => show at2 (A1 A0 c) r n = _; exact rs_step (h := 128) 0 c (off3_eq c) (off2_eq _) rfl
    | 1, _ => show at2 (A2 A0 c) r n = _; exact rs_step (h := 64) 1 c (off5_eq c) (off4_eq _) rfl
    | 2, _ => show at2 (A3 A0 c) r n = _; exact rs_step (h := 32) 2 c (off7_eq c) (off6_eq _) rfl
    | 3, _ => show at2 (A4 A0 c) r n = _; exact rs_step (h := 16) 3 c (off9_eq c) (off8_eq _) rfl
    | 4, _ => show at2 (A5 A0 c) r n = _; exact rs_step (h := 8) 4 c (off11_eq c) (off10_eq _) rfl
    | k + 5, hk => exact absurd hk (by omega)
  · intro g hg c r
    match g, hg with
    | 0, _ => show at2 (G1 A0 c) r n = _; exact ag_step (h := 8) 0 (off12_eq (nb 0 c)) rfl
    | 1, _ => show at2 (G2 A0 c) r n = _; exact ag_step (h := 16) 1 (off13_eq (nb 1 c)) rfl
    | 2, _ => show at2 (G3 A0 c) r n = _; exact ag_step (h := 32) 2 (off14_eq (nb 2 c)) rfl
    | 3, _ => show at2 (G4 A0 c) r n = _; exact ag_step (h := 64) 3 (off15_eq (nb 3 c)) rfl
    | 4, _ => show at2 (G5 A0 c) r n = _; exact ag_step (h := 128) 4 (off16_eq (nb 4 c)) rfl
    | g + 5, hg => exact absurd hg (by omega)

theorem outV_apply (c : Dev nD) (b : Fin 2) (i : Fin 128) (n : Fin 512) :
    outV (F := Ideal) A0 c (ix3 b i n) = ∑ d : Dev nD, at2 (A0 d) (row b i) n := by
  refine Eq.trans ?_ (G5_apply A0 c (row b i) n)
  show k0_pay1 (G5 A0 c) (ix3 b i n) = G5 A0 c (ix2 (row b i) n)
  unfold k0_pay1
  refine shapeCast_apply _ _ _ _ ?_
  rw [Shape.rowMajor_val_two, Shape.rowMajor_val_three]
  show (128 * b.val + i.val) * 512 + n.val = (b.val * 128 + i.val) * 512 + n.val
  omega

end Cert.KernelIdeal.Hyper

end
-- ==== Proof.AttnSpec.lean ====
import Idealize.ShloMosaic.PureOps.Ideal
import Idealize.ShloMosaic.Lib.ValueIdx

noncomputable section

open scoped BigOperators

namespace AttnSpec

open Idealize.ShloMosaic Idealize.ShloMosaic.ValueIdx

variable {NH : ℕ}

def col (H : Fin NH) (d : Fin 64) : Fin (64 * NH) := ⟨64 * H.val + d.val, by have := H.isLt; have := d.isLt; nlinarith⟩

def headOf (J : Fin (64 * NH)) : Fin NH := ⟨J.val / 64, by have := J.isLt; omega⟩
def colOf (J : Fin (64 * NH)) : Fin 64 := ⟨J.val % 64, Nat.mod_lt _ (by decide)⟩

variable (x : (⟨3, ![2, 128, 512]⟩ : Shape).Idx → EReal) (wq : (⟨2, ![512, 64 * NH]⟩ : Shape).Idx → EReal)
  (kx vx : (⟨4, ![2, 128, NH, 64]⟩ : Shape).Idx → EReal) (wo : (⟨2, ![64 * NH, 512]⟩ : Shape).Idx → EReal)

def Q (b : Fin 2) (i : Fin 128) (H : Fin NH) (d : Fin 64) : EReal :=
  ∑ e : Fin 512, x (ix3 b i e) * wq (ix2 e (col H d))

def Sc (b : Fin 2) (H : Fin NH) (i j : Fin 128) : EReal :=
  (∑ d : Fin 64, Q x wq b i H d * kx (ix4 b j H d)) * Ideal.ofBits .f32 0x3E000000#32

def Mx (b : Fin 2) (H : Fin NH) (i : Fin 128) : EReal :=
  (Finset.univ : Finset (Fin 128)).fold max (Ideal.ofBits .f32 0xFF800000#32) (fun j => Sc x wq kx b H i j)

def Pr (b : Fin 2) (H : Fin NH) (i j : Fin 128) : EReal := Ideal.exp (Sc x wq kx b H i j - Mx x wq kx b H i)

def Ls (b : Fin 2) (H : Fin NH) (i : Fin 128) : EReal := ∑ j : Fin 128, Pr x wq kx b H i j

def At (b : Fin 2) (i : Fin 128) (H : Fin NH) (d : Fin 64) : EReal :=
  Ideal.div (∑ j : Fin 128, Pr x wq kx b H i j * vx (ix4 b j H d)) (Ls x wq kx b H i)

def Out (b : Fin 2) (i : Fin 128) (n : Fin 512) : EReal :=
  ∑ J : Fin (64 * NH), At x wq kx vx b i (headOf J) (colOf J) * wo (ix2 J n)

end AttnSpec

end
-- ==== Proof.KValue.lean ====
import proofs.«900512_g7700000000000513_dist_attn_cross_mha_kvrep_htp_b2_sq128_skv128_d512_hq8_dh64_v7x_i32_f32_1_alg».proof.Proof.A0Def
import proofs.«900512_g7700000000000513_dist_attn_cross_mha_kvrep_htp_b2_sq128_skv128_d512_hq8_dh64_v7x_i32_f32_1_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Comp

open Cert.KernelIdeal Cert.KernelIdeal.Gen

open Idealize.ShloMosaic Idealize.SL.Sem Idealize.ShloMosaic.ValueIdx

open scoped BigOperators

section Products
variable {sl sr so : Shape} (D : DotDims sl sr so)

-- A product into zero over one contracted axis is the sum over that axis, once the operands' indices are named.
theorem matmul_sum (K : ℕ) (hr : D.contr.rank = 1) (hs : D.contr.size ⟨0, by omega⟩ = K)
    (l : FVec Ideal sl .f32) (w : FVec Ideal sr .f32) (o : so.Idx) (L : Fin K → sl.Idx) (R : Fin K → sr.Idx)
    (hL : ∀ k, D.lhsIdx o ((contrEquiv1 D K hr hs).symm k) = L k)
    (hR : ∀ k, D.rhsIdx o ((contrEquiv1 D K hr hs).symm k) = R k) :
    matmul D none l w (constant (F := Ideal) so .f32 0x00000000#32) o = ∑ k : Fin K, l (L k) * w (R k) := by
  simp only [matmul]
  rw [Ideal.matmul_constant_zero_apply, ← Equiv.sum_comp (contrEquiv1 D K hr hs).symm]
  exact Finset.sum_congr rfl fun k _ => by rw [hL, hR]

end Products

theorem matmul_proj_apply (l : FVec Ideal S256x512 .f32) (w : FVec Ideal S512x512 .f32) (r : Fin 256) (c : Fin 512) :
    matmul dot_S256x512_S512x512_S256x512_1_0_0_1_n_n none l w (constant (F := Ideal) S256x512 .f32 0x00000000#32) (ix2 r c)
      = ∑ k : Fin 512, l (ix2 r k) * w (ix2 k c) :=
  matmul_sum dot_S256x512_S512x512_S256x512_1_0_0_1_n_n 512 rfl rfl l w _ (fun k => ix2 r k) (fun k => ix2 k c)
    (fun k => funext (Fin.forall_fin_two.2 ⟨rfl, rfl⟩))
    (fun k => funext (Fin.forall_fin_two.2 ⟨rfl, rfl⟩))

theorem matmul_score_apply (l r : FVec Ideal S128x64 .f32) (i j : Fin 128) :
    matmul dot_S128x64_S128x64_S128x128_1_1_0_0_n_n none l r (constant (F := Ideal) S128x128 .f32 0x00000000#32) (ix2 i j)
      = ∑ d : Fin 64, l (ix2 i d) * r (ix2 j d) :=
  matmul_sum dot_S128x64_S128x64_S128x128_1_1_0_0_n_n 64 rfl rfl l r _ (fun k => ix2 i k) (fun k => ix2 j k)
    (fun k => funext (Fin.forall_fin_two.2 ⟨rfl, rfl⟩))
    (fun k => funext (Fin.forall_fin_two.2 ⟨rfl, rfl⟩))

theorem matmul_mix_apply (p : FVec Ideal S128x128 .f32) (v : FVec Ideal S128x64 .f32) (i : Fin 128) (d : Fin 64) :
    matmul dot_S128x128_S128x64_S128x64_1_0_0_1_n_n none p v (constant (F := Ideal) S128x64 .f32 0x00000000#32) (ix2 i d)
      = ∑ j : Fin 128, p (ix2 i j) * v (ix2 j d) :=
  matmul_sum dot_S128x128_S128x64_S128x64_1_0_0_1_n_n 128 rfl rfl p v _ (fun k => ix2 i k) (fun k => ix2 k d)
    (fun k => funext (Fin.forall_fin_two.2 ⟨rfl, rfl⟩))
    (fun k => funext (Fin.forall_fin_two.2 ⟨rfl, rfl⟩))

section Rows

theorem rowMax_apply (s : FVec Ideal S128x128 .f32) (i : Fin 128) :
    multiReduction (F := Ideal) .maximumf [1] S128 s 0xFF800000#32 reduces_S128x128_S128 (.inl rfl) rfl (ix1 i)
      = (Finset.univ : Finset (Fin 128)).fold max (Ideal.ofBits .f32 0xFF800000#32) (fun j => s (ix2 i j)) := by
  refine (Ideal.multiReduction_maximumf_single s _ reduces_S128x128_S128 (.inl rfl) rfl (ix1 i)).trans ?_
  refine congrArg (fun g => (Finset.univ : Finset (Fin 128)).fold max (Ideal.ofBits .f32 0xFF800000#32) g) ?_
  exact funext fun j => congrArg s (funext (Fin.forall_fin_two.2 ⟨rfl, rfl⟩))

theorem rowSum_apply (s : FVec Ideal S128x128 .f32) (i : Fin 128) :
    multiReduction (F := Ideal) .add [1] S128 s 0x00000000#32 reduces_S128x128_S128 (.inl rfl) rfl (ix1 i)
      = ∑ j : Fin 128, s (ix2 i j) := by
  refine (Ideal.multiReduction_add_single s _ reduces_S128x128_S128 (.inl rfl) rfl (ix1 i)).trans ?_
  exact Finset.sum_congr rfl fun j _ => congrArg s (funext (Fin.forall_fin_two.2 ⟨rfl, rfl⟩))

end Rows

section Layout
variable {α : Type}

theorem block_apply (off : Fin 2 → ℕ) (X : S256x512.Idx → α) (h : S256x512.Slices off S128x64) (i : Fin 128) (d : Fin 64)
    (r : Fin 256) (c : Fin 512) (hr : r.val = off 0 + i.val) (hc : c.val = off 1 + d.val) :
    extractStridedSlice S128x64 off X h (ix2 i d) = X (ix2 r c) :=
  extractStridedSlice_apply _ _ _ _ _ (fun ax => by
    match ax with
    | ⟨0, _⟩ => exact hr
    | ⟨1, _⟩ => exact hc)

theorem column_apply {n : ℕ} (v : S128.Idx → α) (hc : S128.ShapeCasts S128x1) (hb : S128x1.Broadcasts ⟨2, ![128, n]⟩)
    (i : Fin 128) (j : Fin n) :
    broadcastTo ⟨2, ![128, n]⟩ (shapeCast S128x1 v hc) hb (ix2 i j) = v (ix1 i) := by
  refine (broadcastTo_apply _ hb (ix2 i j) (ix2 i (0 : Fin 1)) fun ax => ?_).trans ?_
  · match ax with
    | ⟨0, _⟩ => rfl
    | ⟨1, _⟩ => rfl
  · refine shapeCast_apply v hc _ _ ?_
    rw [Shape.rowMajor_val_one, Shape.rowMajor_val_two]
    show i.val = i.val * 1 + 0
    omega

theorem slab_apply (v : S1x128x1x64.Idx → α) (h : S1x128x1x64.ShapeCasts S128x64) (j : Fin 128) (d : Fin 64) :
    shapeCast S128x64 v h (ix2 j d) = v (ix4 (0 : Fin 1) j (0 : Fin 1) d) :=
  shapeCast_apply v h _ _ (by
    rw [Shape.rowMajor_val_four, Shape.rowMajor_val_two]
    show ((0 * 128 + j.val) * 1 + 0) * 64 + d.val = j.val * 64 + d.val
    omega)

theorem rows_apply (v : S2x128x512.Idx → α) (h : S2x128x512.ShapeCasts S256x512) (b : Fin 2) (i : Fin 128) (e : Fin 512)
    (r : Fin 256) (hr : r.val = 128 * b.val + i.val) :
    shapeCast S256x512 v h (ix2 r e) = v (ix3 b i e) :=
  shapeCast_apply v h _ _ (by
    rw [Shape.rowMajor_val_three, Shape.rowMajor_val_two]
    show (b.val * 128 + i.val) * 512 + e.val = r.val * 512 + e.val
    rw [hr]; ring)

end Layout

theorem sl_ok : ∀ (b : Fin 2) (H : Fin 8), S256x512.Slices ![128 * b.val, 64 * H.val] S128x64 := by decide

theorem inb_ok : ∀ (b : Fin 2) (H : Fin 8) a, (![b.val, 0, H.val, 0] : Fin 4 → ℕ) a + S1x128x1x64.size a ≤ S2x128x8x64.size a := by
  decide

theorem ldK_apply {F : FTy → Type} [FloatOps F] (kc : Vec F S2x128x8x64 .f32) (b : Fin 2) (h : Fin 8) (j : Fin 128) (d : Fin 64) :
    ldK kc (Rect.unit (s := S2x128x8x64) ![b.val, 0, h.val, 0] S1x128x1x64.size (inb_ok b h)) (ix4 (0 : Fin 1) j (0 : Fin 1) d)
      = kc (ix4 b j h d) := by
  show kc _ = kc _
  refine congrArg kc (funext fun a => Fin.ext ?_)
  match a with
  | ⟨0, _⟩ => show b.val + 1 * 0 = b.val; omega
  | ⟨1, _⟩ => show 0 + 1 * j.val = j.val; omega
  | ⟨2, _⟩ => show h.val + 1 * 0 = h.val; omega
  | ⟨3, _⟩ => show 0 + 1 * d.val = d.val; omega

section Head
variable {F : FTy → Type} [FloatOps F]

def scoreV (q kk : FVec F S128x64 .f32) : FVec F S128x128 .f32 :=
  mulf (matmul dot_S128x64_S128x64_S128x128_1_1_0_0_n_n none q kk (constant S128x128 .f32 0x00000000#32))
    (broadcast S128x128 (Scalar.ofBits .f32 0x3E000000#32))

def weightV (q kk : FVec F S128x64 .f32) : FVec F S128x128 .f32 :=
  exp (subf (scoreV q kk)
    (broadcastTo S128x128
      (shapeCast S128x1 (multiReduction .maximumf [1] S128 (scoreV q kk) 0xFF800000#32 reduces_S128x128_S128 (.inl rfl) rfl)
        shapeCasts_S128_S128x1)
      broadcasts_S128x1_S128x128))

def headV (q kk vv : FVec F S128x64 .f32) : FVec F S128x64 .f32 :=
  divf (matmul dot_S128x128_S128x64_S128x64_1_0_0_1_n_n none (weightV q kk) vv (constant S128x64 .f32 0x00000000#32))
    (broadcastTo S128x64
      (shapeCast S128x1 (multiReduction .add [1] S128 (weightV q kk) 0x00000000#32 reduces_S128x128_S128 (.inl rfl) rfl)
        shapeCasts_S128_S128x1)
      broadcasts_S128x1_S128x64)

end Head

section HeadIdeal

theorem scoreV_apply (q kk : FVec Ideal S128x64 .f32) (i j : Fin 128) :
    scoreV (F := Ideal) q kk (ix2 i j) = (∑ d : Fin 64, q (ix2 i d) * kk (ix2 j d)) * Ideal.ofBits .f32 0x3E000000#32 := by
  show matmul dot_S128x64_S128x64_S128x128_1_1_0_0_n_n none q kk (constant (F := Ideal) S128x128 .f32 0x00000000#32) (ix2 i j)
      * Ideal.ofBits .f32 0x3E000000#32 = _
  rw [matmul_score_apply]

theorem weightV_apply (q kk : FVec Ideal S128x64 .f32) (i j : Fin 128) :
    weightV (F := Ideal) q kk (ix2 i j)
      = Ideal.exp (scoreV (F := Ideal) q kk (ix2 i j)
          - (Finset.univ : Finset (Fin 128)).fold max (Ideal.ofBits .f32 0xFF800000#32) (fun j' => scoreV (F := Ideal) q kk (ix2 i j'))) := by
  show Ideal.exp (scoreV (F := Ideal) q kk (ix2 i j) - broadcastTo S128x128 _ broadcasts_S128x1_S128x128 (ix2 i j)) = _
  rw [column_apply _ shapeCasts_S128_S128x1 broadcasts_S128x1_S128x128 i j, rowMax_apply]

theorem headV_apply (q kk vv : FVec Ideal S128x64 .f32) (i : Fin 128) (d : Fin 64) :
    headV (F := Ideal) q kk vv (ix2 i d)
      = Ideal.div (∑ j : Fin 128, weightV (F := Ideal) q kk (ix2 i j) * vv (ix2 j d)) (∑ j : Fin 128, weightV (F := Ideal) q kk (ix2 i j)) := by
  show Ideal.div (matmul dot_S128x128_S128x64_S128x64_1_0_0_1_n_n none (weightV (F := Ideal) q kk) vv (constant (F := Ideal) S128x64 .f32 0x00000000#32) (ix2 i d))
      (broadcastTo S128x64 _ broadcasts_S128x1_S128x64 (ix2 i d)) = _
  rw [matmul_mix_apply, column_apply _ shapeCasts_S128_S128x1 broadcasts_S128x1_S128x64 i d, rowSum_apply]

end HeadIdeal

section Bridge
variable (x : Vec Ideal S2x128x512 .f32) (wq : Vec Ideal S512x512 .f32) (kc vc : Vec Ideal S2x128x8x64 .f32)

theorem qVal_apply (b : Fin 2) (i : Fin 128) (c : Fin 512) (r : Fin 256) (hr : r.val = 128 * b.val + i.val) :
    qVal (F := Ideal) x wq (ix2 r c) = ∑ e : Fin 512, x (ix3 b i e) * wq (ix2 e c) := by
  show matmul dot_S256x512_S512x512_S256x512_1_0_0_1_n_n none
      (shapeCast S256x512 (shapeCast S2x128x512 x shapeCasts_S2x128x512_S2x128x512) shapeCasts_S2x128x512_S256x512)
      (shapeCast S512x512 wq shapeCasts_S512x512_S512x512) (constant (F := Ideal) S256x512 .f32 0x00000000#32) (ix2 r c) = _
  rw [matmul_proj_apply, shapeCast_self, shapeCast_self]
  refine Finset.sum_congr rfl fun e _ => ?_
  rw [rows_apply x _ b i e r hr]

-- The chain over operands that read the specification's queries, keys and values of head H is the specification's head H.
theorem headV_eq (q kk vv : FVec Ideal S128x64 .f32) (b : Fin 2) (H : Fin 8)
    (hq : ∀ i d, q (ix2 i d) = AttnSpec.Q (NH := 8) x wq b i H d) (hk : ∀ j d, kk (ix2 j d) = kc (ix4 b j H d))
    (hv : ∀ j d, vv (ix2 j d) = vc (ix4 b j H d)) (i : Fin 128) (d : Fin 64) :
    headV (F := Ideal) q kk vv (ix2 i d) = AttnSpec.At (NH := 8) x wq kc vc b i H d := by
  rw [headV_apply]
  unfold AttnSpec.At AttnSpec.Ls AttnSpec.Pr AttnSpec.Mx AttnSpec.Sc
  simp only [weightV_apply, scoreV_apply, hq, hk, hv]

end Bridge

section Heads
variable {F : FTy → Type} [FloatOps F]
variable (x : Vec F S2x128x512 .f32) (wq : Vec F S512x512 .f32) (kc vc : Vec F S2x128x8x64 .f32)

-- Head H of batch entry b: the chain at the query block (128 b, 64 H) and the slabs [b, :, H, :].
def ohead (b : Fin 2) (H : Fin 8) : FVec F S128x64 .f32 :=
  headV (extractStridedSlice S128x64 ![128 * b.val, 64 * H.val] (qVal x wq) (sl_ok b H))
    (shapeCast S128x64 (ldK kc (Rect.unit (s := S2x128x8x64) ![b.val, 0, H.val, 0] S1x128x1x64.size (inb_ok b H))) shapeCasts_S1x128x1x64_S128x64)
    (shapeCast S128x64 (ldV vc (Rect.unit (s := S2x128x8x64) ![b.val, 0, H.val, 0] S1x128x1x64.size (inb_ok b H))) shapeCasts_S1x128x1x64_S128x64)

def att (b : Fin 2) : FVec F S128x512 .f32 :=
  concatenate S128x512 1 (List.ofFn fun H : Fin 8 => ⟨S128x64, ohead x wq kc vc b H⟩) concatenates_S128x64_S128x64_S128x64_S128x64_S128x64_S128x64_S128x64_S128x64_S128x512_d1

theorem attVal_eq : attVal x wq kc vc
    = concatenate S256x512 0 (List.ofFn fun b : Fin 2 => ⟨S128x512, att x wq kc vc b⟩) concatenates_S128x512_S128x512_S256x512_d0 := rfl

end Heads

section Kernel
variable (x : Vec Ideal S2x128x512 .f32) (wq : Vec Ideal S512x512 .f32) (kc vc : Vec Ideal S2x128x8x64 .f32)

theorem att_apply (b : Fin 2) (i : Fin 128) (H : Fin 8) (d : Fin 64) (c : Fin 512) (hc : c.val = 64 * H.val + d.val) :
    att (F := Ideal) x wq kc vc b (ix2 i c) = AttnSpec.At (NH := 8) x wq kc vc b i H d :=
  (concatenate_ofFn_apply (1 : Fin S128x512.rank) (ohead x wq kc vc b) _ rfl 64 rfl (ix2 i c) H (by show c.val / 64 = H.val; omega) (ix2 i d)
    (by show d.val = c.val % 64; omega) (fun a ha => by
      match a with
      | ⟨0, _⟩ => rfl
      | ⟨1, _⟩ => exact absurd rfl ha)).trans
    (headV_eq x wq kc vc _ _ _ b H
      (fun i d => by
        rw [block_apply ![128 * b.val, 64 * H.val] _ _ i d ⟨128 * b.val + i.val, by omega⟩ ⟨64 * H.val + d.val, by omega⟩ rfl rfl,
          qVal_apply x wq b i _ _ rfl]
        rfl)
      (fun j d => by rw [slab_apply, ldK_apply])
      (fun j d => (slab_apply _ _ j d).trans (ldK_apply vc b H j d)) i d)

theorem attVal_apply (b : Fin 2) (i : Fin 128) (H : Fin 8) (d : Fin 64) (r : Fin 256) (c : Fin 512)
    (hr : r.val = 128 * b.val + i.val) (hc : c.val = 64 * H.val + d.val) :
    attVal (F := Ideal) x wq kc vc (ix2 r c) = AttnSpec.At (NH := 8) x wq kc vc b i H d := by
  rw [attVal_eq]
  exact (concatenate_ofFn_apply (0 : Fin S256x512.rank) (att x wq kc vc) _ rfl 128 rfl (ix2 r c) b (by show r.val / 128 = b.val; omega) (ix2 i c)
    (by show i.val = r.val % 128; omega) (fun a ha => by
      match a with
      | ⟨0, _⟩ => exact absurd rfl ha
      | ⟨1, _⟩ => rfl)).trans (att_apply x wq kc vc b i H d c hc)

end Kernel

theorem acc0Val_apply (x : Vec Ideal S2x128x512 .f32) (wq wo : Vec Ideal S512x512 .f32) (kc vc : Vec Ideal S2x128x8x64 .f32)
    (b : Fin 2) (i : Fin 128) (n : Fin 512) :
    acc0Val (F := Ideal) x wq wo kc vc (ix2 ⟨128 * b.val + i.val, by omega⟩ n) = AttnSpec.Out (NH := 8) x wq kc vc wo b i n := by
  show shapeCast S256x512 (matmul dot_S256x512_S512x512_S256x512_1_0_0_1_n_n none (attVal (F := Ideal) x wq kc vc)
      (shapeCast S512x512 wo shapeCasts_S512x512_S512x512) (constant (F := Ideal) S256x512 .f32 0x00000000#32))
      shapeCasts_S256x512_S256x512 (ix2 _ n) = _
  rw [shapeCast_self, shapeCast_self, matmul_proj_apply]
  unfold AttnSpec.Out
  refine Finset.sum_congr rfl fun k _ => ?_
  rw [attVal_apply x wq kc vc b i (AttnSpec.headOf (NH := 8) k) (AttnSpec.colOf (NH := 8) k) _ k rfl
    (Nat.div_add_mod k.val 64).symm]

end Cert.KernelIdeal.Comp

end
-- ==== Proof.Glue.lean ====
import proofs.«900512_g7700000000000513_dist_attn_cross_mha_kvrep_htp_b2_sq128_skv128_d512_hq8_dh64_v7x_i32_f32_1_alg».proof.Proof.Proto
import proofs.«900512_g7700000000000513_dist_attn_cross_mha_kvrep_htp_b2_sq128_skv128_d512_hq8_dh64_v7x_i32_f32_1_alg».proof.Proof.Bridge
import proofs.«900512_g7700000000000513_dist_attn_cross_mha_kvrep_htp_b2_sq128_skv128_d512_hq8_dh64_v7x_i32_f32_1_alg».proof.Proof.KValue
import proofs.«900512_g7700000000000513_dist_attn_cross_mha_kvrep_htp_b2_sq128_skv128_d512_hq8_dh64_v7x_i32_f32_1_alg».proof.Proof.AttnSpec
import Idealize.ShloMosaic.Lib.Layout

noncomputable section

open scoped BigOperators

namespace Cert.KernelIdeal.Hyper

open Cert.KernelIdeal Cert.KernelIdeal.Gen Cert.KernelIdeal.Net Cube
open Idealize.ShloMosaic Idealize.ShloMosaic.TcCoe Idealize.ShloMosaic.ValueIdx

def hd (d : Dev nD) (h : Fin 8) : Fin 256 := ⟨8 * d.val + h.val, by have : d.val < 32 := d.isLt; omega⟩

def flat (d : Dev nD) (J : Fin (64 * 8)) : Fin (64 * 256) := ⟨d.val * 512 + J.val, by have : d.val < 32 := d.isLt; omega⟩

theorem flat_col (d : Dev nD) (h : Fin 8) (e : Fin 64) : flat d (AttnSpec.col (NH := 8) h e) = AttnSpec.col (NH := 256) (hd d h) e :=
  Fin.ext (by show d.val * 512 + (64 * h.val + e.val) = 64 * (8 * d.val + h.val) + e.val; omega)

theorem headOf_flat (d : Dev nD) (J : Fin (64 * 8)) : AttnSpec.headOf (NH := 256) (flat d J) = hd d (AttnSpec.headOf (NH := 8) J) :=
  Fin.ext (by show (d.val * 512 + J.val) / 64 = 8 * d.val + J.val / 64; omega)

theorem colOf_flat (d : Dev nD) (J : Fin (64 * 8)) : AttnSpec.colOf (NH := 256) (flat d J) = AttnSpec.colOf (NH := 8) J :=
  Fin.ext (by show (d.val * 512 + J.val) % 64 = J.val % 64; omega)

theorem kSl_read (d : Dev nD) (Kx : Vec Ideal S2x128x256x64 .f32) (b : Fin 2) (j : Fin 128) (h : Fin 8) (e : Fin 64) :
    (kSl d).view.read (Elt Ideal) Kx (ix4 b j h e) = Kx (ix4 b j (hd d h) e) := by
  rw [View.read_apply]
  refine congrArg Kx (funext fun a => Fin.ext ?_)
  show k0_off1 d a + 1 * ((ix4 b j h e) a).val = ((ix4 b j (hd d h) e) a).val
  rw [k0_off1_eq]
  match a with
  | ⟨0, _⟩ => show 0 + 1 * b.val = b.val; omega
  | ⟨1, _⟩ => show 0 + 1 * j.val = j.val; omega
  | ⟨2, _⟩ => show 8 * d.val + 1 * h.val = 8 * d.val + h.val; omega
  | ⟨3, _⟩ => show 0 + 1 * e.val = e.val; omega

-- The value slab is cut from its array by the same rectangle as the key slab.
theorem vSl_read (d : Dev nD) (Vx : Vec Ideal S2x128x256x64 .f32) (b : Fin 2) (j : Fin 128) (h : Fin 8) (e : Fin 64) :
    (vSl d).view.read (Elt Ideal) Vx (ix4 b j h e) = Vx (ix4 b j (hd d h) e) := kSl_read d Vx b j h e

theorem wq_block (Wq : (⟨2, ![512, 16384]⟩ : Shape).Idx → EReal) (d : Dev nD) (e : Fin 512) (J : Fin (64 * 8)) :
    (Layout.block ⟨2, ![512, 512]⟩ ⟨2, ![512, 16384]⟩ 1 32 d Wq) (ix2 e J) = Wq (ix2 e (flat d J)) :=
  congrArg Wq (funext (Fin.forall_fin_two.2 ⟨rfl, rfl⟩))

theorem wo_block (Wo : (⟨2, ![16384, 512]⟩ : Shape).Idx → EReal) (d : Dev nD) (J : Fin (64 * 8)) (n : Fin 512) :
    (Layout.block ⟨2, ![512, 512]⟩ ⟨2, ![16384, 512]⟩ 0 32 d Wo) (ix2 J n) = Wo (ix2 (flat d J) n) :=
  congrArg Wo (funext (Fin.forall_fin_two.2 ⟨rfl, rfl⟩))

theorem sum_flat (G : Fin (64 * 256) → EReal) :
    ∑ d : Dev nD, ∑ J : Fin (64 * 8), G (flat d J) = ∑ J' : Fin (64 * 256), G J' := by
  rw [← Fintype.sum_prod_type']
  exact Fintype.sum_equiv finProdFinEquiv _ _ fun p => congrArg G (Fin.ext (by
    show p.1.val * 512 + p.2.val = p.2.val + 512 * p.1.val
    omega))

-- No stage of a head reads another head, and the 16384 columns are the 32 devices' 512 each.
theorem glue (X : Vec Ideal S2x128x512 .f32) (Wq : (⟨2, ![512, 16384]⟩ : Shape).Idx → EReal) (Wo : (⟨2, ![16384, 512]⟩ : Shape).Idx → EReal)
    (Kx Vx : Vec Ideal S2x128x256x64 .f32) (b : Fin 2) (i : Fin 128) (n : Fin 512) :
    ∑ d : Dev nD, AttnSpec.Out (NH := 8) X (Layout.block ⟨2, ![512, 512]⟩ ⟨2, ![512, 16384]⟩ 1 32 d Wq)
        ((kSl d).view.read (Elt Ideal) Kx) ((vSl d).view.read (Elt Ideal) Vx)
        (Layout.block ⟨2, ![512, 512]⟩ ⟨2, ![16384, 512]⟩ 0 32 d Wo) b i n
      = AttnSpec.Out (NH := 256) X Wq Kx Vx Wo b i n := by
  unfold AttnSpec.Out
  refine Eq.trans (Finset.sum_congr rfl fun d _ => Finset.sum_congr rfl fun J _ => ?_) (sum_flat _)
  have hk := kSl_read d Kx
  have hv := vSl_read d Vx
  generalize (kSl d).view.read (Elt Ideal) Kx = kx at hk ⊢
  generalize (vSl d).view.read (Elt Ideal) Vx = vx at hv ⊢
  simp only [AttnSpec.At, AttnSpec.Ls, AttnSpec.Pr, AttnSpec.Mx, AttnSpec.Sc, AttnSpec.Q, wq_block, wo_block, hk, hv, flat_col,
    headOf_flat, colOf_flat]

theorem kernel_value (m : (ℓ : Loc nD τ sig) → Buf (Elt Ideal) ℓ)
    (X : Vec Ideal S2x128x512 .f32) (Wq : (⟨2, ![512, 16384]⟩ : Shape).Idx → EReal) (Wo : (⟨2, ![16384, 512]⟩ : Shape).Idx → EReal)
    (Kx Vx : Vec Ideal S2x128x256x64 .f32)
    (h0 : ∀ d : Dev nD, m ((d : Thread nD τ).loc main_arg0) = X)
    (h1 : ∀ d : Dev nD, m ((d : Thread nD τ).loc main_arg1) = Layout.block ⟨2, ![512, 512]⟩ ⟨2, ![512, 16384]⟩ 1 32 d Wq)
    (h2 : ∀ d : Dev nD, m ((d : Thread nD τ).loc main_arg2) = Layout.block ⟨2, ![512, 512]⟩ ⟨2, ![16384, 512]⟩ 0 32 d Wo)
    (h3 : ∀ d : Dev nD, m ((d : Thread nD τ).loc main_arg3) = Kx)
    (h4 : ∀ d : Dev nD, m ((d : Thread nD τ).loc main_arg4) = Vx) (c : Dev nD) :
    outV (F := Ideal) (A0m m) c = fun j => AttnSpec.Out (NH := 256) X Wq Kx Vx Wo (j 0) (j 1) (j 2) := by
  funext j
  obtain ⟨b, i, n, rfl⟩ : ∃ b i n, j = ix3 b i n := ⟨j 0, j 1, j 2, eq_ix3 j⟩
  show @Eq EReal (outV (F := Ideal) (A0m m) c (ix3 b i n)) (AttnSpec.Out (NH := 256) X Wq Kx Vx Wo b i n)
  rw [outV_apply, ← glue X Wq Wo Kx Vx b i n]
  refine Finset.sum_congr rfl fun d _ => ?_
  refine (Comp.acc0Val_apply (xv m d) (wqv m d) (wov m d) (kcv m d) (vcv m d) b i n).trans ?_
  have e0 : xv m d = X := (Memref.read_access_unit_zero (Elt Ideal) main_arg0 (funext fun a => Nat.zero_mul _) _ _).trans (h0 d)
  have e1 : wqv m d = _ := (Memref.read_access_unit_zero (Elt Ideal) main_arg1 (funext fun a => Nat.zero_mul _) _ _).trans (h1 d)
  have e2 : wov m d = _ := (Memref.read_access_unit_zero (Elt Ideal) main_arg2 (funext fun a => Nat.zero_mul _) _ _).trans (h2 d)
  rw [e0, e1, e2]
  unfold kcv vcv
  rw [h3, h4]

end Cert.KernelIdeal.Hyper

end
-- ==== Proof.RefG.lean ====
import proofs.«900512_g7700000000000513_dist_attn_cross_mha_kvrep_htp_b2_sq128_skv128_d512_hq8_dh64_v7x_i32_f32_1_alg».proof.Defs
import proofs.«900512_g7700000000000513_dist_attn_cross_mha_kvrep_htp_b2_sq128_skv128_d512_hq8_dh64_v7x_i32_f32_1_alg».proof.Proof.Gen.ReferenceIdeal.Run
import proofs.«900512_g7700000000000513_dist_attn_cross_mha_kvrep_htp_b2_sq128_skv128_d512_hq8_dh64_v7x_i32_f32_1_alg».proof.Proof.Gen.ReferenceIdeal.Read
import proofs.«900512_g7700000000000513_dist_attn_cross_mha_kvrep_htp_b2_sq128_skv128_d512_hq8_dh64_v7x_i32_f32_1_alg».proof.Proof.AttnSpec

noncomputable section

open scoped BigOperators

namespace Cert.ReferenceIdeal.RefG

open Cert.ReferenceIdeal Cert.ReferenceIdeal.Gen Cert.ReferenceIdeal.Read Idealize.ShloMosaic Idealize.ShloMosaic.ValueIdx

theorem negInf : Ideal.ofBits .f32 0xFF800000#32 = (⊥ : EReal) := by simp [Ideal.ofBits, Ideal.ieee]

variable (x0 : (⟨S2x128x512, .f32⟩ : BufTy).Contents (Elt Ideal)) (x1 : (⟨S512x16384, .f32⟩ : BufTy).Contents (Elt Ideal))
  (x2 : (⟨S16384x512, .f32⟩ : BufTy).Contents (Elt Ideal)) (x3 x4 : (⟨S2x128x256x64, .f32⟩ : BufTy).Contents (Elt Ideal))

theorem q_at (b : Fin 2) (i : Fin 128) (H : Fin 256) (d : Fin 64) :
    val_main_v1 (F := Ideal) x0 x1 (ix4 b i H d) = AttnSpec.Q (NH := 256) x0 x1 b i H d := by
  have hb := b.isLt; have hi := i.isLt; have hH := H.isLt; have hd := d.isLt
  rw [val_main_v1_apply, val_main_v0_apply]
  unfold AttnSpec.Q
  refine Finset.sum_congr rfl fun e _ => ?_
  have el : lidx_main_v0 (idx_main_v1 (ix4 b i H d)) e = ix3 b i e := funext fun a => Fin.ext (by
    match a with
    | ⟨0, _⟩ => show (((b.val * 128 + i.val) * 256 + H.val) * 64 + d.val) / 2097152 = b.val; omega
    | ⟨1, _⟩ => show (((b.val * 128 + i.val) * 256 + H.val) * 64 + d.val) / 16384 % 128 = i.val; omega
    | ⟨2, _⟩ => rfl)
  have er : ridx_main_v0 (idx_main_v1 (ix4 b i H d)) e = ix2 e (AttnSpec.col (NH := 256) H d) := funext fun a => Fin.ext (by
    match a with
    | ⟨0, _⟩ => rfl
    | ⟨1, _⟩ => show (((b.val * 128 + i.val) * 256 + H.val) * 64 + d.val) % 16384 = 64 * H.val + d.val; omega)
  rw [el, er]

theorem sc_at (b : Fin 2) (H : Fin 256) (i j : Fin 128) :
    val_main_v7 (F := Ideal) x0 x1 x3 (ix4 b H i j) = AttnSpec.Sc (NH := 256) x0 x1 x3 b H i j := by
  rw [val_main_v7_apply, val_main_v5_apply, val_main_v6_apply, val_main_cst_2_apply]
  unfold AttnSpec.Sc
  show (∑ k : Fin 64, _) * Ideal.ofBits .f32 0x3E000000#32 = _
  congr 1
  refine Finset.sum_congr rfl fun k _ => ?_
  have el : lidx_main_v5 (ix4 b H i j) k = ix4 b i H k := funext fun a => Fin.ext (by
    match a with | ⟨0, _⟩ => rfl | ⟨1, _⟩ => rfl | ⟨2, _⟩ => rfl | ⟨3, _⟩ => rfl)
  have er : ridx_main_v5 (ix4 b H i j) k = ix4 b j H k := funext fun a => Fin.ext (by
    match a with | ⟨0, _⟩ => rfl | ⟨1, _⟩ => rfl | ⟨2, _⟩ => rfl | ⟨3, _⟩ => rfl)
  rw [el, er, q_at]

theorem mx_at (b : Fin 2) (H : Fin 256) (i : Fin 128) :
    val_main_v8 (F := Ideal) x0 x1 x3 (ix3 b H i) = AttnSpec.Mx (NH := 256) x0 x1 x3 b H i := by
  have hR : S2x256x128x128.Reduces [3] S2x256x128 := by decide
  unfold val_main_v8 AttnSpec.Mx
  rw [Host.reduce_eq_fold_single FloatOps.maximumf _ _ _ hR _ (ix3 b H i)]
  refine Finset.fold_congr fun (k : Fin 128) _ => ?_
  have e : hR.lift (ix3 b H i) k = ix4 b H i k := funext fun a => Fin.ext (by
    match a with | ⟨0, _⟩ => rfl | ⟨1, _⟩ => rfl | ⟨2, _⟩ => rfl | ⟨3, _⟩ => rfl)
  show val_main_v7 (F := Ideal) x0 x1 x3 (hR.lift (ix3 b H i) k) = _
  rw [e, sc_at]

theorem m_at (b : Fin 2) (H : Fin 256) (i : Fin 128) (z : Fin 1) :
    val_main_v10 (F := Ideal) x0 x1 x3 (ix4 b H i z) = AttnSpec.Mx (NH := 256) x0 x1 x3 b H i := by
  rw [val_main_v10_apply, val_main_v3_apply, val_main_cst_0_apply, val_main_v9_apply]
  have e : idx_main_v9 (ix4 b H i z) = ix3 b H i := funext fun a => Fin.ext (by
    match a with | ⟨0, _⟩ => rfl | ⟨1, _⟩ => rfl | ⟨2, _⟩ => rfl)
  rw [e, mx_at]
  show max (Ideal.ofBits .f32 0xFF800000#32) _ = _
  rw [negInf, max_bot_left]

theorem alpha_at (b : Fin 2) (H : Fin 256) (i : Fin 128) (z : Fin 1) :
    val_main_v12 (F := Ideal) x0 x1 x3 (ix4 b H i z) = 0 := by
  rw [val_main_v12_apply, val_main_v11_apply, val_main_v3_apply, val_main_cst_0_apply]
  show Ideal.exp (Ideal.ofBits .f32 0xFF800000#32 - val_main_v10 (F := Ideal) x0 x1 x3 (ix4 b H i z)) = 0
  rw [negInf, EReal.bot_sub, Ideal.exp_bot]

theorem p_at (b : Fin 2) (H : Fin 256) (i j : Fin 128) :
    val_main_v15 (F := Ideal) x0 x1 x3 (ix4 b H i j) = AttnSpec.Pr (NH := 256) x0 x1 x3 b H i j := by
  rw [val_main_v15_apply, val_main_v14_apply, val_main_v13_apply]
  have e : idx_main_v13 (ix4 b H i j) = ix4 b H i (0 : Fin 1) := funext fun a => Fin.ext (by
    match a with | ⟨0, _⟩ => rfl | ⟨1, _⟩ => rfl | ⟨2, _⟩ => rfl | ⟨3, _⟩ => rfl)
  rw [e, m_at, sc_at]
  rfl

theorem ls_at (b : Fin 2) (H : Fin 256) (i : Fin 128) :
    val_main_v17 (F := Ideal) x0 x1 x3 (ix3 b H i) = AttnSpec.Ls (NH := 256) x0 x1 x3 b H i := by
  rw [val_main_v17_apply, val_main_cst_4_apply]
  unfold AttnSpec.Ls
  show Ideal.ofBits .f32 0x00000000#32 + _ = _
  rw [Ideal.ofBits_zero_f32, zero_add]
  refine Finset.sum_congr rfl fun k _ => ?_
  have e : idx_main_v17 (ix3 b H i) k = ix4 b H i k := funext fun a => Fin.ext (by
    match a with | ⟨0, _⟩ => rfl | ⟨1, _⟩ => rfl | ⟨2, _⟩ => rfl | ⟨3, _⟩ => rfl)
  rw [e, p_at]

theorem l_at (b : Fin 2) (H : Fin 256) (i : Fin 128) (z : Fin 1) :
    val_main_v19 (F := Ideal) x0 x1 x3 (ix4 b H i z) = AttnSpec.Ls (NH := 256) x0 x1 x3 b H i := by
  rw [val_main_v19_apply, val_main_v16_apply, val_main_v4_apply, val_main_cst_1_apply, alpha_at, val_main_v18_apply]
  have e : idx_main_v18 (ix4 b H i z) = ix3 b H i := funext fun a => Fin.ext (by
    match a with | ⟨0, _⟩ => rfl | ⟨1, _⟩ => rfl | ⟨2, _⟩ => rfl)
  rw [e, ls_at]
  show Ideal.ofBits .f32 0x00000000#32 * 0 + _ = _
  rw [mul_zero, zero_add]

theorem acc_at (b : Fin 2) (i : Fin 128) (H : Fin 256) (d : Fin 64) :
    val_main_v25 (F := Ideal) x0 x1 x3 x4 (ix4 b i H d)
      = ∑ j : Fin 128, AttnSpec.Pr (NH := 256) x0 x1 x3 b H i j * x4 (ix4 b j H d) := by
  rw [val_main_v25_apply, val_main_v22_apply, val_main_v2_apply, val_main_cst_apply, val_main_v21_apply,
    val_main_v20_apply, val_main_v24_apply, val_main_v23_apply]
  have e1 : idx_main_v20 (idx_main_v21 (ix4 b i H d)) = ix4 b H i (0 : Fin 1) := funext fun a => Fin.ext (by
    match a with | ⟨0, _⟩ => rfl | ⟨1, _⟩ => rfl | ⟨2, _⟩ => rfl | ⟨3, _⟩ => rfl)
  rw [e1, alpha_at]
  show Ideal.ofBits .f32 0x00000000#32 * 0 + _ = _
  rw [mul_zero, zero_add]
  refine Finset.sum_congr rfl fun k _ => ?_
  have el : lidx_main_v23 (idx_main_v24 (ix4 b i H d)) k = ix4 b k H d := funext fun a => Fin.ext (by
    match a with | ⟨0, _⟩ => rfl | ⟨1, _⟩ => rfl | ⟨2, _⟩ => rfl | ⟨3, _⟩ => rfl)
  have er : ridx_main_v23 (idx_main_v24 (ix4 b i H d)) k = ix4 b H i k := funext fun a => Fin.ext (by
    match a with | ⟨0, _⟩ => rfl | ⟨1, _⟩ => rfl | ⟨2, _⟩ => rfl | ⟨3, _⟩ => rfl)
  rw [el, er, p_at, mul_comm]

theorem at_at (b : Fin 2) (i : Fin 128) (H : Fin 256) (d : Fin 64) :
    val_main_v28 (F := Ideal) x0 x1 x3 x4 (ix4 b i H d) = AttnSpec.At (NH := 256) x0 x1 x3 x4 b i H d := by
  rw [val_main_v28_apply, acc_at, val_main_v27_apply, val_main_v26_apply]
  have e : idx_main_v26 (idx_main_v27 (ix4 b i H d)) = ix4 b H i (0 : Fin 1) := funext fun a => Fin.ext (by
    match a with | ⟨0, _⟩ => rfl | ⟨1, _⟩ => rfl | ⟨2, _⟩ => rfl | ⟨3, _⟩ => rfl)
  rw [e, l_at]
  rfl

theorem ref_eq (x0 : (⟨S2x128x512, .f32⟩ : BufTy).Contents (Elt Ideal)) (x1 : (⟨S512x16384, .f32⟩ : BufTy).Contents (Elt Ideal))
    (x2 : (⟨S16384x512, .f32⟩ : BufTy).Contents (Elt Ideal)) (x3 x4 : (⟨S2x128x256x64, .f32⟩ : BufTy).Contents (Elt Ideal)) :
    val_main_v30 (F := Ideal) x0 x1 x2 x3 x4
      = fun i => AttnSpec.Out (NH := 256) x0 x1 x3 x4 x2 (i 0) (i 1) (i 2) := by
  funext i
  obtain ⟨b, q, n, rfl⟩ : ∃ (b : Fin 2) (q : Fin 128) (n : Fin 512), i = ix3 b q n := ⟨i 0, i 1, i 2, eq_ix3 i⟩
  have hb := b.isLt; have hq := q.isLt
  rw [val_main_v30_apply]
  show _ = AttnSpec.Out (NH := 256) x0 x1 x3 x4 x2 b q n
  unfold AttnSpec.Out
  refine Finset.sum_congr rfl fun (k : Fin 16384) _ => ?_
  have hk := k.isLt
  rw [val_main_v29_apply]
  have el : idx_main_v29 (lidx_main_v30 (ix3 b q n) k) = ix4 b q (AttnSpec.headOf (NH := 256) k) (AttnSpec.colOf (NH := 256) k) :=
    funext fun a => Fin.ext (by
      match a with
      | ⟨0, _⟩ => show ((b.val * 128 + q.val) * 16384 + k.val) / 2097152 = b.val; omega
      | ⟨1, _⟩ => show ((b.val * 128 + q.val) * 16384 + k.val) / 16384 % 128 = q.val; omega
      | ⟨2, _⟩ => show ((b.val * 128 + q.val) * 16384 + k.val) / 64 % 256 = k.val / 64; omega
      | ⟨3, _⟩ => show ((b.val * 128 + q.val) * 16384 + k.val) % 64 = k.val % 64; omega)
  have er : ridx_main_v30 (ix3 b q n) k = ix2 k n := funext fun a => Fin.ext (by
    match a with | ⟨0, _⟩ => rfl | ⟨1, _⟩ => rfl)
  rw [el, er, at_at]

end Cert.ReferenceIdeal.RefG

end
-- ==== Proof.Final.lean ====
import proofs.«900512_g7700000000000513_dist_attn_cross_mha_kvrep_htp_b2_sq128_skv128_d512_hq8_dh64_v7x_i32_f32_1_alg».proof.Defs
import proofs.«900512_g7700000000000513_dist_attn_cross_mha_kvrep_htp_b2_sq128_skv128_d512_hq8_dh64_v7x_i32_f32_1_alg».proof.Proof.KRun
import proofs.«900512_g7700000000000513_dist_attn_cross_mha_kvrep_htp_b2_sq128_skv128_d512_hq8_dh64_v7x_i32_f32_1_alg».proof.Proof.Glue
import proofs.«900512_g7700000000000513_dist_attn_cross_mha_kvrep_htp_b2_sq128_skv128_d512_hq8_dh64_v7x_i32_f32_1_alg».proof.Proof.RefG
import proofs.«900512_g7700000000000513_dist_attn_cross_mha_kvrep_htp_b2_sq128_skv128_d512_hq8_dh64_v7x_i32_f32_1_alg».proof.Proof.Gen.ReferenceIdeal.Run
import proofs.«900512_g7700000000000513_dist_attn_cross_mha_kvrep_htp_b2_sq128_skv128_d512_hq8_dh64_v7x_i32_f32_1_alg».proof.Proof.Gen.ReferenceIdeal.Read
import proofs.«900512_g7700000000000513_dist_attn_cross_mha_kvrep_htp_b2_sq128_skv128_d512_hq8_dh64_v7x_i32_f32_1_alg».proof.Proof.Gen.Pre_finite_inputs_Kernel
import proofs.«900512_g7700000000000513_dist_attn_cross_mha_kvrep_htp_b2_sq128_skv128_d512_hq8_dh64_v7x_i32_f32_1_alg».proof.Proof.Gen.Pre_finite_inputs_ReferenceIdeal

noncomputable section

namespace Cert.Proof.Claims

open Idealize.ShloMosaic Idealize.SL.Sem

theorem frame_pi : Cert.frame_KernelIdeal := fun m ρ _ =>
  (θ_run Cert.KernelIdeal.defs _ _).mono (fun _ h c => (h c).2) (Cert.KernelIdeal.Hyper.kernel_run (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨_, (θ_run Cert.KernelIdeal.defs _ _).mono (fun _ h c => ⟨((h c).1).trans
      (Cert.KernelIdeal.Hyper.kernel_value m
        (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg2))
        (m' (((0 : Dev Cert.ReferenceIdeal.nD).tc : Thread Cert.ReferenceIdeal.nD Cert.ReferenceIdeal.τ).loc Cert.ReferenceIdeal.main_arg3))
        (m' (((0 : Dev Cert.ReferenceIdeal.nD).tc : Thread Cert.ReferenceIdeal.nD Cert.ReferenceIdeal.τ).loc Cert.ReferenceIdeal.main_arg4))
        (fun d => (hagree d).1) (fun d => (hagree d).2.1) (fun d => (hagree d).2.2.1) (fun d => (hagree d).2.2.2.1) (fun d => (hagree d).2.2.2.2) c),
      (h c).2⟩) (Cert.KernelIdeal.Hyper.kernel_run (F := Ideal) m ρ), ?_⟩
  exact (θ_run Cert.ReferenceIdeal.defs _ _).mono (fun _ h => ⟨(((h 0).1).trans (Cert.ReferenceIdeal.Read.val_main_v30_eq m' 0)).trans
      (Cert.ReferenceIdeal.RefG.ref_eq _ _ _ _ _), (h 0).2⟩) (Cert.ReferenceIdeal.Value.run (F := Ideal) m' ρ')

end Cert.Proof.Claims

end
-- ==== Proof.K.Net.lean ====
import proofs.«900512_g7700000000000513_dist_attn_cross_mha_kvrep_htp_b2_sq128_skv128_d512_hq8_dh64_v7x_i32_f32_1_alg».proof.Proof.Gen.Kernel
import proofs.«900512_g7700000000000513_dist_attn_cross_mha_kvrep_htp_b2_sq128_skv128_d512_hq8_dh64_v7x_i32_f32_1_alg».proof.Proof.Cube

set_option Elab.async false

namespace Cert.Kernel.Net

open Idealize.ShloMosaic Cert.Kernel Cert.Kernel.Gen Cube

theorem dev1_eq : ∀ c : Dev nD, (⟨k0_dev1 c, k0_dev1_lt c⟩ : Dev nD) = nb 0 c := by decide +kernel
theorem dev2_eq : ∀ c : Dev nD, (⟨k0_dev2 c, k0_dev2_lt c⟩ : Dev nD) = nb 1 c := by decide +kernel
theorem dev3_eq : ∀ c : Dev nD, (⟨k0_dev3 c, k0_dev3_lt c⟩ : Dev nD) = nb 2 c := by decide +kernel
theorem dev4_eq : ∀ c : Dev nD, (⟨k0_dev4 c, k0_dev4_lt c⟩ : Dev nD) = nb 3 c := by decide +kernel
theorem dev5_eq : ∀ c : Dev nD, (⟨k0_dev5 c, k0_dev5_lt c⟩ : Dev nD) = nb 4 c := by decide +kernel
theorem dev6_eq : ∀ c : Dev nD, (⟨k0_dev6 c, k0_dev6_lt c⟩ : Dev nD) = nb 4 c := by decide +kernel
theorem dev7_eq : ∀ c : Dev nD, (⟨k0_dev7 c, k0_dev7_lt c⟩ : Dev nD) = nb 3 c := by decide +kernel
theorem dev8_eq : ∀ c : Dev nD, (⟨k0_dev8 c, k0_dev8_lt c⟩ : Dev nD) = nb 2 c := by decide +kernel
theorem dev9_eq : ∀ c : Dev nD, (⟨k0_dev9 c, k0_dev9_lt c⟩ : Dev nD) = nb 1 c := by decide +kernel
theorem dev10_eq : ∀ c : Dev nD, (⟨k0_dev10 c, k0_dev10_lt c⟩ : Dev nD) = nb 0 c := by decide +kernel
theorem dev11_eq : ∀ c : Dev nD, (⟨k0_dev11 c, k0_dev11_lt c⟩ : Dev nD) = nb 0 c := by decide +kernel
theorem dev12_eq : ∀ c : Dev nD, (⟨k0_dev12 c, k0_dev12_lt c⟩ : Dev nD) = nb 1 c := by decide +kernel
theorem dev13_eq : ∀ c : Dev nD, (⟨k0_dev13 c, k0_dev13_lt c⟩ : Dev nD) = nb 2 c := by decide +kernel
theorem dev14_eq : ∀ c : Dev nD, (⟨k0_dev14 c, k0_dev14_lt c⟩ : Dev nD) = nb 3 c := by decide +kernel
theorem dev15_eq : ∀ c : Dev nD, (⟨k0_dev15 c, k0_dev15_lt c⟩ : Dev nD) = nb 4 c := by decide +kernel

theorem off2_eq : ∀ c : Dev nD, k0_off2 c = ![sendS 0 c, 0] := by decide +kernel
theorem off3_eq : ∀ c : Dev nD, k0_off3 c = ![keepS 0 c, 0] := by decide +kernel
theorem off4_eq : ∀ c : Dev nD, k0_off4 c = ![sendS 1 c, 0] := by decide +kernel
theorem off5_eq : ∀ c : Dev nD, k0_off5 c = ![keepS 1 c, 0] := by decide +kernel
theorem off6_eq : ∀ c : Dev nD, k0_off6 c = ![sendS 2 c, 0] := by decide +kernel
theorem off7_eq : ∀ c : Dev nD, k0_off7 c = ![keepS 2 c, 0] := by decide +kernel
theorem off8_eq : ∀ c : Dev nD, k0_off8 c = ![sendS 3 c, 0] := by decide +kernel
theorem off9_eq : ∀ c : Dev nD, k0_off9 c = ![keepS 3 c, 0] := by decide +kernel
theorem off10_eq : ∀ c : Dev nD, k0_off10 c = ![sendS 4 c, 0] := by decide +kernel
theorem off11_eq : ∀ c : Dev nD, k0_off11 c = ![keepS 4 c, 0] := by decide +kernel
theorem off12_eq : ∀ c : Dev nD, k0_off12 c = ![agS 0 c, 0] := by decide +kernel
theorem off13_eq : ∀ c : Dev nD, k0_off13 c = ![agS 1 c, 0] := by decide +kernel
theorem off14_eq : ∀ c : Dev nD, k0_off14 c = ![agS 2 c, 0] := by decide +kernel
theorem off15_eq : ∀ c : Dev nD, k0_off15 c = ![agS 3 c, 0] := by decide +kernel
theorem off16_eq : ∀ c : Dev nD, k0_off16 c = ![agS 4 c, 0] := by decide +kernel

end Cert.Kernel.Net
-- ==== Proof.K.Cells.lean ====
import proofs.«900512_g7700000000000513_dist_attn_cross_mha_kvrep_htp_b2_sq128_skv128_d512_hq8_dh64_v7x_i32_f32_1_alg».proof.Proof.K.Net
import proofs.«900512_g7700000000000513_dist_attn_cross_mha_kvrep_htp_b2_sq128_skv128_d512_hq8_dh64_v7x_i32_f32_1_alg».proof.Proof.Gen.Kernel.Skeleton
import proofs.«900512_g7700000000000513_dist_attn_cross_mha_kvrep_htp_b2_sq128_skv128_d512_hq8_dh64_v7x_i32_f32_1_alg».proof.Proof.Gen.Kernel.Launch
import proofs.«900512_g7700000000000513_dist_attn_cross_mha_kvrep_htp_b2_sq128_skv128_d512_hq8_dh64_v7x_i32_f32_1_alg».proof.Proof.Gen.Kernel.Points
import proofs.«900512_g7700000000000513_dist_attn_cross_mha_kvrep_htp_b2_sq128_skv128_d512_hq8_dh64_v7x_i32_f32_1_alg».proof.Proof.Gen.Kernel.Frame
import Idealize.ShloMosaic.Lib.Pipeline.Launch
import Idealize.ShloMosaic.Lib.Pipeline.Kit
import Idealize.ShloMosaic.Lib.Tactic
import Idealize.ShloMosaic.Lib.Transfers

noncomputable section

namespace Cert.Kernel.Hyper

open Cert.Kernel Cert.Kernel.Gen Cert.Kernel.Net Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 5)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER (F := F)).LandsIn (upEmb : UEmb _ (MT nD τ sig Unit (Elt F) ℕ UU ℕ)) := by unfold ER; infer_instance

-- a part of the body, or the body, at the kernel's own buffers and semaphores
abbrev atBufs.{u} {α : Sort u} (k : (a0 : Memref sig .tc .vmem S2x128x512 .f32) → a0.IsWhole → (a1 : Memref sig .tc .vmem S512x512 .f32) → a1.IsWhole → (a2 : Memref sig .tc .vmem S512x512 .f32) → a2.IsWhole → (a3 : Memref sig .tc .hbm S2x128x256x64 .f32) → a3.IsWhole → (a4 : Memref sig .tc .hbm S2x128x256x64 .f32) → a4.IsWhole → (a5 : Memref sig .tc .vmem S2x128x512 .f32) → a5.IsWhole → (a6 : Memref sig .tc .vmem S256x512 .f32) → a6.IsWhole → (a7 : Memref sig .tc .vmem S248x512 .f32) → a7.IsWhole → (a8 : Memref sig .tc .vmem S2x128x8x64 .f32) → a8.IsWhole → (a9 : Memref sig .tc .vmem S2x128x8x64 .f32) → a9.IsWhole → DmaSems sig S2 → DmaSems sig S5 → DmaSems sig S5 → DmaSems sig S5 → DmaSems sig S5 → α) : α :=
  k (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8

abbrev accM : Memref sig .tc .vmem S256x512 .f32 := Memref.whole cc0_scratch0
abbrev rcvM : Memref sig .tc .vmem S248x512 .f32 := Memref.whole cc0_scratch1
abbrev Acc : Type := (cc0_scratch0 : Ref sig .tc).ty.Contents (Elt F)

abbrev snd0 (c : Dev nD) : Memref sig .tc .vmem S128x512 .f32 := accM.slice (Rect.unit (s := S256x512) (k0_off2 c) S128x512.size (k0_off2_inb c)) (fun _ => rfl)
abbrev kpR0 (c : Dev nD) : Rect S256x512 := Rect.unit (s := S256x512) (k0_off3 c) S128x512.size (k0_off3_inb c)
abbrev rcR0 : Rect S248x512 := Rect.unit (s := S248x512) ![0, 0] S128x512.size inb_S248x512_S128x512_0_0
abbrev rcv0 : Memref sig .tc .vmem S128x512 .f32 := rcvM.slice rcR0 (fun _ => rfl)

abbrev snd1 (c : Dev nD) : Memref sig .tc .vmem S64x512 .f32 := accM.slice (Rect.unit (s := S256x512) (k0_off4 c) S64x512.size (k0_off4_inb c)) (fun _ => rfl)
abbrev kpR1 (c : Dev nD) : Rect S256x512 := Rect.unit (s := S256x512) (k0_off5 c) S64x512.size (k0_off5_inb c)
abbrev rcR1 : Rect S248x512 := Rect.unit (s := S248x512) ![128, 0] S64x512.size inb_S248x512_S64x512_128_0
abbrev rcv1 : Memref sig .tc .vmem S64x512 .f32 := rcvM.slice rcR1 (fun _ => rfl)

abbrev snd2 (c : Dev nD) : Memref sig .tc .vmem S32x512 .f32 := accM.slice (Rect.unit (s := S256x512) (k0_off6 c) S32x512.size (k0_off6_inb c)) (fun _ => rfl)
abbrev kpR2 (c : Dev nD) : Rect S256x512 := Rect.unit (s := S256x512) (k0_off7 c) S32x512.size (k0_off7_inb c)
abbrev rcR2 : Rect S248x512 := Rect.unit (s := S248x512) ![192, 0] S32x512.size inb_S248x512_S32x512_192_0
abbrev rcv2 : Memref sig .tc .vmem S32x512 .f32 := rcvM.slice rcR2 (fun _ => rfl)

abbrev snd3 (c : Dev nD) : Memref sig .tc .vmem S16x512 .f32 := accM.slice (Rect.unit (s := S256x512) (k0_off8 c) S16x512.size (k0_off8_inb c)) (fun _ => rfl)
abbrev kpR3 (c : Dev nD) : Rect S256x512 := Rect.unit (s := S256x512) (k0_off9 c) S16x512.size (k0_off9_inb c)
abbrev rcR3 : Rect S248x512 := Rect.unit (s := S248x512) ![224, 0] S16x512.size inb_S248x512_S16x512_224_0
abbrev rcv3 : Memref sig .tc .vmem S16x512 .f32 := rcvM.slice rcR3 (fun _ => rfl)

abbrev snd4 (c : Dev nD) : Memref sig .tc .vmem S8x512 .f32 := accM.slice (Rect.unit (s := S256x512) (k0_off10 c) S8x512.size (k0_off10_inb c)) (fun _ => rfl)
abbrev kpR4 (c : Dev nD) : Rect S256x512 := Rect.unit (s := S256x512) (k0_off11 c) S8x512.size (k0_off11_inb c)
abbrev rcR4 : Rect S248x512 := Rect.unit (s := S248x512) ![240, 0] S8x512.size inb_S248x512_S8x512_240_0
abbrev rcv4 : Memref sig .tc .vmem S8x512 .f32 := rcvM.slice rcR4 (fun _ => rfl)

abbrev ag0 (c : Dev nD) : Memref sig .tc .vmem S8x512 .f32 := accM.slice (Rect.unit (s := S256x512) (k0_off12 c) S8x512.size (k0_off12_inb c)) (fun _ => rfl)

abbrev ag1 (c : Dev nD) : Memref sig .tc .vmem S16x512 .f32 := accM.slice (Rect.unit (s := S256x512) (k0_off13 c) S16x512.size (k0_off13_inb c)) (fun _ => rfl)

abbrev ag2 (c : Dev nD) : Memref sig .tc .vmem S32x512 .f32 := accM.slice (Rect.unit (s := S256x512) (k0_off14 c) S32x512.size (k0_off14_inb c)) (fun _ => rfl)

abbrev ag3 (c : Dev nD) : Memref sig .tc .vmem S64x512 .f32 := accM.slice (Rect.unit (s := S256x512) (k0_off15 c) S64x512.size (k0_off15_inb c)) (fun _ => rfl)

abbrev ag4 (c : Dev nD) : Memref sig .tc .vmem S128x512 .f32 := accM.slice (Rect.unit (s := S256x512) (k0_off16 c) S128x512.size (k0_off16_inb c)) (fun _ => rfl)

variable (A0 : Dev nD → (cc0_scratch0 : Ref sig .tc).ty.Contents (Elt F))

def A1 (c : Dev nD) : (cc0_scratch0 : Ref sig .tc).ty.Contents (Elt F) :=
  (accM.access (kpR0 c) : View sig .tc _ _ _).write (Elt F) (A0 c)
    (k0_pay37 (accM.view.readAt (Elt F) (kpR0 c).toLoadRect (A0 c))
      ((snd0 (nb 4 c)).view.read (Elt F) (A0 (nb 4 c)))) Finset.univ
def A2 (c : Dev nD) : (cc0_scratch0 : Ref sig .tc).ty.Contents (Elt F) :=
  (accM.access (kpR1 c) : View sig .tc _ _ _).write (Elt F) (A1 A0 c)
    (k0_pay38 (accM.view.readAt (Elt F) (kpR1 c).toLoadRect (A1 A0 c))
      ((snd1 (nb 3 c)).view.read (Elt F) (A1 A0 (nb 3 c)))) Finset.univ
def A3 (c : Dev nD) : (cc0_scratch0 : Ref sig .tc).ty.Contents (Elt F) :=
  (accM.access (kpR2 c) : View sig .tc _ _ _).write (Elt F) (A2 A0 c)
    (k0_pay39 (accM.view.readAt (Elt F) (kpR2 c).toLoadRect (A2 A0 c))
      ((snd2 (nb 2 c)).view.read (Elt F) (A2 A0 (nb 2 c)))) Finset.univ
def A4 (c : Dev nD) : (cc0_scratch0 : Ref sig .tc).ty.Contents (Elt F) :=
  (accM.access (kpR3 c) : View sig .tc _ _ _).write (Elt F) (A3 A0 c)
    (k0_pay40 (accM.view.readAt (Elt F) (kpR3 c).toLoadRect (A3 A0 c))
      ((snd3 (nb 1 c)).view.read (Elt F) (A3 A0 (nb 1 c)))) Finset.univ
def A5 (c : Dev nD) : (cc0_scratch0 : Ref sig .tc).ty.Contents (Elt F) :=
  (accM.access (kpR4 c) : View sig .tc _ _ _).write (Elt F) (A4 A0 c)
    (k0_pay41 (accM.view.readAt (Elt F) (kpR4 c).toLoadRect (A4 A0 c))
      ((snd4 (nb 0 c)).view.read (Elt F) (A4 A0 (nb 0 c)))) Finset.univ
abbrev G0 (c : Dev nD) : (cc0_scratch0 : Ref sig .tc).ty.Contents (Elt F) := A5 A0 c
def G1 (c : Dev nD) : (cc0_scratch0 : Ref sig .tc).ty.Contents (Elt F) :=
  (ag0 (nb 0 c)).view.write (Elt F) (G0 A0 c) ((ag0 (nb 0 c)).view.read (Elt F) (G0 A0 (nb 0 c))) Finset.univ
def G2 (c : Dev nD) : (cc0_scratch0 : Ref sig .tc).ty.Contents (Elt F) :=
  (ag1 (nb 1 c)).view.write (Elt F) (G1 A0 c) ((ag1 (nb 1 c)).view.read (Elt F) (G1 A0 (nb 1 c))) Finset.univ
def G3 (c : Dev nD) : (cc0_scratch0 : Ref sig .tc).ty.Contents (Elt F) :=
  (ag2 (nb 2 c)).view.write (Elt F) (G2 A0 c) ((ag2 (nb 2 c)).view.read (Elt F) (G2 A0 (nb 2 c))) Finset.univ
def G4 (c : Dev nD) : (cc0_scratch0 : Ref sig .tc).ty.Contents (Elt F) :=
  (ag3 (nb 3 c)).view.write (Elt F) (G3 A0 c) ((ag3 (nb 3 c)).view.read (Elt F) (G3 A0 (nb 3 c))) Finset.univ
def G5 (c : Dev nD) : (cc0_scratch0 : Ref sig .tc).ty.Contents (Elt F) :=
  (ag4 (nb 4 c)).view.write (Elt F) (G4 A0 c) ((ag4 (nb 4 c)).view.read (Elt F) (G4 A0 (nb 4 c))) Finset.univ

def outV (c : Dev nD) : (cc0_stg3_0 : Ref sig .tc).ty.Contents (Elt F) := k0_pay1 (G5 A0 c)

abbrev barS : Sem sig := (SemArray.scalar (sig.barrier 0 rfl) : Sems sig S_).sem
abbrev rsS0 : DmaSem sig := ((cc0_scratch5.slice (Rect.unit (s := S5) ![0] S1.size inb_S5_S1_0)).squeeze S_ squeezes_S1_S_).sem
abbrev rsS1 : DmaSem sig := ((cc0_scratch5.slice (Rect.unit (s := S5) ![1] S1.size inb_S5_S1_1)).squeeze S_ squeezes_S1_S_).sem
abbrev rsS2 : DmaSem sig := ((cc0_scratch5.slice (Rect.unit (s := S5) ![2] S1.size inb_S5_S1_2)).squeeze S_ squeezes_S1_S_).sem
abbrev rsS3 : DmaSem sig := ((cc0_scratch5.slice (Rect.unit (s := S5) ![3] S1.size inb_S5_S1_3)).squeeze S_ squeezes_S1_S_).sem
abbrev rsS4 : DmaSem sig := ((cc0_scratch5.slice (Rect.unit (s := S5) ![4] S1.size inb_S5_S1_4)).squeeze S_ squeezes_S1_S_).sem
abbrev rsR0 : DmaSem sig := ((cc0_scratch6.slice (Rect.unit (s := S5) ![0] S1.size inb_S5_S1_0)).squeeze S_ squeezes_S1_S_).sem
abbrev rsR1 : DmaSem sig := ((cc0_scratch6.slice (Rect.unit (s := S5) ![1] S1.size inb_S5_S1_1)).squeeze S_ squeezes_S1_S_).sem
abbrev rsR2 : DmaSem sig := ((cc0_scratch6.slice (Rect.unit (s := S5) ![2] S1.size inb_S5_S1_2)).squeeze S_ squeezes_S1_S_).sem
abbrev rsR3 : DmaSem sig := ((cc0_scratch6.slice (Rect.unit (s := S5) ![3] S1.size inb_S5_S1_3)).squeeze S_ squeezes_S1_S_).sem
abbrev rsR4 : DmaSem sig := ((cc0_scratch6.slice (Rect.unit (s := S5) ![4] S1.size inb_S5_S1_4)).squeeze S_ squeezes_S1_S_).sem
abbrev agS0 : DmaSem sig := ((cc0_scratch7.slice (Rect.unit (s := S5) ![0] S1.size inb_S5_S1_0)).squeeze S_ squeezes_S1_S_).sem
abbrev agS1 : DmaSem sig := ((cc0_scratch7.slice (Rect.unit (s := S5) ![1] S1.size inb_S5_S1_1)).squeeze S_ squeezes_S1_S_).sem
abbrev agS2 : DmaSem sig := ((cc0_scratch7.slice (Rect.unit (s := S5) ![2] S1.size inb_S5_S1_2)).squeeze S_ squeezes_S1_S_).sem
abbrev agS3 : DmaSem sig := ((cc0_scratch7.slice (Rect.unit (s := S5) ![3] S1.size inb_S5_S1_3)).squeeze S_ squeezes_S1_S_).sem
abbrev agS4 : DmaSem sig := ((cc0_scratch7.slice (Rect.unit (s := S5) ![4] S1.size inb_S5_S1_4)).squeeze S_ squeezes_S1_S_).sem
abbrev agR0 : DmaSem sig := ((cc0_scratch8.slice (Rect.unit (s := S5) ![0] S1.size inb_S5_S1_0)).squeeze S_ squeezes_S1_S_).sem
abbrev agR1 : DmaSem sig := ((cc0_scratch8.slice (Rect.unit (s := S5) ![1] S1.size inb_S5_S1_1)).squeeze S_ squeezes_S1_S_).sem
abbrev agR2 : DmaSem sig := ((cc0_scratch8.slice (Rect.unit (s := S5) ![2] S1.size inb_S5_S1_2)).squeeze S_ squeezes_S1_S_).sem
abbrev agR3 : DmaSem sig := ((cc0_scratch8.slice (Rect.unit (s := S5) ![3] S1.size inb_S5_S1_3)).squeeze S_ squeezes_S1_S_).sem
abbrev agR4 : DmaSem sig := ((cc0_scratch8.slice (Rect.unit (s := S5) ![4] S1.size inb_S5_S1_4)).squeeze S_ squeezes_S1_S_).sem

abbrev cell (c : Dev nD) (s : SemLoc sig) : GSem nD τ sig := ((c : Thread nD τ), s)

def slot : SemLoc sig → ℕ
  | .reg _ => 0
  | .dma n => n.val + 1

abbrev NR0 : ℕ := rcv0.view.dmaCredit
abbrev NR1 : ℕ := rcv1.view.dmaCredit
abbrev NR2 : ℕ := rcv2.view.dmaCredit
abbrev NR3 : ℕ := rcv3.view.dmaCredit
abbrev NR4 : ℕ := rcv4.view.dmaCredit
abbrev NG0 : ℕ := (ag0 (0 : Dev nD)).view.dmaCredit
abbrev NG1 : ℕ := (ag1 (0 : Dev nD)).view.dmaCredit
abbrev NG2 : ℕ := (ag2 (0 : Dev nD)).view.dmaCredit
abbrev NG3 : ℕ := (ag3 (0 : Dev nD)).view.dmaCredit
abbrev NG4 : ℕ := (ag4 (0 : Dev nD)).view.dmaCredit

def amt : ℕ → ℕ
  | 7 => NR0
  | 8 => NR1
  | 9 => NR2
  | 10 => NR3
  | 11 => NR4
  | 12 => NR0
  | 13 => NR1
  | 14 => NR2
  | 15 => NR3
  | 16 => NR4
  | 17 => NG0
  | 18 => NG1
  | 19 => NG2
  | 20 => NG3
  | 21 => NG4
  | 22 => NG0
  | 23 => NG1
  | 24 => NG2
  | 25 => NG3
  | 26 => NG4
  | _ => 1

theorem amt_pos (s : ℕ) : 0 < amt s := by
  unfold amt
  split <;> first | exact Nat.one_pos | exact View.dmaCredit_pos _ (by decide)

def barPay (c : Dev nD) : Fin 5 → sProp 𝕄
  | 0 => iprop(∃ q : Dev nD, ⌜q = nb 0 c⌝ ∗ ∃ f : Buf (Elt F) (rcv4.view.loc (q : Thread nD τ)), rcv4.view.loc (q : Thread nD τ) ↦[rcv4.view.set]{fullShare} f)
  | 1 => iprop(∃ q : Dev nD, ⌜q = nb 1 c⌝ ∗ ∃ f : Buf (Elt F) (rcv3.view.loc (q : Thread nD τ)), rcv3.view.loc (q : Thread nD τ) ↦[rcv3.view.set]{fullShare} f)
  | 2 => iprop(∃ q : Dev nD, ⌜q = nb 2 c⌝ ∗ ∃ f : Buf (Elt F) (rcv2.view.loc (q : Thread nD τ)), rcv2.view.loc (q : Thread nD τ) ↦[rcv2.view.set]{fullShare} f)
  | 3 => iprop(∃ q : Dev nD, ⌜q = nb 3 c⌝ ∗ ∃ f : Buf (Elt F) (rcv1.view.loc (q : Thread nD τ)), rcv1.view.loc (q : Thread nD τ) ↦[rcv1.view.set]{fullShare} f)
  | 4 => iprop(∃ q : Dev nD, ⌜q = nb 4 c⌝ ∗ ∃ f : Buf (Elt F) (rcv0.view.loc (q : Thread nD τ)), rcv0.view.loc (q : Thread nD τ) ↦[rcv0.view.set]{fullShare} f)

def rsPay0 (c : Dev nD) : sProp 𝕄 :=
  iprop(∃ q : Dev nD, ⌜q = nb 4 c⌝ ∗ ∃ fd : Buf (Elt F) (rcv0.view.loc (c : Thread nD τ)),
    (rcv0.view.loc (c : Thread nD τ) ↦[rcv0.view.set]{fullShare}
        rcv0.view.write (Elt F) fd ((snd0 q).view.read (Elt F) (A0 q)) Finset.univ)
      ∗ ((snd0 q).view.loc (q : Thread nD τ) ↦[(snd0 q).view.set]{fullShare} A0 q))

def rsPay1 (c : Dev nD) : sProp 𝕄 :=
  iprop(∃ q : Dev nD, ⌜q = nb 3 c⌝ ∗ ∃ fd : Buf (Elt F) (rcv1.view.loc (c : Thread nD τ)),
    (rcv1.view.loc (c : Thread nD τ) ↦[rcv1.view.set]{fullShare}
        rcv1.view.write (Elt F) fd ((snd1 q).view.read (Elt F) (A1 A0 q)) Finset.univ)
      ∗ ((snd1 q).view.loc (q : Thread nD τ) ↦[(snd1 q).view.set]{fullShare} A1 A0 q))

def rsPay2 (c : Dev nD) : sProp 𝕄 :=
  iprop(∃ q : Dev nD, ⌜q = nb 2 c⌝ ∗ ∃ fd : Buf (Elt F) (rcv2.view.loc (c : Thread nD τ)),
    (rcv2.view.loc (c : Thread nD τ) ↦[rcv2.view.set]{fullShare}
        rcv2.view.write (Elt F) fd ((snd2 q).view.read (Elt F) (A2 A0 q)) Finset.univ)
      ∗ ((snd2 q).view.loc (q : Thread nD τ) ↦[(snd2 q).view.set]{fullShare} A2 A0 q))

def rsPay3 (c : Dev nD) : sProp 𝕄 :=
  iprop(∃ q : Dev nD, ⌜q = nb 1 c⌝ ∗ ∃ fd : Buf (Elt F) (rcv3.view.loc (c : Thread nD τ)),
    (rcv3.view.loc (c : Thread nD τ) ↦[rcv3.view.set]{fullShare}
        rcv3.view.write (Elt F) fd ((snd3 q).view.read (Elt F) (A3 A0 q)) Finset.univ)
      ∗ ((snd3 q).view.loc (q : Thread nD τ) ↦[(snd3 q).view.set]{fullShare} A3 A0 q))

def rsPay4 (c : Dev nD) : sProp 𝕄 :=
  iprop(∃ q : Dev nD, ⌜q = nb 0 c⌝ ∗ ∃ fd : Buf (Elt F) (rcv4.view.loc (c : Thread nD τ)),
    (rcv4.view.loc (c : Thread nD τ) ↦[rcv4.view.set]{fullShare}
        rcv4.view.write (Elt F) fd ((snd4 q).view.read (Elt F) (A4 A0 q)) Finset.univ)
      ∗ ((snd4 q).view.loc (q : Thread nD τ) ↦[(snd4 q).view.set]{fullShare} A4 A0 q))

def agSPay0 (c : Dev nD) : sProp 𝕄 :=
  (ag0 c).view.loc (c : Thread nD τ) ↦[(ag0 c).view.set]{fullShare} G0 A0 c
def agRPay0 (c : Dev nD) : sProp 𝕄 :=
  iprop(∃ q : Dev nD, ⌜q = nb 0 c⌝ ∗ ((ag0 q).view.loc (c : Thread nD τ) ↦[(ag0 q).view.set]{fullShare}
    (ag0 q).view.write (Elt F) (A4 A0 c) ((ag0 q).view.read (Elt F) (G0 A0 q)) Finset.univ))

def agSPay1 (c : Dev nD) : sProp 𝕄 :=
  (ag1 c).view.loc (c : Thread nD τ) ↦[(ag1 c).view.set]{fullShare} G1 A0 c
def agRPay1 (c : Dev nD) : sProp 𝕄 :=
  iprop(∃ q : Dev nD, ⌜q = nb 1 c⌝ ∗ ((ag1 q).view.loc (c : Thread nD τ) ↦[(ag1 q).view.set]{fullShare}
    (ag1 q).view.write (Elt F) (A3 A0 c) ((ag1 q).view.read (Elt F) (G1 A0 q)) Finset.univ))

def agSPay2 (c : Dev nD) : sProp 𝕄 :=
  (ag2 c).view.loc (c : Thread nD τ) ↦[(ag2 c).view.set]{fullShare} G2 A0 c
def agRPay2 (c : Dev nD) : sProp 𝕄 :=
  iprop(∃ q : Dev nD, ⌜q = nb 2 c⌝ ∗ ((ag2 q).view.loc (c : Thread nD τ) ↦[(ag2 q).view.set]{fullShare}
    (ag2 q).view.write (Elt F) (A2 A0 c) ((ag2 q).view.read (Elt F) (G2 A0 q)) Finset.univ))

def agSPay3 (c : Dev nD) : sProp 𝕄 :=
  (ag3 c).view.loc (c : Thread nD τ) ↦[(ag3 c).view.set]{fullShare} G3 A0 c
def agRPay3 (c : Dev nD) : sProp 𝕄 :=
  iprop(∃ q : Dev nD, ⌜q = nb 3 c⌝ ∗ ((ag3 q).view.loc (c : Thread nD τ) ↦[(ag3 q).view.set]{fullShare}
    (ag3 q).view.write (Elt F) (A1 A0 c) ((ag3 q).view.read (Elt F) (G3 A0 q)) Finset.univ))

def agSPay4 (c : Dev nD) : sProp 𝕄 :=
  (ag4 c).view.loc (c : Thread nD τ) ↦[(ag4 c).view.set]{fullShare} G4 A0 c
def agRPay4 (c : Dev nD) : sProp 𝕄 :=
  iprop(∃ q : Dev nD, ⌜q = nb 4 c⌝ ∗ ((ag4 q).view.loc (c : Thread nD τ) ↦[(ag4 q).view.set]{fullShare}
    (ag4 q).view.write (Elt F) (A0 c) ((ag4 q).view.read (Elt F) (G4 A0 q)) Finset.univ))

def pay (c : Dev nD) : ℕ → Fin 5 → sProp 𝕄
  | 0, d => barPay c d
  | 12, _ => rsPay0 A0 c
  | 13, _ => rsPay1 A0 c
  | 14, _ => rsPay2 A0 c
  | 15, _ => rsPay3 A0 c
  | 16, _ => rsPay4 A0 c
  | 17, _ => agSPay0 A0 c
  | 18, _ => agSPay1 A0 c
  | 19, _ => agSPay2 A0 c
  | 20, _ => agSPay3 A0 c
  | 21, _ => agSPay4 A0 c
  | 22, _ => agRPay0 A0 c
  | 23, _ => agRPay1 A0 c
  | 24, _ => agRPay2 A0 c
  | 25, _ => agRPay3 A0 c
  | 26, _ => agRPay4 A0 c
  | _, _ => iprop(emp)

def Rd : Rounds.Schedule (GSem nD τ sig) (Fin 5) 𝕄 where
  duties g r := if r = 0 ∧ g.1.2 = .tc then (if slot g.2 = 0 then Finset.univ else if 7 ≤ slot g.2 then {0} else ∅) else ∅
  amount g _ _ := amt (slot g.2)
  payload g _ d := pay A0 g.1.1 (slot g.2) d
  amount_pos g _ _ _ := amt_pos _
  unitless _ := False

instance Rd_payload_storable (g : GSem nD τ sig) (r : ℕ) (d : Fin 5) :
    BI.Storable (upEmb : UEmb _ 𝕄) ((Rd (F := F) A0).payload g r d) := by
  show BI.Storable upEmb (pay A0 g.1.1 (slot g.2) d)
  unfold pay
  split <;> first
    | infer_instance
    | (unfold barPay; split <;> infer_instance)
    | (unfold rsPay0; infer_instance) | (unfold rsPay1; infer_instance) | (unfold rsPay2; infer_instance) | (unfold rsPay3; infer_instance) | (unfold rsPay4; infer_instance)
    | (unfold agSPay0; infer_instance) | (unfold agSPay1; infer_instance) | (unfold agSPay2; infer_instance) | (unfold agSPay3; infer_instance) | (unfold agSPay4; infer_instance)
    | (unfold agRPay0; infer_instance) | (unfold agRPay1; infer_instance) | (unfold agRPay2; infer_instance) | (unfold agRPay3; infer_instance) | (unfold agRPay4; infer_instance)

theorem slot_bar : slot (.reg barS : SemLoc sig) = 0 := rfl
theorem slot_rsS0 : slot (.dma rsS0 : SemLoc sig) = 7 := by decide
theorem slot_rsS1 : slot (.dma rsS1 : SemLoc sig) = 8 := by decide
theorem slot_rsS2 : slot (.dma rsS2 : SemLoc sig) = 9 := by decide
theorem slot_rsS3 : slot (.dma rsS3 : SemLoc sig) = 10 := by decide
theorem slot_rsS4 : slot (.dma rsS4 : SemLoc sig) = 11 := by decide
theorem slot_rsR0 : slot (.dma rsR0 : SemLoc sig) = 12 := by decide
theorem slot_rsR1 : slot (.dma rsR1 : SemLoc sig) = 13 := by decide
theorem slot_rsR2 : slot (.dma rsR2 : SemLoc sig) = 14 := by decide
theorem slot_rsR3 : slot (.dma rsR3 : SemLoc sig) = 15 := by decide
theorem slot_rsR4 : slot (.dma rsR4 : SemLoc sig) = 16 := by decide
theorem slot_agS0 : slot (.dma agS0 : SemLoc sig) = 17 := by decide
theorem slot_agS1 : slot (.dma agS1 : SemLoc sig) = 18 := by decide
theorem slot_agS2 : slot (.dma agS2 : SemLoc sig) = 19 := by decide
theorem slot_agS3 : slot (.dma agS3 : SemLoc sig) = 20 := by decide
theorem slot_agS4 : slot (.dma agS4 : SemLoc sig) = 21 := by decide
theorem slot_agR0 : slot (.dma agR0 : SemLoc sig) = 22 := by decide
theorem slot_agR1 : slot (.dma agR1 : SemLoc sig) = 23 := by decide
theorem slot_agR2 : slot (.dma agR2 : SemLoc sig) = 24 := by decide
theorem slot_agR3 : slot (.dma agR3 : SemLoc sig) = 25 := by decide
theorem slot_agR4 : slot (.dma agR4 : SemLoc sig) = 26 := by decide

section Tables
variable (c : Dev nD)

theorem duties_bar : (Rd (F := F) A0).duties (cell c (.reg barS)) 0 = Finset.univ := by
  dsimp only [Rd]; rw [if_pos ⟨rfl, rfl⟩, if_pos slot_bar]
theorem duties_dma (s : DmaSem sig) (h : 7 ≤ slot (.dma s : SemLoc sig)) : (Rd (F := F) A0).duties (cell c (.dma s)) 0 = {0} := by
  dsimp only [Rd]; rw [if_pos ⟨rfl, rfl⟩, if_neg (by omega), if_pos h]
theorem duties_later (g : GSem nD τ sig) : ∀ r, 1 ≤ r → (Rd (F := F) A0).duties g r = ∅ :=
  fun r hr => by dsimp only [Rd]; rw [if_neg fun h => by omega]
theorem amount_eq (s : SemLoc sig) (r : ℕ) (d : Fin 5) : (Rd (F := F) A0).amount (cell c s) r d = amt (slot s) := rfl
theorem payload_eq (s : SemLoc sig) (r : ℕ) (d : Fin 5) : (Rd (F := F) A0).payload (cell c s) r d = pay A0 c (slot s) d := rfl

theorem expect_bar : (Rd (F := F) A0).expect (cell c (.reg barS)) 0 = 5 := by
  unfold Schedule.expect Schedule.amountOf
  rw [duties_bar, Finset.sum_congr rfl fun d _ => amount_eq A0 c (.reg barS) 0 d, Finset.sum_const, Finset.card_univ, Fintype.card_fin, smul_eq_mul]
  rfl
theorem expect_dma (s : DmaSem sig) (h : 7 ≤ slot (.dma s : SemLoc sig)) : (Rd (F := F) A0).expect (cell c (.dma s)) 0 = amt (slot (.dma s : SemLoc sig)) := by
  unfold Schedule.expect Schedule.amountOf; rw [duties_dma A0 c s h, Finset.sum_singleton, amount_eq]

theorem rest_dma (s : DmaSem sig) (h : 7 ≤ slot (.dma s : SemLoc sig)) :
    bigSep ((Rd (F := F) A0).duties (cell c (.dma s)) 0 \ ∅) (fun d => (Rd (F := F) A0).payload (cell c (.dma s)) 0 d) = pay A0 c (slot (.dma s : SemLoc sig)) 0 := by
  rw [Finset.sdiff_empty, duties_dma A0 c s h, bigSep_singleton, payload_eq]

theorem rest_bar :
    bigSep ((Rd (F := F) A0).duties (cell c (.reg barS)) 0 \ ∅) (fun d => (Rd (F := F) A0).payload (cell c (.reg barS)) 0 d)
      = iprop(barPay (F := F) c 0 ∗ barPay (F := F) c 1 ∗ barPay (F := F) c 2 ∗ barPay (F := F) c 3 ∗ barPay (F := F) c 4) := by
  rw [Finset.sdiff_empty, duties_bar, bigSep_univ_eq_bigSepL [(0 : Fin 5), 1, 2, 3, 4] (by decide) (by decide)]
  rfl

end Tables

def Ow15 (c : Dev nD) : CellTallies nD τ sig Unit := 0
def Ow14 (c : Dev nD) : CellTallies nD τ sig Unit := Ow15 c + tallyAt (cell (nb 4 c) (.dma agR4)) () NG4
def Ow13 (c : Dev nD) : CellTallies nD τ sig Unit := Ow14 c + tallyAt (cell (nb 3 c) (.dma agR3)) () NG3
def Ow12 (c : Dev nD) : CellTallies nD τ sig Unit := Ow13 c + tallyAt (cell (nb 2 c) (.dma agR2)) () NG2
def Ow11 (c : Dev nD) : CellTallies nD τ sig Unit := Ow12 c + tallyAt (cell (nb 1 c) (.dma agR1)) () NG1
def Ow10 (c : Dev nD) : CellTallies nD τ sig Unit := Ow11 c + tallyAt (cell (nb 0 c) (.dma agR0)) () NG0
def Ow9 (c : Dev nD) : CellTallies nD τ sig Unit := Ow10 c + tallyAt (cell (nb 0 c) (.dma rsR4)) () NR4
def Ow8 (c : Dev nD) : CellTallies nD τ sig Unit := Ow9 c + tallyAt (cell (nb 1 c) (.dma rsR3)) () NR3
def Ow7 (c : Dev nD) : CellTallies nD τ sig Unit := Ow8 c + tallyAt (cell (nb 2 c) (.dma rsR2)) () NR2
def Ow6 (c : Dev nD) : CellTallies nD τ sig Unit := Ow7 c + tallyAt (cell (nb 3 c) (.dma rsR1)) () NR1
def Ow5 (c : Dev nD) : CellTallies nD τ sig Unit := Ow6 c + tallyAt (cell (nb 4 c) (.dma rsR0)) () NR0
def Ow4 (c : Dev nD) : CellTallies nD τ sig Unit := Ow5 c + tallyAt (cell (nb 4 c) (.reg barS)) () 1
def Ow3 (c : Dev nD) : CellTallies nD τ sig Unit := Ow4 c + tallyAt (cell (nb 3 c) (.reg barS)) () 1
def Ow2 (c : Dev nD) : CellTallies nD τ sig Unit := Ow3 c + tallyAt (cell (nb 2 c) (.reg barS)) () 1
def Ow1 (c : Dev nD) : CellTallies nD τ sig Unit := Ow2 c + tallyAt (cell (nb 1 c) (.reg barS)) () 1
def Ow0 (c : Dev nD) : CellTallies nD τ sig Unit := Ow1 c + tallyAt (cell (nb 0 c) (.reg barS)) () 1

def L (g : GSem nD τ sig) : Finset Unit := if g.1.2 = .tc then {()} else ∅

def lvS : ℕ → ℕ
  | 0 => 1
  | 12 => 2
  | 13 => 3
  | 14 => 4
  | 15 => 5
  | 16 => 6
  | 22 => 7
  | 23 => 8
  | 24 => 9
  | 25 => 10
  | 26 => 11
  | _ => 0
def lv (g : GSem nD τ sig) (_ : Unit) : ℕ := lvS (slot g.2)

theorem L_of_ne (g : GSem nD τ sig) (h : g.1.2 ≠ .tc) : L g = ∅ := if_neg h
theorem L_tc (c : Dev nD) (sm : SemLoc sig) : L ((c : Thread nD τ), sm) = {()} := if_pos rfl

theorem mayWait_of (c : Dev nD) (s : SemLoc sig) (O : CellTallies nD τ sig Unit)
    (hO : ∀ (g : GSem nD τ sig) (u : Unit), 0 < O g u → g.1.2 = .tc ∧ lvS (slot s) < lvS (slot g.2)) :
    (levAts L lv : sProp 𝕄) ⊢ MayWait (c : Thread nD τ) s () O :=
  MayOwe.of_cut (L := L) (lev := lv) (lvS (slot s))
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_refl _)
    (fun g u hg => (hO g u hg).2)

end Cert.Kernel.Hyper

end
-- ==== Proof.K.A0Def.lean ====
import proofs.«900512_g7700000000000513_dist_attn_cross_mha_kvrep_htp_b2_sq128_skv128_d512_hq8_dh64_v7x_i32_f32_1_alg».proof.Proof.Gen.Kernel.Skeleton

noncomputable section

namespace Cert.Kernel.Comp

open Cert.Kernel Cert.Kernel.Gen

open Idealize.ShloMosaic Idealize.SL.Sem

variable {F : FTy → Type} [FloatOps F]

abbrev ldK (kc : Vec F S2x128x8x64 .f32) (r : Rect S2x128x8x64) :=
  (Memref.whole cc0_scratch2 : Memref sig .tc .vmem S2x128x8x64 .f32).view.readAt (Elt F) r.toLoadRect kc

abbrev ldV (vc : Vec F S2x128x8x64 .f32) (r : Rect S2x128x8x64) :=
  (Memref.whole cc0_scratch3 : Memref sig .tc .vmem S2x128x8x64 .f32).view.readAt (Elt F) r.toLoadRect vc

section
variable (x : Vec F S2x128x512 .f32) (wq : Vec F S512x512 .f32) (kc vc : Vec F S2x128x8x64 .f32)

def qVal : FVec F S256x512 .f32 := k0_pay2 x wq

def o00 : FVec F S128x64 .f32 :=
  k0_pay6
    (k0_pay3 (ldV vc (Rect.unit (s := S2x128x8x64) ![0, 0, 0, 0] S1x128x1x64.size inb_S2x128x8x64_S1x128x1x64_0_0_0_0)))
    (k0_pay4 x wq (ldK kc (Rect.unit (s := S2x128x8x64) ![0, 0, 0, 0] S1x128x1x64.size inb_S2x128x8x64_S1x128x1x64_0_0_0_0)))
    (k0_pay5 x wq (ldK kc (Rect.unit (s := S2x128x8x64) ![0, 0, 0, 0] S1x128x1x64.size inb_S2x128x8x64_S1x128x1x64_0_0_0_0)))

def o01 : FVec F S128x64 .f32 :=
  k0_pay7 (qVal x wq)
    (ldK kc (Rect.unit (s := S2x128x8x64) ![0, 0, 1, 0] S1x128x1x64.size inb_S2x128x8x64_S1x128x1x64_0_0_1_0))
    (ldV vc (Rect.unit (s := S2x128x8x64) ![0, 0, 1, 0] S1x128x1x64.size inb_S2x128x8x64_S1x128x1x64_0_0_1_0))

def o02 : FVec F S128x64 .f32 :=
  k0_pay11
    (k0_pay8 (ldV vc (Rect.unit (s := S2x128x8x64) ![0, 0, 2, 0] S1x128x1x64.size inb_S2x128x8x64_S1x128x1x64_0_0_2_0)))
    (k0_pay9 (qVal x wq) (ldK kc (Rect.unit (s := S2x128x8x64) ![0, 0, 2, 0] S1x128x1x64.size inb_S2x128x8x64_S1x128x1x64_0_0_2_0)))
    (k0_pay10 (qVal x wq) (ldK kc (Rect.unit (s := S2x128x8x64) ![0, 0, 2, 0] S1x128x1x64.size inb_S2x128x8x64_S1x128x1x64_0_0_2_0)))

def o03 : FVec F S128x64 .f32 :=
  k0_pay12 (qVal x wq)
    (ldK kc (Rect.unit (s := S2x128x8x64) ![0, 0, 3, 0] S1x128x1x64.size inb_S2x128x8x64_S1x128x1x64_0_0_3_0))
    (ldV vc (Rect.unit (s := S2x128x8x64) ![0, 0, 3, 0] S1x128x1x64.size inb_S2x128x8x64_S1x128x1x64_0_0_3_0))

def o04 : FVec F S128x64 .f32 :=
  k0_pay15
    (k0_pay13 (ldV vc (Rect.unit (s := S2x128x8x64) ![0, 0, 4, 0] S1x128x1x64.size inb_S2x128x8x64_S1x128x1x64_0_0_4_0)))
    (k0_pay14 (qVal x wq) (ldK kc (Rect.unit (s := S2x128x8x64) ![0, 0, 4, 0] S1x128x1x64.size inb_S2x128x8x64_S1x128x1x64_0_0_4_0)))

def o05 : FVec F S128x64 .f32 :=
  k0_pay16 (qVal x wq)
    (ldK kc (Rect.unit (s := S2x128x8x64) ![0, 0, 5, 0] S1x128x1x64.size inb_S2x128x8x64_S1x128x1x64_0_0_5_0))
    (ldV vc (Rect.unit (s := S2x128x8x64) ![0, 0, 5, 0] S1x128x1x64.size inb_S2x128x8x64_S1x128x1x64_0_0_5_0))

def att0 : FVec F S128x512 .f32 :=
  k0_pay19 (qVal x wq) (o00 x wq kc vc) (o01 x wq kc vc) (o02 x wq kc vc) (o03 x wq kc vc) (o04 x wq kc vc) (o05 x wq kc vc)
    (k0_pay17 (ldV vc (Rect.unit (s := S2x128x8x64) ![0, 0, 6, 0] S1x128x1x64.size inb_S2x128x8x64_S1x128x1x64_0_0_6_0)))
    (k0_pay18 (qVal x wq) (ldK kc (Rect.unit (s := S2x128x8x64) ![0, 0, 6, 0] S1x128x1x64.size inb_S2x128x8x64_S1x128x1x64_0_0_6_0)))
    (Scalar.ofBits .f32 0x3E000000#32)
    (ldK kc (Rect.unit (s := S2x128x8x64) ![0, 0, 7, 0] S1x128x1x64.size inb_S2x128x8x64_S1x128x1x64_0_0_7_0))
    (ldV vc (Rect.unit (s := S2x128x8x64) ![0, 0, 7, 0] S1x128x1x64.size inb_S2x128x8x64_S1x128x1x64_0_0_7_0))

def o10 : FVec F S128x64 .f32 :=
  k0_pay23 (k0_pay20 (qVal x wq))
    (k0_pay21 (ldK kc (Rect.unit (s := S2x128x8x64) ![1, 0, 0, 0] S1x128x1x64.size inb_S2x128x8x64_S1x128x1x64_1_0_0_0)))
    (k0_pay22 (ldV vc (Rect.unit (s := S2x128x8x64) ![1, 0, 0, 0] S1x128x1x64.size inb_S2x128x8x64_S1x128x1x64_1_0_0_0)))

def o11 : FVec F S128x64 .f32 :=
  k0_pay24 (qVal x wq)
    (ldK kc (Rect.unit (s := S2x128x8x64) ![1, 0, 1, 0] S1x128x1x64.size inb_S2x128x8x64_S1x128x1x64_1_0_1_0))
    (ldV vc (Rect.unit (s := S2x128x8x64) ![1, 0, 1, 0] S1x128x1x64.size inb_S2x128x8x64_S1x128x1x64_1_0_1_0))

def o12 : FVec F S128x64 .f32 :=
  k0_pay27 (k0_pay25 (qVal x wq))
    (k0_pay26 (ldK kc (Rect.unit (s := S2x128x8x64) ![1, 0, 2, 0] S1x128x1x64.size inb_S2x128x8x64_S1x128x1x64_1_0_2_0)))
    (ldV vc (Rect.unit (s := S2x128x8x64) ![1, 0, 2, 0] S1x128x1x64.size inb_S2x128x8x64_S1x128x1x64_1_0_2_0))

def o13 : FVec F S128x64 .f32 :=
  k0_pay28 (qVal x wq)
    (ldK kc (Rect.unit (s := S2x128x8x64) ![1, 0, 3, 0] S1x128x1x64.size inb_S2x128x8x64_S1x128x1x64_1_0_3_0))
    (ldV vc (Rect.unit (s := S2x128x8x64) ![1, 0, 3, 0] S1x128x1x64.size inb_S2x128x8x64_S1x128x1x64_1_0_3_0))

def o14 : FVec F S128x64 .f32 :=
  k0_pay31 (k0_pay29 (qVal x wq))
    (k0_pay30 (ldK kc (Rect.unit (s := S2x128x8x64) ![1, 0, 4, 0] S1x128x1x64.size inb_S2x128x8x64_S1x128x1x64_1_0_4_0)))
    (ldV vc (Rect.unit (s := S2x128x8x64) ![1, 0, 4, 0] S1x128x1x64.size inb_S2x128x8x64_S1x128x1x64_1_0_4_0))

def o15 : FVec F S128x64 .f32 :=
  k0_pay32 (qVal x wq)
    (ldK kc (Rect.unit (s := S2x128x8x64) ![1, 0, 5, 0] S1x128x1x64.size inb_S2x128x8x64_S1x128x1x64_1_0_5_0))
    (ldV vc (Rect.unit (s := S2x128x8x64) ![1, 0, 5, 0] S1x128x1x64.size inb_S2x128x8x64_S1x128x1x64_1_0_5_0))

def attVal : FVec F S256x512 .f32 :=
  k0_pay35 (qVal x wq) (att0 x wq kc vc) (o10 x wq kc vc) (o11 x wq kc vc) (o12 x wq kc vc) (o13 x wq kc vc) (o14 x wq kc vc)
    (o15 x wq kc vc) (k0_pay33 (qVal x wq))
    (k0_pay34 (ldK kc (Rect.unit (s := S2x128x8x64) ![1, 0, 6, 0] S1x128x1x64.size inb_S2x128x8x64_S1x128x1x64_1_0_6_0)))
    (ldV vc (Rect.unit (s := S2x128x8x64) ![1, 0, 6, 0] S1x128x1x64.size inb_S2x128x8x64_S1x128x1x64_1_0_6_0))
    (ldK kc (Rect.unit (s := S2x128x8x64) ![1, 0, 7, 0] S1x128x1x64.size inb_S2x128x8x64_S1x128x1x64_1_0_7_0))
    (ldV vc (Rect.unit (s := S2x128x8x64) ![1, 0, 7, 0] S1x128x1x64.size inb_S2x128x8x64_S1x128x1x64_1_0_7_0))

end

def acc0Val (x : Vec F S2x128x512 .f32) (wq wo : Vec F S512x512 .f32) (kc vc : Vec F S2x128x8x64 .f32) :
    FVec F S256x512 .f32 := k0_pay36 (attVal x wq kc vc) wo

end Cert.Kernel.Comp

end
-- ==== Proof.K.Proto.lean ====
import proofs.«900512_g7700000000000513_dist_attn_cross_mha_kvrep_htp_b2_sq128_skv128_d512_hq8_dh64_v7x_i32_f32_1_alg».proof.Proof.K.Cells
import proofs.«900512_g7700000000000513_dist_attn_cross_mha_kvrep_htp_b2_sq128_skv128_d512_hq8_dh64_v7x_i32_f32_1_alg».proof.Proof.K.A0Def

noncomputable section

namespace Cert.Kernel.Hyper

open Cert.Kernel Cert.Kernel.Gen Cert.Kernel.Net Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

def xv (c : Dev nD) : (cc0_stg0_0 : Ref sig .tc).ty.Contents (Elt F) := (win0_0.blk (0 : Fin 1)).view.read (Elt F) (m ((c : Thread nD τ).loc main_arg0))
def wqv (c : Dev nD) : (cc0_stg1_0 : Ref sig .tc).ty.Contents (Elt F) := (win0_1.blk (0 : Fin 1)).view.read (Elt F) (m ((c : Thread nD τ).loc main_arg1))
def wov (c : Dev nD) : (cc0_stg2_0 : Ref sig .tc).ty.Contents (Elt F) := (win0_2.blk (0 : Fin 1)).view.read (Elt F) (m ((c : Thread nD τ).loc main_arg2))

abbrev kSl (c : Dev nD) : Memref sig .tc .hbm S2x128x8x64 .f32 := (Memref.whole main_arg3 : Memref sig .tc .hbm S2x128x256x64 .f32).slice (Rect.unit (s := S2x128x256x64) (k0_off1 c) S2x128x8x64.size (k0_off1_inb c)) (fun _ => rfl)
abbrev vSl (c : Dev nD) : Memref sig .tc .hbm S2x128x8x64 .f32 := (Memref.whole main_arg4 : Memref sig .tc .hbm S2x128x256x64 .f32).slice (Rect.unit (s := S2x128x256x64) (k0_off1 c) S2x128x8x64.size (k0_off1_inb c)) (fun _ => rfl)
def kcv (c : Dev nD) : (cc0_scratch2 : Ref sig .tc).ty.Contents (Elt F) := (kSl c).view.read (Elt F) (m ((c : Thread nD τ).loc main_arg3))
def vcv (c : Dev nD) : (cc0_scratch3 : Ref sig .tc).ty.Contents (Elt F) := (vSl c).view.read (Elt F) (m ((c : Thread nD τ).loc main_arg4))

def A0m (c : Dev nD) : (cc0_scratch0 : Ref sig .tc).ty.Contents (Elt F) := Comp.acc0Val (xv m c) (wqv m c) (wov m c) (kcv m c) (vcv m c)

abbrev kvS0 : DmaSem sig := ((cc0_scratch4.slice (Rect.unit (s := S2) ![0] S1.size inb_S2_S1_0)).squeeze S_ squeezes_S1_S_).sem
abbrev kvS1 : DmaSem sig := ((cc0_scratch4.slice (Rect.unit (s := S2) ![1] S1.size inb_S2_S1_1)).squeeze S_ squeezes_S1_S_).sem

abbrev csem : Fin 21 → SemLoc sig := fun
  | 0 => .reg barS
  | 1 => .dma rsS0
  | 2 => .dma rsS1
  | 3 => .dma rsS2
  | 4 => .dma rsS3
  | 5 => .dma rsS4
  | 6 => .dma rsR0
  | 7 => .dma rsR1
  | 8 => .dma rsR2
  | 9 => .dma rsR3
  | 10 => .dma rsR4
  | 11 => .dma agS0
  | 12 => .dma agS1
  | 13 => .dma agS2
  | 14 => .dma agS3
  | 15 => .dma agS4
  | 16 => .dma agR0
  | 17 => .dma agR1
  | 18 => .dma agR2
  | 19 => .dma agR3
  | 20 => .dma agR4
  | ⟨_ + 21, h⟩ => absurd h (Nat.not_lt.2 (Nat.le_add_left _ _))
abbrev kcell (ck : Dev nD × Fin 21) : GSem nD τ sig := cell ck.1 (csem ck.2)

abbrev osem : Fin 22 → SemLoc sig := fun
  | 0 => .dma kvS0
  | 1 => .dma kvS1
  | 2 => csem 1
  | 3 => csem 2
  | 4 => csem 3
  | 5 => csem 4
  | 6 => csem 5
  | 7 => csem 6
  | 8 => csem 7
  | 9 => csem 8
  | 10 => csem 9
  | 11 => csem 10
  | 12 => csem 11
  | 13 => csem 12
  | 14 => csem 13
  | 15 => csem 14
  | 16 => csem 15
  | 17 => csem 16
  | 18 => csem 17
  | 19 => csem 18
  | 20 => csem 19
  | 21 => csem 20
  | ⟨_ + 22, h⟩ => absurd h (Nat.not_lt.2 (Nat.le_add_left _ _))

def records (K : Dev nD × Fin 21 → ℕ) : sProp 𝕄 :=
  iprop((bigSep Finset.univ fun ck : Dev nD × Fin 21 => cellInv ER (Rd (A0m m)) (K ck) (kcell ck))
    ∗ bigSep Finset.univ fun ck : Dev nD × Fin 21 => reached ER (kcell ck) 0)

instance records_persistent (K : Dev nD × Fin 21 → ℕ) : BI.Persistent (records m K) := by unfold records; infer_instance

theorem inv_at' (K : Dev nD × Fin 21 → ℕ) (ck : Dev nD × Fin 21) :
    (bigSep Finset.univ fun ck : Dev nD × Fin 21 => (cellInv ER (Rd (A0m m)) (K ck) (kcell ck) : sProp 𝕄)) ⊢ cellInv ER (Rd (A0m m)) (K ck) (kcell ck) :=
  bigSep_elim (Finset.mem_univ ck)
theorem reached_at' (ck : Dev nD × Fin 21) :
    (bigSep Finset.univ fun ck : Dev nD × Fin 21 => (reached ER (kcell ck) 0 : sProp 𝕄)) ⊢ reached ER (kcell ck) 0 :=
  bigSep_elim (Finset.mem_univ ck)
theorem inv_at (K : Dev nD × Fin 21 → ℕ) (ck : Dev nD × Fin 21) : records m K ⊢ cellInv ER (Rd (A0m m)) (K ck) (kcell ck) := by
  unfold records; iintro ⟨#HI, -⟩; iapply (inv_at' m K ck); iexact HI
theorem reached_at (K : Dev nD × Fin 21 → ℕ) (ck : Dev nD × Fin 21) : records m K ⊢ (reached ER (kcell ck) 0 : sProp 𝕄) := by
  unfold records; iintro ⟨-, #HR⟩; iapply (reached_at' (F := F) ck); iexact HR

def positions (c : Dev nD) : sProp 𝕄 := bigSep Finset.univ fun i : Fin 21 => atPos ER (kcell (c, i)) 0 ∅ 0

def payToks (c : Dev nD) : sProp 𝕄 :=
  iprop(dutyTok ER (cell (nb 0 c) (.reg barS)) 0 (0 : Fin 5) ∗ dutyTok ER (cell (nb 1 c) (.reg barS)) 0 (1 : Fin 5) ∗ dutyTok ER (cell (nb 2 c) (.reg barS)) 0 (2 : Fin 5) ∗ dutyTok ER (cell (nb 3 c) (.reg barS)) 0 (3 : Fin 5) ∗ dutyTok ER (cell (nb 4 c) (.reg barS)) 0 (4 : Fin 5)
    ∗ dutyTok ER (cell (nb 4 c) (.dma rsR0)) 0 (0 : Fin 5) ∗ dutyTok ER (cell (nb 3 c) (.dma rsR1)) 0 (0 : Fin 5) ∗ dutyTok ER (cell (nb 2 c) (.dma rsR2)) 0 (0 : Fin 5) ∗ dutyTok ER (cell (nb 1 c) (.dma rsR3)) 0 (0 : Fin 5) ∗ dutyTok ER (cell (nb 0 c) (.dma rsR4)) 0 (0 : Fin 5)
    ∗ dutyTok ER (cell (nb 0 c) (.dma agR0)) 0 (0 : Fin 5) ∗ dutyTok ER (cell (nb 1 c) (.dma agR1)) 0 (0 : Fin 5) ∗ dutyTok ER (cell (nb 2 c) (.dma agR2)) 0 (0 : Fin 5) ∗ dutyTok ER (cell (nb 3 c) (.dma agR3)) 0 (0 : Fin 5) ∗ dutyTok ER (cell (nb 4 c) (.dma agR4)) 0 (0 : Fin 5)
    ∗ dutyTok ER (cell c (.dma rsS0)) 0 (0 : Fin 5) ∗ dutyTok ER (cell c (.dma rsS1)) 0 (0 : Fin 5) ∗ dutyTok ER (cell c (.dma rsS2)) 0 (0 : Fin 5) ∗ dutyTok ER (cell c (.dma rsS3)) 0 (0 : Fin 5) ∗ dutyTok ER (cell c (.dma rsS4)) 0 (0 : Fin 5)
    ∗ dutyTok ER (cell c (.dma agS0)) 0 (0 : Fin 5) ∗ dutyTok ER (cell c (.dma agS1)) 0 (0 : Fin 5) ∗ dutyTok ER (cell c (.dma agS2)) 0 (0 : Fin 5) ∗ dutyTok ER (cell c (.dma agS3)) 0 (0 : Fin 5) ∗ dutyTok ER (cell c (.dma agS4)) 0 (0 : Fin 5))

def creds (c : Dev nD) : sProp 𝕄 :=
  iprop(cred (tallyAt (cell c (.reg barS)) () 5)
    ∗ cred (tallyAt (cell c (.dma rsR0)) () NR0) ∗ cred (tallyAt (cell c (.dma rsR1)) () NR1) ∗ cred (tallyAt (cell c (.dma rsR2)) () NR2) ∗ cred (tallyAt (cell c (.dma rsR3)) () NR3) ∗ cred (tallyAt (cell c (.dma rsR4)) () NR4)
    ∗ cred (tallyAt (cell c (.dma agR0)) () NG0) ∗ cred (tallyAt (cell c (.dma agR1)) () NG1) ∗ cred (tallyAt (cell c (.dma agR2)) () NG2) ∗ cred (tallyAt (cell c (.dma agR3)) () NG3) ∗ cred (tallyAt (cell c (.dma agR4)) () NG4))

def ghost (K : Dev nD × Fin 21 → ℕ) (c : Dev nD) : sProp 𝕄 := iprop(records m K ∗ positions (F := F) c ∗ payToks (F := F) c)

def start (c : Dev nD) : sProp 𝕄 :=
  iprop((∃ K, ghost m K c) ∗ creds (F := F) c ∗ levAts L lv
    ∗ semVal (cell c (.dma kvS0)) 0 ∗ semVal (cell c (.dma kvS1)) 0
    ∗ (((c : Thread nD τ).loc main_arg3) ↦{fullShare} m ((c : Thread nD τ).loc main_arg3))
    ∗ (((c : Thread nD τ).loc main_arg4) ↦{fullShare} m ((c : Thread nD τ).loc main_arg4)))

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start m c ∗ scratch (F := F) c)

def Φ₁ (c : Dev nD) : sProp 𝕄 :=
  iprop(scratch (F := F) c ∗ (bigSep Finset.univ fun i : Fin 22 => semVal (cell c (osem i)) 0)
    ∗ (((c : Thread nD τ).loc main_arg3) ↦{fullShare} m ((c : Thread nD τ).loc main_arg3))
    ∗ (((c : Thread nD τ).loc main_arg4) ↦{fullShare} m ((c : Thread nD τ).loc main_arg4)))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m c
    | ⟨1, _⟩ => wqv m c
    | ⟨2, _⟩ => wov m c
    | ⟨3, _⟩ => outV (A0m m) c
  Φ t := match t with
    | ⟨0, _⟩ => Φ₀ m c
    | ⟨_ + 1, _⟩ => Φ₁ m c
  q _ := fullShare
  owed t := match t with
    | ⟨0, _⟩ => Ow0 c
    | ⟨_ + 1, _⟩ => 0

abbrev 𝒱₀ : Variants := Variants.none

end Cert.Kernel.Hyper

end
-- ==== Proof.K.AccSets.lean ====
import proofs.«900512_g7700000000000513_dist_attn_cross_mha_kvrep_htp_b2_sq128_skv128_d512_hq8_dh64_v7x_i32_f32_1_alg».proof.Proof.K.Cells
import Idealize.ShloMosaic.Lib.Pipeline.Value

noncomputable section

namespace Cert.Kernel.Hyper

open Cert.Kernel Cert.Kernel.Gen Cert.Kernel.Net Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev accLoc (c : Dev nD) : Loc nD τ sig := accM.view.loc (c : Thread nD τ)
abbrev rcvLoc (c : Dev nD) : Loc nD τ sig := rcvM.view.loc (c : Thread nD τ)

abbrev own0 (c : Dev nD) : Finset (Idx (accLoc c)) := Finset.univ
abbrev own1 (c : Dev nD) : Finset (Idx (accLoc c)) := (accM.access (kpR0 c) : View sig .tc _ _ _).set
abbrev own2 (c : Dev nD) : Finset (Idx (accLoc c)) := (accM.access (kpR1 c) : View sig .tc _ _ _).set
abbrev own3 (c : Dev nD) : Finset (Idx (accLoc c)) := (accM.access (kpR2 c) : View sig .tc _ _ _).set
abbrev own4 (c : Dev nD) : Finset (Idx (accLoc c)) := (accM.access (kpR3 c) : View sig .tc _ _ _).set
abbrev own5 (c : Dev nD) : Finset (Idx (accLoc c)) := (accM.access (kpR4 c) : View sig .tc _ _ _).set

def rows {d : Fin 2 → Nat} (lo h : Nat) : Finset (Shape.Idx ⟨2, d⟩) :=
  Finset.univ.filter fun i => lo ≤ (i (0 : Fin 2)).val ∧ (i (0 : Fin 2)).val < lo + h

theorem mem_rows {d : Fin 2 → Nat} {lo h : Nat} {i : Shape.Idx ⟨2, d⟩} :
    i ∈ rows lo h ↔ lo ≤ (i (0 : Fin 2)).val ∧ (i (0 : Fin 2)).val < lo + h := by
  simp [rows]

theorem set_unit_rows {d : Fin 2 → Nat} {off size : Fin 2 → Nat} (inb : ∀ a, off a + size a ≤ (⟨2, d⟩ : Shape).size a)
    (h1 : off 1 = 0) (hs : size 1 = d 1) :
    (Rect.unit (s := ⟨2, d⟩) off size inb).set = rows (off 0) (size 0) := by
  ext i
  rw [Rect.mem_set_unit, mem_rows, Fin.forall_fin_two]
  have hi : (i (1 : Fin 2)).val < d 1 := (i 1).isLt
  constructor
  · exact fun h => h.1
  · intro h; exact ⟨h, by omega, by omega⟩

theorem rows_disjoint {d : Fin 2 → Nat} {a h b h' : Nat} (H : a + h ≤ b ∨ b + h' ≤ a) :
    Disjoint (rows (d := d) a h) (rows b h') := by
  rw [Finset.disjoint_left]; intro i hi hj; rw [mem_rows] at hi hj; omega

theorem rows_union {d : Fin 2 → Nat} {lo a h b h' : Nat}
    (H : (a = lo ∧ b = lo + h) ∨ (b = lo ∧ a = lo + h')) :
    rows (d := d) a h ∪ rows b h' = rows lo (h + h') := by
  ext i; simp only [Finset.mem_union, mem_rows]; omega

theorem rows_adj_disjoint {d : Fin 2 → Nat} {lo a h b h' : Nat}
    (H : (a = lo ∧ b = lo + h) ∨ (b = lo ∧ a = lo + h')) :
    Disjoint (rows (d := d) a h) (rows b h') :=
  rows_disjoint (by omega)

theorem rows_univ {d : Fin 2 → Nat} : rows (d := d) 0 (d 0) = Finset.univ := by
  ext i; simp only [mem_rows, Finset.mem_univ, iff_true]
  have hi : (i (0 : Fin 2)).val < d 0 := (i 0).isLt
  omega

theorem pointsTo_union {ℓ : Loc nD τ sig} {I J S : Finset (Idx ℓ)} (hu : I ∪ J = S) (hd : Disjoint I J)
    (f : Buf (Elt F) ℓ) :
    (ℓ ↦[S]{fullShare} f : sProp 𝕄) ⊣⊢ iprop((ℓ ↦[I]{fullShare} f) ∗ (ℓ ↦[J]{fullShare} f)) := by
  subst hu; exact Region.is_union hd

theorem whole_load_sub {κ : Kind} (b : Ref sig κ) (r : Rect b.ty.shape) :
    (Memref.whole b : Memref sig κ _ _ _).view.setOn r.toLoadRect.set
      ⊆ ((Memref.whole b : Memref sig κ _ _ _).access r : View sig κ _ _ _).set := by
  rw [show ((Memref.whole b : Memref sig κ _ _ _).access r : View sig κ _ _ _).set = r.set from View.set_slice_whole b r]
  intro i hi
  obtain ⟨j, hj, rfl⟩ := Finset.mem_map.mp hi
  exact hj

theorem acc_slice_set {off size : Fin 2 → Nat} (inb : ∀ a, off a + size a ≤ S256x512.size a)
    (h1 : off 1 = 0) (hs : size 1 = 512) :
    (accM.view.slice (Rect.unit (s := S256x512) off size inb)).set
      = rows (d := ![256, 512]) (off 0) (size 0) :=
  (View.set_slice_whole cc0_scratch0 (Rect.unit (s := S256x512) off size inb)).trans (set_unit_rows inb h1 hs)

theorem col_off2 : ∀ c : Dev nD, k0_off2 c 1 = 0 := by decide +kernel
theorem col_off3 : ∀ c : Dev nD, k0_off3 c 1 = 0 := by decide +kernel
theorem col_off4 : ∀ c : Dev nD, k0_off4 c 1 = 0 := by decide +kernel
theorem col_off5 : ∀ c : Dev nD, k0_off5 c 1 = 0 := by decide +kernel
theorem col_off6 : ∀ c : Dev nD, k0_off6 c 1 = 0 := by decide +kernel
theorem col_off7 : ∀ c : Dev nD, k0_off7 c 1 = 0 := by decide +kernel
theorem col_off8 : ∀ c : Dev nD, k0_off8 c 1 = 0 := by decide +kernel
theorem col_off9 : ∀ c : Dev nD, k0_off9 c 1 = 0 := by decide +kernel
theorem col_off10 : ∀ c : Dev nD, k0_off10 c 1 = 0 := by decide +kernel
theorem col_off11 : ∀ c : Dev nD, k0_off11 c 1 = 0 := by decide +kernel
theorem col_off12 : ∀ c : Dev nD, k0_off12 c 1 = 0 := by decide +kernel
theorem col_off13 : ∀ c : Dev nD, k0_off13 c 1 = 0 := by decide +kernel
theorem col_off14 : ∀ c : Dev nD, k0_off14 c 1 = 0 := by decide +kernel
theorem col_off15 : ∀ c : Dev nD, k0_off15 c 1 = 0 := by decide +kernel
theorem col_off16 : ∀ c : Dev nD, k0_off16 c 1 = 0 := by decide +kernel

theorem half0 : ∀ c : Dev nD, (k0_off2 c 0 = 0 ∧ k0_off3 c 0 = 128) ∨ (k0_off3 c 0 = 0 ∧ k0_off2 c 0 = 128) := by decide +kernel
theorem half1 : ∀ c : Dev nD, (k0_off4 c 0 = k0_off3 c 0 ∧ k0_off5 c 0 = k0_off3 c 0 + 64) ∨ (k0_off5 c 0 = k0_off3 c 0 ∧ k0_off4 c 0 = k0_off3 c 0 + 64) := by decide +kernel
theorem half2 : ∀ c : Dev nD, (k0_off6 c 0 = k0_off5 c 0 ∧ k0_off7 c 0 = k0_off5 c 0 + 32) ∨ (k0_off7 c 0 = k0_off5 c 0 ∧ k0_off6 c 0 = k0_off5 c 0 + 32) := by decide +kernel
theorem half3 : ∀ c : Dev nD, (k0_off8 c 0 = k0_off7 c 0 ∧ k0_off9 c 0 = k0_off7 c 0 + 16) ∨ (k0_off9 c 0 = k0_off7 c 0 ∧ k0_off8 c 0 = k0_off7 c 0 + 16) := by decide +kernel
theorem half4 : ∀ c : Dev nD, (k0_off10 c 0 = k0_off9 c 0 ∧ k0_off11 c 0 = k0_off9 c 0 + 8) ∨ (k0_off11 c 0 = k0_off9 c 0 ∧ k0_off10 c 0 = k0_off9 c 0 + 8) := by decide +kernel

theorem snd0_set (c : Dev nD) : (snd0 c).view.set = rows (d := ![256, 512]) (k0_off2 c 0) 128 :=
  acc_slice_set (k0_off2_inb c) (col_off2 c) rfl
theorem own1_set (c : Dev nD) : own1 c = rows (d := ![256, 512]) (k0_off3 c 0) 128 :=
  acc_slice_set (k0_off3_inb c) (col_off3 c) rfl
theorem snd1_set (c : Dev nD) : (snd1 c).view.set = rows (d := ![256, 512]) (k0_off4 c 0) 64 :=
  acc_slice_set (k0_off4_inb c) (col_off4 c) rfl
theorem own2_set (c : Dev nD) : own2 c = rows (d := ![256, 512]) (k0_off5 c 0) 64 :=
  acc_slice_set (k0_off5_inb c) (col_off5 c) rfl
theorem snd2_set (c : Dev nD) : (snd2 c).view.set = rows (d := ![256, 512]) (k0_off6 c 0) 32 :=
  acc_slice_set (k0_off6_inb c) (col_off6 c) rfl
theorem own3_set (c : Dev nD) : own3 c = rows (d := ![256, 512]) (k0_off7 c 0) 32 :=
  acc_slice_set (k0_off7_inb c) (col_off7 c) rfl
theorem snd3_set (c : Dev nD) : (snd3 c).view.set = rows (d := ![256, 512]) (k0_off8 c 0) 16 :=
  acc_slice_set (k0_off8_inb c) (col_off8 c) rfl
theorem own4_set (c : Dev nD) : own4 c = rows (d := ![256, 512]) (k0_off9 c 0) 16 :=
  acc_slice_set (k0_off9_inb c) (col_off9 c) rfl
theorem snd4_set (c : Dev nD) : (snd4 c).view.set = rows (d := ![256, 512]) (k0_off10 c 0) 8 :=
  acc_slice_set (k0_off10_inb c) (col_off10 c) rfl
theorem own5_set (c : Dev nD) : own5 c = rows (d := ![256, 512]) (k0_off11 c 0) 8 :=
  acc_slice_set (k0_off11_inb c) (col_off11 c) rfl
theorem own0_set (c : Dev nD) : own0 c = rows (d := ![256, 512]) 0 (128 + 128) := (rows_univ (d := ![256, 512])).symm

theorem rs_split0 (c : Dev nD) (f : Buf (Elt F) (accLoc c)) :
    (accLoc c ↦[own0 c]{fullShare} f : sProp 𝕄)
      ⊣⊢ iprop(((snd0 c).view.loc (c : Thread nD τ) ↦[(snd0 c).view.set]{fullShare} f) ∗ (accLoc c ↦[own1 c]{fullShare} f)) := by
  rw [own0_set, snd0_set, own1_set]
  exact pointsTo_union (rows_union (half0 c)) (rows_adj_disjoint (half0 c)) f

theorem load_sub0 (c : Dev nD) : accM.view.setOn (kpR0 c).toLoadRect.set ⊆ own1 c :=
  whole_load_sub cc0_scratch0 (kpR0 c)
theorem rs_split1 (c : Dev nD) (f : Buf (Elt F) (accLoc c)) :
    (accLoc c ↦[own1 c]{fullShare} f : sProp 𝕄)
      ⊣⊢ iprop(((snd1 c).view.loc (c : Thread nD τ) ↦[(snd1 c).view.set]{fullShare} f) ∗ (accLoc c ↦[own2 c]{fullShare} f)) := by
  rw [own1_set, snd1_set, own2_set]
  exact pointsTo_union (rows_union (half1 c)) (rows_adj_disjoint (half1 c)) f

theorem load_sub1 (c : Dev nD) : accM.view.setOn (kpR1 c).toLoadRect.set ⊆ own2 c :=
  whole_load_sub cc0_scratch0 (kpR1 c)
theorem rs_split2 (c : Dev nD) (f : Buf (Elt F) (accLoc c)) :
    (accLoc c ↦[own2 c]{fullShare} f : sProp 𝕄)
      ⊣⊢ iprop(((snd2 c).view.loc (c : Thread nD τ) ↦[(snd2 c).view.set]{fullShare} f) ∗ (accLoc c ↦[own3 c]{fullShare} f)) := by
  rw [own2_set, snd2_set, own3_set]
  exact pointsTo_union (rows_union (half2 c)) (rows_adj_disjoint (half2 c)) f

theorem load_sub2 (c : Dev nD) : accM.view.setOn (kpR2 c).toLoadRect.set ⊆ own3 c :=
  whole_load_sub cc0_scratch0 (kpR2 c)
theorem rs_split3 (c : Dev nD) (f : Buf (Elt F) (accLoc c)) :
    (accLoc c ↦[own3 c]{fullShare} f : sProp 𝕄)
      ⊣⊢ iprop(((snd3 c).view.loc (c : Thread nD τ) ↦[(snd3 c).view.set]{fullShare} f) ∗ (accLoc c ↦[own4 c]{fullShare} f)) := by
  rw [own3_set, snd3_set, own4_set]
  exact pointsTo_union (rows_union (half3 c)) (rows_adj_disjoint (half3 c)) f

theorem load_sub3 (c : Dev nD) : accM.view.setOn (kpR3 c).toLoadRect.set ⊆ own4 c :=
  whole_load_sub cc0_scratch0 (kpR3 c)
theorem rs_split4 (c : Dev nD) (f : Buf (Elt F) (accLoc c)) :
    (accLoc c ↦[own4 c]{fullShare} f : sProp 𝕄)
      ⊣⊢ iprop(((snd4 c).view.loc (c : Thread nD τ) ↦[(snd4 c).view.set]{fullShare} f) ∗ (accLoc c ↦[own5 c]{fullShare} f)) := by
  rw [own4_set, snd4_set, own5_set]
  exact pointsTo_union (rows_union (half4 c)) (rows_adj_disjoint (half4 c)) f

theorem load_sub4 (c : Dev nD) : accM.view.setOn (kpR4 c).toLoadRect.set ⊆ own5 c :=
  whole_load_sub cc0_scratch0 (kpR4 c)

theorem ag0_set (c : Dev nD) : (ag0 c).view.set = rows (d := ![256, 512]) (k0_off12 c 0) 8 :=
  acc_slice_set (k0_off12_inb c) (col_off12 c) rfl
theorem ag1_set (c : Dev nD) : (ag1 c).view.set = rows (d := ![256, 512]) (k0_off13 c 0) 16 :=
  acc_slice_set (k0_off13_inb c) (col_off13 c) rfl
theorem ag2_set (c : Dev nD) : (ag2 c).view.set = rows (d := ![256, 512]) (k0_off14 c 0) 32 :=
  acc_slice_set (k0_off14_inb c) (col_off14 c) rfl
theorem ag3_set (c : Dev nD) : (ag3 c).view.set = rows (d := ![256, 512]) (k0_off15 c 0) 64 :=
  acc_slice_set (k0_off15_inb c) (col_off15 c) rfl
theorem ag4_set (c : Dev nD) : (ag4 c).view.set = rows (d := ![256, 512]) (k0_off16 c 0) 128 :=
  acc_slice_set (k0_off16_inb c) (col_off16 c) rfl

theorem last_keep : ∀ c : Dev nD, k0_off11 c 0 = k0_off12 c 0 := by decide +kernel

theorem own5_eq (c : Dev nD) : own5 c = (ag0 c).view.set := by
  rw [own5_set, ag0_set, last_keep]

theorem snd4_ag0_off : ∀ q : Dev nD, k0_off10 (nb 0 q) = k0_off12 q := by decide +kernel
theorem snd3_ag1_off : ∀ q : Dev nD, k0_off8 (nb 1 q) = k0_off13 q := by decide +kernel
theorem snd2_ag2_off : ∀ q : Dev nD, k0_off6 (nb 2 q) = k0_off14 q := by decide +kernel
theorem snd1_ag3_off : ∀ q : Dev nD, k0_off4 (nb 3 q) = k0_off15 q := by decide +kernel
theorem snd0_ag4_off : ∀ q : Dev nD, k0_off2 (nb 4 q) = k0_off16 q := by decide +kernel

theorem pointsTo_join {ℓ : Loc nD τ sig} {I J S : Finset (Idx ℓ)} (hu : I ∪ J = S) (hd : Disjoint I J)
    (f g h : Buf (Elt F) ℓ) (hI : ∀ i ∈ I, h i = f i) (hJ : ∀ i ∈ J, h i = g i) :
    iprop((ℓ ↦[I]{fullShare} f) ∗ (ℓ ↦[J]{fullShare} g)) ⊢ (ℓ ↦[S]{fullShare} h : sProp 𝕄) := by
  subst hu
  rw [show (ℓ ↦[I]{fullShare} f : sProp 𝕄) = (ℓ ↦[I]{fullShare} h) from Region.is_congr fun i hi => (hI i hi).symm,
    show (ℓ ↦[J]{fullShare} g : sProp 𝕄) = (ℓ ↦[J]{fullShare} h) from Region.is_congr fun i hi => (hJ i hi).symm]
  exact (Region.is_union hd).mpr

theorem pointsTo_write_join (c : Thread nD τ) {sp : Space} {s : Shape} {e : EltTy} (v : View sig c.2.kind sp s e)
    {I S : Finset (Idx (v.loc c))} (hu : I ∪ v.set = S) (hd : Disjoint I v.set)
    (f f' : Buf (Elt F) (v.loc c)) (w : s.Idx → Elt F e) :
    iprop((v.loc c ↦[I]{fullShare} f) ∗ (v.loc c ↦[v.set]{fullShare} v.write (Elt F) f' w Finset.univ))
      ⊢ (v.loc c ↦[S]{fullShare} v.write (Elt F) f w Finset.univ : sProp 𝕄) :=
  pointsTo_join hu hd _ _ _
    (fun i hi => View.write_of_not_mem _ _ _ (Finset.disjoint_left.mp hd hi))
    (fun i hi => View.write_congr (fun _ _ _ => rfl) (fun hn => absurd hi hn))

theorem join0 : ∀ c : Dev nD, (k0_off12 c 0 = k0_off13 c 0 ∧ k0_off12 (nb 0 c) 0 = k0_off13 c 0 + 8) ∨ (k0_off12 (nb 0 c) 0 = k0_off13 c 0 ∧ k0_off12 c 0 = k0_off13 c 0 + 8) := by decide +kernel
theorem join1 : ∀ c : Dev nD, (k0_off13 c 0 = k0_off14 c 0 ∧ k0_off13 (nb 1 c) 0 = k0_off14 c 0 + 16) ∨ (k0_off13 (nb 1 c) 0 = k0_off14 c 0 ∧ k0_off13 c 0 = k0_off14 c 0 + 16) := by decide +kernel
theorem join2 : ∀ c : Dev nD, (k0_off14 c 0 = k0_off15 c 0 ∧ k0_off14 (nb 2 c) 0 = k0_off15 c 0 + 32) ∨ (k0_off14 (nb 2 c) 0 = k0_off15 c 0 ∧ k0_off14 c 0 = k0_off15 c 0 + 32) := by decide +kernel
theorem join3 : ∀ c : Dev nD, (k0_off15 c 0 = k0_off16 c 0 ∧ k0_off15 (nb 3 c) 0 = k0_off16 c 0 + 64) ∨ (k0_off15 (nb 3 c) 0 = k0_off16 c 0 ∧ k0_off15 c 0 = k0_off16 c 0 + 64) := by decide +kernel
theorem join4 : ∀ c : Dev nD, (k0_off16 c 0 = 0 ∧ k0_off16 (nb 4 c) 0 = 128) ∨ (k0_off16 (nb 4 c) 0 = 0 ∧ k0_off16 c 0 = 128) := by decide +kernel

theorem ag_join0 (A0 : Dev nD → (cc0_scratch0 : Ref sig .tc).ty.Contents (Elt F)) (c q : Dev nD) (hq : q = nb 0 c) :
    iprop(((ag0 c).view.loc (c : Thread nD τ) ↦[(ag0 c).view.set]{fullShare} G0 A0 c)
        ∗ ((ag0 q).view.loc (c : Thread nD τ) ↦[(ag0 q).view.set]{fullShare}
            (ag0 q).view.write (Elt F) (A4 A0 c) ((ag0 q).view.read (Elt F) (G0 A0 q)) Finset.univ))
      ⊢ (accLoc c ↦[(ag1 c).view.set]{fullShare} G1 A0 c : sProp 𝕄) := by
  subst hq
  exact pointsTo_write_join (c : Thread nD τ) (ag0 (nb 0 c)).view (by rw [ag0_set, ag0_set, ag1_set]; exact rows_union (join0 c)) (by rw [ag0_set, ag0_set]; exact rows_adj_disjoint (join0 c)) (G0 A0 c) (A4 A0 c) _
theorem ag_join1 (A0 : Dev nD → (cc0_scratch0 : Ref sig .tc).ty.Contents (Elt F)) (c q : Dev nD) (hq : q = nb 1 c) :
    iprop(((ag1 c).view.loc (c : Thread nD τ) ↦[(ag1 c).view.set]{fullShare} G1 A0 c)
        ∗ ((ag1 q).view.loc (c : Thread nD τ) ↦[(ag1 q).view.set]{fullShare}
            (ag1 q).view.write (Elt F) (A3 A0 c) ((ag1 q).view.read (Elt F) (G1 A0 q)) Finset.univ))
      ⊢ (accLoc c ↦[(ag2 c).view.set]{fullShare} G2 A0 c : sProp 𝕄) := by
  subst hq
  exact pointsTo_write_join (c : Thread nD τ) (ag1 (nb 1 c)).view (by rw [ag1_set, ag1_set, ag2_set]; exact rows_union (join1 c)) (by rw [ag1_set, ag1_set]; exact rows_adj_disjoint (join1 c)) (G1 A0 c) (A3 A0 c) _
theorem ag_join2 (A0 : Dev nD → (cc0_scratch0 : Ref sig .tc).ty.Contents (Elt F)) (c q : Dev nD) (hq : q = nb 2 c) :
    iprop(((ag2 c).view.loc (c : Thread nD τ) ↦[(ag2 c).view.set]{fullShare} G2 A0 c)
        ∗ ((ag2 q).view.loc (c : Thread nD τ) ↦[(ag2 q).view.set]{fullShare}
            (ag2 q).view.write (Elt F) (A2 A0 c) ((ag2 q).view.read (Elt F) (G2 A0 q)) Finset.univ))
      ⊢ (accLoc c ↦[(ag3 c).view.set]{fullShare} G3 A0 c : sProp 𝕄) := by
  subst hq
  exact pointsTo_write_join (c : Thread nD τ) (ag2 (nb 2 c)).view (by rw [ag2_set, ag2_set, ag3_set]; exact rows_union (join2 c)) (by rw [ag2_set, ag2_set]; exact rows_adj_disjoint (join2 c)) (G2 A0 c) (A2 A0 c) _
theorem ag_join3 (A0 : Dev nD → (cc0_scratch0 : Ref sig .tc).ty.Contents (Elt F)) (c q : Dev nD) (hq : q = nb 3 c) :
    iprop(((ag3 c).view.loc (c : Thread nD τ) ↦[(ag3 c).view.set]{fullShare} G3 A0 c)
        ∗ ((ag3 q).view.loc (c : Thread nD τ) ↦[(ag3 q).view.set]{fullShare}
            (ag3 q).view.write (Elt F) (A1 A0 c) ((ag3 q).view.read (Elt F) (G3 A0 q)) Finset.univ))
      ⊢ (accLoc c ↦[(ag4 c).view.set]{fullShare} G4 A0 c : sProp 𝕄) := by
  subst hq
  exact pointsTo_write_join (c : Thread nD τ) (ag3 (nb 3 c)).view (by rw [ag3_set, ag3_set, ag4_set]; exact rows_union (join3 c)) (by rw [ag3_set, ag3_set]; exact rows_adj_disjoint (join3 c)) (G3 A0 c) (A1 A0 c) _
theorem ag_join4 (A0 : Dev nD → (cc0_scratch0 : Ref sig .tc).ty.Contents (Elt F)) (c q : Dev nD) (hq : q = nb 4 c) :
    iprop(((ag4 c).view.loc (c : Thread nD τ) ↦[(ag4 c).view.set]{fullShare} G4 A0 c)
        ∗ ((ag4 q).view.loc (c : Thread nD τ) ↦[(ag4 q).view.set]{fullShare}
            (ag4 q).view.write (Elt F) (A0 c) ((ag4 q).view.read (Elt F) (G4 A0 q)) Finset.univ))
      ⊢ (accLoc c ↦[Finset.univ]{fullShare} G5 A0 c : sProp 𝕄) := by
  subst hq
  exact pointsTo_write_join (c : Thread nD τ) (ag4 (nb 4 c)).view (by rw [ag4_set, ag4_set]; exact (rows_union (join4 c)).trans (rows_univ (d := ![256, 512]))) (by rw [ag4_set, ag4_set]; exact rows_adj_disjoint (join4 c)) (G4 A0 c) (A0 c) _

theorem rcv_slice_set {off size : Fin 2 → Nat} (inb : ∀ a, off a + size a ≤ S248x512.size a)
    (h1 : off 1 = 0) (hs : size 1 = 512) :
    (rcvM.view.slice (Rect.unit (s := S248x512) off size inb)).set
      = rows (d := ![248, 512]) (off 0) (size 0) :=
  (View.set_slice_whole cc0_scratch1 (Rect.unit (s := S248x512) off size inb)).trans (set_unit_rows inb h1 hs)

theorem rcv0_set : rcv0.view.set = rows (d := ![248, 512]) 0 128 :=
  rcv_slice_set inb_S248x512_S128x512_0_0 rfl rfl
theorem rcv1_set : rcv1.view.set = rows (d := ![248, 512]) 128 64 :=
  rcv_slice_set inb_S248x512_S64x512_128_0 rfl rfl
theorem rcv2_set : rcv2.view.set = rows (d := ![248, 512]) 192 32 :=
  rcv_slice_set inb_S248x512_S32x512_192_0 rfl rfl
theorem rcv3_set : rcv3.view.set = rows (d := ![248, 512]) 224 16 :=
  rcv_slice_set inb_S248x512_S16x512_224_0 rfl rfl
theorem rcv4_set : rcv4.view.set = rows (d := ![248, 512]) 240 8 :=
  rcv_slice_set inb_S248x512_S8x512_240_0 rfl rfl

theorem rcv_append (c : Dev nD) (f : Buf (Elt F) (rcvLoc c)) (a h h' : Nat) :
    (rcvLoc c ↦[rows (d := ![248, 512]) a (h + h')]{fullShare} f : sProp 𝕄)
      ⊣⊢ iprop((rcvLoc c ↦[rows (d := ![248, 512]) a h]{fullShare} f)
        ∗ (rcvLoc c ↦[rows (d := ![248, 512]) (a + h) h']{fullShare} f)) :=
  pointsTo_union (rows_union (.inl ⟨rfl, rfl⟩)) (rows_disjoint (.inl (Nat.le_refl _))) f

theorem rcv_ex_append (c : Dev nD) (a h h' : Nat) :
    iprop((∃ f : Buf (Elt F) (rcvLoc c), rcvLoc c ↦[rows (d := ![248, 512]) a h]{fullShare} f)
        ∗ (∃ f : Buf (Elt F) (rcvLoc c), rcvLoc c ↦[rows (d := ![248, 512]) (a + h) h']{fullShare} f))
      ⊢ (∃ f : Buf (Elt F) (rcvLoc c), rcvLoc c ↦[rows (d := ![248, 512]) a (h + h')]{fullShare} f : sProp 𝕄) := by
  refine sep_exists_right.mp.trans (BIClass.exists_elim fun f => ?_)
  refine sep_exists_left.mp.trans (BIClass.exists_elim fun g => ?_)
  have hd : Disjoint (rows (d := ![248, 512]) a h) (rows (d := ![248, 512]) (a + h) h') :=
    rows_disjoint (.inl (Nat.le_refl _))
  refine (pointsTo_join (rows_union (d := ![248, 512]) (lo := a) (.inl ⟨rfl, rfl⟩)) hd f g
    ((rows (d := ![248, 512]) (a + h) h').piecewise g f)
    (fun i hi => Finset.piecewise_eq_of_notMem _ _ _ (Finset.disjoint_left.mp hd hi))
    (fun i hi => Finset.piecewise_eq_of_mem _ _ _ hi)).trans ?_
  exact BIClass.exists_intro (Φ := fun f : Buf (Elt F) (rcvLoc c) => (rcvLoc c ↦[rows (d := ![248, 512]) a (h + h')]{fullShare} f : sProp 𝕄)) _

theorem rcv_split (c : Dev nD) (f : Buf (Elt F) (rcvLoc c)) :
    (rcvLoc c ↦{fullShare} f : sProp 𝕄)
      ⊣⊢ iprop((rcv0.view.loc (c : Thread nD τ) ↦[rcv0.view.set]{fullShare} f)
        ∗ (rcv1.view.loc (c : Thread nD τ) ↦[rcv1.view.set]{fullShare} f)
        ∗ (rcv2.view.loc (c : Thread nD τ) ↦[rcv2.view.set]{fullShare} f)
        ∗ (rcv3.view.loc (c : Thread nD τ) ↦[rcv3.view.set]{fullShare} f)
        ∗ (rcv4.view.loc (c : Thread nD τ) ↦[rcv4.view.set]{fullShare} f)) := by
  rw [rcv0_set, rcv1_set, rcv2_set, rcv3_set, rcv4_set,
    show (Finset.univ : Finset (Idx (rcvLoc c))) = rows (d := ![248, 512]) 0 (128 + (64 + (32 + (16 + 8))))
      from (rows_univ (d := ![248, 512])).symm]
  exact (rcv_append c f 0 128 _).trans (sep_congr_right ((rcv_append c f 128 64 _).trans
    (sep_congr_right ((rcv_append c f 192 32 _).trans (sep_congr_right (rcv_append c f 224 16 8))))))

theorem rcv_join (c : Dev nD) :
    iprop((∃ f : Buf (Elt F) (rcvLoc c), rcv0.view.loc (c : Thread nD τ) ↦[rcv0.view.set]{fullShare} f)
        ∗ (∃ f : Buf (Elt F) (rcvLoc c), rcv1.view.loc (c : Thread nD τ) ↦[rcv1.view.set]{fullShare} f)
        ∗ (∃ f : Buf (Elt F) (rcvLoc c), rcv2.view.loc (c : Thread nD τ) ↦[rcv2.view.set]{fullShare} f)
        ∗ (∃ f : Buf (Elt F) (rcvLoc c), rcv3.view.loc (c : Thread nD τ) ↦[rcv3.view.set]{fullShare} f)
        ∗ (∃ f : Buf (Elt F) (rcvLoc c), rcv4.view.loc (c : Thread nD τ) ↦[rcv4.view.set]{fullShare} f))
      ⊢ (∃ f : Buf (Elt F) (rcvLoc c), rcvLoc c ↦{fullShare} f : sProp 𝕄) := by
  rw [rcv0_set, rcv1_set, rcv2_set, rcv3_set, rcv4_set,
    show (Finset.univ : Finset (Idx (rcvLoc c))) = rows (d := ![248, 512]) 0 (128 + (64 + (32 + (16 + 8))))
      from (rows_univ (d := ![248, 512])).symm]
  exact (sep_mono_right ((sep_mono_right ((sep_mono_right (rcv_ex_append c 224 16 8)).trans
    (rcv_ex_append c 192 32 _))).trans (rcv_ex_append c 128 64 _))).trans (rcv_ex_append c 0 128 _)

theorem rcv_read0 (fd : (cc0_scratch1 : Ref sig .tc).ty.Contents (Elt F)) (w : S128x512.Idx → Elt F .f32) :
    rcvM.view.readAt (Elt F) rcR0.toLoadRect
      (rcv0.view.write (Elt F) fd w Finset.univ) = w :=
  (View.readAt_rect rcR0 _).trans (View.read_write_univ _ _)
theorem rcv_load_sub0 : rcvM.view.setOn rcR0.toLoadRect.set ⊆ rcv0.view.set :=
  whole_load_sub cc0_scratch1 rcR0
theorem rcv_read1 (fd : (cc0_scratch1 : Ref sig .tc).ty.Contents (Elt F)) (w : S64x512.Idx → Elt F .f32) :
    rcvM.view.readAt (Elt F) rcR1.toLoadRect
      (rcv1.view.write (Elt F) fd w Finset.univ) = w :=
  (View.readAt_rect rcR1 _).trans (View.read_write_univ _ _)
theorem rcv_load_sub1 : rcvM.view.setOn rcR1.toLoadRect.set ⊆ rcv1.view.set :=
  whole_load_sub cc0_scratch1 rcR1
theorem rcv_read2 (fd : (cc0_scratch1 : Ref sig .tc).ty.Contents (Elt F)) (w : S32x512.Idx → Elt F .f32) :
    rcvM.view.readAt (Elt F) rcR2.toLoadRect
      (rcv2.view.write (Elt F) fd w Finset.univ) = w :=
  (View.readAt_rect rcR2 _).trans (View.read_write_univ _ _)
theorem rcv_load_sub2 : rcvM.view.setOn rcR2.toLoadRect.set ⊆ rcv2.view.set :=
  whole_load_sub cc0_scratch1 rcR2
theorem rcv_read3 (fd : (cc0_scratch1 : Ref sig .tc).ty.Contents (Elt F)) (w : S16x512.Idx → Elt F .f32) :
    rcvM.view.readAt (Elt F) rcR3.toLoadRect
      (rcv3.view.write (Elt F) fd w Finset.univ) = w :=
  (View.readAt_rect rcR3 _).trans (View.read_write_univ _ _)
theorem rcv_load_sub3 : rcvM.view.setOn rcR3.toLoadRect.set ⊆ rcv3.view.set :=
  whole_load_sub cc0_scratch1 rcR3
theorem rcv_read4 (fd : (cc0_scratch1 : Ref sig .tc).ty.Contents (Elt F)) (w : S8x512.Idx → Elt F .f32) :
    rcvM.view.readAt (Elt F) rcR4.toLoadRect
      (rcv4.view.write (Elt F) fd w Finset.univ) = w :=
  (View.readAt_rect rcR4 _).trans (View.read_write_univ _ _)
theorem rcv_load_sub4 : rcvM.view.setOn rcR4.toLoadRect.set ⊆ rcv4.view.set :=
  whole_load_sub cc0_scratch1 rcR4

end Cert.Kernel.Hyper

end
-- ==== Proof.K.State.lean ====
import proofs.«900512_g7700000000000513_dist_attn_cross_mha_kvrep_htp_b2_sq128_skv128_d512_hq8_dh64_v7x_i32_f32_1_alg».proof.Proof.K.Proto
import proofs.«900512_g7700000000000513_dist_attn_cross_mha_kvrep_htp_b2_sq128_skv128_d512_hq8_dh64_v7x_i32_f32_1_alg».proof.Proof.K.AccSets

noncomputable section

namespace Cert.Kernel.Hyper

open Cert.Kernel Cert.Kernel.Gen Cert.Kernel.Net Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def PR0 (c : Dev nD) : sProp 𝕄 :=
  iprop(∃ f : Buf (Elt F) (rcv0.view.loc (nb 4 c : Thread nD τ)), rcv0.view.loc (nb 4 c : Thread nD τ) ↦[rcv0.view.set]{fullShare} f)
def OA0 (c : Dev nD) : sProp 𝕄 :=
  (snd0 (nb 4 c)).view.loc (nb 4 c : Thread nD τ) ↦[(snd0 (nb 4 c)).view.set]{fullShare} (A0m m) (nb 4 c)
def RV0 (c : Dev nD) : sProp 𝕄 :=
  iprop(∃ f : Buf (Elt F) (rcvLoc c), rcv0.view.loc (c : Thread nD τ) ↦[rcv0.view.set]{fullShare} f)

def PR1 (c : Dev nD) : sProp 𝕄 :=
  iprop(∃ f : Buf (Elt F) (rcv1.view.loc (nb 3 c : Thread nD τ)), rcv1.view.loc (nb 3 c : Thread nD τ) ↦[rcv1.view.set]{fullShare} f)
def OA1 (c : Dev nD) : sProp 𝕄 :=
  (snd1 (nb 3 c)).view.loc (nb 3 c : Thread nD τ) ↦[(snd1 (nb 3 c)).view.set]{fullShare} A1 (A0m m) (nb 3 c)
def RV1 (c : Dev nD) : sProp 𝕄 :=
  iprop(∃ f : Buf (Elt F) (rcvLoc c), rcv1.view.loc (c : Thread nD τ) ↦[rcv1.view.set]{fullShare} f)

def PR2 (c : Dev nD) : sProp 𝕄 :=
  iprop(∃ f : Buf (Elt F) (rcv2.view.loc (nb 2 c : Thread nD τ)), rcv2.view.loc (nb 2 c : Thread nD τ) ↦[rcv2.view.set]{fullShare} f)
def OA2 (c : Dev nD) : sProp 𝕄 :=
  (snd2 (nb 2 c)).view.loc (nb 2 c : Thread nD τ) ↦[(snd2 (nb 2 c)).view.set]{fullShare} A2 (A0m m) (nb 2 c)
def RV2 (c : Dev nD) : sProp 𝕄 :=
  iprop(∃ f : Buf (Elt F) (rcvLoc c), rcv2.view.loc (c : Thread nD τ) ↦[rcv2.view.set]{fullShare} f)

def PR3 (c : Dev nD) : sProp 𝕄 :=
  iprop(∃ f : Buf (Elt F) (rcv3.view.loc (nb 1 c : Thread nD τ)), rcv3.view.loc (nb 1 c : Thread nD τ) ↦[rcv3.view.set]{fullShare} f)
def OA3 (c : Dev nD) : sProp 𝕄 :=
  (snd3 (nb 1 c)).view.loc (nb 1 c : Thread nD τ) ↦[(snd3 (nb 1 c)).view.set]{fullShare} A3 (A0m m) (nb 1 c)
def RV3 (c : Dev nD) : sProp 𝕄 :=
  iprop(∃ f : Buf (Elt F) (rcvLoc c), rcv3.view.loc (c : Thread nD τ) ↦[rcv3.view.set]{fullShare} f)

def PR4 (c : Dev nD) : sProp 𝕄 :=
  iprop(∃ f : Buf (Elt F) (rcv4.view.loc (nb 0 c : Thread nD τ)), rcv4.view.loc (nb 0 c : Thread nD τ) ↦[rcv4.view.set]{fullShare} f)
def OA4 (c : Dev nD) : sProp 𝕄 :=
  (snd4 (nb 0 c)).view.loc (nb 0 c : Thread nD τ) ↦[(snd4 (nb 0 c)).view.set]{fullShare} A4 (A0m m) (nb 0 c)
def RV4 (c : Dev nD) : sProp 𝕄 :=
  iprop(∃ f : Buf (Elt F) (rcvLoc c), rcv4.view.loc (c : Thread nD τ) ↦[rcv4.view.set]{fullShare} f)

abbrev tok (q : Dev nD) (s : DmaSem sig) : sProp 𝕄 := dutyTok ER (cell q (.dma s)) 0 (0 : Fin 5)
abbrev pos (c : Dev nD) (s : DmaSem sig) (r : ℕ) : sProp 𝕄 := atPos ER (cell c (.dma s)) r ∅ 0
abbrev crd (c : Dev nD) (s : DmaSem sig) (n : ℕ) : sProp 𝕄 := cred (tallyAt (cell c (.dma s)) () n)
abbrev accOwn (c : Dev nD) (S : Finset (Idx (accLoc c))) (f : Buf (Elt F) (accLoc c)) : sProp 𝕄 := accLoc c ↦[S]{fullShare} f

end Cert.Kernel.Hyper

end
-- ==== Proof.K.Steps.lean ====
import proofs.«900512_g7700000000000513_dist_attn_cross_mha_kvrep_htp_b2_sq128_skv128_d512_hq8_dh64_v7x_i32_f32_1_alg».proof.Proof.K.Proto

noncomputable section

namespace Cert.Kernel.Hyper

open Cert.Kernel Cert.Kernel.Gen Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

-- A payment to a receive cell of level `b` on top of tallies of level `b + 1` or above leaves every owed cell at level `b` or above.
theorem Ow_step {O : CellTallies nD τ sig Unit} {q : Dev nD} {s : DmaSem sig} {n b : ℕ}
    (ih : ∀ g u, 0 < O g u → g.1.2 = .tc ∧ b + 1 ≤ lvS (slot g.2)) (hs : lvS (slot (.dma s : SemLoc sig)) = b)
    (g : GSem nD τ sig) (u : Unit) (h : 0 < (O + tallyAt (cell q (.dma s)) () n) g u) : g.1.2 = .tc ∧ b ≤ lvS (slot g.2) := by
  rw [Pi.add_apply, Finsupp.add_apply, tallyAt_apply] at h
  by_cases hg : g = cell q (.dma s) ∧ u = ()
  · rw [hg.1]; exact ⟨rfl, hs.ge⟩
  · rw [if_neg hg, Nat.add_zero] at h
    exact (ih g u h).imp_right Nat.le_of_succ_le

theorem Ow15_lev (c : Dev nD) (g : GSem nD τ sig) (u : Unit) (h : 0 < Ow15 c g u) : g.1.2 = .tc ∧ 12 ≤ lvS (slot g.2) :=
  absurd h (Nat.lt_irrefl 0)
theorem Ow14_lev (c : Dev nD) (g : GSem nD τ sig) (u : Unit) (h : 0 < Ow14 c g u) : g.1.2 = .tc ∧ 11 ≤ lvS (slot g.2) :=
  Ow_step (Ow15_lev c) (congrArg lvS slot_agR4) g u h
theorem Ow13_lev (c : Dev nD) (g : GSem nD τ sig) (u : Unit) (h : 0 < Ow13 c g u) : g.1.2 = .tc ∧ 10 ≤ lvS (slot g.2) :=
  Ow_step (Ow14_lev c) (congrArg lvS slot_agR3) g u h
theorem Ow12_lev (c : Dev nD) (g : GSem nD τ sig) (u : Unit) (h : 0 < Ow12 c g u) : g.1.2 = .tc ∧ 9 ≤ lvS (slot g.2) :=
  Ow_step (Ow13_lev c) (congrArg lvS slot_agR2) g u h
theorem Ow11_lev (c : Dev nD) (g : GSem nD τ sig) (u : Unit) (h : 0 < Ow11 c g u) : g.1.2 = .tc ∧ 8 ≤ lvS (slot g.2) :=
  Ow_step (Ow12_lev c) (congrArg lvS slot_agR1) g u h
theorem Ow10_lev (c : Dev nD) (g : GSem nD τ sig) (u : Unit) (h : 0 < Ow10 c g u) : g.1.2 = .tc ∧ 7 ≤ lvS (slot g.2) :=
  Ow_step (Ow11_lev c) (congrArg lvS slot_agR0) g u h
theorem Ow9_lev (c : Dev nD) (g : GSem nD τ sig) (u : Unit) (h : 0 < Ow9 c g u) : g.1.2 = .tc ∧ 6 ≤ lvS (slot g.2) :=
  Ow_step (Ow10_lev c) (congrArg lvS slot_rsR4) g u h
theorem Ow8_lev (c : Dev nD) (g : GSem nD τ sig) (u : Unit) (h : 0 < Ow8 c g u) : g.1.2 = .tc ∧ 5 ≤ lvS (slot g.2) :=
  Ow_step (Ow9_lev c) (congrArg lvS slot_rsR3) g u h
theorem Ow7_lev (c : Dev nD) (g : GSem nD τ sig) (u : Unit) (h : 0 < Ow7 c g u) : g.1.2 = .tc ∧ 4 ≤ lvS (slot g.2) :=
  Ow_step (Ow8_lev c) (congrArg lvS slot_rsR2) g u h
theorem Ow6_lev (c : Dev nD) (g : GSem nD τ sig) (u : Unit) (h : 0 < Ow6 c g u) : g.1.2 = .tc ∧ 3 ≤ lvS (slot g.2) :=
  Ow_step (Ow7_lev c) (congrArg lvS slot_rsR1) g u h
theorem Ow5_lev (c : Dev nD) (g : GSem nD τ sig) (u : Unit) (h : 0 < Ow5 c g u) : g.1.2 = .tc ∧ 2 ≤ lvS (slot g.2) :=
  Ow_step (Ow6_lev c) (congrArg lvS slot_rsR0) g u h

theorem inv_sem (K : Dev nD × Fin 21 → ℕ) (c : Dev nD) (s : SemLoc sig) (i : Fin 21) (hi : csem i = s) :
    records m K ⊢ cellInv ER (Rd (A0m m)) (K (c, i)) (cell c s) :=
  hi ▸ inv_at m K (c, i)

theorem reached_sem (K : Dev nD × Fin 21 → ℕ) (c : Dev nD) (s : SemLoc sig) (i : Fin 21) (hi : csem i = s) :
    records m K ⊢ (reached ER (cell c s) 0 : sProp 𝕄) :=
  hi ▸ reached_at m K (c, i)

-- With no duty taken, what is left of round `0` is the whole round: its `n` units and all its payloads `P`.
theorem step_wait_cell (K : Dev nD × Fin 21 → ℕ) (c : Dev nD) (s : SemLoc sig) (i : Fin 21) (hi : csem i = s) {n : ℕ} {P : sProp 𝕄}
    (he : (Rd (A0m m)).expect (cell c s) 0 = n)
    (hr : bigSep ((Rd (A0m m)).duties (cell c s) 0 \ ∅) (fun d => (Rd (A0m m)).payload (cell c s) 0 d) = P)
    {w : TpuEff nD τ sig (Elt F) Λ₀ .tc PUnit}
    (hw : ∀ Kq : PUnit → sProp 𝕄, wpE (defs₀ (F := F)) 𝒱₀ (c : Thread nD τ) none Set.univ w Kq = waitSpec (c : Thread nD τ) Set.univ s n Kq)
    {α : Type} {Q : α → sProp 𝕄} {k : PUnit → Prog (TpuEff nD τ sig (Elt F) Λ₀ .tc) α}
    (O : CellTallies nD τ sig Unit) (W : Waits sig Unit) :
    iprop(records m K ∗ cred (tallyAt (cell c s) () n) ∗ owes (c : Thread nD τ) O W ∗ MayWait (c : Thread nD τ) s () O ∗ atPos ER (cell c s) 0 ∅ 0)
      ⊢ iprop(((owes (c : Thread nD τ) O (insert (s, ()) W) ∗ atPos ER (cell c s) 1 ∅ 0 ∗ P) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst he hr
  iintro ⟨#HR, Hc, HO, HM, Hat⟩ Hk
  iapply (Rounds.wp_wait_rest_token 𝒱₀ ER (Rd (A0m m)) (c : Thread nD τ) none (κ := K (c, i)) hw (Set.mem_univ _) ()
      (O := O) (W := W) (T := ∅) (Nat.zero_add _)) $$ [Hc HO HM Hat]
  · isplitr; · iapply (inv_sem m K c s i hi); iexact HR
    iframe
  iintro ⟨HO, Hat, -, Hpay⟩
  iapply Hk; iframe

theorem step_wait (K : Dev nD × Fin 21 → ℕ) (c : Dev nD) (s : DmaSem sig) (h7 : 7 ≤ slot (.dma s : SemLoc sig)) (i : Fin 21) (hi : csem i = .dma s)
    {w : TpuEff nD τ sig (Elt F) Λ₀ .tc PUnit}
    (hw : ∀ Kq : PUnit → sProp 𝕄, wpE (defs₀ (F := F)) 𝒱₀ (c : Thread nD τ) none Set.univ w Kq
      = waitSpec (c : Thread nD τ) Set.univ (.dma s) (amt (slot (.dma s : SemLoc sig))) Kq)
    {α : Type} {Q : α → sProp 𝕄} {k : PUnit → Prog (TpuEff nD τ sig (Elt F) Λ₀ .tc) α}
    (O : CellTallies nD τ sig Unit) (W : Waits sig Unit) :
    iprop(records m K ∗ cred (tallyAt (cell c (.dma s)) () (amt (slot (.dma s : SemLoc sig)))) ∗ owes (c : Thread nD τ) O W
        ∗ MayWait (c : Thread nD τ) (.dma s) () O ∗ atPos ER (cell c (.dma s)) 0 ∅ 0)
      ⊢ iprop(((owes (c : Thread nD τ) O (insert (.dma s, ()) W) ∗ atPos ER (cell c (.dma s)) 1 ∅ 0 ∗ pay (A0m m) c (slot (.dma s : SemLoc sig)) 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) :=
  step_wait_cell m K c (.dma s) i hi (expect_dma (A0m m) c s h7) (rest_dma (A0m m) c s h7) hw O W

-- Flipping bit `a` twice is the identity, so the signaller is the witness of the payload of duty `a` of its neighbour's barrier cell.
theorem step_signal {S : Shape} (R : Memref sig .tc .vmem S .f32) (j : Fin 5) (a : ℕ) (ha : j = a)
    (hp : ∀ q : Dev nD, iprop(∃ p : Dev nD, ⌜p = nb a q⌝ ∗ ∃ f : Buf (Elt F) (R.view.loc (p : Thread nD τ)), R.view.loc (p : Thread nD τ) ↦[R.view.set]{fullShare} f) = (Rd (A0m m)).payload (cell q (.reg barS)) 0 j)
    (K : Dev nD × Fin 21 → ℕ) (c : Dev nD) (f : Buf (Elt F) (R.view.loc (c : Thread nD τ)))
    {α : Type} {Q : α → sProp 𝕄} {k : PUnit → Prog (TpuEff nD τ sig (Elt F) Λ₀ .tc) α}
    (O : CellTallies nD τ sig Unit) (W : Waits sig Unit) :
    iprop(records m K ∗ owes (c : Thread nD τ) (O + tallyAt (cell (nb a c) (.reg barS)) () 1) W ∗ dutyTok ER (cell (nb a c) (.reg barS)) 0 j
        ∗ (R.view.loc (c : Thread nD τ) ↦[R.view.set]{fullShare} f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((nb a c : Dev nD) : Thread nD τ) barS 1) k) Q) := by
  subst ha
  iintro ⟨#HR, HO, Htok, Hf⟩ Hk
  iapply (Rounds.wp_signal 𝒱₀ ER (Rd (A0m m)) (c : Thread nD τ) none (κ := K (nb j c, 0))
      (by rw [duties_bar]; exact Finset.mem_univ _) (amount_eq (A0m m) (nb j c) (.reg barS) 0 j) () O rfl) $$ [HO Htok Hf]
  · isplitr; · iapply (inv_sem m K (nb j c) (.reg barS) 0 rfl); iexact HR
    isplitl [HO]; · iexact HO
    iframe Htok
    isplitl [Hf]
    · iapply (Entails.of_eq (hp _)); iexists c
      isplitr; · ipureintro; exact (nb_nb j c).symm
      iexists f; iexact Hf
    iapply (reached_sem m K (nb j c) (.reg barS) 0 rfl); iexact HR
  iexact Hk

end Cert.Kernel.Hyper

end
-- ==== Proof.K.Compute.lean ====
import proofs.«900512_g7700000000000513_dist_attn_cross_mha_kvrep_htp_b2_sq128_skv128_d512_hq8_dh64_v7x_i32_f32_1_alg».proof.Proof.K.Cells
import proofs.«900512_g7700000000000513_dist_attn_cross_mha_kvrep_htp_b2_sq128_skv128_d512_hq8_dh64_v7x_i32_f32_1_alg».proof.Proof.K.A0Def
import proofs.«900512_g7700000000000513_dist_attn_cross_mha_kvrep_htp_b2_sq128_skv128_d512_hq8_dh64_v7x_i32_f32_1_alg».proof.Proof.K.Proto

noncomputable section

namespace Cert.Kernel.Hyper

open Cert.Kernel Cert.Kernel.Gen Cert.Kernel.Comp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem whole_pt (b : Ref sig .tc) (c : Dev nD) (v : Buf (Elt F) ((c : Thread nD τ).loc b)) :
    (((c : Thread nD τ).loc b) ↦{fullShare} v : sProp 𝕄) = ((Memref.whole b).view.loc c ↦{fullShare} v) := rfl

variable (c : Dev nD)

abbrev kP (kc : Vec F S2x128x8x64 .f32) : sProp 𝕄 := ((c : Thread nD τ).loc cc0_scratch2) ↦{fullShare} kc
abbrev vP (vc : Vec F S2x128x8x64 .f32) : sProp 𝕄 := ((c : Thread nD τ).loc cc0_scratch3) ↦{fullShare} vc

theorem kP_eq (kc : Vec F S2x128x8x64 .f32) :
    (kP c kc : sProp 𝕄) = ((Memref.whole cc0_scratch2).view.loc c ↦{fullShare} kc) := rfl
theorem vP_eq (vc : Vec F S2x128x8x64 .f32) :
    (vP c vc : sProp 𝕄) = ((Memref.whole cc0_scratch3).view.loc c ↦{fullShare} vc) := rfl

abbrev KxP (Kx : Vec F S2x128x256x64 .f32) : sProp 𝕄 := ((c : Thread nD τ).loc main_arg3) ↦{fullShare} Kx
abbrev VxP (Vx : Vec F S2x128x256x64 .f32) : sProp 𝕄 := ((c : Thread nD τ).loc main_arg4) ↦{fullShare} Vx
abbrev xP (xv : Vec F S2x128x512 .f32) : sProp 𝕄 := ((c : Thread nD τ).loc cc0_stg0_0) ↦{fullShare} xv
abbrev wqP (wqv : Vec F S512x512 .f32) : sProp 𝕄 := ((c : Thread nD τ).loc cc0_stg1_0) ↦{fullShare} wqv

def kcvOf (Kx : Vec F S2x128x256x64 .f32) : Vec F S2x128x8x64 .f32 :=
  ((Memref.whole main_arg3 : Memref sig .tc .hbm S2x128x256x64 .f32).slice
    (Rect.unit (s := S2x128x256x64) (k0_off1 c) S2x128x8x64.size (k0_off1_inb c)) (fun _ => rfl)).view.read (Elt F) Kx

def vcvOf (Vx : Vec F S2x128x256x64 .f32) : Vec F S2x128x8x64 .f32 :=
  ((Memref.whole main_arg4 : Memref sig .tc .hbm S2x128x256x64 .f32).slice
    (Rect.unit (s := S2x128x256x64) (k0_off1 c) S2x128x8x64.size (k0_off1_inb c)) (fun _ => rfl)).view.read (Elt F) Vx

set_option maxHeartbeats 3200000 in
theorem part2_spec (xv : Vec F S2x128x512 .f32) (wqv : Vec F S512x512 .f32) (Kx Vx : Vec F S2x128x256x64 .f32)
    (O : CellTallies nD τ sig Unit) (W : Waits sig Unit)
    (Kt : (Σ' (v32 : FVec F S256x512 .f32) (v43 : FVec F S128x64 .f32) (v46 : FVec F S128x128 .f32), FVec F S128x128 .f32) → sProp 𝕄) :
    iprop((xP c xv ∗ wqP c wqv ∗ KxP c Kx ∗ VxP c Vx
          ∗ (∃ f, kP c f) ∗ (∃ f, vP c f)
          ∗ semVal ((c : Thread nD τ), SemLoc.dma kvS0) 0 ∗ semVal ((c : Thread nD τ), SemLoc.dma kvS1) 0
          ∗ owes c O W
          ∗ MayWait c (SemLoc.dma kvS0) () O ∗ MayWait c (SemLoc.dma kvS1) () O)
        ∗ ((xP c xv ∗ wqP c wqv ∗ KxP c Kx ∗ VxP c Vx ∗ kP c (kcvOf c Kx) ∗ vP c (vcvOf c Vx)
            ∗ semVal ((c : Thread nD τ), SemLoc.dma kvS0) 0 ∗ semVal ((c : Thread nD τ), SemLoc.dma kvS1) 0
            ∗ owes c O (insert (SemLoc.dma kvS1, ()) (insert (SemLoc.dma kvS0, ()) W)))
          -∗ Kt ⟨k0_pay2 xv wqv, k0_pay3 (ldV (vcvOf c Vx) (Rect.unit ![0, 0, 0, 0] S1x128x1x64.size inb_S2x128x8x64_S1x128x1x64_0_0_0_0)), k0_pay4 xv wqv (ldK (kcvOf c Kx) (Rect.unit ![0, 0, 0, 0] S1x128x1x64.size inb_S2x128x8x64_S1x128x1x64_0_0_0_0)), k0_pay5 xv wqv (ldK (kcvOf c Kx) (Rect.unit ![0, 0, 0, 0] S1x128x1x64.size inb_S2x128x8x64_S1x128x1x64_0_0_0_0))⟩))
      ⊢ wp frame (wpE (defs₀ (F := F)) Variants.none c none) Set.univ
          (atBufs k0_part2 c) Kt := by
  rw [atBufs, k0_part2_eq_skeleton]; unfold k0_part2_skel xP wqP KxP VxP
  rw [whole_pt cc0_stg0_0, whole_pt cc0_stg1_0, whole_pt main_arg3, whole_pt main_arg4]
  iintro ⟨⟨Hx, Hwq, HKx, HVx, ⟨%fk, Hk⟩, ⟨%fv, Hv⟩, Hs0, Hs1, HO, Hm0, Hm1⟩, HK⟩
  irevert Hk Hv; rw [kP_eq, kP_eq, vP_eq, vP_eq]; iintro Hk Hv
  have hm0 : (MayWait c (SemLoc.dma kvS0) () O : sProp 𝕄) ⊢ _ := .rfl
  have hm1 : (MayWait c (SemLoc.dma kvS1) () O : sProp 𝕄) ⊢ _ := .rfl
  sl_exec
  unfold part2_spec.sl.v40 part2_spec.sl.v42
  rw [View.write_whole_univ cc0_scratch2 fk, View.write_whole_univ cc0_scratch3 fv, show part2_spec.sl.dma0 c Kx = kcvOf c Kx from rfl,
    show part2_spec.sl.dma0_1 c Vx = vcvOf c Vx from rfl]
  erw [Memref.readAt_unit_zero (Elt F) cc0_stg0_0 (by decide) inb_S2x128x512_S2x128x512_0_0_0,
    Memref.readAt_unit_zero (Elt F) cc0_stg1_0 (by decide) inb_S512x512_S512x512_0_0, wp_ret]; imodintro
  iapply HK; sl_close

variable (v32 : FVec F S256x512 .f32)

set_option maxHeartbeats 1600000 in
theorem part3_spec (v43 : FVec F S128x64 .f32) (v46 v49 : FVec F S128x128 .f32) (kc vc : Vec F S2x128x8x64 .f32)
    (Kt : (Σ' (v56 : FVec F S128x64 .f32) (v74 : FVec F S128x64 .f32) (v79 : FVec F S128x64 .f32) (v82 : FVec F S128x128 .f32), FVec F S128 .f32) → sProp 𝕄) :
    iprop((kP c kc ∗ vP c vc) ∗ ((kP c kc ∗ vP c vc) -∗ Kt ⟨k0_pay6 v43 v46 v49, k0_pay7 v32 (ldK kc (Rect.unit ![0, 0, 1, 0] S1x128x1x64.size inb_S2x128x8x64_S1x128x1x64_0_0_1_0)) (ldV vc (Rect.unit ![0, 0, 1, 0] S1x128x1x64.size inb_S2x128x8x64_S1x128x1x64_0_0_1_0)), k0_pay8 (ldV vc (Rect.unit ![0, 0, 2, 0] S1x128x1x64.size inb_S2x128x8x64_S1x128x1x64_0_0_2_0)), k0_pay9 v32 (ldK kc (Rect.unit ![0, 0, 2, 0] S1x128x1x64.size inb_S2x128x8x64_S1x128x1x64_0_0_2_0)), k0_pay10 v32 (ldK kc (Rect.unit ![0, 0, 2, 0] S1x128x1x64.size inb_S2x128x8x64_S1x128x1x64_0_0_2_0))⟩))
      ⊢ wp frame (wpE (defs₀ (F := F)) Variants.none c none) Set.univ
          (atBufs k0_part3 v32 v43 v46 v49) Kt := by
  rw [atBufs, k0_part3_eq_skeleton, kP_eq, vP_eq]; unfold k0_part3_skel
  iintro ⟨⟨Hk, Hv⟩, HK⟩
  sl_exec
  rw [wp_ret]; imodintro
  iapply HK $$ [$]

set_option maxHeartbeats 1600000 in
theorem part4_spec (v79 : FVec F S128x64 .f32) (v82 : FVec F S128x128 .f32) (v83 : FVec F S128 .f32) (kc vc : Vec F S2x128x8x64 .f32)
    (Kt : (Σ' (v92 : FVec F S128x64 .f32) (v110 : FVec F S128x64 .f32) (v115 : FVec F S128x64 .f32), FVec F S128x128 .f32) → sProp 𝕄) :
    iprop((kP c kc ∗ vP c vc) ∗ ((kP c kc ∗ vP c vc) -∗ Kt ⟨k0_pay11 v79 v82 v83, k0_pay12 v32 (ldK kc (Rect.unit ![0, 0, 3, 0] S1x128x1x64.size inb_S2x128x8x64_S1x128x1x64_0_0_3_0)) (ldV vc (Rect.unit ![0, 0, 3, 0] S1x128x1x64.size inb_S2x128x8x64_S1x128x1x64_0_0_3_0)), k0_pay13 (ldV vc (Rect.unit ![0, 0, 4, 0] S1x128x1x64.size inb_S2x128x8x64_S1x128x1x64_0_0_4_0)), k0_pay14 v32 (ldK kc (Rect.unit ![0, 0, 4, 0] S1x128x1x64.size inb_S2x128x8x64_S1x128x1x64_0_0_4_0))⟩))
      ⊢ wp frame (wpE (defs₀ (F := F)) Variants.none c none) Set.univ
          (atBufs k0_part4 v32 v79 v82 v83) Kt := by
  rw [atBufs, k0_part4_eq_skeleton, kP_eq, vP_eq]; unfold k0_part4_skel
  iintro ⟨⟨Hk, Hv⟩, HK⟩
  sl_exec
  rw [wp_ret]; imodintro
  iapply HK $$ [$]

set_option maxHeartbeats 1600000 in
theorem part5_spec (v115 : FVec F S128x64 .f32) (v118 : FVec F S128x128 .f32) (kc vc : Vec F S2x128x8x64 .f32)
    (Kt : (Σ' (v128 : FVec F S128x64 .f32) (v146 : FVec F S128x64 .f32) (v151 : FVec F S128x64 .f32) (v152 : FVec F S128x128 .f32), F .f32) → sProp 𝕄) :
    iprop((kP c kc ∗ vP c vc) ∗ ((kP c kc ∗ vP c vc) -∗ Kt ⟨k0_pay15 v115 v118, k0_pay16 v32 (ldK kc (Rect.unit ![0, 0, 5, 0] S1x128x1x64.size inb_S2x128x8x64_S1x128x1x64_0_0_5_0)) (ldV vc (Rect.unit ![0, 0, 5, 0] S1x128x1x64.size inb_S2x128x8x64_S1x128x1x64_0_0_5_0)), k0_pay17 (ldV vc (Rect.unit ![0, 0, 6, 0] S1x128x1x64.size inb_S2x128x8x64_S1x128x1x64_0_0_6_0)), k0_pay18 v32 (ldK kc (Rect.unit ![0, 0, 6, 0] S1x128x1x64.size inb_S2x128x8x64_S1x128x1x64_0_0_6_0)), Scalar.ofBits .f32 0x3E000000#32⟩))
      ⊢ wp frame (wpE (defs₀ (F := F)) Variants.none c none) Set.univ
          (atBufs k0_part5 v32 v115 v118) Kt := by
  rw [atBufs, k0_part5_eq_skeleton, kP_eq, vP_eq]; unfold k0_part5_skel
  iintro ⟨⟨Hk, Hv⟩, HK⟩
  sl_exec
  unfold part5_spec.sl.cst_118
  rw [wp_ret]; imodintro
  iapply HK $$ [$]

set_option maxHeartbeats 1600000 in
theorem part6_spec (v56 v74 v92 v110 v128 v146 v151 : FVec F S128x64 .f32) (v152 : FVec F S128x128 .f32) (cst_118 : F .f32) (kc vc : Vec F S2x128x8x64 .f32)
    (Kt : (Σ' (v183 : FVec F S128x512 .f32) (v184 : FVec F S128x64 .f32) (v186 : FVec F S128x64 .f32), FVec F S128x64 .f32) → sProp 𝕄) :
    iprop((kP c kc ∗ vP c vc) ∗ ((kP c kc ∗ vP c vc) -∗ Kt ⟨k0_pay19 v32 v56 v74 v92 v110 v128 v146 v151 v152 cst_118 (ldK kc (Rect.unit ![0, 0, 7, 0] S1x128x1x64.size inb_S2x128x8x64_S1x128x1x64_0_0_7_0)) (ldV vc (Rect.unit ![0, 0, 7, 0] S1x128x1x64.size inb_S2x128x8x64_S1x128x1x64_0_0_7_0)), k0_pay20 v32, k0_pay21 (ldK kc (Rect.unit ![1, 0, 0, 0] S1x128x1x64.size inb_S2x128x8x64_S1x128x1x64_1_0_0_0)), k0_pay22 (ldV vc (Rect.unit ![1, 0, 0, 0] S1x128x1x64.size inb_S2x128x8x64_S1x128x1x64_1_0_0_0))⟩))
      ⊢ wp frame (wpE (defs₀ (F := F)) Variants.none c none) Set.univ
          (atBufs k0_part6 v32 v56 v74 v92 v110 v128 v146 v151 v152 cst_118) Kt := by
  rw [atBufs, k0_part6_eq_skeleton, kP_eq, vP_eq]; unfold k0_part6_skel
  iintro ⟨⟨Hk, Hv⟩, HK⟩
  sl_exec
  rw [wp_ret]; imodintro
  iapply HK $$ [$]

set_option maxHeartbeats 1600000 in
theorem part7_spec (v184 v186 v188 : FVec F S128x64 .f32) (kc vc : Vec F S2x128x8x64 .f32)
    (Kt : (Σ' (v201 : FVec F S128x64 .f32) (v219 : FVec F S128x64 .f32) (v220 : FVec F S128x64 .f32), FVec F S128x64 .f32) → sProp 𝕄) :
    iprop((kP c kc ∗ vP c vc) ∗ ((kP c kc ∗ vP c vc) -∗ Kt ⟨k0_pay23 v184 v186 v188, k0_pay24 v32 (ldK kc (Rect.unit ![1, 0, 1, 0] S1x128x1x64.size inb_S2x128x8x64_S1x128x1x64_1_0_1_0)) (ldV vc (Rect.unit ![1, 0, 1, 0] S1x128x1x64.size inb_S2x128x8x64_S1x128x1x64_1_0_1_0)), k0_pay25 v32, k0_pay26 (ldK kc (Rect.unit ![1, 0, 2, 0] S1x128x1x64.size inb_S2x128x8x64_S1x128x1x64_1_0_2_0))⟩))
      ⊢ wp frame (wpE (defs₀ (F := F)) Variants.none c none) Set.univ
          (atBufs k0_part7 v32 v184 v186 v188) Kt := by
  rw [atBufs, k0_part7_eq_skeleton, kP_eq, vP_eq]; unfold k0_part7_skel
  iintro ⟨⟨Hk, Hv⟩, HK⟩
  sl_exec
  rw [wp_ret]; imodintro
  iapply HK $$ [$]

set_option maxHeartbeats 1600000 in
theorem part8_spec (v220 v222 : FVec F S128x64 .f32) (kc vc : Vec F S2x128x8x64 .f32)
    (Kt : (Σ' (v237 : FVec F S128x64 .f32) (v255 : FVec F S128x64 .f32) (v256 : FVec F S128x64 .f32), FVec F S128x64 .f32) → sProp 𝕄) :
    iprop((kP c kc ∗ vP c vc) ∗ ((kP c kc ∗ vP c vc) -∗ Kt ⟨k0_pay27 v220 v222 (ldV vc (Rect.unit ![1, 0, 2, 0] S1x128x1x64.size inb_S2x128x8x64_S1x128x1x64_1_0_2_0)), k0_pay28 v32 (ldK kc (Rect.unit ![1, 0, 3, 0] S1x128x1x64.size inb_S2x128x8x64_S1x128x1x64_1_0_3_0)) (ldV vc (Rect.unit ![1, 0, 3, 0] S1x128x1x64.size inb_S2x128x8x64_S1x128x1x64_1_0_3_0)), k0_pay29 v32, k0_pay30 (ldK kc (Rect.unit ![1, 0, 4, 0] S1x128x1x64.size inb_S2x128x8x64_S1x128x1x64_1_0_4_0))⟩))
      ⊢ wp frame (wpE (defs₀ (F := F)) Variants.none c none) Set.univ
          (atBufs k0_part8 v32 v220 v222) Kt := by
  rw [atBufs, k0_part8_eq_skeleton, kP_eq, vP_eq]; unfold k0_part8_skel
  iintro ⟨⟨Hk, Hv⟩, HK⟩
  sl_exec
  rw [wp_ret]; imodintro
  iapply HK $$ [$]

set_option maxHeartbeats 1600000 in
theorem part9_spec (v256 v258 : FVec F S128x64 .f32) (kc vc : Vec F S2x128x8x64 .f32)
    (Kt : (Σ' (v273 : FVec F S128x64 .f32) (v291 : FVec F S128x64 .f32) (v292 : FVec F S128x64 .f32), FVec F S128x64 .f32) → sProp 𝕄) :
    iprop((kP c kc ∗ vP c vc) ∗ ((kP c kc ∗ vP c vc) -∗ Kt ⟨k0_pay31 v256 v258 (ldV vc (Rect.unit ![1, 0, 4, 0] S1x128x1x64.size inb_S2x128x8x64_S1x128x1x64_1_0_4_0)), k0_pay32 v32 (ldK kc (Rect.unit ![1, 0, 5, 0] S1x128x1x64.size inb_S2x128x8x64_S1x128x1x64_1_0_5_0)) (ldV vc (Rect.unit ![1, 0, 5, 0] S1x128x1x64.size inb_S2x128x8x64_S1x128x1x64_1_0_5_0)), k0_pay33 v32, k0_pay34 (ldK kc (Rect.unit ![1, 0, 6, 0] S1x128x1x64.size inb_S2x128x8x64_S1x128x1x64_1_0_6_0))⟩))
      ⊢ wp frame (wpE (defs₀ (F := F)) Variants.none c none) Set.univ
          (atBufs k0_part9 v32 v256 v258) Kt := by
  rw [atBufs, k0_part9_eq_skeleton, kP_eq, vP_eq]; unfold k0_part9_skel
  iintro ⟨⟨Hk, Hv⟩, HK⟩
  sl_exec
  rw [wp_ret]; imodintro
  iapply HK $$ [$]

abbrev woP (wov : Vec F S512x512 .f32) : sProp 𝕄 := ((c : Thread nD τ).loc cc0_stg2_0) ↦{fullShare} wov

set_option maxHeartbeats 1600000 in
theorem part10_spec (v183 : FVec F S128x512 .f32) (v201 v219 v237 v255 v273 v291 v292 v294 : FVec F S128x64 .f32)
    (kc vc : Vec F S2x128x8x64 .f32) (wov : Vec F S512x512 .f32)
    (Kt : (Σ' (v329 : FVec F S256x512 .f32), Vec F S512x512 .f32) → sProp 𝕄) :
    iprop((kP c kc ∗ vP c vc ∗ woP c wov) ∗ ((kP c kc ∗ vP c vc ∗ woP c wov) -∗
        Kt ⟨k0_pay35 v32 v183 v201 v219 v237 v255 v273 v291 v292 v294 (ldV vc (Rect.unit ![1, 0, 6, 0] S1x128x1x64.size inb_S2x128x8x64_S1x128x1x64_1_0_6_0)) (ldK kc (Rect.unit ![1, 0, 7, 0] S1x128x1x64.size inb_S2x128x8x64_S1x128x1x64_1_0_7_0)) (ldV vc (Rect.unit ![1, 0, 7, 0] S1x128x1x64.size inb_S2x128x8x64_S1x128x1x64_1_0_7_0)), wov⟩))
      ⊢ wp frame (wpE (defs₀ (F := F)) Variants.none c none) Set.univ
          (atBufs k0_part10 v32 v183 v201 v219 v237 v255 v273 v291 v292 v294) Kt := by
  rw [atBufs, k0_part10_eq_skeleton, kP_eq, vP_eq]; unfold k0_part10_skel woP; rw [whole_pt cc0_stg2_0]
  iintro ⟨⟨Hk, Hv, Hw⟩, HK⟩
  sl_exec
  erw [Memref.readAt_unit_zero (Elt F) cc0_stg2_0 (by decide) inb_S512x512_S512x512_0_0, wp_ret]; imodintro
  iapply HK $$ [$]

theorem attVal_chain (xv : Vec F S2x128x512 .f32) (wqv : Vec F S512x512 .f32) (kc vc : Vec F S2x128x8x64 .f32) :
    k0_pay35 (k0_pay2 xv wqv)
      (k0_pay19 (k0_pay2 xv wqv) (k0_pay6 (k0_pay3 (ldV vc (Rect.unit ![0, 0, 0, 0] S1x128x1x64.size inb_S2x128x8x64_S1x128x1x64_0_0_0_0))) (k0_pay4 xv wqv (ldK kc (Rect.unit ![0, 0, 0, 0] S1x128x1x64.size inb_S2x128x8x64_S1x128x1x64_0_0_0_0))) (k0_pay5 xv wqv (ldK kc (Rect.unit ![0, 0, 0, 0] S1x128x1x64.size inb_S2x128x8x64_S1x128x1x64_0_0_0_0)))) (k0_pay7 (k0_pay2 xv wqv) (ldK kc (Rect.unit ![0, 0, 1, 0] S1x128x1x64.size inb_S2x128x8x64_S1x128x1x64_0_0_1_0)) (ldV vc (Rect.unit ![0, 0, 1, 0] S1x128x1x64.size inb_S2x128x8x64_S1x128x1x64_0_0_1_0))) (k0_pay11 (k0_pay8 (ldV vc (Rect.unit ![0, 0, 2, 0] S1x128x1x64.size inb_S2x128x8x64_S1x128x1x64_0_0_2_0))) (k0_pay9 (k0_pay2 xv wqv) (ldK kc (Rect.unit ![0, 0, 2, 0] S1x128x1x64.size inb_S2x128x8x64_S1x128x1x64_0_0_2_0))) (k0_pay10 (k0_pay2 xv wqv) (ldK kc (Rect.unit ![0, 0, 2, 0] S1x128x1x64.size inb_S2x128x8x64_S1x128x1x64_0_0_2_0)))) (k0_pay12 (k0_pay2 xv wqv) (ldK kc (Rect.unit ![0, 0, 3, 0] S1x128x1x64.size inb_S2x128x8x64_S1x128x1x64_0_0_3_0)) (ldV vc (Rect.unit ![0, 0, 3, 0] S1x128x1x64.size inb_S2x128x8x64_S1x128x1x64_0_0_3_0))) (k0_pay15 (k0_pay13 (ldV vc (Rect.unit ![0, 0, 4, 0] S1x128x1x64.size inb_S2x128x8x64_S1x128x1x64_0_0_4_0))) (k0_pay14 (k0_pay2 xv wqv) (ldK kc (Rect.unit ![0, 0, 4, 0] S1x128x1x64.size inb_S2x128x8x64_S1x128x1x64_0_0_4_0)))) (k0_pay16 (k0_pay2 xv wqv) (ldK kc (Rect.unit ![0, 0, 5, 0] S1x128x1x64.size inb_S2x128x8x64_S1x128x1x64_0_0_5_0)) (ldV vc (Rect.unit ![0, 0, 5, 0] S1x128x1x64.size inb_S2x128x8x64_S1x128x1x64_0_0_5_0))) (k0_pay17 (ldV vc (Rect.unit ![0, 0, 6, 0] S1x128x1x64.size inb_S2x128x8x64_S1x128x1x64_0_0_6_0))) (k0_pay18 (k0_pay2 xv wqv) (ldK kc (Rect.unit ![0, 0, 6, 0] S1x128x1x64.size inb_S2x128x8x64_S1x128x1x64_0_0_6_0))) (Scalar.ofBits .f32 0x3E000000#32) (ldK kc (Rect.unit ![0, 0, 7, 0] S1x128x1x64.size inb_S2x128x8x64_S1x128x1x64_0_0_7_0)) (ldV vc (Rect.unit ![0, 0, 7, 0] S1x128x1x64.size inb_S2x128x8x64_S1x128x1x64_0_0_7_0)))
      (k0_pay23 (k0_pay20 (k0_pay2 xv wqv)) (k0_pay21 (ldK kc (Rect.unit ![1, 0, 0, 0] S1x128x1x64.size inb_S2x128x8x64_S1x128x1x64_1_0_0_0))) (k0_pay22 (ldV vc (Rect.unit ![1, 0, 0, 0] S1x128x1x64.size inb_S2x128x8x64_S1x128x1x64_1_0_0_0))))
      (k0_pay24 (k0_pay2 xv wqv) (ldK kc (Rect.unit ![1, 0, 1, 0] S1x128x1x64.size inb_S2x128x8x64_S1x128x1x64_1_0_1_0)) (ldV vc (Rect.unit ![1, 0, 1, 0] S1x128x1x64.size inb_S2x128x8x64_S1x128x1x64_1_0_1_0)))
      (k0_pay27 (k0_pay25 (k0_pay2 xv wqv)) (k0_pay26 (ldK kc (Rect.unit ![1, 0, 2, 0] S1x128x1x64.size inb_S2x128x8x64_S1x128x1x64_1_0_2_0))) (ldV vc (Rect.unit ![1, 0, 2, 0] S1x128x1x64.size inb_S2x128x8x64_S1x128x1x64_1_0_2_0)))
      (k0_pay28 (k0_pay2 xv wqv) (ldK kc (Rect.unit ![1, 0, 3, 0] S1x128x1x64.size inb_S2x128x8x64_S1x128x1x64_1_0_3_0)) (ldV vc (Rect.unit ![1, 0, 3, 0] S1x128x1x64.size inb_S2x128x8x64_S1x128x1x64_1_0_3_0)))
      (k0_pay31 (k0_pay29 (k0_pay2 xv wqv)) (k0_pay30 (ldK kc (Rect.unit ![1, 0, 4, 0] S1x128x1x64.size inb_S2x128x8x64_S1x128x1x64_1_0_4_0))) (ldV vc (Rect.unit ![1, 0, 4, 0] S1x128x1x64.size inb_S2x128x8x64_S1x128x1x64_1_0_4_0)))
      (k0_pay32 (k0_pay2 xv wqv) (ldK kc (Rect.unit ![1, 0, 5, 0] S1x128x1x64.size inb_S2x128x8x64_S1x128x1x64_1_0_5_0)) (ldV vc (Rect.unit ![1, 0, 5, 0] S1x128x1x64.size inb_S2x128x8x64_S1x128x1x64_1_0_5_0)))
      (k0_pay33 (k0_pay2 xv wqv)) (k0_pay34 (ldK kc (Rect.unit ![1, 0, 6, 0] S1x128x1x64.size inb_S2x128x8x64_S1x128x1x64_1_0_6_0)))
      (ldV vc (Rect.unit ![1, 0, 6, 0] S1x128x1x64.size inb_S2x128x8x64_S1x128x1x64_1_0_6_0)) (ldK kc (Rect.unit ![1, 0, 7, 0] S1x128x1x64.size inb_S2x128x8x64_S1x128x1x64_1_0_7_0)) (ldV vc (Rect.unit ![1, 0, 7, 0] S1x128x1x64.size inb_S2x128x8x64_S1x128x1x64_1_0_7_0))
      = Comp.attVal xv wqv kc vc := rfl

end Cert.Kernel.Hyper

end
-- ==== Proof.K.Part1.lean ====
import proofs.«900512_g7700000000000513_dist_attn_cross_mha_kvrep_htp_b2_sq128_skv128_d512_hq8_dh64_v7x_i32_f32_1_alg».proof.Proof.K.State
import proofs.«900512_g7700000000000513_dist_attn_cross_mha_kvrep_htp_b2_sq128_skv128_d512_hq8_dh64_v7x_i32_f32_1_alg».proof.Proof.K.Steps

noncomputable section

namespace Cert.Kernel.Hyper

open Cert.Kernel Cert.Kernel.Gen Cert.Kernel.Net Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem part1_spec (K : Dev nD × Fin 21 → ℕ) (c : Dev nD) (W : Waits sig Unit) (Kt : (Σ' (_ : Dev nD), BitVec 32) → sProp 𝕄) :
    iprop((records m K ∗ levAts L lv ∗ owes (c : Thread nD τ) (Ow0 c) W
          ∗ dutyTok ER (cell (nb 0 c) (.reg barS)) 0 (0 : Fin 5) ∗ dutyTok ER (cell (nb 1 c) (.reg barS)) 0 (1 : Fin 5)
          ∗ dutyTok ER (cell (nb 2 c) (.reg barS)) 0 (2 : Fin 5) ∗ dutyTok ER (cell (nb 3 c) (.reg barS)) 0 (3 : Fin 5)
          ∗ dutyTok ER (cell (nb 4 c) (.reg barS)) 0 (4 : Fin 5)
          ∗ (∃ f : Buf (Elt F) (rcvLoc c), rcvLoc c ↦{fullShare} f)
          ∗ cred (tallyAt (cell c (.reg barS)) () 5) ∗ atPos ER (cell c (.reg barS)) 0 ∅ 0)
        ∗ (∀ (v2 : BitVec 32) (W' : Waits sig Unit), iprop(owes (c : Thread nD τ) (Ow5 c) W' ∗ atPos ER (cell c (.reg barS)) 1 ∅ 0
            ∗ PR0 (F := F) c ∗ PR1 (F := F) c ∗ PR2 (F := F) c ∗ PR3 (F := F) c ∗ PR4 (F := F) c) -∗ Kt ⟨c, v2⟩))
      ⊢ wp frame (wpE (defs₀ (F := F)) 𝒱₀ (c : Thread nD τ) none) Set.univ (atBufs k0_part1) Kt := by
  rw [atBufs, k0_part1_eq_skeleton]; unfold k0_part1_skel
  simp only [semSignalWord, semWaitWord, Prog.lift, Prog.bind_op, Prog.bind_ret, Prog.pure_eq_ret, wp_deviceId]
  simp only [Net.dev1_eq c, Net.dev2_eq c, Net.dev3_eq c, Net.dev4_eq c, Net.dev5_eq c]
  iintro ⟨⟨#HR, #Hlev, HO, Ht0, Ht1, Ht2, Ht3, Ht4, ⟨%f, Hrcv⟩, Hc, Hat⟩, Hk⟩
  icases (rcv_split c f).1 $$ Hrcv with ⟨H0, H1, H2, H3, H4⟩
  iapply (step_signal m rcv4 0 0 rfl (fun _ => rfl) K c f (Ow1 c) W) $$ [HO Ht0 H4]; · iframe HR Ht0 H4; iexact HO
  iintro HO
  iapply (step_signal m rcv3 1 1 rfl (fun _ => rfl) K c f (Ow2 c) W) $$ [HO Ht1 H3]; · iframe HR Ht1 H3; iexact HO
  iintro HO
  iapply (step_signal m rcv2 2 2 rfl (fun _ => rfl) K c f (Ow3 c) W) $$ [HO Ht2 H2]; · iframe HR Ht2 H2; iexact HO
  iintro HO
  iapply (step_signal m rcv1 3 3 rfl (fun _ => rfl) K c f (Ow4 c) W) $$ [HO Ht3 H1]; · iframe HR Ht3 H1; iexact HO
  iintro HO
  iapply (step_signal m rcv0 4 4 rfl (fun _ => rfl) K c f (Ow5 c) W) $$ [HO Ht4 H0]; · iframe HR Ht4 H0; iexact HO
  iintro HO
  iapply (step_wait_cell m K c (.reg barS) 0 rfl (expect_bar (A0m m) c) (rest_bar (A0m m) c) (wpE_semWait_eq 𝒱₀ (c : Thread nD τ) none Set.univ) (Ow5 c) W) $$ [Hc HO Hat]
  · iframe HR Hc HO Hat
    iapply (mayWait_of c (.reg barS) (Ow5 c) (Ow5_lev c)); iexact Hlev
  unfold barPay
  iintro ⟨HO, Hat, ⟨%q0, %h0, Hb0⟩, ⟨%q1, %h1, Hb1⟩, ⟨%q2, %h2, Hb2⟩, ⟨%q3, %h3, Hb3⟩, ⟨%q4, %h4, Hb4⟩⟩
  subst h0 h1 h2 h3 h4
  rw [wp_ret]; imodintro
  iapply Hk
  unfold PR0 PR1 PR2 PR3 PR4
  iframe

end Cert.Kernel.Hyper

end
-- ==== Proof.K.PartsRS.lean ====
import proofs.«900512_g7700000000000513_dist_attn_cross_mha_kvrep_htp_b2_sq128_skv128_d512_hq8_dh64_v7x_i32_f32_1_alg».proof.Proof.K.State
import proofs.«900512_g7700000000000513_dist_attn_cross_mha_kvrep_htp_b2_sq128_skv128_d512_hq8_dh64_v7x_i32_f32_1_alg».proof.Proof.K.Steps

noncomputable section

namespace Cert.Kernel.Hyper

open Cert.Kernel Cert.Kernel.Gen Cert.Kernel.Net Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem write_acc_whole (f w : (cc0_scratch0 : Ref sig .tc).ty.Contents (Elt F)) :
    ((accM : Memref sig .tc .vmem S256x512 .f32).access (Rect.unit (s := S256x512) ![0, 0] S256x512.size inb_S256x512_S256x512_0_0) : View sig .tc _ _ _).write (Elt F) f w Finset.univ = w :=
  Memref.write_access_unit_zero_univ (Elt F) cc0_scratch0 (by funext a; fin_cases a <;> rfl) _ f w

-- What a transfer sends, laid over the partner's region, is the payload of the partner's receive cell.
theorem rs_tx (K : Dev nD × Fin 21 → ℕ) (c q : Dev nD) {j : ℕ} (hq : q = nb j c) {S : Shape}
    (sn : Dev nD → Memref sig .tc .vmem S .f32) (rc : Memref sig .tc .vmem S .f32) {sS sR : DmaSem sig} (iS iR : Fin 21)
    {a b : ℕ} (haS : slot (.dma sS : SemLoc sig) = a) (haR : slot (.dma sR : SemLoc sig) = b)
    (A : (c' : Dev nD) → Buf (Elt F) ((sn c').view.loc (c' : Thread nD τ))) (O : CellTallies nD τ sig Unit)
    {hsc : rc.view.ref.isScScratch = false}
    {hsrc : (sn c).view.WordExact} {hdst : rc.view.WordExact}
    {hsem : DmaTarget.Typed .vmem (.dma sR) (.remote (Dev.tc q : Thread nD τ) rc (.dma sS) hsc)}
    {α : Type} {Q : α → sProp 𝕄} {k : PUnit → Prog (TpuEff nD τ sig (Elt F) Λ₀ .tc) α} {W : Waits sig Unit}
    (hj : j < 5 := by decide) (hiS : csem iS = .dma sS := by rfl) (hiR : csem iR = .dma sR := by rfl)
    (h7 : 7 ≤ a ∧ 7 ≤ b := by decide) (hNS : amt a = rc.view.dmaCredit := by rfl) (hNR : amt b = rc.view.dmaCredit := by rfl)
    (hpS : pay (A0m m) c a 0 = iprop(emp) := by rfl)
    (hpR : pay (A0m m) (nb j c) b 0 = iprop(∃ q', ⌜q' = nb j (nb j c)⌝ ∗ ∃ fd,
      (rc.view.loc (nb j c : Thread nD τ) ↦[rc.view.set]{fullShare} rc.view.write (Elt F) fd ((sn q').view.read (Elt F) (A q')) Finset.univ)
        ∗ ((sn q').view.loc (q' : Thread nD τ) ↦[(sn q').view.set]{fullShare} A q')) := by rfl) :
    iprop(records m K ∗ ((sn c).view.loc (c : Thread nD τ) ↦[(sn c).view.set]{fullShare} A c)
        ∗ tok (F := F) c sS ∗ tok (F := F) (nb j c) sR
        ∗ (∃ f, rc.view.loc (nb j c : Thread nD τ) ↦[rc.view.set]{fullShare} f)
        ∗ owes (c : Thread nD τ) (O + tallyAt (cell (nb j c) (.dma sR)) () rc.view.dmaCredit) W)
      ⊢ iprop(((crd (F := F) c sS rc.view.dmaCredit ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (sn c) (.remote (Dev.tc q : Thread nD τ) rc (.dma sS) hsc) (.dma sR) hsrc hdst hsem) k) Q) := by
  subst hq haS haR
  iintro ⟨#HR, Hs, Ht1, Ht2, ⟨%fd, Hd⟩, HO⟩ Hk
  iapply (Rounds.wp_send_landing_pointsTo 𝒱₀ ER (Rd (A0m m)) (c : Thread nD τ) none (κ₁ := K (c, iS)) (κ₂ := K (nb j c, iR))
      (r₁ := 0) (r₂ := 0) (d₁ := (0 : Fin 5)) (d₂ := (0 : Fin 5)) (fd := fd)
      (by rw [duties_dma (A0m m) c sS h7.1]; exact Finset.mem_singleton_self _)
      (by rw [duties_dma (A0m m) (nb j c) sR h7.2]; exact Finset.mem_singleton_self _)
      () () rc.view.dmaCredit rfl ((amount_eq (A0m m) c (.dma sS) 0 0).trans hNS) ((amount_eq (A0m m) (nb j c) (.dma sR) 0 0).trans hNR)
      O rfl
      (by rw [payload_eq, hpS])
      (by
        rw [payload_eq, hpR]
        iintro ⟨Hd, Hs⟩
        iexists c
        isplitr; · ipureintro; exact (nb_nb ⟨j, hj⟩ c).symm
        iexists fd
        iframe)) $$ [Hs Hd HO Ht1 Ht2]
  · isplitr; · iapply (inv_sem m K c (.dma sS) iS hiS); iexact HR
    isplitr; · iapply (inv_sem m K (nb j c) (.dma sR) iR hiR); iexact HR
    iframe Hs Hd HO Ht1
    isplitr; · iapply (reached_sem m K c (.dma sS) iS hiS); iexact HR
    iframe Ht2
    iapply (reached_sem m K (nb j c) (.dma sR) iR hiR); iexact HR
  iexact Hk

-- A device may wait on a cell that lies below every cell it still owes; the wait hands over the cell's payload.
theorem rs_wait (K : Dev nD × Fin 21 → ℕ) (c : Dev nD) {s : DmaSem sig} (i : Fin 21)
    {a b : ℕ} (ha : slot (.dma s : SemLoc sig) = a) {O : CellTallies nD τ sig Unit}
    (hO : ∀ (g : GSem nD τ sig) (u : Unit), 0 < O g u → g.1.2 = .tc ∧ b ≤ lvS (slot g.2))
    {S : Shape} (src dst : Memref sig .tc .vmem S .f32) {hsrc : src.view.WordExact} {hdst : dst.view.WordExact} (N : ℕ) {P : sProp 𝕄}
    {α : Type} {Q : α → sProp 𝕄} {k : PUnit → Prog (TpuEff nD τ sig (Elt F) Λ₀ .tc) α} {W : Waits sig Unit}
    (hi : csem i = .dma s := by rfl) (hab : 7 ≤ a ∧ lvS a < b := by decide) (hN : amt a = N := by rfl)
    (hd : N = dst.view.dmaCredit := by rfl) (hP : pay (A0m m) c a 0 = P := by rfl) :
    iprop(records m K ∗ levAts L lv ∗ crd (F := F) c s N ∗ owes (c : Thread nD τ) O W ∗ pos (F := F) c s 0)
      ⊢ iprop(((owes (c : Thread nD τ) O (insert (.dma s, ()) W) ∗ pos (F := F) c s 1 ∗ P) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst ha hN hP
  iintro ⟨#HR, #Hl, Hc, HO, Hp⟩
  iapply (step_wait m K c s hab.1 i hi (w := .waitDma2 s src dst hsrc hdst) (fun Kq => by rw [hd]; rfl) O W) $$ [Hc HO Hp]
  iframe HR Hc HO Hp
  iapply (mayWait_of c (.dma s) O fun g u h => ⟨(hO g u h).1, lt_of_lt_of_le hab.2 (hO g u h).2⟩); iexact Hl

set_option maxHeartbeats 800000 in
theorem part11_spec (K : Dev nD × Fin 21 → ℕ) (c : Dev nD) (v2 : BitVec 32) (v329 : FVec F S256x512 .f32) (v330 : Vec F S512x512 .f32) (hv : k0_pay36 v329 v330 = A0m m c) (W : Waits sig Unit) (Kt : BitVec 32 → sProp 𝕄) :
    iprop((records m K ∗ levAts L lv ∗ (∃ f : Buf (Elt F) (accLoc c), accLoc c ↦{fullShare} f)
        ∗ PR0 (F := F) c
        ∗ owes (c : Thread nD τ) (Ow5 c) W
        ∗ tok (F := F) c rsS0
        ∗ tok (F := F) (nb 4 c) rsR0
        ∗ pos (F := F) c rsS0 0)
        ∗ (∀ (r : BitVec 32) (W' : Waits sig Unit), iprop(accOwn c (own1 c) (A0m m c)
            ∗ owes (c : Thread nD τ) (Ow6 c) W'
            ∗ pos (F := F) c rsS0 1) -∗ Kt r))
      ⊢ wp frame (wpE (defs₀ (F := F)) 𝒱₀ (c : Thread nD τ) none) Set.univ (atBufs k0_part11 c v2 v329 v330) Kt := by
  rw [atBufs, k0_part11_eq_skeleton]; unfold k0_part11_skel
  simp only [Prog.lift, Prog.bind_op, Prog.bind_ret, Prog.pure_eq_ret]
  iintro ⟨⟨#HR, #Hlev, ⟨%f, Hacc⟩, HPR, HO, HtS, HtR, HposS⟩, Hk⟩
  iapply (wp_load 𝒱₀ (c : Thread nD τ) _ _ (Finset.subset_univ _)) $$ Hacc; iintro Hacc
  iapply (wp_store 𝒱₀ (c : Thread nD τ) _ _ (m := accM) (r := Rect.unit (s := S256x512) ![0, 0] S256x512.size inb_S256x512_S256x512_0_0) (Finset.subset_univ _)) $$ Hacc; iintro Hacc
  rw [write_acc_whole, hv]
  ihave Hsp := (rs_split0 c (A0m m c)).mp $$ Hacc
  icases Hsp with ⟨Hs, Hown⟩
  unfold PR0
  iapply (rs_tx m K c _ (dev6_eq c) snd0 rcv0 1 6 slot_rsS0 slot_rsR0 (A0m m) (Ow6 c)) $$ [Hs HPR HO HtS HtR]
  · iframe # ∗
    iexact HO
  iintro ⟨HcS, HO⟩
  iapply (rs_wait m K c 1 slot_rsS0 (Ow6_lev c) rcv0 (snd0 c) NR0) $$ [HcS HO HposS]
  · iframe # ∗
  iintro ⟨HO, HposS, -⟩
  rw [wp_ret]; imodintro
  iapply Hk $$ %_ %_
  iframe

set_option maxHeartbeats 800000 in
theorem part12_spec (K : Dev nD × Fin 21 → ℕ) (c : Dev nD) (v2 v340 : BitVec 32) (W : Waits sig Unit) (Kt : (Σ' (_ : BitVec 32), BitVec 32) → sProp 𝕄) :
    iprop((records m K ∗ levAts L lv ∗ accOwn c (own1 c) (A0m m c)
        ∗ owes (c : Thread nD τ) (Ow6 c) W
        ∗ pos (F := F) c rsR0 0
        ∗ crd (F := F) c rsR0 NR0
        ∗ PR1 (F := F) c
        ∗ tok (F := F) c rsS1
        ∗ tok (F := F) (nb 3 c) rsR1
        ∗ pos (F := F) c rsS1 0)
        ∗ (∀ (r : (Σ' (_ : BitVec 32), BitVec 32)) (W' : Waits sig Unit), iprop(accOwn c (own2 c) (A1 (A0m m) c)
            ∗ owes (c : Thread nD τ) (Ow7 c) W'
            ∗ pos (F := F) c rsR0 1
            ∗ pos (F := F) c rsS1 1
            ∗ OA0 m c
            ∗ RV0 (F := F) c) -∗ Kt r))
      ⊢ wp frame (wpE (defs₀ (F := F)) 𝒱₀ (c : Thread nD τ) none) Set.univ (atBufs k0_part12 c v2 v340) Kt := by
  rw [atBufs, k0_part12_eq_skeleton]; unfold k0_part12_skel
  simp only [Prog.lift, Prog.bind_op, Prog.bind_ret, Prog.pure_eq_ret]
  iintro ⟨⟨#HR, #Hlev, Hown, HO, HposR, HcR, HPR, HtS, HtR, HposS⟩, Hk⟩
  iapply (rs_wait m K c 6 slot_rsR0 (Ow6_lev c) (snd0 c) rcv0 NR0 (P := rsPay0 (A0m m) c)) $$ [HcR HO HposR]
  · iframe # ∗
  iintro ⟨HO, HposR, Hland⟩
  unfold rsPay0
  icases Hland with ⟨%q, %hq, %fd, Hrcv, Hoa⟩
  subst hq
  iapply (wp_load 𝒱₀ (c : Thread nD τ) _ _ (load_sub0 c)) $$ Hown; iintro Hown
  iapply (wp_load 𝒱₀ (c : Thread nD τ) _ _ rcv_load_sub0) $$ Hrcv; iintro Hrcv
  rw [rcv_read0]
  iapply (wp_load 𝒱₀ (c : Thread nD τ) _ _ (load_sub0 c)) $$ Hown; iintro Hown
  iapply (wp_store 𝒱₀ (c : Thread nD τ) _ _ (m := accM) (r := kpR0 c) (S := own1 c) (Finset.Subset.refl _)) $$ Hown; iintro Hown
  ihave Hown : accOwn c (own1 c) (A1 (A0m m) c) $$ [Hown]
  · iexact Hown
  icases (rs_split1 c (A1 (A0m m) c)).mp $$ Hown with ⟨Hs, Hown⟩
  unfold PR1
  iapply (rs_tx m K c _ (dev7_eq c) snd1 rcv1 2 7 slot_rsS1 slot_rsR1 (A1 (A0m m)) (Ow7 c)) $$ [Hs HPR HO HtS HtR]
  · iframe # ∗
    iexact HO
  iintro ⟨HcS, HO⟩
  iapply (rs_wait m K c 2 slot_rsS1 (Ow7_lev c) rcv1 (snd1 c) NR1) $$ [HcS HO HposS]
  · iframe # ∗
  iintro ⟨HO, HposS, -⟩
  rw [wp_ret]; imodintro
  iapply Hk $$ %_ %_
  unfold OA0 RV0
  iframe
  iexists _; iexact Hrcv

set_option maxHeartbeats 800000 in
theorem part13_spec (K : Dev nD × Fin 21 → ℕ) (c : Dev nD) (v2 v370 v374 : BitVec 32) (W : Waits sig Unit) (Kt : (Σ' (_ : BitVec 32), BitVec 32) → sProp 𝕄) :
    iprop((records m K ∗ levAts L lv ∗ accOwn c (own2 c) (A1 (A0m m) c)
        ∗ owes (c : Thread nD τ) (Ow7 c) W
        ∗ pos (F := F) c rsR1 0
        ∗ crd (F := F) c rsR1 NR1
        ∗ PR2 (F := F) c
        ∗ tok (F := F) c rsS2
        ∗ tok (F := F) (nb 2 c) rsR2)
        ∗ (∀ (r : (Σ' (_ : BitVec 32), BitVec 32)) (W' : Waits sig Unit), iprop(accOwn c (own3 c) (A2 (A0m m) c)
            ∗ owes (c : Thread nD τ) (Ow8 c) W'
            ∗ pos (F := F) c rsR1 1
            ∗ OA1 m c
            ∗ RV1 (F := F) c
            ∗ crd (F := F) c rsS2 NR2) -∗ Kt r))
      ⊢ wp frame (wpE (defs₀ (F := F)) 𝒱₀ (c : Thread nD τ) none) Set.univ (atBufs k0_part13 c v2 v370 v374) Kt := by
  rw [atBufs, k0_part13_eq_skeleton]; unfold k0_part13_skel
  simp only [Prog.lift, Prog.bind_op, Prog.bind_ret, Prog.pure_eq_ret]
  iintro ⟨⟨#HR, #Hlev, Hown, HO, HposR, HcR, HPR, HtS, HtR⟩, Hk⟩
  iapply (rs_wait m K c 7 slot_rsR1 (Ow7_lev c) (snd1 c) rcv1 NR1 (P := rsPay1 (A0m m) c)) $$ [HcR HO HposR]
  · iframe # ∗
  iintro ⟨HO, HposR, Hland⟩
  unfold rsPay1
  icases Hland with ⟨%q, %hq, %fd, Hrcv, Hoa⟩
  subst hq
  iapply (wp_load 𝒱₀ (c : Thread nD τ) _ _ (load_sub1 c)) $$ Hown; iintro Hown
  iapply (wp_load 𝒱₀ (c : Thread nD τ) _ _ rcv_load_sub1) $$ Hrcv; iintro Hrcv
  rw [rcv_read1]
  iapply (wp_load 𝒱₀ (c : Thread nD τ) _ _ (load_sub1 c)) $$ Hown; iintro Hown
  iapply (wp_store 𝒱₀ (c : Thread nD τ) _ _ (m := accM) (r := kpR1 c) (S := own2 c) (Finset.Subset.refl _)) $$ Hown; iintro Hown
  ihave Hown : accOwn c (own2 c) (A2 (A0m m) c) $$ [Hown]
  · iexact Hown
  icases (rs_split2 c (A2 (A0m m) c)).mp $$ Hown with ⟨Hs, Hown⟩
  unfold PR2
  iapply (rs_tx m K c _ (dev8_eq c) snd2 rcv2 3 8 slot_rsS2 slot_rsR2 (A2 (A0m m)) (Ow8 c)) $$ [Hs HPR HO HtS HtR]
  · iframe # ∗
    iexact HO
  iintro ⟨HcS, HO⟩
  rw [wp_ret]; imodintro
  iapply Hk $$ %_ %_
  unfold OA1 RV1
  iframe
  iexists _; iexact Hrcv

set_option maxHeartbeats 800000 in
theorem part14_spec (K : Dev nD × Fin 21 → ℕ) (c : Dev nD) (v2 v404 v408 : BitVec 32) (W : Waits sig Unit) (Kt : (Σ' (_ : BitVec 32), BitVec 32) → sProp 𝕄) :
    iprop((records m K ∗ levAts L lv ∗ accOwn c (own3 c) (A2 (A0m m) c)
        ∗ owes (c : Thread nD τ) (Ow8 c) W
        ∗ crd (F := F) c rsS2 NR2
        ∗ pos (F := F) c rsS2 0
        ∗ pos (F := F) c rsR2 0
        ∗ crd (F := F) c rsR2 NR2)
        ∗ (∀ (r : (Σ' (_ : BitVec 32), BitVec 32)) (W' : Waits sig Unit), iprop(accOwn c (own3 c) (A3 (A0m m) c)
            ∗ owes (c : Thread nD τ) (Ow8 c) W'
            ∗ pos (F := F) c rsS2 1
            ∗ pos (F := F) c rsR2 1
            ∗ OA2 m c
            ∗ RV2 (F := F) c) -∗ Kt r))
      ⊢ wp frame (wpE (defs₀ (F := F)) 𝒱₀ (c : Thread nD τ) none) Set.univ (atBufs k0_part14 c v2 v404 v408) Kt := by
  rw [atBufs, k0_part14_eq_skeleton]; unfold k0_part14_skel
  simp only [Prog.lift, Prog.bind_op, Prog.bind_ret, Prog.pure_eq_ret]
  iintro ⟨⟨#HR, #Hlev, Hown, HO, HcS, HposS, HposR, HcR⟩, Hk⟩
  iapply (rs_wait m K c 3 slot_rsS2 (Ow8_lev c) rcv2 (snd2 c) NR2) $$ [HcS HO HposS]
  · iframe # ∗
  iintro ⟨HO, HposS, -⟩
  iapply (rs_wait m K c 8 slot_rsR2 (Ow8_lev c) (snd2 c) rcv2 NR2 (P := rsPay2 (A0m m) c)) $$ [HcR HO HposR]
  · iframe # ∗
  iintro ⟨HO, HposR, Hland⟩
  unfold rsPay2
  icases Hland with ⟨%q, %hq, %fd, Hrcv, Hoa⟩
  subst hq
  iapply (wp_load 𝒱₀ (c : Thread nD τ) _ _ (load_sub2 c)) $$ Hown; iintro Hown
  iapply (wp_load 𝒱₀ (c : Thread nD τ) _ _ rcv_load_sub2) $$ Hrcv; iintro Hrcv
  rw [rcv_read2]
  iapply (wp_load 𝒱₀ (c : Thread nD τ) _ _ (load_sub2 c)) $$ Hown; iintro Hown
  iapply (wp_store 𝒱₀ (c : Thread nD τ) _ _ (m := accM) (r := kpR2 c) (S := own3 c) (Finset.Subset.refl _)) $$ Hown; iintro Hown
  rw [wp_ret]; imodintro
  iapply Hk $$ %_ %_
  unfold OA2 RV2
  isplitl [Hown]; · iexact Hown
  iframe
  iexists _; iexact Hrcv

set_option maxHeartbeats 800000 in
theorem part15_spec (K : Dev nD × Fin 21 → ℕ) (c : Dev nD) (v2 v438 v442 : BitVec 32) (W : Waits sig Unit) (Kt : (Σ' (_ : BitVec 32) (_ : BitVec 32), BitVec 32) → sProp 𝕄) :
    iprop((records m K ∗ levAts L lv ∗ accOwn c (own3 c) (A3 (A0m m) c)
        ∗ owes (c : Thread nD τ) (Ow8 c) W
        ∗ PR3 (F := F) c
        ∗ tok (F := F) c rsS3
        ∗ tok (F := F) (nb 1 c) rsR3
        ∗ pos (F := F) c rsS3 0
        ∗ pos (F := F) c rsR3 0
        ∗ crd (F := F) c rsR3 NR3)
        ∗ (∀ (r : (Σ' (_ : BitVec 32) (_ : BitVec 32), BitVec 32)) (W' : Waits sig Unit), iprop(accOwn c (own4 c) (A4 (A0m m) c)
            ∗ owes (c : Thread nD τ) (Ow9 c) W'
            ∗ pos (F := F) c rsS3 1
            ∗ pos (F := F) c rsR3 1
            ∗ OA3 m c
            ∗ RV3 (F := F) c) -∗ Kt r))
      ⊢ wp frame (wpE (defs₀ (F := F)) 𝒱₀ (c : Thread nD τ) none) Set.univ (atBufs k0_part15 c v2 v438 v442) Kt := by
  rw [atBufs, k0_part15_eq_skeleton]; unfold k0_part15_skel
  simp only [Prog.lift, Prog.bind_op, Prog.bind_ret, Prog.pure_eq_ret]
  iintro ⟨⟨#HR, #Hlev, Hown, HO, HPR, HtS, HtR, HposS, HposR, HcR⟩, Hk⟩
  icases (rs_split3 c (A3 (A0m m) c)).mp $$ Hown with ⟨Hs, Hown⟩
  unfold PR3
  iapply (rs_tx m K c _ (dev9_eq c) snd3 rcv3 4 9 slot_rsS3 slot_rsR3 (A3 (A0m m)) (Ow9 c)) $$ [Hs HPR HO HtS HtR]
  · iframe # ∗
    iexact HO
  iintro ⟨HcS, HO⟩
  iapply (rs_wait m K c 4 slot_rsS3 (Ow9_lev c) rcv3 (snd3 c) NR3) $$ [HcS HO HposS]
  · iframe # ∗
  iintro ⟨HO, HposS, -⟩
  iapply (rs_wait m K c 9 slot_rsR3 (Ow9_lev c) (snd3 c) rcv3 NR3 (P := rsPay3 (A0m m) c)) $$ [HcR HO HposR]
  · iframe # ∗
  iintro ⟨HO, HposR, Hland⟩
  unfold rsPay3
  icases Hland with ⟨%q, %hq, %fd, Hrcv, Hoa⟩
  subst hq
  iapply (wp_load 𝒱₀ (c : Thread nD τ) _ _ (load_sub3 c)) $$ Hown; iintro Hown
  iapply (wp_load 𝒱₀ (c : Thread nD τ) _ _ rcv_load_sub3) $$ Hrcv; iintro Hrcv
  rw [rcv_read3]
  iapply (wp_load 𝒱₀ (c : Thread nD τ) _ _ (load_sub3 c)) $$ Hown; iintro Hown
  iapply (wp_store 𝒱₀ (c : Thread nD τ) _ _ (m := accM) (r := kpR3 c) (S := own4 c) (Finset.Subset.refl _)) $$ Hown; iintro Hown
  rw [wp_ret]; imodintro
  iapply Hk $$ %_ %_
  unfold OA3 RV3
  isplitl [Hown]; · iexact Hown
  iframe
  iexists _; iexact Hrcv

set_option maxHeartbeats 800000 in
theorem part16_spec (K : Dev nD × Fin 21 → ℕ) (c : Dev nD) (v2 v472 v476 c1 : BitVec 32) (W : Waits sig Unit) (Kt : (Σ' (_ : BitVec 32), BitVec 32) → sProp 𝕄) :
    iprop((records m K ∗ levAts L lv ∗ accOwn c (own4 c) (A4 (A0m m) c)
        ∗ owes (c : Thread nD τ) (Ow9 c) W
        ∗ PR4 (F := F) c
        ∗ tok (F := F) c rsS4
        ∗ tok (F := F) (nb 0 c) rsR4
        ∗ pos (F := F) c rsS4 0
        ∗ pos (F := F) c rsR4 0
        ∗ crd (F := F) c rsR4 NR4)
        ∗ (∀ (r : (Σ' (_ : BitVec 32), BitVec 32)) (W' : Waits sig Unit), iprop(accOwn c (own5 c) (A5 (A0m m) c)
            ∗ owes (c : Thread nD τ) (Ow10 c) W'
            ∗ pos (F := F) c rsS4 1
            ∗ pos (F := F) c rsR4 1
            ∗ OA4 m c
            ∗ RV4 (F := F) c) -∗ Kt r))
      ⊢ wp frame (wpE (defs₀ (F := F)) 𝒱₀ (c : Thread nD τ) none) Set.univ (atBufs k0_part16 c v2 v472 v476 c1) Kt := by
  rw [atBufs, k0_part16_eq_skeleton]; unfold k0_part16_skel
  simp only [Prog.lift, Prog.bind_op, Prog.bind_ret, Prog.pure_eq_ret]
  iintro ⟨⟨#HR, #Hlev, Hown, HO, HPR, HtS, HtR, HposS, HposR, HcR⟩, Hk⟩
  icases (rs_split4 c (A4 (A0m m) c)).mp $$ Hown with ⟨Hs, Hown⟩
  unfold PR4
  iapply (rs_tx m K c _ (dev10_eq c) snd4 rcv4 5 10 slot_rsS4 slot_rsR4 (A4 (A0m m)) (Ow10 c)) $$ [Hs HPR HO HtS HtR]
  · iframe # ∗
    iexact HO
  iintro ⟨HcS, HO⟩
  iapply (rs_wait m K c 5 slot_rsS4 (Ow10_lev c) rcv4 (snd4 c) NR4) $$ [HcS HO HposS]
  · iframe # ∗
  iintro ⟨HO, HposS, -⟩
  iapply (rs_wait m K c 10 slot_rsR4 (Ow10_lev c) (snd4 c) rcv4 NR4 (P := rsPay4 (A0m m) c)) $$ [HcR HO HposR]
  · iframe # ∗
  iintro ⟨HO, HposR, Hland⟩
  unfold rsPay4
  icases Hland with ⟨%q, %hq, %fd, Hrcv, Hoa⟩
  subst hq
  iapply (wp_load 𝒱₀ (c : Thread nD τ) _ _ (load_sub4 c)) $$ Hown; iintro Hown
  iapply (wp_load 𝒱₀ (c : Thread nD τ) _ _ rcv_load_sub4) $$ Hrcv; iintro Hrcv
  rw [rcv_read4]
  iapply (wp_load 𝒱₀ (c : Thread nD τ) _ _ (load_sub4 c)) $$ Hown; iintro Hown
  iapply (wp_store 𝒱₀ (c : Thread nD τ) _ _ (m := accM) (r := kpR4 c) (S := own5 c) (Finset.Subset.refl _)) $$ Hown; iintro Hown
  rw [wp_ret]; imodintro
  iapply Hk $$ %_ %_
  unfold OA4 RV4
  isplitl [Hown]; · iexact Hown
  iframe
  iexists _; iexact Hrcv

end Cert.Kernel.Hyper

end
-- ==== Proof.K.PartsAG.lean ====
import proofs.«900512_g7700000000000513_dist_attn_cross_mha_kvrep_htp_b2_sq128_skv128_d512_hq8_dh64_v7x_i32_f32_1_alg».proof.Proof.K.State
import proofs.«900512_g7700000000000513_dist_attn_cross_mha_kvrep_htp_b2_sq128_skv128_d512_hq8_dh64_v7x_i32_f32_1_alg».proof.Proof.K.Steps

noncomputable section

namespace Cert.Kernel.Hyper

open Cert.Kernel Cert.Kernel.Gen Cert.Kernel.Net Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section
variable (K : Dev nD × Fin 21 → ℕ) (c : Dev nD) {S : Shape} (a : Memref sig .tc .vmem S .f32) {ha ha' : a.view.WordExact}

-- The partner's block, whichever device the landing names, joins the device's own.
theorem ag_land {c : Dev nD} {j : ℕ} {X : Dev nD → sProp 𝕄} {Y Z : sProp 𝕄} (hj : ∀ q : Dev nD, q = nb j c → iprop(Y ∗ X q) ⊢ Z) :
    iprop(Y ∗ ∃ q : Dev nD, ⌜q = nb j c⌝ ∗ X q) ⊢ Z := by
  iintro ⟨HY, %q, %hq, HX⟩; iapply (hj q hq); iframe HY HX

-- A wait on the transfer cell of slot `n`: allowed while everything still owed lies above the cell's level; `hP` says what its payload becomes.
theorem ag_wait {α : Type} {Q : α → sProp 𝕄} {k : PUnit → Prog (TpuEff nD τ sig (Elt F) Λ₀ .tc) α} {s : DmaSem sig} {n : ℕ} (hs : slot (.dma s : SemLoc sig) = n) (i : Fin 21) (N : ℕ)
    {Y Z : sProp 𝕄} (hP : iprop(Y ∗ pay (A0m m) c n 0) ⊢ Z)
    {O : CellTallies nD τ sig Unit} {b : ℕ} (hO : ∀ g u, 0 < O g u → g.1.2 = .tc ∧ b ≤ lvS (slot g.2)) {W : Waits sig Unit}
    (hi : csem i = .dma s := by rfl) (hN : amt n = N := by rfl) (hd : N = a.view.dmaCredit := by rfl) (hb : 7 ≤ n ∧ lvS n < b := by decide) :
    iprop(records m K ∗ levAts L lv ∗ crd c s N ∗ owes c.tc O W ∗ pos c s 0 ∗ Y)
      ⊢ iprop(((owes c.tc O (insert (.dma s, ()) W) ∗ pos c s 1 ∗ Z) -∗ wp frame (wpE (defs₀ (F := F)) 𝒱₀ c.tc none) Set.univ (k ⟨⟩) Q)
          -∗ wp frame (wpE (defs₀ (F := F)) 𝒱₀ c.tc none) Set.univ (.op (.waitDma2 s a a ha ha') k) Q) := by
  subst hs hN
  iintro ⟨#HR, #Hlev, Hc, HO, Hat, HY⟩ Hk
  iapply (step_wait m K c s hb.1 i hi (w := .waitDma2 s a a ha ha') (fun _ => by rw [hd]; rfl) O W) $$ [Hc HO Hat]
  · iframe HR Hc HO Hat
    iapply (mayWait_of c (.dma s) O fun g u h => ⟨(hO g u h).1, lt_of_lt_of_le hb.2 (hO g u h).2⟩); iexact Hlev
  iintro ⟨HO, Hat, Hp⟩
  iapply Hk
  iframe HO Hat
  iapply hP; iframe HY Hp

-- The transfer of a round: the device's block goes into the same rows of its partner along axis `j`, rows the device owns.
theorem ag_send {α : Type} {Q : α → sProp 𝕄} {k : PUnit → Prog (TpuEff nD τ sig (Elt F) Λ₀ .tc) α} (q : Dev nD) {j : ℕ} (hq : q = nb j c)
    {sS sR : DmaSem sig} {nS nR : ℕ} (hS : slot (.dma sS : SemLoc sig) = nS) (hR : slot (.dma sR : SemLoc sig) = nR)
    (iS iR : Fin 21) (N : ℕ) {fs fd} {X : Dev nD → sProp 𝕄} {hsc hsem} {O : CellTallies nD τ sig Unit} {W : Waits sig Unit}
    (h7 : j < 5 ∧ 7 ≤ nS ∧ 7 ≤ nR := by decide) (hiS : csem iS = .dma sS := by rfl) (hiR : csem iR = .dma sR := by rfl)
    (hNS : amt nS = N := by rfl) (hNR : amt nR = N := by rfl) (hd : a.view.dmaCredit = N := by rfl)
    (hpS : pay (A0m m) c nS 0 = (a.view.loc c.tc ↦[a.view.set]{fullShare} fs) := by rfl)
    (hpR : pay (A0m m) (nb j c) nR 0 = iprop(∃ p : Dev nD, ⌜p = nb j (nb j c)⌝ ∗ X p) := by rfl)
    (hX : X c = (a.view.loc (Dev.tc (nb j c)) ↦[a.view.set]{fullShare} a.view.write (Elt F) fd (a.view.read (Elt F) fs) Finset.univ) := by rfl) :
    iprop(records m K ∗ (a.view.loc c.tc ↦[a.view.set]{fullShare} fs)
        ∗ (a.view.loc (Dev.tc (nb j c)) ↦[a.view.set]{fullShare} fd)
        ∗ owes c.tc (O + tallyAt (cell (nb j c) (.dma sR)) () N) W
        ∗ tok c sS ∗ tok (nb j c) sR)
      ⊢ iprop(((crd c sS N ∗ owes c.tc O W) -∗ wp frame (wpE (defs₀ (F := F)) 𝒱₀ c.tc none) Set.univ (k ⟨⟩) Q)
          -∗ wp frame (wpE (defs₀ (F := F)) 𝒱₀ c.tc none) Set.univ (.op (.enqueueDma a (.remote q.tc a (.dma sS) hsc) (.dma sR) ha ha' hsem) k) Q) := by
  subst hq hS hR hNS
  iintro ⟨#HR, Hs, Hd, HO, Ht1, Ht2⟩
  iapply (Rounds.wp_send_pointsTo 𝒱₀ ER (Rd (A0m m)) c.tc none (κ₁ := K (c, iS)) (κ₂ := K (nb j c, iR))
      (c' := (Dev.tc (nb j c))) (src := a) (dst := a) (sS := .dma sS) (sem := .dma sR)
      (by rw [duties_dma (A0m m) c sS h7.2.1]; exact Finset.mem_singleton_self _)
      (by rw [duties_dma (A0m m) (nb j c) sR h7.2.2]; exact Finset.mem_singleton_self _)
      () () _ hd (amount_eq (A0m m) c (.dma sS) 0 0) ((amount_eq (A0m m) (nb j c) (.dma sR) 0 0).trans hNR)
      O rfl (W := W) (by rw [payload_eq, hpS])
      (by
        rw [payload_eq, hpR]
        iintro Hd
        iexists c
        isplitr; · ipureintro; exact (nb_nb ⟨j, h7.1⟩ c).symm
        rw [hX]; iexact Hd)) $$ [Hs Hd HO Ht1 Ht2]
  · isplitr; · iapply (inv_sem m K c (.dma sS) iS hiS); iexact HR
    isplitr; · iapply (inv_sem m K (nb j c) (.dma sR) iR hiR); iexact HR
    iframe Hs Hd HO Ht1 Ht2
    isplitr; · iapply (reached_sem m K c (.dma sS) iS hiS); iexact HR
    iapply (reached_sem m K (nb j c) (.dma sR) iR hiR); iexact HR

theorem ag_close (s : DmaSem sig) (i : Fin 21) (hi : csem i = .dma s) :
    iprop(records m K ∗ pos c s 1) ⊢ iprop(|={Set.univ}=> semVal (cell c (.dma s)) 0) :=
  (sep_mono_left (inv_sem m K c (.dma s) i hi)).trans
    (Rounds.cell_close ER (Rd (A0m m)) (Set.mem_univ _) (fun h => h) (R := 1) fun r hr => duties_later (A0m m) _ r hr)

end

theorem part17_spec (K : Dev nD × Fin 21 → ℕ) (c : Dev nD) (v2 v508 c1 : BitVec 32) (W : Waits sig Unit) (Kt : BitVec 32 → sProp 𝕄) :
    iprop((records m K ∗ levAts L lv ∗ accOwn c (ag0 c).view.set (G0 (A0m m) c)
        ∗ owes (c : Thread nD τ) (Ow10 c) W
        ∗ OA4 m c
        ∗ OA3 m c
        ∗ tok (F := F) c agS0
        ∗ tok (F := F) (nb 0 c) agR0
        ∗ tok (F := F) c agS1
        ∗ tok (F := F) (nb 1 c) agR1
        ∗ pos (F := F) c agS0 0
        ∗ pos (F := F) c agR0 0
        ∗ crd (F := F) c agR0 NG0)
        ∗ (∀ (r : BitVec 32) (W' : Waits sig Unit), iprop(owes (c : Thread nD τ) (Ow12 c) W'
            ∗ pos (F := F) c agS0 1
            ∗ pos (F := F) c agR0 1
            ∗ crd (F := F) c agS1 NG1) -∗ Kt r))
      ⊢ wp frame (wpE (defs₀ (F := F)) 𝒱₀ (c : Thread nD τ) none) Set.univ (atBufs k0_part17 c v2 v508 c1) Kt := by
  rw [atBufs, k0_part17_eq_skeleton]; unfold k0_part17_skel
  simp only [Prog.lift, Prog.bind_op, Prog.bind_ret, Prog.pure_eq_ret]
  unfold OA4 OA3; rw [snd4_set, snd4_ag0_off, ← ag0_set, snd3_set, snd3_ag1_off, ← ag1_set]
  unfold Ow10
  iintro ⟨⟨#HR, #Hlev, Hacc, HO, Hoa4, Hoa3, HtS0, HtR0, HtS1, HtR1, HpS0, HpR0, HcR0⟩, Hk⟩
  iapply (ag_send m K c (ag0 c) _ (dev11_eq c) slot_agS0 slot_agR0 11 16 NG0) $$ [$]
  iintro ⟨HcS0, HO⟩
  iapply (ag_wait m K c (ag0 c) slot_agS0 11 NG0 (Z := accOwn c _ _) BIClass.emp_sep.1 (Ow11_lev c)) $$ [$]
  iintro ⟨HO, HpS0, Hacc⟩
  iapply (ag_wait m K c (ag0 c) slot_agR0 16 NG0 (ag_land (ag_join0 (A0m m) c)) (Ow11_lev c)) $$ [$]
  iintro ⟨HO, HpR0, Hacc⟩
  unfold Ow11
  iapply (ag_send m K c (ag1 c) _ (dev12_eq c) slot_agS1 slot_agR1 12 17 NG1) $$ [$]
  iintro ⟨HcS1, HO⟩
  rw [wp_ret]; imodintro
  iapply Hk
  iframe

theorem part18_spec (K : Dev nD × Fin 21 → ℕ) (c : Dev nD) (v2 v529 : BitVec 32) (W : Waits sig Unit) (Kt : PUnit → sProp 𝕄) :
    iprop((records m K ∗ levAts L lv ∗ owes (c : Thread nD τ) (Ow12 c) W
        ∗ crd (F := F) c agS1 NG1
        ∗ pos (F := F) c agS1 0
        ∗ pos (F := F) c agR1 0
        ∗ crd (F := F) c agR1 NG1
        ∗ OA2 m c
        ∗ tok (F := F) c agS2
        ∗ tok (F := F) (nb 2 c) agR2
        ∗ pos (F := F) c agS2 0)
        ∗ (∀ (r : PUnit) (W' : Waits sig Unit), iprop(accOwn c (ag2 c).view.set (G2 (A0m m) c)
            ∗ owes (c : Thread nD τ) (Ow13 c) W'
            ∗ pos (F := F) c agS1 1
            ∗ pos (F := F) c agR1 1
            ∗ pos (F := F) c agS2 1) -∗ Kt r))
      ⊢ wp frame (wpE (defs₀ (F := F)) 𝒱₀ (c : Thread nD τ) none) Set.univ (atBufs k0_part18 c v2 v529) Kt := by
  rw [atBufs, k0_part18_eq_skeleton]; unfold k0_part18_skel
  simp only [Prog.lift, Prog.bind_op, Prog.bind_ret, Prog.pure_eq_ret]
  unfold OA2; rw [snd2_set, snd2_ag2_off, ← ag2_set]
  iintro ⟨⟨#HR, #Hlev, HO, HcS1, HpS1, HpR1, HcR1, Hoa2, HtS2, HtR2, HpS2⟩, Hk⟩
  iapply (ag_wait m K c (ag1 c) slot_agS1 12 NG1 (Z := accOwn c _ _) BIClass.emp_sep.1 (Ow12_lev c)) $$ [$]
  iintro ⟨HO, HpS1, Hacc⟩
  iapply (ag_wait m K c (ag1 c) slot_agR1 17 NG1 (ag_land (ag_join1 (A0m m) c)) (Ow12_lev c)) $$ [$]
  iintro ⟨HO, HpR1, Hacc⟩
  unfold Ow12
  iapply (ag_send m K c (ag2 c) _ (dev13_eq c) slot_agS2 slot_agR2 13 18 NG2) $$ [$]
  iintro ⟨HcS2, HO⟩
  iapply (ag_wait m K c (ag2 c) slot_agS2 13 NG2 (Z := accOwn c _ _) BIClass.emp_sep.1 (Ow13_lev c)) $$ [$]
  iintro ⟨HO, HpS2, Hacc⟩
  rw [wp_ret]; imodintro
  iapply Hk
  iframe

theorem part19_spec (K : Dev nD × Fin 21 → ℕ) (c : Dev nD) (v2 : BitVec 32) (W : Waits sig Unit) (Kt : BitVec 32 → sProp 𝕄) :
    iprop((records m K ∗ levAts L lv ∗ accOwn c (ag2 c).view.set (G2 (A0m m) c)
        ∗ owes (c : Thread nD τ) (Ow13 c) W
        ∗ pos (F := F) c agR2 0
        ∗ crd (F := F) c agR2 NG2
        ∗ OA1 m c
        ∗ tok (F := F) c agS3
        ∗ tok (F := F) (nb 3 c) agR3
        ∗ pos (F := F) c agS3 0
        ∗ pos (F := F) c agR3 0
        ∗ crd (F := F) c agR3 NG3)
        ∗ (∀ (r : BitVec 32) (W' : Waits sig Unit), iprop(accOwn c (ag4 c).view.set (G4 (A0m m) c)
            ∗ owes (c : Thread nD τ) (Ow14 c) W'
            ∗ pos (F := F) c agR2 1
            ∗ pos (F := F) c agS3 1
            ∗ pos (F := F) c agR3 1) -∗ Kt r))
      ⊢ wp frame (wpE (defs₀ (F := F)) 𝒱₀ (c : Thread nD τ) none) Set.univ (atBufs k0_part19 c v2) Kt := by
  rw [atBufs, k0_part19_eq_skeleton]; unfold k0_part19_skel
  simp only [Prog.lift, Prog.bind_op, Prog.bind_ret, Prog.pure_eq_ret]
  unfold OA1; rw [snd1_set, snd1_ag3_off, ← ag3_set]
  iintro ⟨⟨#HR, #Hlev, Hacc, HO, HpR2, HcR2, Hoa1, HtS3, HtR3, HpS3, HpR3, HcR3⟩, Hk⟩
  iapply (ag_wait m K c (ag2 c) slot_agR2 18 NG2 (ag_land (ag_join2 (A0m m) c)) (Ow13_lev c)) $$ [$]
  iintro ⟨HO, HpR2, Hacc⟩
  unfold Ow13
  iapply (ag_send m K c (ag3 c) _ (dev14_eq c) slot_agS3 slot_agR3 14 19 NG3) $$ [$]
  iintro ⟨HcS3, HO⟩
  iapply (ag_wait m K c (ag3 c) slot_agS3 14 NG3 (Z := accOwn c _ _) BIClass.emp_sep.1 (Ow14_lev c)) $$ [$]
  iintro ⟨HO, HpS3, Hacc⟩
  iapply (ag_wait m K c (ag3 c) slot_agR3 19 NG3 (ag_land (ag_join3 (A0m m) c)) (Ow14_lev c)) $$ [$]
  iintro ⟨HO, HpR3, Hacc⟩
  rw [wp_ret]; imodintro
  iapply Hk
  iframe

noncomputable def tailProg (c : Dev nD) : Prog (TpuEff nD τ sig (Elt F) Λ₀ .tc) PUnit := do
  Prog.lift (.enqueueDma (ag4 c) (.remote (Dev.tc (⟨k0_dev15 c, k0_dev15_lt c⟩ : Dev nD)) (ag4 c) (.dma agS4)) (.dma agR4) (View.wordExact_bits rfl) (View.wordExact_bits rfl) ⟨⟨rfl, Or.inl rfl⟩, trivial⟩)
  Prog.lift (.waitDma2 agS4 (ag4 c) (ag4 c) (View.wordExact_bits rfl) (View.wordExact_bits rfl))
  Prog.lift (.waitDma2 agR4 (ag4 c) (ag4 c) (View.wordExact_bits rfl) (View.wordExact_bits rfl))
  let v611 : Vec F S256x512 .f32 ← Prog.lift (.load accM (Rect.unit (s := S256x512) ![0, 0] S256x512.size inb_S256x512_S256x512_0_0).toLoadRect (View.loadsAt_vmem h_S256x512))
  let v613 : Vec F S2x128x512 .f32 ← Prog.lift (.load (Memref.whole cc0_stg3_0 : Memref sig .tc .vmem S2x128x512 .f32) (Rect.unit (s := S2x128x512) ![0, 0, 0] S2x128x512.size inb_S2x128x512_S2x128x512_0_0_0).toLoadRect (View.loadsAt_vmem h_S2x128x512))
  Prog.lift (.store (Memref.whole cc0_stg3_0 : Memref sig .tc .vmem S2x128x512 .f32) (Rect.unit (s := S2x128x512) ![0, 0, 0] S2x128x512.size inb_S2x128x512_S2x128x512_0_0_0) (k0_pay1 v611) Finset.univ (View.stores_vmem_bits_univ h_S2x128x512 rfl) (.inl rfl))
  pure ⟨⟩

theorem tail_spec (K : Dev nD × Fin 21 → ℕ) (c : Dev nD) (g3 : Buf (Elt F) ((c : Thread nD τ).loc cc0_stg3_0)) (W : Waits sig Unit) (Kt : PUnit → sProp 𝕄) :
    iprop((records m K ∗ levAts L lv ∗ accOwn c (ag4 c).view.set (G4 (A0m m) c) ∗ owes (c : Thread nD τ) (Ow14 c) W ∗ OA0 m c
          ∗ tok (F := F) c agS4 ∗ tok (F := F) (nb 4 c) agR4 ∗ pos (F := F) c agS4 0 ∗ pos (F := F) c agR4 0 ∗ crd (F := F) c agR4 NG4
          ∗ (((c : Thread nD τ).loc cc0_stg3_0) ↦{fullShare} g3))
        ∗ (∀ (W' : Waits sig Unit), iprop((accLoc c ↦{fullShare} G5 (A0m m) c) ∗ owes (c : Thread nD τ) (Ow15 c) W' ∗ semVal (cell c (.dma agS4)) 0 ∗ semVal (cell c (.dma agR4)) 0
            ∗ (((c : Thread nD τ).loc cc0_stg3_0) ↦{fullShare} outV (A0m m) c)) -∗ Kt ⟨⟩))
      ⊢ wp frame (wpE (defs₀ (F := F)) 𝒱₀ (c : Thread nD τ) none) Set.univ (tailProg c) Kt := by
  unfold tailProg
  simp only [Prog.lift, Prog.bind_op, Prog.bind_ret, Prog.pure_eq_ret]
  unfold OA0; rw [snd0_set, snd0_ag4_off, ← ag4_set]
  unfold Ow14
  iintro ⟨⟨#HR, #Hlev, Hacc, HO, Hoa0, HtS4, HtR4, HpS4, HpR4, HcR4, Hstg⟩, Hk⟩
  iapply (ag_send m K c (ag4 c) _ (dev15_eq c) slot_agS4 slot_agR4 15 20 NG4) $$ [$]
  iintro ⟨HcS4, HO⟩
  iapply (ag_wait m K c (ag4 c) slot_agS4 15 NG4 (Z := accOwn c _ _) BIClass.emp_sep.1 (Ow15_lev c)) $$ [$]
  iintro ⟨HO, HpS4, Hacc⟩
  iapply (ag_wait m K c (ag4 c) slot_agR4 20 NG4 (ag_land (ag_join4 (A0m m) c)) (Ow15_lev c)) $$ [$]
  iintro ⟨HO, HpR4, Hacc⟩
  imod (ag_close m K c agS4 15 rfl) $$ [$] with HzS4
  imod (ag_close m K c agR4 20 rfl) $$ [$] with HzR4
  iapply (wp_load 𝒱₀ (c : Thread nD τ) none Set.univ (Finset.subset_univ _)) $$ Hacc; iintro Hacc
  erw [Memref.readAt_unit_zero (Elt F) cc0_scratch0 (funext fun a => by fin_cases a <;> rfl)]
  iapply (wp_load 𝒱₀ (c : Thread nD τ) none Set.univ (m := Memref.whole cc0_stg3_0) (Finset.subset_univ _)) $$ Hstg; iintro Hstg
  iapply (wp_store 𝒱₀ (c : Thread nD τ) none Set.univ (m := Memref.whole cc0_stg3_0) (r := Rect.unit (s := S2x128x512) ![0, 0, 0] S2x128x512.size inb_S2x128x512_S2x128x512_0_0_0) (Mk := Finset.univ) (Finset.subset_univ _)) $$ Hstg; iintro Hstg
  erw [Memref.write_access_unit_zero_univ (Elt F) cc0_stg3_0 (funext fun a => by fin_cases a <;> rfl)]; rw [wp_ret]; imodintro
  iapply Hk
  unfold outV; iframe

end Cert.Kernel.Hyper

end
-- ==== Proof.K.Body.lean ====
import proofs.«900512_g7700000000000513_dist_attn_cross_mha_kvrep_htp_b2_sq128_skv128_d512_hq8_dh64_v7x_i32_f32_1_alg».proof.Proof.K.State
import proofs.«900512_g7700000000000513_dist_attn_cross_mha_kvrep_htp_b2_sq128_skv128_d512_hq8_dh64_v7x_i32_f32_1_alg».proof.Proof.K.Steps
import proofs.«900512_g7700000000000513_dist_attn_cross_mha_kvrep_htp_b2_sq128_skv128_d512_hq8_dh64_v7x_i32_f32_1_alg».proof.Proof.K.Compute
import proofs.«900512_g7700000000000513_dist_attn_cross_mha_kvrep_htp_b2_sq128_skv128_d512_hq8_dh64_v7x_i32_f32_1_alg».proof.Proof.K.Part1
import proofs.«900512_g7700000000000513_dist_attn_cross_mha_kvrep_htp_b2_sq128_skv128_d512_hq8_dh64_v7x_i32_f32_1_alg».proof.Proof.K.PartsRS
import proofs.«900512_g7700000000000513_dist_attn_cross_mha_kvrep_htp_b2_sq128_skv128_d512_hq8_dh64_v7x_i32_f32_1_alg».proof.Proof.K.PartsAG

noncomputable section

namespace Cert.Kernel.Hyper

open Cert.Kernel Cert.Kernel.Gen Cert.Kernel.Net Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem bigSep_f21 (Φ : Fin 21 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ
theorem bigSep_f22 (Φ : Fin 22 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21) :=
  bigSep_univ_eq_bigSepL [0, 1, 2, 3, 4, 5, 6, 7, 8, 9, 10, 11, 12, 13, 14, 15, 16, 17, 18, 19, 20, 21] (by decide) (by decide) Φ

theorem close_cell (K : Dev nD × Fin 21 → ℕ) (c : Dev nD) (i : Fin 21) :
    records m K ⊢ (atPos ER (kcell (c, i)) 1 ∅ 0 -∗ |={Set.univ}=> semVal (kcell (c, i)) 0 : sProp 𝕄) := by
  iintro #HR Hat
  iapply (Rounds.cell_close ER (Rd (A0m m)) (Set.mem_univ (K (c, i))) (fun h => h) (R := 1) (duties_later (A0m m) _))
  isplitr; · iapply (inv_at m K (c, i)); iexact HR
  iexact Hat

theorem mayWait5 (c : Dev nD) (s : SemLoc sig) (hs : lvS (slot s) < 2) :
    (levAts L lv : sProp 𝕄) ⊢ MayWait (c : Thread nD τ) s () (Ow5 c) :=
  mayWait_of c s (Ow5 c) fun g u h => ⟨(Ow5_lev c g u h).1, lt_of_lt_of_le hs (Ow5_lev c g u h).2⟩

theorem hv_of (c : Dev nD) (v329 : FVec F S256x512 .f32)
    (h : v329 = Comp.attVal (xv m c) (wqv m c) (kcvOf c (m ((c : Thread nD τ).loc main_arg3))) (vcvOf c (m ((c : Thread nD τ).loc main_arg4)))) :
    k0_pay36 v329 (wov m c) = A0m m c := by subst h; rfl

def bodyPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m c ∗ (dats m ρ 0 c).owesAt () t₀.succ ∗ stg c cc0_stg0_0 (xv m c) ∗ stg c cc0_stg1_0 (wqv m c)
    ∗ stg c cc0_stg2_0 (wov m c) ∗ stg c cc0_stg3_0 (outV (A0m m) c))

set_option maxHeartbeats 4000000 in
set_option maxRecDepth 8000 in
theorem sound_body (c : Dev nD) :
    bodyPre m ρ c ⊢ wp frame (wpE (defs₀ (F := F)) 𝒱₀ (c : Thread nD τ) none) Set.univ (atBufs cc0_body) fun _ => bodyPost m ρ c := by
  simp only [atBufs, cc0_body_eq_skeleton]; unfold cc0_body_skel
  unfold bodyPre Φ₀ start ghost positions payToks creds scratch Dat.owesAt Pipeline.owesWithin
  rw [bigSep_f21]
  iintro ⟨⟨⟨⟨%K, #HR, ⟨HpB, HpS0, HpS1, HpS2, HpS3, HpS4, HpR0, HpR1, HpR2, HpR3, HpR4, HqS0, HqS1, HqS2, HqS3, HqS4, HqR0, HqR1, HqR2, HqR3, HqR4⟩,
        HtB0, HtB1, HtB2, HtB3, HtB4, HtR0, HtR1, HtR2, HtR3, HtR4, HtG0, HtG1, HtG2, HtG3, HtG4, HtS0, HtS1, HtS2, HtS3, HtS4, HtA0, HtA1, HtA2, HtA3, HtA4⟩,
      ⟨HcB, HcR0, HcR1, HcR2, HcR3, HcR4, HcG0, HcG1, HcG2, HcG3, HcG4⟩, #Hlev, Hkv0, Hkv1, HKx, HVx⟩,
      Hacc, Hrcv, Hkr, Hvr⟩,
    ⟨%W, %hW, HO⟩, ⟨%d0, %g0, %hg0, Hx⟩, ⟨%d1, %g1, %hg1, Hwq⟩, ⟨%d2, %g2, %hg2, Hwo⟩, ⟨%d3, %g3, %hg3, Hout⟩⟩
  have hx : g0 = xv m c := hg0.trans (if_pos (fetch0_0 t₀))
  have hwq : g1 = wqv m c := hg1.trans (if_pos (fetch0_1 t₀))
  have hwo : g2 = wov m c := hg2.trans (if_pos (fetch0_2 t₀))
  subst hx hwq hwo
  rw [show (dats m ρ 0 c).owed t₀.castSucc = Ow0 c from rfl, wp_bind]
  iapply (part1_spec m K c W _)
  isplitl [HO HtB0 HtB1 HtB2 HtB3 HtB4 Hrcv HcB HpB]
  · iframe # ∗
  iintro %v2 %W1 ⟨HO, HpB, HP0, HP1, HP2, HP3, HP4⟩
  rw [wp_bind]
  iapply (part2_spec c _ _ _ _ _ _ _)
  isplitl [Hx Hwq HKx HVx Hkr Hvr Hkv0 Hkv1 HO]
  · iframe
    isplitr <;> (iapply (mayWait5 c _ (by decide)); iexact Hlev)
  iintro ⟨Hx, Hwq, HKx, HVx, Hkr, Hvr, Hkv0, Hkv1, HO⟩
  rw [wp_bind]
  iapply (part3_spec c _ _ _ _ _ _ _)
  isplitl [Hkr Hvr]
  · iframe
  iintro ⟨Hkr, Hvr⟩
  rw [wp_bind]
  iapply (part4_spec c _ _ _ _ _ _ _)
  isplitl [Hkr Hvr]
  · iframe
  iintro ⟨Hkr, Hvr⟩
  rw [wp_bind]
  iapply (part5_spec c _ _ _ _ _ _)
  isplitl [Hkr Hvr]
  · iframe
  iintro ⟨Hkr, Hvr⟩
  rw [wp_bind]
  iapply (part6_spec c _ _ _ _ _ _ _ _ _ _ _ _ _)
  isplitl [Hkr Hvr]
  · iframe
  iintro ⟨Hkr, Hvr⟩
  rw [wp_bind]
  iapply (part7_spec c _ _ _ _ _ _ _)
  isplitl [Hkr Hvr]
  · iframe
  iintro ⟨Hkr, Hvr⟩
  rw [wp_bind]
  iapply (part8_spec c _ _ _ _ _ _)
  isplitl [Hkr Hvr]
  · iframe
  iintro ⟨Hkr, Hvr⟩
  rw [wp_bind]
  iapply (part9_spec c _ _ _ _ _ _)
  isplitl [Hkr Hvr]
  · iframe
  iintro ⟨Hkr, Hvr⟩
  rw [wp_bind]
  iapply (part10_spec c _ _ _ _ _ _ _ _ _ _ _ _ (wov m c) _)
  isplitl [Hkr Hvr Hwo]
  · iframe
  iintro ⟨Hkr, Hvr, Hwo⟩
  rw [wp_bind]
  iapply (part11_spec m K c v2 _ _ (hv_of m c _ (attVal_chain _ _ _ _)) _ _)
  isplitl [Hacc HP0 HO HtS0 HtR0 HpS0]
  · iframe # ∗
  iintro %r11 %W11 ⟨Hacc, HO, HpS0⟩
  rw [wp_bind]
  iapply (part12_spec m K c v2 _ W11 _)
  isplitl [Hacc HO HpR0 HcR0 HP1 HtS1 HtR1 HpS1]
  · iframe # ∗
  iintro %r12 %W12 ⟨Hacc, HO, HpR0, HpS1, HOA0, HRV0⟩
  rw [wp_bind]
  iapply (part13_spec m K c v2 _ _ W12 _)
  isplitl [Hacc HO HpR1 HcR1 HP2 HtS2 HtR2]
  · iframe # ∗
  iintro %r13 %W13 ⟨Hacc, HO, HpR1, HOA1, HRV1, HcS2⟩
  rw [wp_bind]
  iapply (part14_spec m K c v2 _ _ W13 _)
  isplitl [Hacc HO HcS2 HpS2 HpR2 HcR2]
  · iframe # ∗
  iintro %r14 %W14 ⟨Hacc, HO, HpS2, HpR2, HOA2, HRV2⟩
  rw [wp_bind]
  iapply (part15_spec m K c v2 _ _ W14 _)
  isplitl [Hacc HO HP3 HtS3 HtR3 HpS3 HpR3 HcR3]
  · iframe # ∗
  iintro %r15 %W15 ⟨Hacc, HO, HpS3, HpR3, HOA3, HRV3⟩
  rw [wp_bind]
  iapply (part16_spec m K c v2 _ _ _ W15 _)
  isplitl [Hacc HO HP4 HtS4 HtR4 HpS4 HpR4 HcR4]
  · iframe # ∗
  iintro %r16 %W16 ⟨Hacc, HO, HpS4, HpR4, HOA4, HRV4⟩
  ihave Hacc := (Entails.of_eq (congrArg (fun S => (accLoc c ↦[S]{fullShare} A5 (A0m m) c : sProp 𝕄)) (own5_eq c))) $$ Hacc
  rw [wp_bind]
  iapply (part17_spec m K c v2 _ _ W16 _)
  isplitl [Hacc HO HOA4 HOA3 HtA0 HtG0 HtA1 HtG1 HqS0 HqR0 HcG0]
  · iframe # ∗
  iintro %r17 %W17 ⟨HO, HqS0, HqR0, HcA1⟩
  rw [wp_bind]
  iapply (part18_spec m K c v2 _ W17 _)
  isplitl [HO HcA1 HqS1 HqR1 HcG1 HOA2 HtA2 HtG2 HqS2]
  · iframe # ∗
  iintro %r18 %W18 ⟨Hacc, HO, HqS1, HqR1, HqS2⟩
  rw [wp_bind]
  iapply (part19_spec m K c v2 W18 _)
  isplitl [Hacc HO HqR2 HcG2 HOA1 HtA3 HtG3 HqS3 HqR3 HcG3]
  · iframe # ∗
  iintro %r19 %W19 ⟨Hacc, HO, HqR2, HqS3, HqR3⟩
  imod (close_cell m K c 1) $$ HR HpS0 with Hz1
  imod (close_cell m K c 2) $$ HR HpS1 with Hz2
  imod (close_cell m K c 3) $$ HR HpS2 with Hz3
  imod (close_cell m K c 4) $$ HR HpS3 with Hz4
  imod (close_cell m K c 5) $$ HR HpS4 with Hz5
  imod (close_cell m K c 6) $$ HR HpR0 with Hz6
  imod (close_cell m K c 7) $$ HR HpR1 with Hz7
  imod (close_cell m K c 8) $$ HR HpR2 with Hz8
  imod (close_cell m K c 9) $$ HR HpR3 with Hz9
  imod (close_cell m K c 10) $$ HR HpR4 with Hz10
  imod (close_cell m K c 11) $$ HR HqS0 with Hz11
  imod (close_cell m K c 12) $$ HR HqS1 with Hz12
  imod (close_cell m K c 13) $$ HR HqS2 with Hz13
  imod (close_cell m K c 14) $$ HR HqS3 with Hz14
  imod (close_cell m K c 16) $$ HR HqR0 with Hz16
  imod (close_cell m K c 17) $$ HR HqR1 with Hz17
  imod (close_cell m K c 18) $$ HR HqR2 with Hz18
  imod (close_cell m K c 19) $$ HR HqR3 with Hz19
  iapply (tail_spec m K c g3 W19 _)
  isplitl [Hacc HO HOA0 HtA4 HtG4 HqS4 HqR4 HcG4 Hout]
  · iframe # ∗
  iintro %W20 ⟨Hacc, HO, Hz15, Hz20, Hout⟩
  unfold bodyPost Φ₁ scratch Dat.owesAt Pipeline.owesWithin
  rw [show (dats m ρ 0 c).owed t₀.succ = 0 from rfl, bigSep_f22]
  iframe
  isplitl [Hacc HRV0 HRV1 HRV2 HRV3 HRV4 Hkr Hvr]
  · isplitl [Hacc]; · iexists _; iexact Hacc
    isplitl [HRV0 HRV1 HRV2 HRV3 HRV4]
    · iapply (rcv_join c)
      unfold RV0 RV1 RV2 RV3 RV4
      iframe HRV0 HRV1 HRV2 HRV3 HRV4
    isplitl [Hkr]; · iexists _; iexact Hkr
    iexists _; iexact Hvr
  isplitl [HO]
  · iexists W20
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

set_option maxRecDepth 8000 in
theorem body_obligation (c : Dev nD) : BodyObligation (dats (F := F) m ρ 0 c) (defs₀ (F := F)) 𝒱₀ () Set.univ := fun t => by
  rw [fin_N t, bigSep_W, bigSep_W]
  simp only [owns_whole_eq]
  exact sound_body m ρ c

end Cert.Kernel.Hyper

end
-- ==== Proof.K.Launch.lean ====
import proofs.«900512_g7700000000000513_dist_attn_cross_mha_kvrep_htp_b2_sq128_skv128_d512_hq8_dh64_v7x_i32_f32_1_alg».proof.Proof.K.Body

noncomputable section

namespace Cert.Kernel.Hyper

open Cert.Kernel Cert.Kernel.Gen Cert.Kernel.Net Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := .of_comp (f := slot) (by decide)

theorem cell_eq_iff {a b : Dev nD} {s s' : SemLoc sig} : cell a s = cell b s' ↔ a = b ∧ s = s' :=
  ⟨fun h => ⟨Fin.ext (congrArg (fun g : GSem nD τ sig => g.1.1.val) h), congrArg Prod.snd h⟩, fun ⟨h1, h2⟩ => h1 ▸ h2 ▸ rfl⟩

theorem kcell_injective : Function.Injective (kcell : Dev nD × Fin 21 → GSem nD τ sig) := fun _ _ h =>
  Prod.ext (cell_eq_iff.mp h).1 (csem_injective (cell_eq_iff.mp h).2)
def ringCells : Finset (GSem nD τ sig) := Finset.univ.map ⟨kcell, kcell_injective⟩

def tk (j : Fin 25) : Fin 21 × Fin 5 := if h : j.val < 5 then (0, ⟨j, h⟩) else (⟨j - 4, by omega⟩, 0)
theorem tk_injective : Function.Injective tk := by decide

abbrev tokOf (cj : Dev nD × Fin 25) : GSem nD τ sig × ℕ × Fin 5 := (kcell (cj.1, (tk cj.2).1), 0, (tk cj.2).2)
theorem tokOf_injective : Function.Injective (tokOf : Dev nD × Fin 25 → GSem nD τ sig × ℕ × Fin 5) := by
  rintro ⟨c, j⟩ ⟨c', j'⟩ h
  have h1 := Prod.ext_iff.mp (kcell_injective (congrArg (·.1) h))
  rw [show c = c' from h1.1, show j = j' from tk_injective (Prod.ext h1.2 (congrArg (·.2.2) h))]
def ringToks : Finset (GSem nD τ sig × ℕ × Fin 5) := Finset.univ.map ⟨tokOf, tokOf_injective⟩

def u₀ : UU :=
  (initOf (Pipeline.cells cfgs cellOf_inj) (Pipeline.launchToks cfgs cellOf_inj), (initOf ringCells ringToks, 1))

def toks (c : Dev nD) : sProp 𝕄 := bigSep Finset.univ fun j : Fin 25 => dutyTok ER (kcell (c, (tk j).1)) 0 (tk j).2

def G (c : Dev nD) : sProp 𝕄 :=
  iprop((bigSep Finset.univ fun k : Fin 21 => roundState ER (Rd (A0m m)) (kcell (c, k)) 0) ∗ (bigSep Finset.univ fun k : Fin 21 => reached ER (kcell (c, k)) 0)
    ∗ (bigSep Finset.univ fun k : Fin 21 => atPos ER (kcell (c, k)) 0 ∅ 0) ∗ toks (F := F) c)

def G' (c : Dev nD) : sProp 𝕄 :=
  iprop((∃ K, ghost m K c) ∗ semVal (cell c (.dma kvS0)) 0 ∗ semVal (cell c (.dma kvS1)) 0)

theorem fund_ring : BI.own (((Emb.inl : Emb UB (UB × Counters)).trans embR) (initOf ringCells ringToks)) ⊢ (|==> bigSep Finset.univ (G m) : sProp 𝕄) := by
  have h := Rounds.fund (ER (F := F)) (Rd (A0m m)) ringCells ringToks
  unfold ringCells ringToks at h
  rw [bigSep_map, bigSep_map, bigSep_map, bigSep_map, bigSep_univ_prod, bigSep_univ_prod, bigSep_univ_prod, bigSep_univ_prod] at h
  unfold G; simp only [bigSep_sep']; exact h

theorem unscopedSems0_eq (c : Dev nD) : (unscopedSems0 c : sProp 𝕄) = semVal (cell c (.reg barS)) 0 := by
  unfold unscopedSems0; rw [bigSep_eq_bigSepL_of_eq [SemLoc.reg barS] (by decide) (by decide)]; rfl

theorem osem_succ : ∀ k : Fin 20, osem k.succ.succ = csem k.succ := by decide

theorem sems0_eq (c : Dev nD) :
    (iprop(Pipeline.ownSems0 osem c ∗ unscopedSems0 c) : sProp 𝕄)
      ⊢ iprop((bigSep Finset.univ fun k : Fin 21 => semVal (kcell (c, k)) 0) ∗ semVal (cell c (.dma kvS0)) 0 ∗ semVal (cell c (.dma kvS1)) 0) := by
  unfold Pipeline.ownSems0
  rw [unscopedSems0_eq, bigSep_univ_succ, bigSep_univ_succ, bigSep_univ_succ (fun k : Fin 21 => semVal (kcell (c, k)) 0),
    bigSep_congr (s := Finset.univ) fun k _ => congrArg (fun s => semVal (cell c s) 0) (osem_succ k)]
  iintro ⟨⟨K0, K1, S⟩, HB⟩
  iframe; iexact K1

def nbE (j : Fin 5) : Dev nD ≃ Dev nD := ⟨nb j, nb j, nb_nb j, nb_nb j⟩

def dealE : Fin 25 → Dev nD ≃ Dev nD := fun
  | 0 => nbE 0 | 1 => nbE 1 | 2 => nbE 2 | 3 => nbE 3 | 4 => nbE 4
  | 10 => nbE 4 | 11 => nbE 3 | 12 => nbE 2 | 13 => nbE 1 | 14 => nbE 0
  | 20 => nbE 0 | 21 => nbE 1 | 22 => nbE 2 | 23 => nbE 3 | 24 => nbE 4
  | _ => Equiv.refl _

def linear (c : Dev nD) : sProp 𝕄 :=
  iprop(positions (F := F) c ∗ payToks (F := F) c ∗ semVal (cell c (.dma kvS0)) 0 ∗ semVal (cell c (.dma kvS1)) 0)

theorem ghost_intro (K : Dev nD × Fin 21 → ℕ) (c : Dev nD) : iprop(records m K ∗ linear (F := F) c) ⊢ G' m c := by
  unfold linear G' ghost
  iintro ⟨#HR, Hp, Ht, Hk0, Hk1⟩
  iframe Hk0 Hk1
  iexists K
  iframe HR Hp Ht

-- Duty j of every device's own cells, dealt along the flip dealE j of the devices, is what every device pays.
theorem toks_around : (bigSep Finset.univ fun c : Dev nD => (toks (F := F) c : sProp 𝕄)) ⊢ bigSep Finset.univ fun c : Dev nD => payToks (F := F) c := by
  have e (c : Dev nD) : (payToks (F := F) c : sProp 𝕄) = bigSep Finset.univ fun j : Fin 25 => dutyTok ER (kcell (dealE j c, (tk j).1)) 0 (tk j).2 := by
    rw [bigSep_univ_eq_bigSepL [0, 1, 2, 3, 4, 10, 11, 12, 13, 14, 20, 21, 22, 23, 24, 5, 6, 7, 8, 9, 15, 16, 17, 18, 19] (by decide) (by decide)]; rfl
  let Φ (x : Dev nD × Fin 25) : sProp 𝕄 := dutyTok ER (kcell (x.1, (tk x.2).1)) 0 (tk x.2).2
  exact Entails.of_eq (((bigSep_univ_prod Φ).symm.trans ((bigSep_univ_equiv ((Equiv.prodComm _ _).trans ((Equiv.prodShear (Equiv.refl _) dealE).trans (Equiv.prodComm _ _))) Φ).trans
    (bigSep_univ_prod _))).trans (bigSep_congr fun c _ => (e c).symm))

theorem glob : (bigSep Finset.univ fun c => iprop(Pipeline.ownSems0 osem c ∗ unscopedSems0 c ∗ G m c) : sProp 𝕄)
    ⊢ |={Set.univ}=> bigSep Finset.univ (G' m) := by
  have hs : (_ : sProp 𝕄) ⊢ _ := bigSep_mono (s := Finset.univ) fun c _ => sems0_eq (F := F) c
  have ha : (_ : sProp 𝕄) ⊢ _ := (bigSep_mono (s := Finset.univ) fun (ck : Dev nD × Fin 21) _ => (Rounds.body_intro ER (Rd (A0m m)) (kcell ck)).trans inv_alloc).trans
    (bigSep_fupd (E := Set.univ) _ _)
  unfold G
  simp only [bigSep_sep'] at hs ⊢
  rw [bigSep_sep', bigSep_univ_prod, bigSep_univ_prod] at ha
  rw [← bigSep_univ_prod (fun ck => (reached ER (kcell ck) 0 : sProp 𝕄))]
  iintro ⟨Hos, Hus, Hst, #HR, Hat, Htok⟩
  ihave ⟨Hv, Hk0, Hk1⟩ := hs $$ [Hos Hus]
  · iframe
  imod ha $$ [Hv Hst] with HI
  · iframe
  imodintro
  ihave ⟨%K, #HI⟩ := (BI.bigSep_exists_pi Finset.univ _) $$ HI
  ihave Htk := (toks_around (F := F)) $$ Htok
  iapply (bigSep_with_persistent (R := records m K) fun c _ => ghost_intro m K c)
  unfold records linear positions; rw [bigSep_sep', bigSep_sep', bigSep_sep']; iframe HR Hat Htk Hk0 Hk1
  iexact HI

theorem tallyAt_cell_same (a c : Dev nD) (s : SemLoc sig) (k : ℕ) :
    (tallyAt (cell a s) () k : CellTallies nD τ sig Unit) (cell c s) () = if c = a then k else 0 := by
  rw [tallyAt_apply]
  exact if_congr ⟨fun h => (cell_eq_iff.mp h.1).1, fun h => ⟨h ▸ rfl, rfl⟩⟩ rfl rfl
theorem tallyAt_cell_ne (a c : Dev nD) {s s' : SemLoc sig} (h : s' ≠ s) (k : ℕ) :
    (tallyAt (cell a s) () k : CellTallies nD τ sig Unit) (cell c s') () = 0 := by
  rw [tallyAt_ne_cell (fun h' => h (cell_eq_iff.mp h').2)]; rfl

theorem sum_nb (j : ℕ) (hj : j < 5) (c : Dev nD) (k : ℕ) : (∑ d : Dev nD, if c = nb j d then k else 0) = k := by
  rw [Finset.sum_eq_single (nb j c) (fun d _ hd => if_neg fun h : c = nb j d => hd (h ▸ (nb_nb ⟨j, hj⟩ d).symm)) (fun h => absurd (Finset.mem_univ _) h),
    if_pos (nb_nb ⟨j, hj⟩ c).symm]

theorem launch_cred (c : Dev nD) (s : SemLoc sig) (k : ℕ) (h : (∑ d : Dev nD, Ow0 d (cell c s) ()) = k) :
    (tallyAt (cell c s) () k : CellTallies nD τ sig Unit) = tallyOn (cell c s) (launchCredit (Pipeline.owing Ow0) 0 (cell c s)) := by
  unfold tallyAt; refine congrArg _ (Finsupp.ext fun u => ?_); cases u
  rw [Pipeline.launchCredit_owing, Finsupp.single_eq_same, h]

theorem creds_intro (c : Dev nD) : (Pipeline.launchCred Ow0 c : sProp 𝕄) ⊢ creds (F := F) c := by
  refine ((bigSep_subset (Finset.subset_univ _)).trans (Entails.of_eq (bigSep_eq_bigSepL
    [.reg barS, .dma rsR0, .dma rsR1, .dma rsR2, .dma rsR3, .dma rsR4, .dma agR0, .dma agR1, .dma agR2, .dma agR3, .dma agR4] (by decide) _))).trans ?_
  unfold creds
  rw [launch_cred c (.reg barS) 5, launch_cred c (.dma rsR0) NR0, launch_cred c (.dma rsR1) NR1, launch_cred c (.dma rsR2) NR2,
    launch_cred c (.dma rsR3) NR3, launch_cred c (.dma rsR4) NR4, launch_cred c (.dma agR0) NG0, launch_cred c (.dma agR1) NG1,
    launch_cred c (.dma agR2) NG2, launch_cred c (.dma agR3) NG3, launch_cred c (.dma agR4) NG4]
  · exact .refl _
  all_goals
    unfold Ow0 Ow1 Ow2 Ow3 Ow4 Ow5 Ow6 Ow7 Ow8 Ow9 Ow10 Ow11 Ow12 Ow13 Ow14 Ow15
    simp (disch := decide) only [Pi.add_apply, Finsupp.add_apply, Pi.zero_apply, Finsupp.zero_apply, tallyAt_cell_same, tallyAt_cell_ne,
      Nat.zero_add, Nat.add_zero, Finset.sum_add_distrib, sum_nb, Nat.reduceAdd]

theorem Ow0_pos {c : Dev nD} {g : GSem nD τ sig} {u : Unit} (h : 0 < Ow0 c g u) : g.1.2 = .tc ∧ 0 < lvS (slot g.2) := by
  by_contra hn
  have key (a : Dev nD) (s : SemLoc sig) (k : ℕ) (hs : 1 ≤ lvS (slot s)) : (tallyAt (cell a s) () k : CellTallies nD τ sig Unit) g u = 0 := by
    rw [tallyAt_apply, if_neg]
    rintro ⟨rfl, -⟩
    exact hn ⟨rfl, hs⟩
  unfold Ow0 Ow1 Ow2 Ow3 Ow4 Ow5 Ow6 Ow7 Ow8 Ow9 Ow10 Ow11 Ow12 Ow13 Ow14 Ow15 at h
  simp (disch := decide) only [Pi.add_apply, Finsupp.add_apply, Pi.zero_apply, Finsupp.zero_apply, key, Nat.add_zero, Nat.lt_irrefl] at h

theorem start_intro (c : Dev nD) :
    iprop(Pipeline.unscopedRestP Pipeline.Prefetch.none cfg0.spec c (fun b => m ((c : Thread nD τ).loc b)) ∗ levAts L lv
        ∗ Pipeline.launchCred Ow0 c ∗ prngReg c (ρ c) ∗ G' m c)
      ⊢ |={Set.univ}=> iprop(start m c ∗ emp) := by
  unfold start G'
  rw [Pipeline.unscopedRestP_none, unscopedRest0_eq]
  iintro ⟨⟨H3, H4⟩, Hlev, Hcr, -, Hg, Hk0, Hk1⟩
  ihave Hc := (creds_intro (F := F) c) $$ Hcr
  imodintro
  iframe

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  iframe

def Y (c : Dev nD) : sProp 𝕄 :=
  iprop((((c : Thread nD τ).loc main_arg3) ↦{fullShare} m ((c : Thread nD τ).loc main_arg3))
    ∗ (((c : Thread nD τ).loc main_arg4) ↦{fullShare} m ((c : Thread nD τ).loc main_arg4)))

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl, scopedRest0_eq]
  unfold Φ₁ scratch Y Pipeline.ownSems0
  iintro ⟨Hr, Hz, H3, H4⟩
  iframe

theorem waits (c : Dev nD) : (levAts L lv : sProp 𝕄) ⊢ Pipeline.cellsWaits cfgs (dats m ρ) () 0 c :=
  Pipeline.cellsWaits_intro cfgs (dats m ρ) () 0 c fun w s t =>
    mayWait_of c _ _ (fun g u hg => by
      have hs : lvS (slot (.dma (((cfgs 0).win w).sem s) : SemLoc sig)) = 0 := by fin_cases w <;> fin_cases s <;> decide
      rcases t with ⟨_ | _, ht⟩
      · rw [hs]; exact Ow0_pos (c := c) hg
      · exact absurd hg (Nat.lt_irrefl 0))

def QC : PUnit × MemSt nD τ sig (Elt F) → Prop := fun r =>
  ∀ c : Dev nD, (∀ w : Fin cfg0.W, r.2.mem ((cfg0.win w).arr.view.loc (c : Thread nD τ)) = (dats m ρ 0 c).arrAt w cfg0.N)
    ∧ r.2.mem ((c : Thread nD τ).loc main_arg3) = m ((c : Thread nD τ).loc main_arg3)
    ∧ r.2.mem ((c : Thread nD τ).loc main_arg4) = m ((c : Thread nD τ).loc main_arg4)

set_option maxRecDepth 8000 in
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := Ow0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave ⟨HP, HX⟩ := (ownU_pair _ _) $$ Hu
      ihave ⟨HR, -⟩ := (own_pair_emb _ _ _) $$ HX
      imod (fund_ring m) $$ HR with HG
      imodintro
      iframe)
    (hglob := glob m)
    (hA := fun _ _ => rfl) (hpf := fun _ k => k.elim0)
    (X := start m) (Y := Y m) (Z := fun _ => iprop(emp))
    (hX := start_intro m ρ) (hin := phi0_intro m ρ) (hout := phi1_exit m ρ)
    (QY := fun c s => s.mem ((c : Thread nD τ).loc main_arg3) = m ((c : Thread nD τ).loc main_arg3)
      ∧ s.mem ((c : Thread nD τ).loc main_arg4) = m ((c : Thread nD τ).loc main_arg4))
    (hY := fun c s' => by
      unfold Y
      iintro ⟨⟨H3, H4⟩, -, HSI⟩
      icombine HSI H3 gives %h3
      icombine HSI H4 gives %h4
      imodintro
      iframe HSI
      ipureintro; exact ⟨Buf.eq_of_forall_mem_univ h3, Buf.eq_of_forall_mem_univ h4⟩)
    (hQ := fun _ h c => ⟨(h c).1, (h c).2.2.1, (h c).2.2.2⟩)

end Cert.Kernel.Hyper

end
-- ==== Proof.K.KRun.lean ====
import proofs.«900512_g7700000000000513_dist_attn_cross_mha_kvrep_htp_b2_sq128_skv128_d512_hq8_dh64_v7x_i32_f32_1_alg».proof.Proof.K.Launch

noncomputable section

namespace Cert.Kernel.Hyper

open Cert.Kernel Cert.Kernel.Gen Cert.Kernel.Net Cube
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem finalA_out (c : Dev nD) :
    (dats m ρ 0 c).arrAt (3 : Fin 4) cfg0.N = (outV (A0m m) c : Buf (Elt F) ((c : Thread nD τ).loc main_v1)) := by
  have h := (dats m ρ 0 c).arrAt_succ (3 : Fin 4) t₀
  rw [if_pos (flush0_3 t₀)] at h
  exact h.trans (Memref.write_access_unit_zero_univ (Elt F) main_v1 (funext fun a => Nat.zero_mul _) _ _ _)

theorem kernel_run : θ_run defs (onTc (τ := τ) (main (F := F))) ⟨m, fun _ => 0, ρ⟩ (fun r => ∀ c : Dev nD,
    r.2.mem ((c.tc : Thread nD τ).loc main_v1) = (outV (A0m m) c : Buf (Elt F) ((c : Thread nD τ).loc main_v1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun _ h c => ⟨((h c).1 3).trans (finalA_out m ρ c),
      ((h c).1 0).trans ((dats m ρ 0 c).arrAt_in 0 rfl _),
      ((h c).1 1).trans ((dats m ρ 0 c).arrAt_in 1 rfl _),
      ((h c).1 2).trans ((dats m ρ 0 c).arrAt_in 2 rfl _),
      (h c).2.1, (h c).2.2⟩) (run_main m ρ)

end Cert.Kernel.Hyper

end
-- ==== Proof.lean ====
import proofs.«900512_g7700000000000513_dist_attn_cross_mha_kvrep_htp_b2_sq128_skv128_d512_hq8_dh64_v7x_i32_f32_1_alg».proof.Defs
import proofs.«900512_g7700000000000513_dist_attn_cross_mha_kvrep_htp_b2_sq128_skv128_d512_hq8_dh64_v7x_i32_f32_1_alg».proof.Proof.Gen.Kernel
import proofs.«900512_g7700000000000513_dist_attn_cross_mha_kvrep_htp_b2_sq128_skv128_d512_hq8_dh64_v7x_i32_f32_1_alg».proof.Proof.Gen.KernelIdeal
import proofs.«900512_g7700000000000513_dist_attn_cross_mha_kvrep_htp_b2_sq128_skv128_d512_hq8_dh64_v7x_i32_f32_1_alg».proof.Proof.Gen.ReferenceIdeal
import proofs.«900512_g7700000000000513_dist_attn_cross_mha_kvrep_htp_b2_sq128_skv128_d512_hq8_dh64_v7x_i32_f32_1_alg».proof.Proof.Gen.Pre_finite_inputs_Kernel
import proofs.«900512_g7700000000000513_dist_attn_cross_mha_kvrep_htp_b2_sq128_skv128_d512_hq8_dh64_v7x_i32_f32_1_alg».proof.Proof.Gen.Pre_finite_inputs_ReferenceIdeal
import proofs.«900512_g7700000000000513_dist_attn_cross_mha_kvrep_htp_b2_sq128_skv128_d512_hq8_dh64_v7x_i32_f32_1_alg».proof.Proof.Final
import proofs.«900512_g7700000000000513_dist_attn_cross_mha_kvrep_htp_b2_sq128_skv128_d512_hq8_dh64_v7x_i32_f32_1_alg».proof.Proof.K.KRun
import Idealize.ShloMosaic.Adequacy
import Idealize.ShloMosaic.Init

noncomputable section

namespace Cert.Proof

open Idealize.ShloMosaic Idealize.SL.Sem

theorem frame_p : Cert.frame_Kernel := fun m ρ _ =>
  (θ_run Cert.Kernel.defs _ _).mono (fun _ h c => (h c).2) (Cert.Kernel.Hyper.kernel_run (F := Bits) m ρ)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, Cert.Proof.Claims.frame_pi, Cert.Proof.Claims.frame_ri, Cert.Proof.Claims.preserves, Cert.Proof.Claims.algebraic⟩

end Cert.Proof

end
